-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S100000 : Shape := ⟨1, ![100000]⟩
abbrev S512 : Shape := ⟨1, ![512]⟩
abbrev S64x96 : Shape := ⟨2, ![64, 96]⟩
abbrev S96 : Shape := ⟨1, ![96]⟩
abbrev S3x96x96 : Shape := ⟨3, ![3, 96, 96]⟩
abbrev S3x96 : Shape := ⟨2, ![3, 96]⟩
abbrev S96x96 : Shape := ⟨2, ![96, 96]⟩
abbrev S96x1 : Shape := ⟨2, ![96, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_
  bcast_S_S96x96 : S_.BroadcastsInDim S96x96 (![] : Fin 0 → Fin S96x96.rank)
  reducesTo_S96x96_S_d0_1 : S96x96.ReducesTo [0, 1] S_
  bcast_S_S96x1 : S_.BroadcastsInDim S96x1 (![] : Fin 0 → Fin S96x1.rank)
  reducesTo_S96x1_S_d0_1 : S96x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_
  bcast_S_S512 : S_.BroadcastsInDim S512 (![] : Fin 0 → Fin S512.rank)
  reducesTo_S512_S_d0 : S512.ReducesTo [0] S_

variable [Facts]

def fn_part4 {F : FTy → Type} [FloatOps F] (main_arg3 : IVec S512 32) (main_v58 : IVec S_ 1) (main_v68 : IVec S_ 1) : IVec S_ 1 :=
  let main_v69 : IVec S_ 1 := andi main_v58 main_v68
  let main_c_25 : IVec S_ 32 := constantI S_ 32 0#32
  let main_v70 : IVec S512 32 := broadcastInDim S512 ![] bcast_S_S512 main_c_25
  let main_v71 : IVec S512 1 := cmpi .sge main_arg3 main_v70
  let main_c_26 : IVec S_ 32 := constantI S_ 32 100000#32
  let main_v72 : IVec S512 32 := broadcastInDim S512 ![] bcast_S_S512 main_c_26
  let main_v73 : IVec S512 1 := cmpi .slt main_arg3 main_v72
  let main_v74 : IVec S512 1 := andi main_v71 main_v73
  let main_c_27 : IVec S_ 1 := constantI S_ 1 1#1
  let main_v75 : IVec S_ 1 := (fun x v => Host.reduce IntOp.andi x v reducesTo_S512_S_d0 h_S_) main_v74 main_c_27
  let main_v76 : IVec S_ 1 := andi main_v69 main_v75
  main_v76

def fn_part3 {F : FTy → Type} [FloatOps F] (main_arg1 : IVec S2x800000 32) (main_arg3 : IVec S512 32) (main_arg14 : FVec F S1 .f32) (main_v48 : IVec S_ 1) (main_v49 : FVec F S96x1 .f32) (main_v50 : FVec F S96x1 .f32) : IVec S_ 1 :=
  let main_v51 : IVec S96x1 1 := cmpf .olt main_v49 main_v50
  let main_c_19 : IVec S_ 1 := constantI S_ 1 1#1
  let main_v52 : IVec S_ 1 := (fun x v => Host.reduce IntOp.andi x v reducesTo_S96x1_S_d0_1 h_S_) main_v51 main_c_19
  let main_v53 : IVec S_ 1 := andi main_v48 main_v52
  let main_v54 : FVec F S1 .f32 := Host.absf main_arg14
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : IVec S1x800000 32 := (extractStridedSlice S1x800000 ![0, 0] · slices_S2x800000_S1x800000_0_0) main_arg1
  let main_v60 : IVec S800000 32 := shapeCast S800000 main_v59 shapeCasts_S1x800000_S800000
  let main_c_22 : IVec S_ 32 := constantI S_ 32 0#32
  let main_v61 : IVec S800000 32 := broadcastInDim S800000 ![] bcast_S_S800000 main_c_22
  let main_v62 : IVec S800000 1 := cmpi .sge main_v60 main_v61
  let main_v63 : IVec S1x800000 32 := (extractStridedSlice S1x800000 ![0, 0] · slices_S2x800000_S1x800000_0_0) main_arg1
  let main_v64 : IVec S800000 32 := shapeCast S800000 main_v63 shapeCasts_S1x800000_S800000
  let main_c_23 : IVec S_ 32 := constantI S_ 32 100000#32
  let main_v65 : IVec S800000 32 := broadcastInDim S800000 ![] bcast_S_S800000 main_c_23
  let main_v66 : IVec S800000 1 := cmpi .slt main_v64 main_v65
  let main_v67 : IVec S800000 1 := andi main_v62 main_v66
  let main_c_24 : IVec S_ 1 := constantI S_ 1 1#1
  let main_v68 : IVec S_ 1 := (fun x v => Host.reduce IntOp.andi x v reducesTo_S800000_S_d0 h_S_) main_v67 main_c_24
  fn_part4 (F := F) main_arg3 main_v58 main_v68

def fn_part2 {F : FTy → Type} [FloatOps F] (main_arg1 : IVec S2x800000 32) (main_arg3 : IVec S512 32) (main_arg10 : FVec F S3x96 .f32) (main_arg11 : FVec F S96x96 .f32) (main_arg12 : FVec F S96 .f32) (main_arg13 : FVec F S96x1 .f32) (main_arg14 : FVec F S1 .f32) (main_v33 : IVec S_ 1) : IVec S_ 1 :=
  let main_v34 : FVec F S3x96 .f32 := Host.absf main_arg10
  let main_cst_12 : FVec F S_ .f32 := constant S_ .f32 0x7F800000#32
  let main_v35 : FVec F S3x96 .f32 := broadcastInDim S3x96 ![] bcast_S_S3x96 main_cst_12
  let main_v36 : IVec S3x96 1 := cmpf .olt main_v34 main_v35
  let main_c_13 : IVec S_ 1 := constantI S_ 1 1#1
  let main_v37 : IVec S_ 1 := (fun x v => Host.reduce IntOp.andi x v reducesTo_S3x96_S_d0_1 h_S_) main_v36 main_c_13
  let main_v38 : IVec S_ 1 := andi main_v33 main_v37
  let main_v39 : FVec F S96x96 .f32 := Host.absf main_arg11
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg12
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96x1 .f32 := Host.absf main_arg13
  let main_cst_18 : FVec F S_ .f32 := constant S_ .f32 0x7F800000#32
  let main_v50 : FVec F S96x1 .f32 := broadcastInDim S96x1 ![] bcast_S_S96x1 main_cst_18
  fn_part3 (F := F) main_arg1 main_arg3 main_arg14 main_v48 main_v49 main_v50

def fn_part1 {F : FTy → Type} [FloatOps F] (main_arg1 : IVec S2x800000 32) (main_arg3 : IVec S512 32) (main_arg7 : FVec F S3x96 .f32) (main_arg8 : FVec F S3x96x96 .f32) (main_arg9 : FVec F S3x96 .f32) (main_arg10 : FVec F S3x96 .f32) (main_arg11 : FVec F S96x96 .f32) (main_arg12 : FVec F S96 .f32) (main_arg13 : FVec F S96x1 .f32) (main_arg14 : FVec F S1 .f32) (main_v13 : IVec S_ 1) (main_v16 : IVec S3x96x96 1) : IVec S_ 1 :=
  let main_c_5 : IVec S_ 1 := constantI S_ 1 1#1
  let main_v17 : IVec S_ 1 := (fun x v => Host.reduce IntOp.andi x v reducesTo_S3x96x96_S_d0_1_2 h_S_) main_v16 main_c_5
  let main_v18 : IVec S_ 1 := andi main_v13 main_v17
  let main_v19 : FVec F S3x96 .f32 := Host.absf main_arg7
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S3x96x96 .f32 := Host.absf main_arg8
  let main_cst_8 : FVec F S_ .f32 := constant S_ .f32 0x7F800000#32
  let main_v25 : FVec F S3x96x96 .f32 := broadcastInDim S3x96x96 ![] bcast_S_S3x96x96 main_cst_8
  let main_v26 : IVec S3x96x96 1 := cmpf .olt main_v24 main_v25
  let main_c_9 : IVec S_ 1 := constantI S_ 1 1#1
  let main_v27 : IVec S_ 1 := (fun x v => Host.reduce IntOp.andi x v reducesTo_S3x96x96_S_d0_1_2 h_S_) main_v26 main_c_9
  let main_v28 : IVec S_ 1 := andi main_v23 main_v27
  let main_v29 : FVec F S3x96 .f32 := Host.absf main_arg9
  let main_cst_10 : FVec F S_ .f32 := constant S_ .f32 0x7F800000#32
  let main_v30 : FVec F S3x96 .f32 := broadcastInDim S3x96 ![] bcast_S_S3x96 main_cst_10
  let main_v31 : IVec S3x96 1 := cmpf .olt main_v29 main_v30
  let main_c_11 : IVec S_ 1 := constantI S_ 1 1#1
  let main_v32 : IVec S_ 1 := (fun x v => Host.reduce IntOp.andi x v reducesTo_S3x96_S_d0_1 h_S_) main_v31 main_c_11
  let main_v33 : IVec S_ 1 := andi main_v28 main_v32
  fn_part2 (F := F) main_arg1 main_arg3 main_arg10 main_arg11 main_arg12 main_arg13 main_arg14 main_v33

def fn {F : FTy → Type} [FloatOps F] (main_arg0 : FVec F S100000x64 .f32) (main_arg1 : IVec S2x800000 32) (main_arg2 : IVec S100000 32) (main_arg3 : IVec S512 32) (main_arg4 : FVec F S64x96 .f32) (main_arg5 : FVec F S96 .f32) (main_arg6 : FVec F S3x96x96 .f32) (main_arg7 : FVec F S3x96 .f32) (main_arg8 : FVec F S3x96x96 .f32) (main_arg9 : FVec F S3x96 .f32) (main_arg10 : FVec F S3x96 .f32) (main_arg11 : FVec F S96x96 .f32) (main_arg12 : FVec F S96 .f32) (main_arg13 : FVec F S96x1 .f32) (main_arg14 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x96 .f32 := Host.absf main_arg4
  let main_cst_0 : FVec F S_ .f32 := constant S_ .f32 0x7F800000#32
  let main_v5 : FVec F S64x96 .f32 := broadcastInDim S64x96 ![] bcast_S_S64x96 main_cst_0
  let main_v6 : IVec S64x96 1 := cmpf .olt main_v4 main_v5
  let main_c_1 : IVec S_ 1 := constantI S_ 1 1#1
  let main_v7 : IVec S_ 1 := (fun x v => Host.reduce IntOp.andi x v reducesTo_S64x96_S_d0_1 h_S_) main_v6 main_c_1
  let main_v8 : IVec S_ 1 := andi main_v3 main_v7
  let main_v9 : FVec F S96 .f32 := Host.absf main_arg5
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S3x96x96 .f32 := Host.absf main_arg6
  let main_cst_4 : FVec F S_ .f32 := constant S_ .f32 0x7F800000#32
  let main_v15 : FVec F S3x96x96 .f32 := broadcastInDim S3x96x96 ![] bcast_S_S3x96x96 main_cst_4
  let main_v16 : IVec S3x96x96 1 := cmpf .olt main_v14 main_v15
  fn_part1 (F := F) main_arg1 main_arg3 main_arg7 main_arg8 main_arg9 main_arg10 main_arg11 main_arg12 main_arg13 main_arg14 main_v13 main_v16
-- ==== Kernel.lean ====
abbrev S100000x64 : Shape := ⟨2, ![100000, 64]⟩
abbrev S2x800000 : Shape := ⟨2, ![2, 800000]⟩
abbrev S100000 : Shape := ⟨1, ![100000]⟩
abbrev S512 : Shape := ⟨1, ![512]⟩
abbrev S64x96 : Shape := ⟨2, ![64, 96]⟩
abbrev S96 : Shape := ⟨1, ![96]⟩
abbrev S3x96x96 : Shape := ⟨3, ![3, 96, 96]⟩
abbrev S3x96 : Shape := ⟨2, ![3, 96]⟩
abbrev S96x96 : Shape := ⟨2, ![96, 96]⟩
abbrev S96x1 : Shape := ⟨2, ![96, 1]⟩
abbrev S1 : Shape := ⟨1, ![1]⟩
abbrev S1x800000 : Shape := ⟨2, ![1, 800000]⟩
abbrev S800000 : Shape := ⟨1, ![800000]⟩
abbrev S1x96 : Shape := ⟨2, ![1, 96]⟩
abbrev S100000x96 : Shape := ⟨2, ![100000, 96]⟩
abbrev S5000x64 : Shape := ⟨2, ![5000, 64]⟩
abbrev S5000x96 : Shape := ⟨2, ![5000, 96]⟩
abbrev S_ : Shape := ⟨0, ![]⟩
abbrev S800000x1 : Shape := ⟨2, ![800000, 1]⟩
abbrev S100000x1 : Shape := ⟨2, ![100000, 1]⟩
abbrev S1x1 : Shape := ⟨2, ![1, 1]⟩
abbrev S800000x96 : Shape := ⟨2, ![800000, 96]⟩
abbrev S1x96x96 : Shape := ⟨3, ![1, 96, 96]⟩
abbrev S5000x1 : Shape := ⟨2, ![5000, 1]⟩
abbrev S512x1 : Shape := ⟨2, ![512, 1]⟩
abbrev S512x96 : Shape := ⟨2, ![512, 96]⟩

abbrev nBuf : Space → Nat
  | .hbm => 237
  | .vmem => 81
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S512, .i32⟩
  | 4 => ⟨S64x96, .f32⟩
  | 5 => ⟨S96, .f32⟩
  | 6 => ⟨S3x96x96, .f32⟩
  | 7 => ⟨S3x96, .f32⟩
  | 8 => ⟨S3x96x96, .f32⟩
  | 9 => ⟨S3x96, .f32⟩
  | 10 => ⟨S3x96, .f32⟩
  | 11 => ⟨S96x96, .f32⟩
  | 12 => ⟨S96, .f32⟩
  | 13 => ⟨S96x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S1x96, .f32⟩
  | 20 => ⟨S100000x96, .f32⟩
  | 21 => ⟨S_, .f32⟩
  | 22 => ⟨S800000, .f32⟩
  | 23 => ⟨S_, .f32⟩
  | 24 => ⟨S100000, .f32⟩
  | 25 => ⟨S800000x1, .i32⟩
  | 26 => ⟨S100000, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000x1, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S1, .i32⟩
  | 43 => ⟨S_, .i32⟩
  | 44 => ⟨S800000x1, .i32⟩
  | 45 => ⟨S800000x1, .i1⟩
  | 46 => ⟨S1x1, .i32⟩
  | 47 => ⟨S800000x1, .i32⟩
  | 48 => ⟨S800000x1, .i1⟩
  | 49 => ⟨S800000x1, .i1⟩
  | 50 => ⟨S_, .i1⟩
  | 51 => ⟨S800000, .i1⟩
  | 52 => ⟨S800000x96, .f32⟩
  | 53 => ⟨S800000x96, .i1⟩
  | 54 => ⟨S_, .f32⟩
  | 55 => ⟨S800000x96, .f32⟩
  | 56 => ⟨S800000x96, .f32⟩
  | 57 => ⟨S_, .f32⟩
  | 58 => ⟨S100000x96, .f32⟩
  | 59 => ⟨S800000x1, .i32⟩
  | 60 => ⟨S100000x96, .f32⟩
  | 61 => ⟨S1x96x96, .f32⟩
  | 62 => ⟨S96x96, .f32⟩
  | 63 => ⟨S1x96, .f32⟩
  | 64 => ⟨S96, .f32⟩
  | 65 => ⟨S1x96x96, .f32⟩
  | 66 => ⟨S96x96, .f32⟩
  | 67 => ⟨S1x96, .f32⟩
  | 68 => ⟨S100000x96, .f32⟩
  | 69 => ⟨S1x96, .f32⟩
  | 70 => ⟨S1x96, .f32⟩
  | 71 => ⟨S96, .f32⟩
  | 72 => ⟨S_, .f32⟩
  | 73 => ⟨S96, .f32⟩
  | 74 => ⟨S96, .f32⟩
  | 75 => ⟨S96, .f32⟩
  | 76 => ⟨S_, .f32⟩
  | 77 => ⟨S96, .f32⟩
  | 78 => ⟨S96, .f32⟩
  | 79 => ⟨S96, .f32⟩
  | 80 => ⟨S96, .f32⟩
  | 81 => ⟨S_, .f32⟩
  | 82 => ⟨S96, .f32⟩
  | 83 => ⟨S96, .f32⟩
  | 84 => ⟨S1x96, .f32⟩
  | 85 => ⟨S96, .f32⟩
  | 86 => ⟨S1x96, .f32⟩
  | 87 => ⟨S96, .f32⟩
  | 88 => ⟨S1x96, .f32⟩
  | 89 => ⟨S1x96, .f32⟩
  | 90 => ⟨S1x96, .f32⟩
  | 91 => ⟨S1x96, .f32⟩
  | 92 => ⟨S100000x96, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S1, .i32⟩
  | 102 => ⟨S_, .i32⟩
  | 103 => ⟨S800000x1, .i32⟩
  | 104 => ⟨S800000x1, .i1⟩
  | 105 => ⟨S1x1, .i32⟩
  | 106 => ⟨S800000x1, .i32⟩
  | 107 => ⟨S800000x1, .i1⟩
  | 108 => ⟨S800000x1, .i1⟩
  | 109 => ⟨S_, .i1⟩
  | 110 => ⟨S800000, .i1⟩
  | 111 => ⟨S800000x96, .f32⟩
  | 112 => ⟨S800000x96, .i1⟩
  | 113 => ⟨S_, .f32⟩
  | 114 => ⟨S800000x96, .f32⟩
  | 115 => ⟨S800000x96, .f32⟩
  | 116 => ⟨S_, .f32⟩
  | 117 => ⟨S100000x96, .f32⟩
  | 118 => ⟨S800000x1, .i32⟩
  | 119 => ⟨S100000x96, .f32⟩
  | 120 => ⟨S1x96x96, .f32⟩
  | 121 => ⟨S96x96, .f32⟩
  | 122 => ⟨S1x96, .f32⟩
  | 123 => ⟨S96, .f32⟩
  | 124 => ⟨S1x96x96, .f32⟩
  | 125 => ⟨S96x96, .f32⟩
  | 126 => ⟨S1x96, .f32⟩
  | 127 => ⟨S100000x96, .f32⟩
  | _ => ⟨S100000x64, .f32⟩

abbrev hbmTy0_1 (i : Nat) : BufTy := match i % 128 with
  | 0 => ⟨S1x96, .f32⟩
  | 1 => ⟨S1x96, .f32⟩
  | 2 => ⟨S96, .f32⟩
  | 3 => ⟨S_, .f32⟩
  | 4 => ⟨S96, .f32⟩
  | 5 => ⟨S96, .f32⟩
  | 6 => ⟨S96, .f32⟩
  | 7 => ⟨S_, .f32⟩
  | 8 => ⟨S96, .f32⟩
  | 9 => ⟨S96, .f32⟩
  | 10 => ⟨S96, .f32⟩
  | 11 => ⟨S96, .f32⟩
  | 12 => ⟨S_, .f32⟩
  | 13 => ⟨S96, .f32⟩
  | 14 => ⟨S96, .f32⟩
  | 15 => ⟨S1x96, .f32⟩
  | 16 => ⟨S96, .f32⟩
  | 17 => ⟨S1x96, .f32⟩
  | 18 => ⟨S96, .f32⟩
  | 19 => ⟨S1x96, .f32⟩
  | 20 => ⟨S1x96, .f32⟩
  | 21 => ⟨S1x96, .f32⟩
  | 22 => ⟨S1x96, .f32⟩
  | 23 => ⟨S100000x96, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S1, .i32⟩
  | 33 => ⟨S_, .i32⟩
  | 34 => ⟨S800000x1, .i32⟩
  | 35 => ⟨S800000x1, .i1⟩
  | 36 => ⟨S1x1, .i32⟩
  | 37 => ⟨S800000x1, .i32⟩
  | 38 => ⟨S800000x1, .i1⟩
  | 39 => ⟨S800000x1, .i1⟩
  | 40 => ⟨S_, .i1⟩
  | 41 => ⟨S800000, .i1⟩
  | 42 => ⟨S800000x96, .f32⟩
  | 43 => ⟨S800000x96, .i1⟩
  | 44 => ⟨S_, .f32⟩
  | 45 => ⟨S800000x96, .f32⟩
  | 46 => ⟨S800000x96, .f32⟩
  | 47 => ⟨S_, .f32⟩
  | 48 => ⟨S100000x96, .f32⟩
  | 49 => ⟨S800000x1, .i32⟩
  | 50 => ⟨S100000x96, .f32⟩
  | 51 => ⟨S1x96x96, .f32⟩
  | 52 => ⟨S96x96, .f32⟩
  | 53 => ⟨S1x96, .f32⟩
  | 54 => ⟨S96, .f32⟩
  | 55 => ⟨S1x96x96, .f32⟩
  | 56 => ⟨S96x96, .f32⟩
  | 57 => ⟨S1x96, .f32⟩
  | 58 => ⟨S100000x96, .f32⟩
  | 59 => ⟨S1x96, .f32⟩
  | 60 => ⟨S1x96, .f32⟩
  | 61 => ⟨S96, .f32⟩
  | 62 => ⟨S_, .f32⟩
  | 63 => ⟨S96, .f32⟩
  | 64 => ⟨S96, .f32⟩
  | 65 => ⟨S96, .f32⟩
  | 66 => ⟨S_, .f32⟩
  | 67 => ⟨S96, .f32⟩
  | 68 => ⟨S96, .f32⟩
  | 69 => ⟨S96, .f32⟩
  | 70 => ⟨S96, .f32⟩
  | 71 => ⟨S_, .f32⟩
  | 72 => ⟨S96, .f32⟩
  | 73 => ⟨S96, .f32⟩
  | 74 => ⟨S1x96, .f32⟩
  | 75 => ⟨S96, .f32⟩
  | 76 => ⟨S1x96, .f32⟩
  | 77 => ⟨S96, .f32⟩
  | 78 => ⟨S1x96, .f32⟩
  | 79 => ⟨S1x96, .f32⟩
  | 80 => ⟨S1x96, .f32⟩
  | 81 => ⟨S1x96, .f32⟩
  | 82 => ⟨S100000x96, .f32⟩
  | 83 => ⟨S_, .i32⟩
  | 84 => ⟨S512, .i32⟩
  | 85 => ⟨S512, .i1⟩
  | 86 => ⟨S_, .i32⟩
  | 87 => ⟨S512, .i32⟩
  | 88 => ⟨S512, .i32⟩
  | 89 => ⟨S512, .i32⟩
  | 90 => ⟨S512x1, .i32⟩
  | 91 => ⟨S1, .i32⟩
  | 92 => ⟨S_, .i32⟩
  | 93 => ⟨S512x1, .i32⟩
  | 94 => ⟨S512x1, .i1⟩
  | 95 => ⟨S1x1, .i32⟩
  | 96 => ⟨S512x1, .i32⟩
  | 97 => ⟨S512x1, .i1⟩
  | 98 => ⟨S512x1, .i1⟩
  | 99 => ⟨S_, .i1⟩
  | 100 => ⟨S512, .i1⟩
  | 101 => ⟨S512x96, .f32⟩
  | 102 => ⟨S512x96, .i1⟩
  | 103 => ⟨S_, .f32⟩
  | 104 => ⟨S512x96, .f32⟩
  | 105 => ⟨S512x96, .f32⟩
  | 106 => ⟨S1x96, .f32⟩
  | 107 => ⟨S1x1, .f32⟩
  | 108 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x1, .f32⟩
  | .local _ .vmem, ⟨9, _⟩ => ⟨S5000x1, .f32⟩
  | .local _ .vmem, ⟨10, _⟩ => ⟨S5000x96, .f32⟩
  | .local _ .vmem, ⟨11, _⟩ => ⟨S5000x96, .f32⟩
  | .local _ .vmem, ⟨12, _⟩ => ⟨S96x96, .f32⟩
  | .local _ .vmem, ⟨13, _⟩ => ⟨S1x96, .f32⟩
  | .local _ .vmem, ⟨14, _⟩ => ⟨S96x96, .f32⟩
  | .local _ .vmem, ⟨15, _⟩ => ⟨S5000x96, .f32⟩
  | .local _ .vmem, ⟨16, _⟩ => ⟨S5000x96, .f32⟩
  | .local _ .vmem, ⟨17, _⟩ => ⟨S1x96, .f32⟩
  | .local _ .vmem, ⟨18, _⟩ => ⟨S1x96, .f32⟩
  | .local _ .vmem, ⟨19, _⟩ => ⟨S1x96, .f32⟩
  | .local _ .vmem, ⟨20, _⟩ => ⟨S1x96, .f32⟩
  | .local _ .vmem, ⟨21, _⟩ => ⟨S5000x96, .f32⟩
  | .local _ .vmem, ⟨22, _⟩ => ⟨S5000x96, .f32⟩
  | .local _ .vmem, ⟨23, _⟩ => ⟨S1x96, .f32⟩
  | .local _ .vmem, ⟨24, _⟩ => ⟨S1x96, .f32⟩
  | .local _ .vmem, ⟨25, _⟩ => ⟨S1x96, .f32⟩
  | .local _ .vmem, ⟨26, _⟩ => ⟨S1x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S5000x96, .f32⟩
  | .local _ .vmem, ⟨31, _⟩ => ⟨S5000x1, .f32⟩
  | .local _ .vmem, ⟨32, _⟩ => ⟨S5000x1, .f32⟩
  | .local _ .vmem, ⟨33, _⟩ => ⟨S5000x96, .f32⟩
  | .local _ .vmem, ⟨34, _⟩ => ⟨S5000x96, .f32⟩
  | .local _ .vmem, ⟨35, _⟩ => ⟨S96x96, .f32⟩
  | .local _ .vmem, ⟨36, _⟩ => ⟨S1x96, .f32⟩
  | .local _ .vmem, ⟨37, _⟩ => ⟨S96x96, .f32⟩
  | .local _ .vmem, ⟨38, _⟩ => ⟨S5000x96, .f32⟩
  | .local _ .vmem, ⟨39, _⟩ => ⟨S5000x96, .f32⟩
  | .local _ .vmem, ⟨40, _⟩ => ⟨S1x96, .f32⟩
  | .local _ .vmem, ⟨41, _⟩ => ⟨S1x96, .f32⟩
  | .local _ .vmem, ⟨42, _⟩ => ⟨S1x96, .f32⟩
  | .local _ .vmem, ⟨43, _⟩ => ⟨S1x96, .f32⟩
  | .local _ .vmem, ⟨44, _⟩ => ⟨S5000x96, .f32⟩
  | .local _ .vmem, ⟨45, _⟩ => ⟨S5000x96, .f32⟩
  | .local _ .vmem, ⟨46, _⟩ => ⟨S1x96, .f32⟩
  | .local _ .vmem, ⟨47, _⟩ => ⟨S1x96, .f32⟩
  | .local _ .vmem, ⟨48, _⟩ => ⟨S1x96, .f32⟩
  | .local _ .vmem, ⟨49, _⟩ => ⟨S1x96, .f32⟩
  | .local _ .vmem, ⟨50, _⟩ => ⟨S5000x96, .f32⟩
  | .local _ .vmem, ⟨51, _⟩ => ⟨S5000x96, .f32⟩
  | .local _ .vmem, ⟨52, _⟩ => ⟨S5000x96, .f32⟩
  | .local _ .vmem, ⟨53, _⟩ => ⟨S5000x96, .f32⟩
  | .local _ .vmem, ⟨54, _⟩ => ⟨S5000x1, .f32⟩
  | .local _ .vmem, ⟨55, _⟩ => ⟨S5000x1, .f32⟩
  | .local _ .vmem, ⟨56, _⟩ => ⟨S5000x96, .f32⟩
  | .local _ .vmem, ⟨57, _⟩ => ⟨S5000x96, .f32⟩
  | .local _ .vmem, ⟨58, _⟩ => ⟨S96x96, .f32⟩
  | .local _ .vmem, ⟨59, _⟩ => ⟨S1x96, .f32⟩
  | .local _ .vmem, ⟨60, _⟩ => ⟨S96x96, .f32⟩
  | .local _ .vmem, ⟨61, _⟩ => ⟨S5000x96, .f32⟩
  | .local _ .vmem, ⟨62, _⟩ => ⟨S5000x96, .f32⟩
  | .local _ .vmem, ⟨63, _⟩ => ⟨S1x96, .f32⟩
  | .local _ .vmem, ⟨64, _⟩ => ⟨S1x96, .f32⟩
  | .local _ .vmem, ⟨65, _⟩ => ⟨S1x96, .f32⟩
  | .local _ .vmem, ⟨66, _⟩ => ⟨S1x96, .f32⟩
  | .local _ .vmem, ⟨67, _⟩ => ⟨S5000x96, .f32⟩
  | .local _ .vmem, ⟨68, _⟩ => ⟨S5000x96, .f32⟩
  | .local _ .vmem, ⟨69, _⟩ => ⟨S1x96, .f32⟩
  | .local _ .vmem, ⟨70, _⟩ => ⟨S1x96, .f32⟩
  | .local _ .vmem, ⟨71, _⟩ => ⟨S1x96, .f32⟩
  | .local _ .vmem, ⟨72, _⟩ => ⟨S1x96, .f32⟩
  | .local _ .vmem, ⟨73, _⟩ => ⟨S5000x96, .f32⟩
  | .local _ .vmem, ⟨74, _⟩ => ⟨S5000x96, .f32⟩
  | .local _ .vmem, ⟨75, _⟩ => ⟨S512x96, .f32⟩
  | .local _ .vmem, ⟨76, _⟩ => ⟨S96x96, .f32⟩
  | .local _ .vmem, ⟨77, _⟩ => ⟨S1x96, .f32⟩
  | .local _ .vmem, ⟨78, _⟩ => ⟨S96x1, .f32⟩
  | .local _ .vmem, ⟨79, _⟩ => ⟨S1x1, .f32⟩
  | .local _ .vmem, ⟨80, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v15 : Ref sig .tc := ⟨.hbm, 56, rfl⟩
abbrev main_cst_3 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26_0 : Ref sig .tc := ⟨.hbm, 68, rfl⟩
abbrev main_v26_1 : Ref sig .tc := ⟨.hbm, 69, rfl⟩
abbrev main_v26_2 : Ref sig .tc := ⟨.hbm, 70, rfl⟩
abbrev main_v27 : Ref sig .tc := ⟨.hbm, 71, rfl⟩
abbrev main_cst_4 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_5 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_6 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_call1_c : Ref sig .tc := ⟨.hbm, 93, rfl⟩
abbrev main_call1_v0 : Ref sig .tc := ⟨.hbm, 94, rfl⟩
abbrev main_call1_v1 : Ref sig .tc := ⟨.hbm, 95, rfl⟩
abbrev main_call1_c_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_c_1 : Ref sig .tc := ⟨.hbm, 101, rfl⟩
abbrev main_call1_c_2 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_3 : Ref sig .tc := ⟨.hbm, 109, rfl⟩
abbrev main_call1_v12 : Ref sig .tc := ⟨.hbm, 110, rfl⟩
abbrev main_call1_v13 : Ref sig .tc := ⟨.hbm, 111, rfl⟩
abbrev main_call1_v14 : Ref sig .tc := ⟨.hbm, 112, rfl⟩
abbrev main_call1_cst : Ref sig .tc := ⟨.hbm, 113, rfl⟩
abbrev main_call1_v15 : Ref sig .tc := ⟨.hbm, 114, rfl⟩
abbrev main_v46 : Ref sig .tc := ⟨.hbm, 115, rfl⟩
abbrev main_cst_7 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57_0 : Ref sig .tc := ⟨.hbm, 127, rfl⟩
abbrev main_v57_1 : Ref sig .tc := ⟨.hbm, 128, rfl⟩
abbrev main_v57_2 : Ref sig .tc := ⟨.hbm, 129, rfl⟩
abbrev main_v58 : Ref sig .tc := ⟨.hbm, 130, rfl⟩
abbrev main_cst_8 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_9 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_cst_10 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_call2_c : Ref sig .tc := ⟨.hbm, 152, rfl⟩
abbrev main_call2_v0 : Ref sig .tc := ⟨.hbm, 153, rfl⟩
abbrev main_call2_v1 : Ref sig .tc := ⟨.hbm, 154, rfl⟩
abbrev main_call2_c_0 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_c_1 : Ref sig .tc := ⟨.hbm, 160, rfl⟩
abbrev main_call2_c_2 : Ref sig .tc := ⟨.hbm, 161, rfl⟩
abbrev main_call2_v6 : Ref sig .tc := ⟨.hbm, 162, rfl⟩
abbrev main_call2_v7 : Ref sig .tc := ⟨.hbm, 163, rfl⟩
abbrev main_call2_v8 : Ref sig .tc := ⟨.hbm, 164, rfl⟩
abbrev main_call2_v9 : Ref sig .tc := ⟨.hbm, 165, rfl⟩
abbrev main_call2_v10 : Ref sig .tc := ⟨.hbm, 166, rfl⟩
abbrev main_call2_v11 : Ref sig .tc := ⟨.hbm, 167, rfl⟩
abbrev main_call2_c_3 : Ref sig .tc := ⟨.hbm, 168, rfl⟩
abbrev main_call2_v12 : Ref sig .tc := ⟨.hbm, 169, rfl⟩
abbrev main_call2_v13 : Ref sig .tc := ⟨.hbm, 170, rfl⟩
abbrev main_call2_v14 : Ref sig .tc := ⟨.hbm, 171, rfl⟩
abbrev main_call2_cst : Ref sig .tc := ⟨.hbm, 172, rfl⟩
abbrev main_call2_v15 : Ref sig .tc := ⟨.hbm, 173, rfl⟩
abbrev main_v77 : Ref sig .tc := ⟨.hbm, 174, rfl⟩
abbrev main_cst_11 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88_0 : Ref sig .tc := ⟨.hbm, 186, rfl⟩
abbrev main_v88_1 : Ref sig .tc := ⟨.hbm, 187, rfl⟩
abbrev main_v88_2 : Ref sig .tc := ⟨.hbm, 188, rfl⟩
abbrev main_v89 : Ref sig .tc := ⟨.hbm, 189, rfl⟩
abbrev main_cst_12 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_cst_13 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_cst_14 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_call3_c : Ref sig .tc := ⟨.hbm, 211, rfl⟩
abbrev main_call3_v0 : Ref sig .tc := ⟨.hbm, 212, rfl⟩
abbrev main_call3_v1 : Ref sig .tc := ⟨.hbm, 213, rfl⟩
abbrev main_call3_c_0 : Ref sig .tc := ⟨.hbm, 214, rfl⟩
abbrev main_call3_v2 : Ref sig .tc := ⟨.hbm, 215, rfl⟩
abbrev main_call3_v3 : Ref sig .tc := ⟨.hbm, 216, rfl⟩
abbrev main_call3_v4 : Ref sig .tc := ⟨.hbm, 217, rfl⟩
abbrev main_call3_v5 : Ref sig .tc := ⟨.hbm, 218, rfl⟩
abbrev main_call3_c_1 : Ref sig .tc := ⟨.hbm, 219, rfl⟩
abbrev main_call3_c_2 : Ref sig .tc := ⟨.hbm, 220, rfl⟩
abbrev main_call3_v6 : Ref sig .tc := ⟨.hbm, 221, rfl⟩
abbrev main_call3_v7 : Ref sig .tc := ⟨.hbm, 222, rfl⟩
abbrev main_call3_v8 : Ref sig .tc := ⟨.hbm, 223, rfl⟩
abbrev main_call3_v9 : Ref sig .tc := ⟨.hbm, 224, rfl⟩
abbrev main_call3_v10 : Ref sig .tc := ⟨.hbm, 225, rfl⟩
abbrev main_call3_v11 : Ref sig .tc := ⟨.hbm, 226, rfl⟩
abbrev main_call3_c_3 : Ref sig .tc := ⟨.hbm, 227, rfl⟩
abbrev main_call3_v12 : Ref sig .tc := ⟨.hbm, 228, rfl⟩
abbrev main_call3_v13 : Ref sig .tc := ⟨.hbm, 229, rfl⟩
abbrev main_call3_v14 : Ref sig .tc := ⟨.hbm, 230, rfl⟩
abbrev main_call3_cst : Ref sig .tc := ⟨.hbm, 231, rfl⟩
abbrev main_call3_v15 : Ref sig .tc := ⟨.hbm, 232, rfl⟩
abbrev main_v108 : Ref sig .tc := ⟨.hbm, 233, rfl⟩
abbrev main_v109 : Ref sig .tc := ⟨.hbm, 234, rfl⟩
abbrev main_v110 : Ref sig .tc := ⟨.hbm, 235, rfl⟩
abbrev main_v111 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg8_0 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg8_0 : Ref sig .tc := ⟨.vmem, 41, rfl⟩
abbrev cc3_scratch0 : Ref sig .tc := ⟨.vmem, 42, rfl⟩
abbrev cc3_scratch1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg6_1 : Ref sig .tc := ⟨.vmem, 62, rfl⟩
abbrev cc5_stg7_0 : Ref sig .tc := ⟨.vmem, 63, rfl⟩
abbrev cc5_stg8_0 : Ref sig .tc := ⟨.vmem, 64, rfl⟩
abbrev cc5_scratch0 : Ref sig .tc := ⟨.vmem, 65, rfl⟩
abbrev cc5_scratch1 : Ref sig .tc := ⟨.vmem, 66, rfl⟩
abbrev cc6_stg0_0 : Ref sig .tc := ⟨.vmem, 67, rfl⟩
abbrev cc6_stg0_1 : Ref sig .tc := ⟨.vmem, 68, rfl⟩
abbrev cc6_stg1_0 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg5_1 : Ref sig .tc := ⟨.vmem, 74, rfl⟩
abbrev cc7_stg0_0 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg3_0 : Ref sig .tc := ⟨.vmem, 78, rfl⟩
abbrev cc7_stg4_0 : Ref sig .tc := ⟨.vmem, 79, rfl⟩
abbrev cc7_stg5_0 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem8_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc3_sem7_0 : DmaSem sig := 38
abbrev cc3_sem8_0 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem2_1 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem6_1 : DmaSem sig := 58
abbrev cc5_sem7_0 : DmaSem sig := 59
abbrev cc5_sem8_0 : DmaSem sig := 60
abbrev cc6_sem0_0 : DmaSem sig := 61
abbrev cc6_sem0_1 : DmaSem sig := 62
abbrev cc6_sem1_0 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem5_1 : DmaSem sig := 68
abbrev cc7_sem0_0 : DmaSem sig := 69
abbrev cc7_sem1_0 : DmaSem sig := 70
abbrev cc7_sem2_0 : DmaSem sig := 71
abbrev cc7_sem3_0 : DmaSem sig := 72
abbrev cc7_sem4_0 : DmaSem sig := 73
abbrev cc7_sem5_0 : DmaSem sig := 74

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v48 : BitVec 1 := Scalar.cmpi .eq arg0 c19_i32
  let v49 : BitVec 32 := Scalar.extui v48
  let c0_i32_25 : BitVec 32 := 0#32
  let v50 : BitVec 1 := Scalar.cmpi .ne v49 c0_i32_25
  v50

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x96 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v48 : BitVec 1 := Scalar.cmpi .eq arg0 c19_i32
  let v49 : BitVec 32 := Scalar.extui v48
  let c0_i32_25 : BitVec 32 := 0#32
  let v50 : BitVec 1 := Scalar.cmpi .ne v49 c0_i32_25
  v50

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S96x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S96x96 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x96 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x96 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x96 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x96 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def k5_cond2 (i : grid5.Coords) : BitVec 1 :=
  let arg0 : BitVec 32 := BitVec.ofNat 32 (i 0).val
  let c19_i32 : BitVec 32 := 19#32
  let v48 : BitVec 1 := Scalar.cmpi .eq arg0 c19_i32
  let v49 : BitVec 32 := Scalar.extui v48
  let c0_i32_25 : BitVec 32 := 0#32
  let v50 : BitVec 1 := Scalar.cmpi .ne v49 c0_i32_25
  v50

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x96 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S96x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x96 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S96x96 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x96 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S1x96 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x96 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x96 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x96 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x96 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S96x96 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x96 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S96x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S96_S1x96 : S96.ShapeCasts S1x96
  inb_S5000x64_S5000x64_0_0 : ∀ a, (![0, 0] : Fin 2 → Nat) a + S5000x64.size a ≤ S5000x64.size a
  h_S5000x64 : 0 < S5000x64.numel
  inb_S64x96_S64x96_0_0 : ∀ a, (![0, 0] : Fin 2 → Nat) a + S64x96.size a ≤ S64x96.size a
  h_S64x96 : 0 < S64x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  bcast_S_S100000x96 : S_.BroadcastsInDim S100000x96 (![] : Fin 0 → Fin S100000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  iota_S5000x1_d0_w32 : S5000x1.Iotas .tc 32 [0]
  natLt_1_32 : 1 < 32
  reduces_S5000x96_S96 : S5000x96.Reduces [0] S96
  bcast_S_S96 : S_.BroadcastsInDim S96 (![] : Fin 0 → Fin S96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1x1_S512x1_0_1 : S1x1.BroadcastsInDim S512x1 (![0, 1] : Fin 2 → Fin S512x1.rank)
  reducesTo_S512x1_S512_d1 : S512x1.ReducesTo [1] S512
  bcast_S512_S512x96_0 : S512.BroadcastsInDim S512x96 (![0] : Fin 1 → Fin S512x96.rank)
  bcast_S_S512x96 : S_.BroadcastsInDim S512x96 (![] : Fin 0 → Fin S512x96.rank)
  shapeCasts_S1_S1x1 : S1.ShapeCasts S1x1
  inb_S512x96_S512x96_0_0 : ∀ a, (![0, 0] : Fin 2 → Nat) a + S512x96.size a ≤ S512x96.size a
  h_S512x96 : 0 < S512x96.numel
  shapeCasts_S512x96_S512x96 : S512x96.ShapeCasts S512x96
  broadcasts_S1x96_S512x96 : S1x96.Broadcasts S512x96
  inb_S96x1_S96x1_0_0 : ∀ a, (![0, 0] : Fin 2 → Nat) a + S96x1.size a ≤ S96x1.size a
  h_S96x1 : 0 < S96x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S5000x64_S64x96_S5000x96_1_0_0_1_n_n_wf : DotDims.WF S5000x64 S64x96 S5000x96 [1] [0] [0] [1] [] []
  scatter_S100000_S800000x1_S800000_n_0_0_1_wf : ScatterDims.WF S100000 S800000x1 S800000 [] [0] [0] 1
  gather_S100000x96_S800000x1_S800000x96_1_0_n_n_0_1_196_wf : GatherDims.WF S100000x96 S800000x1 S800000x96 [1] [0] [] [0] [] 1 ![1, 96]
  scatter_S100000x96_S800000x1_S800000x96_1_0_0_1_wf : ScatterDims.WF S100000x96 S800000x1 S800000x96 [1] [0] [0] 1
  dot_S5000x96_S96x96_S5000x96_1_0_0_1_n_n_wf : DotDims.WF S5000x96 S96x96 S5000x96 [1] [0] [0] [1] [] []
  gather_S100000x96_S512x1_S512x96_1_0_n_n_0_1_196_wf : GatherDims.WF S100000x96 S512x1 S512x96 [1] [0] [] [0] [] 1 ![1, 96]
  dot_S512x96_S96x96_S512x96_1_0_0_1_n_n_wf : DotDims.WF S512x96 S96x96 S512x96 [1] [0] [0] [1] [] []
  dot_S512x96_S96x1_S512x1_1_0_0_1_n_n_wf : DotDims.WF S512x96 S96x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S100000x96.size a
  hwx0_3 : ∀ i : grid0.Coords, EltTy.bits .f32 = 32 ∨ (Rect.block (s := S100000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S100000x96.size a
  hwx1_0 : ∀ i : grid1.Coords, EltTy.bits .f32 = 32 ∨ (Rect.block (s := S100000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S100000x96.size a
  hwx1_2 : ∀ i : grid1.Coords, EltTy.bits .f32 = 32 ∨ (Rect.block (s := S100000x96) S5000x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x96.size a ≤ S96x96.size a
  hwx1_5 : ∀ i : grid1.Coords, EltTy.bits .f32 = 32 ∨ (Rect.block (s := S96x96) S96x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S100000x96.size a
  hwx1_6 : ∀ i : grid1.Coords, EltTy.bits .f32 = 32 ∨ (Rect.block (s := S100000x96) S5000x96.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x96.size a ≤ S1x96.size a
  hwx1_7 : ∀ i : grid1.Coords, EltTy.bits .f32 = 32 ∨ (Rect.block (s := S1x96) S1x96.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x96.size a ≤ S1x96.size a
  hwx1_8 : ∀ i : grid1.Coords, EltTy.bits .f32 = 32 ∨ (Rect.block (s := S1x96) S1x96.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S100000x96.size a
  hwx2_0 : ∀ i : grid2.Coords, EltTy.bits .f32 = 32 ∨ (Rect.block (s := S100000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S100000x96.size a
  hwx2_5 : ∀ i : grid2.Coords, EltTy.bits .f32 = 32 ∨ (Rect.block (s := S100000x96) S5000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S100000x96.size a
  hwx3_0 : ∀ i : grid3.Coords, EltTy.bits .f32 = 32 ∨ (Rect.block (s := S100000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x96.size a ≤ S100000x96.size a
  hwx3_2 : ∀ i : grid3.Coords, EltTy.bits .f32 = 32 ∨ (Rect.block (s := S100000x96) S5000x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S96x96.size a ≤ S96x96.size a
  hwx3_3 : ∀ i : grid3.Coords, EltTy.bits .f32 = 32 ∨ (Rect.block (s := S96x96) S96x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x96.size a ≤ S1x96.size a
  hwx3_4 : ∀ i : grid3.Coords, EltTy.bits .f32 = 32 ∨ (Rect.block (s := S1x96) S1x96.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S96x96.size a ≤ S96x96.size a
  hwx3_5 : ∀ i : grid3.Coords, EltTy.bits .f32 = 32 ∨ (Rect.block (s := S96x96) S96x96.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x96.size a ≤ S100000x96.size a
  hwx3_6 : ∀ i : grid3.Coords, EltTy.bits .f32 = 32 ∨ (Rect.block (s := S100000x96) S5000x96.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x96.size a ≤ S1x96.size a
  hwx3_7 : ∀ i : grid3.Coords, EltTy.bits .f32 = 32 ∨ (Rect.block (s := S1x96) S1x96.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x96.size a ≤ S1x96.size a
  hwx3_8 : ∀ i : grid3.Coords, EltTy.bits .f32 = 32 ∨ (Rect.block (s := S1x96) S1x96.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S100000x96.size a
  hwx4_0 : ∀ i : grid4.Coords, EltTy.bits .f32 = 32 ∨ (Rect.block (s := S100000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x96.size a ≤ S1x96.size a
  hwx4_1 : ∀ i : grid4.Coords, EltTy.bits .f32 = 32 ∨ (Rect.block (s := S1x96) S1x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x96.size a ≤ S1x96.size a
  hwx4_3 : ∀ i : grid4.Coords, EltTy.bits .f32 = 32 ∨ (Rect.block (s := S1x96) S1x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x96.size a ≤ S1x96.size a
  hwx4_4 : ∀ i : grid4.Coords, EltTy.bits .f32 = 32 ∨ (Rect.block (s := S1x96) S1x96.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x96.size a ≤ S100000x96.size a
  hwx4_5 : ∀ i : grid4.Coords, EltTy.bits .f32 = 32 ∨ (Rect.block (s := S100000x96) S5000x96.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S100000x96.size a
  hwx5_0 : ∀ i : grid5.Coords, EltTy.bits .f32 = 32 ∨ (Rect.block (s := S100000x96) S5000x96.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x96.size a ≤ S100000x96.size a
  hwx5_2 : ∀ i : grid5.Coords, EltTy.bits .f32 = 32 ∨ (Rect.block (s := S100000x96) S5000x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S96x96.size a ≤ S96x96.size a
  hwx5_3 : ∀ i : grid5.Coords, EltTy.bits .f32 = 32 ∨ (Rect.block (s := S96x96) S96x96.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x96.size a ≤ S1x96.size a
  hwx5_4 : ∀ i : grid5.Coords, EltTy.bits .f32 = 32 ∨ (Rect.block (s := S1x96) S1x96.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S96x96.size a ≤ S96x96.size a
  hwx5_5 : ∀ i : grid5.Coords, EltTy.bits .f32 = 32 ∨ (Rect.block (s := S96x96) S96x96.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x96.size a ≤ S100000x96.size a
  hwx5_6 : ∀ i : grid5.Coords, EltTy.bits .f32 = 32 ∨ (Rect.block (s := S100000x96) S5000x96.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x96.size a ≤ S1x96.size a
  hwx5_7 : ∀ i : grid5.Coords, EltTy.bits .f32 = 32 ∨ (Rect.block (s := S1x96) S1x96.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x96.size a ≤ S1x96.size a
  hwx5_8 : ∀ i : grid5.Coords, EltTy.bits .f32 = 32 ∨ (Rect.block (s := S1x96) S1x96.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S100000x96.size a
  hwx6_0 : ∀ i : grid6.Coords, EltTy.bits .f32 = 32 ∨ (Rect.block (s := S100000x96) S5000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x96.size a ≤ S1x96.size a
  hwx6_1 : ∀ i : grid6.Coords, EltTy.bits .f32 = 32 ∨ (Rect.block (s := S1x96) S1x96.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x96.size a ≤ S1x96.size a
  hwx6_2 : ∀ i : grid6.Coords, EltTy.bits .f32 = 32 ∨ (Rect.block (s := S1x96) S1x96.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x96.size a ≤ S1x96.size a
  hwx6_3 : ∀ i : grid6.Coords, EltTy.bits .f32 = 32 ∨ (Rect.block (s := S1x96) S1x96.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x96.size a ≤ S1x96.size a
  hwx6_4 : ∀ i : grid6.Coords, EltTy.bits .f32 = 32 ∨ (Rect.block (s := S1x96) S1x96.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x96.size a ≤ S100000x96.size a
  hwx6_5 : ∀ i : grid6.Coords, EltTy.bits .f32 = 32 ∨ (Rect.block (s := S100000x96) S5000x96.size (cc6_transform_5 i) (hinb6_5 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x96.size a ≤ S512x96.size a
  hwx7_0 : ∀ i : grid7.Coords, EltTy.bits .f32 = 32 ∨ (Rect.block (s := S512x96) S512x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S96x96.size a ≤ S96x96.size a
  hwx7_1 : ∀ i : grid7.Coords, EltTy.bits .f32 = 32 ∨ (Rect.block (s := S96x96) S96x96.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x96.size a ≤ S1x96.size a
  hwx7_2 : ∀ i : grid7.Coords, EltTy.bits .f32 = 32 ∨ (Rect.block (s := S1x96) S1x96.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S96x1.size a ≤ S96x1.size a
  hwx7_3 : ∀ i : grid7.Coords, EltTy.bits .f32 = 32 ∨ (Rect.block (s := S96x1) S96x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x1.size a ≤ S512x1.size a
  hwx7_5 : ∀ i : grid7.Coords, EltTy.bits .f32 = 32 ∨ (Rect.block (s := S512x1) S512x1.size (cc7_transform_5 i) (hinb7_5 i)).WholeWords (EltTy.packing .f32)

variable [Facts₀]

def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x96_S800000x1_S800000x96_1_0_n_n_0_1_196 : GatherDims S100000x96 S800000x1 S800000x96 where
  offsetDims := [1]
  collapsedSliceDims := [0]
  operandBatchingDims := []
  startIndicesBatchingDims := []
  startIndexMap := [0]
  indexVectorDim := 1
  sliceSizes := ![1, 96]
  wf := gather_S100000x96_S800000x1_S800000x96_1_0_n_n_0_1_196_wf
def scatter_S100000x96_S800000x1_S800000x96_1_0_0_1 : ScatterDims S100000x96 S800000x1 S800000x96 where
  updateWindowDims := [1]
  insertedWindowDims := [0]
  scatterDimsToOperandDims := [0]
  indexVectorDim := 1
  wf := scatter_S100000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S100000x96_S512x1_S512x96_1_0_n_n_0_1_196 : GatherDims S100000x96 S512x1 S512x96 where
  offsetDims := [1]
  collapsedSliceDims := [0]
  operandBatchingDims := []
  startIndicesBatchingDims := []
  startIndexMap := [0]
  indexVectorDim := 1
  sliceSizes := ![1, 96]
  wf := gather_S100000x96_S512x1_S512x96_1_0_n_n_0_1_196_wf
def dot_S512x96_S96x96_S512x96_1_0_0_1_n_n : DotDims S512x96 S96x96 S512x96 where
  lhsContracting := [1]
  rhsContracting := [0]
  lhsNonContracting := [0]
  rhsNonContracting := [1]
  lhsBatch := []
  rhsBatch := []
  wf := dot_S512x96_S96x96_S512x96_1_0_0_1_n_n_wf
def dot_S512x96_S96x1_S512x1_1_0_0_1_n_n : DotDims S512x96 S96x1 S512x1 where
  lhsContracting := [1]
  rhsContracting := [0]
  lhsNonContracting := [0]
  rhsNonContracting := [1]
  lhsBatch := []
  rhsBatch := []
  wf := dot_S512x96_S96x1_S512x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S96x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26_0) S5000x96.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26_1) S1x96.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26_2) S1x96.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v26_0) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x96.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v51) S96x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S96x96.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57_0) S5000x96.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v57_1) S1x96.size cc3_transform_7 reads3_7 true true 1 stage3_7 sem3_7
    hrank3 hreads3_7 hinb3_7 nbuf3_7 (Memref.isWhole_whole _) hwx3_7 hstage3_7

abbrev win3_8 : Pipeline.Window sig grid3 :=
  Pipeline.Window.ofSpec (Memref.whole main_v57_2) S1x96.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev idle3 : Fin 9 → grid3.Coords → Bool := fun | 0 => fun _ => false | 1 => fun _ => false | 2 => fun _ => false | 3 => fun _ => false | 4 => fun _ => false | 5 => fun _ => false | 6 => fun _ => false | 7 => fun i => !(k3_cond2 i == 1#1) | 8 => fun i => !(k3_cond2 i == 1#1) | ⟨_ + 9, h⟩ => absurd h (Nat.not_lt.2 (Nat.le_add_left _ _))

abbrev win4_0 : Pipeline.Window sig grid4 :=
  Pipeline.Window.ofSpec (Memref.whole main_v57_0) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S1x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S5000x96.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v80) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x96.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v82) S96x96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v87) S1x96.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S96x96.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v88_0) S5000x96.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v88_1) S1x96.size cc5_transform_7 reads5_7 true true 1 stage5_7 sem5_7
    hrank5 hreads5_7 hinb5_7 nbuf5_7 (Memref.isWhole_whole _) hwx5_7 hstage5_7

abbrev win5_8 : Pipeline.Window sig grid5 :=
  Pipeline.Window.ofSpec (Memref.whole main_v88_2) S1x96.size cc5_transform_8 reads5_8 true true 1 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev idle5 : Fin 9 → grid5.Coords → Bool := fun | 0 => fun _ => false | 1 => fun _ => false | 2 => fun _ => false | 3 => fun _ => false | 4 => fun _ => false | 5 => fun _ => false | 6 => fun _ => false | 7 => fun i => !(k5_cond2 i == 1#1) | 8 => fun i => !(k5_cond2 i == 1#1) | ⟨_ + 9, h⟩ => absurd h (Nat.not_lt.2 (Nat.le_add_left _ _))

abbrev win6_0 : Pipeline.Window sig grid6 :=
  Pipeline.Window.ofSpec (Memref.whole main_v88_0) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v103) S1x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v104) S1x96.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v105) S1x96.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v106) S1x96.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v107) S5000x96.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v108) S512x96.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S96x96.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v109) S1x96.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg13) S96x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v110) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v111) S512x1.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S100000 : Shape := ⟨1, ![100000]⟩
abbrev S512 : Shape := ⟨1, ![512]⟩
abbrev S64x96 : Shape := ⟨2, ![64, 96]⟩
abbrev S96 : Shape := ⟨1, ![96]⟩
abbrev S3x96x96 : Shape := ⟨3, ![3, 96, 96]⟩
abbrev S3x96 : Shape := ⟨2, ![3, 96]⟩
abbrev S96x96 : Shape := ⟨2, ![96, 96]⟩
abbrev S96x1 : Shape := ⟨2, ![96, 1]⟩
abbrev S1 : Shape := ⟨1, ![1]⟩
abbrev S1x800000 : Shape := ⟨2, ![1, 800000]⟩
abbrev S800000 : Shape := ⟨1, ![800000]⟩
abbrev S100000x96 : Shape := ⟨2, ![100000, 96]⟩
abbrev S1x96 : Shape := ⟨2, ![1, 96]⟩
abbrev S_ : Shape := ⟨0, ![]⟩
abbrev S800000x1 : Shape := ⟨2, ![800000, 1]⟩
abbrev S800000x96 : Shape := ⟨2, ![800000, 96]⟩
abbrev S100000x1 : Shape := ⟨2, ![100000, 1]⟩
abbrev S1x96x96 : Shape := ⟨3, ![1, 96, 96]⟩
abbrev S512x1 : Shape := ⟨2, ![512, 1]⟩
abbrev S512x96 : Shape := ⟨2, ![512, 96]⟩
abbrev S1x1 : Shape := ⟨2, ![1, 1]⟩

abbrev nBuf : Space → Nat
  | .hbm => 310
  | .vmem => 0
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S512, .i32⟩
  | 4 => ⟨S64x96, .f32⟩
  | 5 => ⟨S96, .f32⟩
  | 6 => ⟨S3x96x96, .f32⟩
  | 7 => ⟨S3x96, .f32⟩
  | 8 => ⟨S3x96x96, .f32⟩
  | 9 => ⟨S3x96, .f32⟩
  | 10 => ⟨S3x96, .f32⟩
  | 11 => ⟨S96x96, .f32⟩
  | 12 => ⟨S96, .f32⟩
  | 13 => ⟨S96x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S100000x96, .f32⟩
  | 20 => ⟨S1x96, .f32⟩
  | 21 => ⟨S100000x96, .f32⟩
  | 22 => ⟨S100000x96, .f32⟩
  | 23 => ⟨S_, .f32⟩
  | 24 => ⟨S100000x96, .f32⟩
  | 25 => ⟨S100000x96, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x96, .f32⟩
  | 35 => ⟨S_, .f32⟩
  | 36 => ⟨S100000x96, .f32⟩
  | 37 => ⟨S800000x1, .i32⟩
  | 38 => ⟨S100000x96, .f32⟩
  | 39 => ⟨S_, .f32⟩
  | 40 => ⟨S800000, .f32⟩
  | 41 => ⟨S_, .f32⟩
  | 42 => ⟨S100000, .f32⟩
  | 43 => ⟨S800000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x96, .f32⟩
  | 50 => ⟨S100000x96, .f32⟩
  | 51 => ⟨S1x96x96, .f32⟩
  | 52 => ⟨S96x96, .f32⟩
  | 53 => ⟨S100000x96, .f32⟩
  | 54 => ⟨S1x96, .f32⟩
  | 55 => ⟨S96, .f32⟩
  | 56 => ⟨S1x96, .f32⟩
  | 57 => ⟨S100000x96, .f32⟩
  | 58 => ⟨S100000x96, .f32⟩
  | 59 => ⟨S1x96x96, .f32⟩
  | 60 => ⟨S96x96, .f32⟩
  | 61 => ⟨S100000x96, .f32⟩
  | 62 => ⟨S100000x96, .f32⟩
  | 63 => ⟨S_, .f32⟩
  | 64 => ⟨S96, .f32⟩
  | 65 => ⟨S_, .f32⟩
  | 66 => ⟨S96, .f32⟩
  | 67 => ⟨S96, .f32⟩
  | 68 => ⟨S_, .i32⟩
  | 69 => ⟨S_, .f32⟩
  | 70 => ⟨S96, .f32⟩
  | 71 => ⟨S1x96, .f32⟩
  | 72 => ⟨S_, .f32⟩
  | 73 => ⟨S1x96, .f32⟩
  | 74 => ⟨S1x96, .f32⟩
  | 75 => ⟨S100000x96, .f32⟩
  | 76 => ⟨S100000x96, .f32⟩
  | 77 => ⟨S100000x96, .f32⟩
  | 78 => ⟨S_, .f32⟩
  | 79 => ⟨S_, .f32⟩
  | 80 => ⟨S_, .f32⟩
  | 81 => ⟨S_, .f32⟩
  | 82 => ⟨S96, .f32⟩
  | 83 => ⟨S96, .f32⟩
  | 84 => ⟨S96, .f32⟩
  | 85 => ⟨S_, .f32⟩
  | 86 => ⟨S_, .i1⟩
  | 87 => ⟨S_, .f32⟩
  | 88 => ⟨S_, .f32⟩
  | 89 => ⟨S96, .f32⟩
  | 90 => ⟨S96, .f32⟩
  | 91 => ⟨S1x96, .f32⟩
  | 92 => ⟨S100000x96, .f32⟩
  | 93 => ⟨S100000x96, .f32⟩
  | 94 => ⟨S_, .f32⟩
  | 95 => ⟨S96, .f32⟩
  | 96 => ⟨S96, .f32⟩
  | 97 => ⟨S96, .f32⟩
  | 98 => ⟨S1x96, .f32⟩
  | 99 => ⟨S100000x96, .f32⟩
  | 100 => ⟨S100000x96, .f32⟩
  | 101 => ⟨S1x96, .f32⟩
  | 102 => ⟨S96, .f32⟩
  | 103 => ⟨S1x96, .f32⟩
  | 104 => ⟨S100000x96, .f32⟩
  | 105 => ⟨S100000x96, .f32⟩
  | 106 => ⟨S1x96, .f32⟩
  | 107 => ⟨S96, .f32⟩
  | 108 => ⟨S1x96, .f32⟩
  | 109 => ⟨S100000x96, .f32⟩
  | 110 => ⟨S100000x96, .f32⟩
  | 111 => ⟨S_, .f32⟩
  | 112 => ⟨S100000x96, .f32⟩
  | 113 => ⟨S100000x96, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x96, .f32⟩
  | 123 => ⟨S_, .f32⟩
  | 124 => ⟨S100000x96, .f32⟩
  | 125 => ⟨S800000x1, .i32⟩
  | 126 => ⟨S100000x96, .f32⟩
  | 127 => ⟨S_, .f32⟩
  | _ => ⟨S100000x64, .f32⟩

abbrev hbmTy0_1 (i : Nat) : BufTy := match i % 128 with
  | 0 => ⟨S800000, .f32⟩
  | 1 => ⟨S_, .f32⟩
  | 2 => ⟨S100000, .f32⟩
  | 3 => ⟨S800000x1, .i32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x96, .f32⟩
  | 10 => ⟨S100000x96, .f32⟩
  | 11 => ⟨S1x96x96, .f32⟩
  | 12 => ⟨S96x96, .f32⟩
  | 13 => ⟨S100000x96, .f32⟩
  | 14 => ⟨S1x96, .f32⟩
  | 15 => ⟨S96, .f32⟩
  | 16 => ⟨S1x96, .f32⟩
  | 17 => ⟨S100000x96, .f32⟩
  | 18 => ⟨S100000x96, .f32⟩
  | 19 => ⟨S1x96x96, .f32⟩
  | 20 => ⟨S96x96, .f32⟩
  | 21 => ⟨S100000x96, .f32⟩
  | 22 => ⟨S100000x96, .f32⟩
  | 23 => ⟨S_, .f32⟩
  | 24 => ⟨S96, .f32⟩
  | 25 => ⟨S_, .f32⟩
  | 26 => ⟨S96, .f32⟩
  | 27 => ⟨S96, .f32⟩
  | 28 => ⟨S_, .i32⟩
  | 29 => ⟨S_, .f32⟩
  | 30 => ⟨S96, .f32⟩
  | 31 => ⟨S1x96, .f32⟩
  | 32 => ⟨S_, .f32⟩
  | 33 => ⟨S1x96, .f32⟩
  | 34 => ⟨S1x96, .f32⟩
  | 35 => ⟨S100000x96, .f32⟩
  | 36 => ⟨S100000x96, .f32⟩
  | 37 => ⟨S100000x96, .f32⟩
  | 38 => ⟨S_, .f32⟩
  | 39 => ⟨S_, .f32⟩
  | 40 => ⟨S_, .f32⟩
  | 41 => ⟨S_, .f32⟩
  | 42 => ⟨S96, .f32⟩
  | 43 => ⟨S96, .f32⟩
  | 44 => ⟨S96, .f32⟩
  | 45 => ⟨S_, .f32⟩
  | 46 => ⟨S_, .i1⟩
  | 47 => ⟨S_, .f32⟩
  | 48 => ⟨S_, .f32⟩
  | 49 => ⟨S96, .f32⟩
  | 50 => ⟨S96, .f32⟩
  | 51 => ⟨S1x96, .f32⟩
  | 52 => ⟨S100000x96, .f32⟩
  | 53 => ⟨S100000x96, .f32⟩
  | 54 => ⟨S_, .f32⟩
  | 55 => ⟨S96, .f32⟩
  | 56 => ⟨S96, .f32⟩
  | 57 => ⟨S96, .f32⟩
  | 58 => ⟨S1x96, .f32⟩
  | 59 => ⟨S100000x96, .f32⟩
  | 60 => ⟨S100000x96, .f32⟩
  | 61 => ⟨S1x96, .f32⟩
  | 62 => ⟨S96, .f32⟩
  | 63 => ⟨S1x96, .f32⟩
  | 64 => ⟨S100000x96, .f32⟩
  | 65 => ⟨S100000x96, .f32⟩
  | 66 => ⟨S1x96, .f32⟩
  | 67 => ⟨S96, .f32⟩
  | 68 => ⟨S1x96, .f32⟩
  | 69 => ⟨S100000x96, .f32⟩
  | 70 => ⟨S100000x96, .f32⟩
  | 71 => ⟨S_, .f32⟩
  | 72 => ⟨S100000x96, .f32⟩
  | 73 => ⟨S100000x96, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x96, .f32⟩
  | 83 => ⟨S_, .f32⟩
  | 84 => ⟨S100000x96, .f32⟩
  | 85 => ⟨S800000x1, .i32⟩
  | 86 => ⟨S100000x96, .f32⟩
  | 87 => ⟨S_, .f32⟩
  | 88 => ⟨S800000, .f32⟩
  | 89 => ⟨S_, .f32⟩
  | 90 => ⟨S100000, .f32⟩
  | 91 => ⟨S800000x1, .i32⟩
  | 92 => ⟨S100000, .f32⟩
  | 93 => ⟨S_, .f32⟩
  | 94 => ⟨S100000, .f32⟩
  | 95 => ⟨S100000, .f32⟩
  | 96 => ⟨S100000x1, .f32⟩
  | 97 => ⟨S100000x96, .f32⟩
  | 98 => ⟨S100000x96, .f32⟩
  | 99 => ⟨S1x96x96, .f32⟩
  | 100 => ⟨S96x96, .f32⟩
  | 101 => ⟨S100000x96, .f32⟩
  | 102 => ⟨S1x96, .f32⟩
  | 103 => ⟨S96, .f32⟩
  | 104 => ⟨S1x96, .f32⟩
  | 105 => ⟨S100000x96, .f32⟩
  | 106 => ⟨S100000x96, .f32⟩
  | 107 => ⟨S1x96x96, .f32⟩
  | 108 => ⟨S96x96, .f32⟩
  | 109 => ⟨S100000x96, .f32⟩
  | 110 => ⟨S100000x96, .f32⟩
  | 111 => ⟨S_, .f32⟩
  | 112 => ⟨S96, .f32⟩
  | 113 => ⟨S_, .f32⟩
  | 114 => ⟨S96, .f32⟩
  | 115 => ⟨S96, .f32⟩
  | 116 => ⟨S_, .i32⟩
  | 117 => ⟨S_, .f32⟩
  | 118 => ⟨S96, .f32⟩
  | 119 => ⟨S1x96, .f32⟩
  | 120 => ⟨S_, .f32⟩
  | 121 => ⟨S1x96, .f32⟩
  | 122 => ⟨S1x96, .f32⟩
  | 123 => ⟨S100000x96, .f32⟩
  | 124 => ⟨S100000x96, .f32⟩
  | 125 => ⟨S100000x96, .f32⟩
  | 126 => ⟨S_, .f32⟩
  | 127 => ⟨S_, .f32⟩
  | _ => ⟨S100000x64, .f32⟩

abbrev hbmTy0_2 (i : Nat) : BufTy := match i % 128 with
  | 0 => ⟨S_, .f32⟩
  | 1 => ⟨S_, .f32⟩
  | 2 => ⟨S96, .f32⟩
  | 3 => ⟨S96, .f32⟩
  | 4 => ⟨S96, .f32⟩
  | 5 => ⟨S_, .f32⟩
  | 6 => ⟨S_, .i1⟩
  | 7 => ⟨S_, .f32⟩
  | 8 => ⟨S_, .f32⟩
  | 9 => ⟨S96, .f32⟩
  | 10 => ⟨S96, .f32⟩
  | 11 => ⟨S1x96, .f32⟩
  | 12 => ⟨S100000x96, .f32⟩
  | 13 => ⟨S100000x96, .f32⟩
  | 14 => ⟨S_, .f32⟩
  | 15 => ⟨S96, .f32⟩
  | 16 => ⟨S96, .f32⟩
  | 17 => ⟨S96, .f32⟩
  | 18 => ⟨S1x96, .f32⟩
  | 19 => ⟨S100000x96, .f32⟩
  | 20 => ⟨S100000x96, .f32⟩
  | 21 => ⟨S1x96, .f32⟩
  | 22 => ⟨S96, .f32⟩
  | 23 => ⟨S1x96, .f32⟩
  | 24 => ⟨S100000x96, .f32⟩
  | 25 => ⟨S100000x96, .f32⟩
  | 26 => ⟨S1x96, .f32⟩
  | 27 => ⟨S96, .f32⟩
  | 28 => ⟨S1x96, .f32⟩
  | 29 => ⟨S100000x96, .f32⟩
  | 30 => ⟨S100000x96, .f32⟩
  | 31 => ⟨S_, .f32⟩
  | 32 => ⟨S100000x96, .f32⟩
  | 33 => ⟨S100000x96, .f32⟩
  | 34 => ⟨S_, .i32⟩
  | 35 => ⟨S512, .i32⟩
  | 36 => ⟨S512, .i1⟩
  | 37 => ⟨S_, .i32⟩
  | 38 => ⟨S512, .i32⟩
  | 39 => ⟨S512, .i32⟩
  | 40 => ⟨S512, .i32⟩
  | 41 => ⟨S512x1, .i32⟩
  | 42 => ⟨S512x96, .f32⟩
  | 43 => ⟨S512x96, .f32⟩
  | 44 => ⟨S1x96, .f32⟩
  | 45 => ⟨S512x96, .f32⟩
  | 46 => ⟨S512x96, .f32⟩
  | 47 => ⟨S_, .f32⟩
  | 48 => ⟨S512x96, .f32⟩
  | 49 => ⟨S512x96, .f32⟩
  | 50 => ⟨S512x1, .f32⟩
  | 51 => ⟨S1x1, .f32⟩
  | 52 => ⟨S512x1, .f32⟩
  | 53 => ⟨S512x1, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_c_6 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_cst_1 : Ref sig .tc := ⟨.hbm, 79, rfl⟩
abbrev main_call1_v8 : Ref sig .tc := ⟨.hbm, 80, rfl⟩
abbrev main_call1_cst_2 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_cst_3 : Ref sig .tc := ⟨.hbm, 85, rfl⟩
abbrev main_call1_v12 : Ref sig .tc := ⟨.hbm, 86, rfl⟩
abbrev main_call1_cst_4 : Ref sig .tc := ⟨.hbm, 87, rfl⟩
abbrev main_call1_call0_v0 : Ref sig .tc := ⟨.hbm, 88, rfl⟩
abbrev main_call1_call0_v1 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_7 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_call2_cst : Ref sig .tc := ⟨.hbm, 111, rfl⟩
abbrev main_call2_v0 : Ref sig .tc := ⟨.hbm, 112, rfl⟩
abbrev main_v63 : Ref sig .tc := ⟨.hbm, 113, rfl⟩
abbrev main_c_8 : Ref sig .tc := ⟨.hbm, 114, rfl⟩
abbrev main_v64 : Ref sig .tc := ⟨.hbm, 115, rfl⟩
abbrev main_v65 : Ref sig .tc := ⟨.hbm, 116, rfl⟩
abbrev main_c_9 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_10 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_11 : Ref sig .tc := ⟨.hbm, 127, rfl⟩
abbrev main_v74 : Ref sig .tc := ⟨.hbm, 128, rfl⟩
abbrev main_cst_12 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_13 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_14 : Ref sig .tc := ⟨.hbm, 151, rfl⟩
abbrev main_v95 : Ref sig .tc := ⟨.hbm, 152, rfl⟩
abbrev main_cst_15 : Ref sig .tc := ⟨.hbm, 153, rfl⟩
abbrev main_v96 : Ref sig .tc := ⟨.hbm, 154, rfl⟩
abbrev main_v97 : Ref sig .tc := ⟨.hbm, 155, rfl⟩
abbrev main_c_16 : Ref sig .tc := ⟨.hbm, 156, rfl⟩
abbrev main_call3_cst : Ref sig .tc := ⟨.hbm, 157, rfl⟩
abbrev main_call3_v0 : Ref sig .tc := ⟨.hbm, 158, rfl⟩
abbrev main_call3_v1 : Ref sig .tc := ⟨.hbm, 159, rfl⟩
abbrev main_call3_cst_0 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_call3_v5 : Ref sig .tc := ⟨.hbm, 164, rfl⟩
abbrev main_call3_v6 : Ref sig .tc := ⟨.hbm, 165, rfl⟩
abbrev main_call3_v7 : Ref sig .tc := ⟨.hbm, 166, rfl⟩
abbrev main_call3_cst_1 : Ref sig .tc := ⟨.hbm, 167, rfl⟩
abbrev main_call3_v8 : Ref sig .tc := ⟨.hbm, 168, rfl⟩
abbrev main_call3_cst_2 : Ref sig .tc := ⟨.hbm, 169, rfl⟩
abbrev main_call3_v9 : Ref sig .tc := ⟨.hbm, 170, rfl⟩
abbrev main_call3_v10 : Ref sig .tc := ⟨.hbm, 171, rfl⟩
abbrev main_call3_v11 : Ref sig .tc := ⟨.hbm, 172, rfl⟩
abbrev main_call3_cst_3 : Ref sig .tc := ⟨.hbm, 173, rfl⟩
abbrev main_call3_v12 : Ref sig .tc := ⟨.hbm, 174, rfl⟩
abbrev main_call3_cst_4 : Ref sig .tc := ⟨.hbm, 175, rfl⟩
abbrev main_call3_call0_v0 : Ref sig .tc := ⟨.hbm, 176, rfl⟩
abbrev main_call3_call0_v1 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_cst_17 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_call4_cst : Ref sig .tc := ⟨.hbm, 199, rfl⟩
abbrev main_call4_v0 : Ref sig .tc := ⟨.hbm, 200, rfl⟩
abbrev main_v118 : Ref sig .tc := ⟨.hbm, 201, rfl⟩
abbrev main_c_18 : Ref sig .tc := ⟨.hbm, 202, rfl⟩
abbrev main_v119 : Ref sig .tc := ⟨.hbm, 203, rfl⟩
abbrev main_v120 : Ref sig .tc := ⟨.hbm, 204, rfl⟩
abbrev main_c_19 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_cst_20 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_cst_21 : Ref sig .tc := ⟨.hbm, 215, rfl⟩
abbrev main_v129 : Ref sig .tc := ⟨.hbm, 216, rfl⟩
abbrev main_cst_22 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_cst_23 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_cst_24 : Ref sig .tc := ⟨.hbm, 239, rfl⟩
abbrev main_v150 : Ref sig .tc := ⟨.hbm, 240, rfl⟩
abbrev main_cst_25 : Ref sig .tc := ⟨.hbm, 241, rfl⟩
abbrev main_v151 : Ref sig .tc := ⟨.hbm, 242, rfl⟩
abbrev main_v152 : Ref sig .tc := ⟨.hbm, 243, rfl⟩
abbrev main_c_26 : Ref sig .tc := ⟨.hbm, 244, rfl⟩
abbrev main_call5_cst : Ref sig .tc := ⟨.hbm, 245, rfl⟩
abbrev main_call5_v0 : Ref sig .tc := ⟨.hbm, 246, rfl⟩
abbrev main_call5_v1 : Ref sig .tc := ⟨.hbm, 247, rfl⟩
abbrev main_call5_cst_0 : Ref sig .tc := ⟨.hbm, 248, rfl⟩
abbrev main_call5_v2 : Ref sig .tc := ⟨.hbm, 249, rfl⟩
abbrev main_call5_v3 : Ref sig .tc := ⟨.hbm, 250, rfl⟩
abbrev main_call5_v4 : Ref sig .tc := ⟨.hbm, 251, rfl⟩
abbrev main_call5_v5 : Ref sig .tc := ⟨.hbm, 252, rfl⟩
abbrev main_call5_v6 : Ref sig .tc := ⟨.hbm, 253, rfl⟩
abbrev main_call5_v7 : Ref sig .tc := ⟨.hbm, 254, rfl⟩
abbrev main_call5_cst_1 : Ref sig .tc := ⟨.hbm, 255, rfl⟩
abbrev main_call5_v8 : Ref sig .tc := ⟨.hbm, 256, rfl⟩
abbrev main_call5_cst_2 : Ref sig .tc := ⟨.hbm, 257, rfl⟩
abbrev main_call5_v9 : Ref sig .tc := ⟨.hbm, 258, rfl⟩
abbrev main_call5_v10 : Ref sig .tc := ⟨.hbm, 259, rfl⟩
abbrev main_call5_v11 : Ref sig .tc := ⟨.hbm, 260, rfl⟩
abbrev main_call5_cst_3 : Ref sig .tc := ⟨.hbm, 261, rfl⟩
abbrev main_call5_v12 : Ref sig .tc := ⟨.hbm, 262, rfl⟩
abbrev main_call5_cst_4 : Ref sig .tc := ⟨.hbm, 263, rfl⟩
abbrev main_call5_call0_v0 : Ref sig .tc := ⟨.hbm, 264, rfl⟩
abbrev main_call5_call0_v1 : Ref sig .tc := ⟨.hbm, 265, rfl⟩
abbrev main_v153 : Ref sig .tc := ⟨.hbm, 266, rfl⟩
abbrev main_v154 : Ref sig .tc := ⟨.hbm, 267, rfl⟩
abbrev main_v155 : Ref sig .tc := ⟨.hbm, 268, rfl⟩
abbrev main_v156 : Ref sig .tc := ⟨.hbm, 269, rfl⟩
abbrev main_cst_27 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_v171 : Ref sig .tc := ⟨.hbm, 285, rfl⟩
abbrev main_v172 : Ref sig .tc := ⟨.hbm, 286, rfl⟩
abbrev main_call6_cst : Ref sig .tc := ⟨.hbm, 287, rfl⟩
abbrev main_call6_v0 : Ref sig .tc := ⟨.hbm, 288, rfl⟩
abbrev main_v173 : Ref sig .tc := ⟨.hbm, 289, rfl⟩
abbrev main_c_28 : Ref sig .tc := ⟨.hbm, 290, rfl⟩
abbrev main_v174 : Ref sig .tc := ⟨.hbm, 291, rfl⟩
abbrev main_v175 : Ref sig .tc := ⟨.hbm, 292, rfl⟩
abbrev main_c_29 : Ref sig .tc := ⟨.hbm, 293, rfl⟩
abbrev main_v176 : Ref sig .tc := ⟨.hbm, 294, rfl⟩
abbrev main_v177 : Ref sig .tc := ⟨.hbm, 295, rfl⟩
abbrev main_v178 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_call7_cst : Ref sig .tc := ⟨.hbm, 303, rfl⟩
abbrev main_call7_v0 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S100000x96_0_1 : S1x96.BroadcastsInDim S100000x96 (![0, 1] : Fin 2 → Fin S100000x96.rank)
  bcast_S_S100000x96 : S_.BroadcastsInDim S100000x96 (![] : Fin 0 → Fin S100000x96.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x96_0_1 : S100000x1.BroadcastsInDim S100000x96 (![0, 1] : Fin 2 → Fin S100000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  reducesTo_S100000x96_S96_d0 : S100000x96.ReducesTo [0] S96
  h_S_ : 0 < S_.numel
  bcast_S_S96 : S_.BroadcastsInDim S96 (![] : Fin 0 → Fin S96.rank)
  bcast_S_S1x96 : S_.BroadcastsInDim S1x96 (![] : Fin 0 → Fin S1x96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S_S512 : S_.BroadcastsInDim S512 (![] : Fin 0 → Fin S512.rank)
  bcast_S512_S512x1_0 : S512.BroadcastsInDim S512x1 (![0] : Fin 1 → Fin S512x1.rank)
  bcast_S1x96_S512x96_0_1 : S1x96.BroadcastsInDim S512x96 (![0, 1] : Fin 2 → Fin S512x96.rank)
  bcast_S_S512x96 : S_.BroadcastsInDim S512x96 (![] : Fin 0 → Fin S512x96.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S100000x64_S64x96_S100000x96_1_0_0_1_n_n_wf : DotDims.WF S100000x64 S64x96 S100000x96 [1] [0] [0] [1] [] []
  gather_S100000x96_S800000x1_S800000x96_1_0_n_n_0_1_196_wf : GatherDims.WF S100000x96 S800000x1 S800000x96 [1] [0] [] [0] [] 1 ![1, 96]
  scatter_S100000x96_S800000x1_S800000x96_1_0_0_1_wf : ScatterDims.WF S100000x96 S800000x1 S800000x96 [1] [0] [0] 1
  scatter_S100000_S800000x1_S800000_n_0_0_1_wf : ScatterDims.WF S100000 S800000x1 S800000 [] [0] [0] 1
  dot_S100000x96_S96x96_S100000x96_1_0_0_1_n_n_wf : DotDims.WF S100000x96 S96x96 S100000x96 [1] [0] [0] [1] [] []
  gather_S100000x96_S512x1_S512x96_1_0_n_n_0_1_196_wf : GatherDims.WF S100000x96 S512x1 S512x96 [1] [0] [] [0] [] 1 ![1, 96]
  dot_S512x96_S96x96_S512x96_1_0_0_1_n_n_wf : DotDims.WF S512x96 S96x96 S512x96 [1] [0] [0] [1] [] []
  dot_S512x96_S96x1_S512x1_1_0_0_1_n_n_wf : DotDims.WF S512x96 S96x1 S512x1 [1] [0] [0] [1] [] []

variable [Facts₀]

def dot_S100000x64_S64x96_S100000x96_1_0_0_1_n_n : DotDims S100000x64 S64x96 S100000x96 where
  lhsContracting := [1]
  rhsContracting := [0]
  lhsNonContracting := [0]
  rhsNonContracting := [1]
  lhsBatch := []
  rhsBatch := []
  wf := dot_S100000x64_S64x96_S100000x96_1_0_0_1_n_n_wf
def gather_S100000x96_S800000x1_S800000x96_1_0_n_n_0_1_196 : GatherDims S100000x96 S800000x1 S800000x96 where
  offsetDims := [1]
  collapsedSliceDims := [0]
  operandBatchingDims := []
  startIndicesBatchingDims := []
  startIndexMap := [0]
  indexVectorDim := 1
  sliceSizes := ![1, 96]
  wf := gather_S100000x96_S800000x1_S800000x96_1_0_n_n_0_1_196_wf
def scatter_S100000x96_S800000x1_S800000x96_1_0_0_1 : ScatterDims S100000x96 S800000x1 S800000x96 where
  updateWindowDims := [1]
  insertedWindowDims := [0]
  scatterDimsToOperandDims := [0]
  indexVectorDim := 1
  wf := scatter_S100000x96_S800000x1_S800000x96_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x96_S96x96_S100000x96_1_0_0_1_n_n : DotDims S100000x96 S96x96 S100000x96 where
  lhsContracting := [1]
  rhsContracting := [0]
  lhsNonContracting := [0]
  rhsNonContracting := [1]
  lhsBatch := []
  rhsBatch := []
  wf := dot_S100000x96_S96x96_S100000x96_1_0_0_1_n_n_wf
def gather_S100000x96_S512x1_S512x96_1_0_n_n_0_1_196 : GatherDims S100000x96 S512x1 S512x96 where
  offsetDims := [1]
  collapsedSliceDims := [0]
  operandBatchingDims := []
  startIndicesBatchingDims := []
  startIndexMap := [0]
  indexVectorDim := 1
  sliceSizes := ![1, 96]
  wf := gather_S100000x96_S512x1_S512x96_1_0_n_n_0_1_196_wf
def dot_S512x96_S96x96_S512x96_1_0_0_1_n_n : DotDims S512x96 S96x96 S512x96 where
  lhsContracting := [1]
  rhsContracting := [0]
  lhsNonContracting := [0]
  rhsNonContracting := [1]
  lhsBatch := []
  rhsBatch := []
  wf := dot_S512x96_S96x96_S512x96_1_0_0_1_n_n_wf
def dot_S512x96_S96x1_S512x1_1_0_0_1_n_n : DotDims S512x96 S96x1 S512x1 where
  lhsContracting := [1]
  rhsContracting := [0]
  lhsNonContracting := [0]
  rhsNonContracting := [1]
  lhsBatch := []
  rhsBatch := []
  wf := dot_S512x96_S96x1_S512x1_1_0_0_1_n_n_wf

class Facts : Prop extends Facts₀ where

variable [Facts]
-- ==== Proof.PreDecode.lean ====
import proofs.«402019_j40432822124917_2_alg».proof.Defs
import Idealize.ShloMosaic.Lib.ReduceAll
import Idealize.ShloMosaic.Lib.ValueIdx

noncomputable section

namespace Cert.PreDecode

open Idealize.ShloMosaic Idealize.ShloMosaic.ValueIdx Idealize.SL.Sem
open Cert.Pre_finite_inputs

structure Decoded (a0 : FVec Ideal S100000x64 .f32) (a1 : IVec S2x800000 32) (a3 : IVec S512 32)
    (a4 : FVec Ideal S64x96 .f32) (a5 : FVec Ideal S96 .f32) (a6 : FVec Ideal S3x96x96 .f32)
    (a7 : FVec Ideal S3x96 .f32) (a8 : FVec Ideal S3x96x96 .f32) (a9 : FVec Ideal S3x96 .f32)
    (a10 : FVec Ideal S3x96 .f32) (a11 : FVec Ideal S96x96 .f32) (a12 : FVec Ideal S96 .f32)
    (a13 : FVec Ideal S96x1 .f32) (a14 : FVec Ideal S1 .f32) : Prop where
  real0 : ∀ i, ∃ r : ℝ, a0 i = (r : EReal)
  real4 : ∀ i, ∃ r : ℝ, a4 i = (r : EReal)
  real5 : ∀ i, ∃ r : ℝ, a5 i = (r : EReal)
  real6 : ∀ i, ∃ r : ℝ, a6 i = (r : EReal)
  real7 : ∀ i, ∃ r : ℝ, a7 i = (r : EReal)
  real8 : ∀ i, ∃ r : ℝ, a8 i = (r : EReal)
  real9 : ∀ i, ∃ r : ℝ, a9 i = (r : EReal)
  real10 : ∀ i, ∃ r : ℝ, a10 i = (r : EReal)
  real11 : ∀ i, ∃ r : ℝ, a11 i = (r : EReal)
  real12 : ∀ i, ∃ r : ℝ, a12 i = (r : EReal)
  real13 : ∀ i, ∃ r : ℝ, a13 i = (r : EReal)
  real14 : ∀ i, ∃ r : ℝ, a14 i = (r : EReal)
  hsrc : ∀ e : Fin 800000, 0 ≤ (a1 (ix2 0 e)).toInt ∧ (a1 (ix2 0 e)).toInt < 100000
  hcen : ∀ e : Fin 512, 0 ≤ (a3 (ix1 e)).toInt ∧ (a3 (ix1 e)).toInt < 100000

instance : Subsingleton S_.Idx := ⟨fun a b => funext fun d => d.elim0⟩

theorem inf_eq_top : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => exact absurd h (by simp [Ideal.cmp])
  | coe r => exact ⟨r, rfl⟩
  | top => exact absurd h (by simp [Ideal.cmp])

theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) :=
  real_of_abs_lt_inf (x i) (Host.reduce_andi_all _ _ hr hu ix0 e i)

theorem range_of_word (w : BitVec 32)
    (h : IntOp.andi (IntOp.cmpi .sge w 0#32) (IntOp.cmpi .slt w 100000#32) = 1#1) :
    0 ≤ w.toInt ∧ w.toInt < 100000 := by
  obtain ⟨h1, h2⟩ := IntOp.andi_eq_one.1 h
  have h1' := IntOp.cmpi_sge.1 h1
  have h2' := IntOp.cmpi_slt.1 h2
  rw [show (0#32 : BitVec 32).toInt = 0 from by decide] at h1'
  rw [show (100000#32 : BitVec 32).toInt = 100000 from by decide] at h2'
  exact ⟨h1', h2'⟩

theorem row0_apply (a1 : IVec S2x800000 32) (hs : S2x800000.Slices ![0, 0] S1x800000)
    (hc : S1x800000.ShapeCasts S800000) (e : Fin 800000) :
    shapeCast S800000 (extractStridedSlice S1x800000 ![0, 0] a1 hs) hc (ix1 e) = a1 (ix2 0 e) := by
  unfold shapeCast
  rw [Shape.reshapeEquiv_eq_of_rowMajor hc (x := (ix1 e : S800000.Idx)) (y := (ix2 (0 : Fin 1) e : S1x800000.Idx))
    (by rw [Shape.rowMajor_val_two, Shape.rowMajor_val_one]; show 0 * 800000 + e.val = e.val; omega)]
  unfold extractStridedSlice
  refine congrArg a1 (funext fun a => ?_)
  match a with
  | ⟨0, _⟩ => exact Fin.ext (by simp)
  | ⟨1, _⟩ => exact Fin.ext (by simp)

variable [Cert.Pre_finite_inputs.Facts]

theorem decode (a0 : FVec Ideal S100000x64 .f32) (a1 : IVec S2x800000 32) (a2 : IVec S100000 32) (a3 : IVec S512 32)
    (a4 : FVec Ideal S64x96 .f32) (a5 : FVec Ideal S96 .f32) (a6 : FVec Ideal S3x96x96 .f32)
    (a7 : FVec Ideal S3x96 .f32) (a8 : FVec Ideal S3x96x96 .f32) (a9 : FVec Ideal S3x96 .f32)
    (a10 : FVec Ideal S3x96 .f32) (a11 : FVec Ideal S96x96 .f32) (a12 : FVec Ideal S96 .f32)
    (a13 : FVec Ideal S96x1 .f32) (a14 : FVec Ideal S1 .f32)
    (h : Cert.Pre_finite_inputs.fn (F := Ideal) a0 a1 a2 a3 a4 a5 a6 a7 a8 a9 a10 a11 a12 a13 a14 = fun _ => 1#1) :
    Decoded a0 a1 a3 a4 a5 a6 a7 a8 a9 a10 a11 a12 a13 a14 := by
  have h0 := congrFun h ix0
  dsimp only [fn, fn_part1, fn_part2, fn_part3, fn_part4] at h0
  obtain ⟨h0, e3⟩ := IntOp.andi_eq_one.1 h0
  obtain ⟨h0, e1⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨e0, e4⟩ := IntOp.andi_eq_one.1 h0
  refine ⟨real_of_all a0 _ _ _ e0, real_of_all a4 _ _ _ e4, real_of_all a5 _ _ _ e5, real_of_all a6 _ _ _ e6,
    real_of_all a7 _ _ _ e7, real_of_all a8 _ _ _ e8, real_of_all a9 _ _ _ e9, real_of_all a10 _ _ _ e10,
    real_of_all a11 _ _ _ e11, real_of_all a12 _ _ _ e12, real_of_all a13 _ _ _ e13, real_of_all a14 _ _ _ e14,
    fun e => ?_, fun e => ?_⟩
  · have r := range_of_word _ (Host.reduce_andi_all _ _ _ _ ix0 e1 (ix1 e))
    rw [row0_apply] at r
    exact r
  · exact range_of_word _ (Host.reduce_andi_all _ _ _ _ ix0 e3 (ix1 e))

theorem decode_mem (m : (ℓ : Loc Cert.KernelIdeal.nD Cert.KernelIdeal.τ Cert.KernelIdeal.sig) → Buf (Elt Ideal) ℓ)
    (h : Cert.Pre_KernelIdeal m) (c : Dev Cert.KernelIdeal.nD) :
    Decoded
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) :=
  decode _ _ _ _ _ _ _ _ _ _ _ _ _ _ _ (h c)

end Cert.PreDecode

end
-- ==== Proof.K.Common.lean ====
import proofs.«402019_j40432822124917_2_alg».proof.Proof.Gen.Kernel.Launch

noncomputable section

namespace Cert.Kernel.Hand

open Idealize.ShloMosaic Idealize.ShloMosaic.TcCoe Idealize.SL.Sem Cert.Kernel

variable {F : FTy → Type} [FloatOps F]

abbrev Vr (W : Dev nD → Valuation τ sig (Elt F)) (c : Dev nD) (b : Ref sig .tc) : Buf (Elt F) ((c : Thread nD τ).loc b) :=
  W c (Proc.devRef .tc b)

end Cert.Kernel.Hand

end
-- ==== Proof.K.Reg0.lean ====
import proofs.«402019_j40432822124917_2_alg».proof.Proof.Gen.Kernel.Skeleton
import proofs.«402019_j40432822124917_2_alg».proof.Proof.Gen.Kernel.Points
import proofs.«402019_j40432822124917_2_alg».proof.Proof.K.Common
import Idealize.ShloMosaic.Lib.Pipeline.FrameBody
import Idealize.ShloMosaic.Lib.Pipeline.TableIdle
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

def iblk0 (c : Dev nD) (w : Fin cfg0.W) (t : Fin cfg0.N) : ((cfg0.win w).xblock (cfg0.grid.coords t)).Idx → Elt F (cfg0.win w).elt :=
  ((cfg0.win w).blk t).view.read (Elt F) (Vr W c (Pipeline.arrRef spec0 w))

abbrev r0_x : Rect S5000x64 := Rect.unit (s := S5000x64) ![0, 0] S5000x64.size inb_S5000x64_S5000x64_0_0
abbrev r0_w : Rect S64x96 := Rect.unit (s := S64x96) ![0, 0] S64x96.size inb_S64x96_S64x96_0_0
abbrev r0_b : Rect S1x96 := Rect.unit (s := S1x96) ![0, 0] S1x96.size inb_S1x96_S1x96_0_0
abbrev r0_out : Rect S5000x96 := Rect.unit (s := S5000x96) ![0, 0] S5000x96.size inb_S5000x96_S5000x96_0_0

def out0_3 (x : Vec F S5000x64 .f32) (w : Vec F S64x96 .f32) (b : Vec F S1x96 .f32) : Vec F S5000x96 .f32 :=
  View.canon [⟨r0_out, k0_pay1 (View.ld x r0_x) (View.ld w r0_w) (View.ld b r0_b)⟩]

def dat0 (c : Dev nD) : Dat τ (Elt F) Unit ℕ (UR sig nD τ) ℕ cfg0 c where
  A w := Vr W c (Pipeline.arrRef spec0 w)
  after w t := match w with
    | ⟨0, _⟩ => iblk0 W c 0 t
    | ⟨1, _⟩ => iblk0 W c 1 t
    | ⟨2, _⟩ => iblk0 W c 2 t
    | ⟨3, _⟩ => out0_3 (iblk0 W c 0 t) (iblk0 W c 1 t) (iblk0 W c 2 t)
  Φ _ := Pipeline.ΦA spec0 c
  q _ := fullShare
  owed _ := 0

theorem dat0_A (c : Dev nD) (w : Fin cfg0.W) : (dat0 W c).A w = Vr W c (Pipeline.arrRef spec0 w) := by
  dsimp only [dat0]

theorem after0_3 (c : Dev nD) (t : Fin cfg0.N) :
    (dat0 W c).after 3 t = out0_3 (iblk0 W c 0 t) (iblk0 W c 1 t) (iblk0 W c 2 t) := by
  dsimp only [dat0]

theorem before0_in (c : Dev nD) (t : Fin cfg0.N) : ∀ (w : Fin cfg0.W) (_ : (cfg0.win w).isOut = false) (d),
    (dat0 W c).before w t d = (dat0 W c).after w t
  | 0, _, d | 1, _, d | 2, _, d =>
    (dat0 W c).before_in_eq_fetched _ rfl (fun _ => rfl) (fun _ _ _ => rfl) (fun _ => rfl) t d
  | 3, h, _ => nomatch h
  | ⟨_ + 4, h⟩, _, _ => absurd h (Nat.not_lt.2 (Nat.le_add_left _ _))

set_option maxHeartbeats 1000000 in

theorem body_obligation0 (c : Dev nD) : BodyObligation (dat0 (F := F) W c) (defs₀ (F := F)) Variants.none () Set.univ := fun t => by
  have b := before0_in W c t
  rw [bigSep_W0, bigSep_W0]
  simp only [b 0 rfl, b 1 rfl, b 2 rfl, after0_3, owns_eq_rep,
    show ∀ k, (dat0 W c).Φ k = Pipeline.ΦA spec0 c from fun _ => rfl]
  show _ ⊢ wp _ _ _ (bodyAt0 t) _
  unfold bodyAt0
  simp only [cc0__emb_kernel_eq_skeleton]; unfold cc0__emb_kernel_skel
  iintro ⟨HΦ, Ho, ⟨%_, Ha⟩, ⟨%_, Hb⟩, ⟨%_, Hc⟩, ⟨%_, Hd⟩⟩
  sl_exec
  sl_step
  iframe HΦ Ha Hb Hc
  isplitl [Ho]; · iexact Ho
  iapply rep_of_owns
  unfold owns
  iexists _; iframe Hd
  ipureintro
  rw [View.read_writes_eq_canon _ _ _ (View.cover_of_tiled _ S5000x96.size (by rfl))]
  unfold out0_3 body_obligation0.sl.v0 body_obligation0.sl.v1 body_obligation0.sl.v3
  simp only [View.readAt_rep]
  rfl

end Cert.Kernel.Hand

end
-- ==== Proof.K.Reg1.lean ====
import proofs.«402019_j40432822124917_2_alg».proof.Proof.K.Common
import proofs.«402019_j40432822124917_2_alg».proof.Proof.Gen.Kernel.Skeleton
import proofs.«402019_j40432822124917_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import Idealize.ShloMosaic.Lib.Pipeline.TableIdle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

def iblk1 (c : Dev nD) (w : Fin cfg1.W) (t : Fin cfg1.N) : ((cfg1.win w).xblock (cfg1.grid.coords t)).Idx → Elt F (cfg1.win w).elt :=
  ((cfg1.win w).blk t).view.read (Elt F) (Vr W c (Pipeline.arrRef spec1 w))

theorem hz1 : (![0, 0] : Fin 2 → Nat) = fun _ => 0 := funext fun a => by fin_cases a <;> rfl

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

theorem hcond1_1 : ∀ t : Fin cfg1.N, k1_cond2 (grid1.coords t) = 1#1 ↔ t.val % 20 = 19 :=
  (by decide +kernel : ∀ t : Fin grid1.N, k1_cond2 (grid1.coords t) = 1#1 ↔ t.val % 20 = 19)

def yblk1 (c : Dev nD) (t : Fin cfg1.N) : FVec F S5000x96 .f32 :=
  k1_pay5 (iblk1 W c 0 t) (iblk1 W c 1 t) (iblk1 W c 3 t) (iblk1 W c 4 t) (iblk1 W c 2 t) (iblk1 W c 5 t)

def ymblk1 (c : Dev nD) (t : Fin cfg1.N) : FVec F S5000x96 .f32 :=
  k1_pay6 (grid1.coords t) (iblk1 W c 0 t) (iblk1 W c 1 t) (iblk1 W c 3 t) (iblk1 W c 4 t) (iblk1 W c 2 t) (iblk1 W c 5 t)

def accN1_s (c : Dev nD) : ℕ → FVec F S1x96 .f32
  | 0 => k1_pay3
  | n + 1 => if h : n < cfg1.N then k1_pay1 (ymblk1 W c ⟨n, h⟩) (accN1_s c n) else accN1_s c n

def accN1_q (c : Dev nD) : ℕ → FVec F S1x96 .f32
  | 0 => k1_pay4
  | n + 1 => if h : n < cfg1.N then k1_pay2 (ymblk1 W c ⟨n, h⟩) (accN1_q c n) else accN1_q c n

def acc1_s (c : Dev nD) (t : Fin (cfg1.N + 1)) : FVec F S1x96 .f32 := accN1_s W c t.val
def acc1_q (c : Dev nD) (t : Fin (cfg1.N + 1)) : FVec F S1x96 .f32 := accN1_q W c t.val

theorem accN1_s_zero (c : Dev nD) : accN1_s W c 0 = k1_pay3 := rfl
theorem accN1_q_zero (c : Dev nD) : accN1_q W c 0 = k1_pay4 := rfl
theorem accN1_s_succ (c : Dev nD) (t : Fin cfg1.N) :
    accN1_s W c (t.val + 1) = k1_pay1 (ymblk1 W c t) (accN1_s W c t.val) := by
  rw [accN1_s]; exact dif_pos t.isLt
theorem accN1_q_succ (c : Dev nD) (t : Fin cfg1.N) :
    accN1_q W c (t.val + 1) = k1_pay2 (ymblk1 W c t) (accN1_q W c t.val) := by
  rw [accN1_q]; exact dif_pos t.isLt

theorem acc1_reset {α : Type} (t : Fin cfg1.N) (A : ℕ → α) (d : α) :
    (if cond1_0 (grid1.coords t) then A 0 else if t.val = 0 then d else A t.val) = A t.val := by
  by_cases h : t.val = 0
  · rw [if_pos ((hcond1_0 t).mpr h), h]
  · rw [if_neg (h ∘ (hcond1_0 t).mp), if_neg h]

def Phi1 (c : Dev nD) (n : ℕ) : sProp 𝕄 :=
  iprop((∃ d e, owns (c : Thread nD τ) (Memref.whole cc1_scratch0) fullShare (if n = 0 then d else accN1_s W c n)
      ∗ owns (c : Thread nD τ) (Memref.whole cc1_scratch1) fullShare (if n = 0 then e else accN1_q W c n))
    ∗ Pipeline.scopedRestBut (Ix := Unit) (Name := ℕ) (U := UR sig nD τ) (Lvl := ℕ) (Val := Elt F) spec1 c [cc1_scratch0, cc1_scratch1]
    ∗ (∃ r, prngReg c r))

def dat1 (c : Dev nD) : Dat τ (Elt F) Unit ℕ (UR sig nD τ) ℕ cfg1 c where
  A w := Vr W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => yblk1 W c t
    | ⟨7, _⟩ => acc1_s W c t.succ
    | ⟨8, _⟩ => acc1_q W c t.succ
  Φ t := Phi1 W c t.val
  q _ := fullShare
  owed _ := 0

theorem dat1_A (c : Dev nD) (w : Fin cfg1.W) : (dat1 W c).A w = Vr W c (Pipeline.arrRef spec1 w) := by
  dsimp only [dat1]

theorem after1_6 (c : Dev nD) (t : Fin cfg1.N) : (dat1 W c).after 6 t = yblk1 W c t := by dsimp only [dat1]
theorem after1_7 (c : Dev nD) (t : Fin cfg1.N) : (dat1 W c).after 7 t = acc1_s W c t.succ := by dsimp only [dat1]
theorem after1_8 (c : Dev nD) (t : Fin cfg1.N) : (dat1 W c).after 8 t = acc1_q W c t.succ := by dsimp only [dat1]

theorem readAt_unit_zero1 {κ : Kind} {sp : Space} {d : Fin 2 → ℕ} {e : EltTy} (v : View sig κ sp ⟨2, d⟩ e) (f : v.ty.Contents (Elt F))
    (inb : ∀ a, (![0, 0] : Fin 2 → ℕ) a + d a ≤ d a) : v.readAt (Elt F) (Rect.unit (s := ⟨2, d⟩) ![0, 0] d inb).toLoadRect f = v.read (Elt F) f :=
  (View.readAt_eq_ld v f _).trans (View.ld_unit_zero hz1 inb _)

theorem read_writes_unit_zero1 {κ : Kind} {sp : Space} {d : Fin 2 → ℕ} {e : EltTy} (v : View sig κ sp ⟨2, d⟩ e) (f : v.ty.Contents (Elt F))
    (inb : ∀ a, (![0, 0] : Fin 2 → ℕ) a + d a ≤ d a) (w : Shape.Idx ⟨2, d⟩ → Elt F e) (L : List (View.Piece (Elt F) ⟨2, d⟩ e)) :
    v.read (Elt F) (v.writes (Elt F) f ((⟨Rect.unit ![0, 0] d inb, w⟩ : View.Piece (Elt F) ⟨2, d⟩ e) :: L)) = w := by
  rw [View.read_writes_eq_canon _ _ _ (fun y => ⟨_, List.mem_cons_self, View.mem_set_unit_zero hz1 inb y⟩), View.canon_cons_unit_zero hz1 inb]

theorem rep_read1 (c : Thread nD τ) {sp : Space} {S : Shape} {e : EltTy} (m : Memref sig c.2.kind sp S e) (g : m.view.ty.Contents (Elt F)) :
    (m.view.loc c ↦[m.view.set]{fullShare} g : sProp 𝕄) ⊢ (m.view.loc c ↦[m.view.set]{fullShare} m.view.rep (m.view.read (Elt F) g)) :=
  (owns_intro c m _ g).trans (rep_of_owns c m _ _)

set_option maxHeartbeats 1000000 in

theorem run1_any (c : Dev nD) (E : Set ℕ) (i : grid1.Coords) {arg1 : Memref sig .tc .vmem S5000x96 .f32} {harg1 : arg1.IsWhole} {arg2 : Memref sig .tc .vmem S5000x1 .f32} {harg2 : arg2.IsWhole} {arg3 : Memref sig .tc .vmem S5000x96 .f32} {harg3 : arg3.IsWhole} {arg4 : Memref sig .tc .vmem S96x96 .f32} {harg4 : arg4.IsWhole} {arg5 : Memref sig .tc .vmem S1x96 .f32} {harg5 : arg5.IsWhole} {arg6 : Memref sig .tc .vmem S96x96 .f32} {harg6 : arg6.IsWhole} {arg7 : Memref sig .tc .vmem S5000x96 .f32} {harg7 : arg7.IsWhole} {arg8 : Memref sig .tc .vmem S1x96 .f32} {harg8 : arg8.IsWhole} {arg9 : Memref sig .tc .vmem S1x96 .f32} {harg9 : arg9.IsWhole} {arg10 : Memref sig .tc .vmem S1x96 .f32} {harg10 : arg10.IsWhole} {arg11 : Memref sig .tc .vmem S1x96 .f32} {harg11 : arg11.IsWhole}
    (x0 : Vec F S5000x96 .f32) (x1 : Vec F S5000x1 .f32) (x2 : Vec F S5000x96 .f32) (x3 : Vec F S96x96 .f32) (x4 : Vec F S1x96 .f32) (x5 : Vec F S96x96 .f32) (d6 : Vec F S5000x96 .f32)
    (xi7 xi8 xs xq s q : Vec F S1x96 .f32) (hs : (if cond1_0 i then k1_pay3 else xs) = s) (hq : (if cond1_0 i then k1_pay4 else xq) = q) (K : PUnit → sProp 𝕄) :
    ⊢ iprop(owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare d6 -∗ owns (c : Thread nD τ) arg8 fullShare xi7 -∗ owns (c : Thread nD τ) arg9 fullShare xi8 -∗ owns (c : Thread nD τ) arg10 fullShare xs -∗ owns (c : Thread nD τ) arg11 fullShare xq
        -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare (k1_pay5 x0 x1 x3 x4 x2 x5) -∗ owns (c : Thread nD τ) arg8 fullShare (if k1_cond2 i = 1#1 then k1_pay1 (k1_pay6 i x0 x1 x3 x4 x2 x5) s else xi7) -∗ owns (c : Thread nD τ) arg9 fullShare (if k1_cond2 i = 1#1 then k1_pay2 (k1_pay6 i x0 x1 x3 x4 x2 x5) q else xi8) -∗ owns (c : Thread nD τ) arg10 fullShare (k1_pay1 (k1_pay6 i x0 x1 x3 x4 x2 x5) s) -∗ owns (c : Thread nD τ) arg11 fullShare (k1_pay2 (k1_pay6 i x0 x1 x3 x4 x2 x5) q) -∗ K ⟨⟩)
        -∗ wp frame (wpE (defs₀ (F := F)) Variants.none c none) E (cc1__combine_kernel_body i arg1 harg1 arg2 harg2 arg3 harg3 arg4 harg4 arg5 harg5 arg6 harg6 arg7 harg7 arg8 harg8 arg9 harg9 arg10 harg10 arg11 harg11) K) := by
  subst hs hq
  simp only [cc1__combine_kernel_body_eq_skeleton]; unfold cc1__combine_kernel_body_skel
  simp only [k1_part1_eq_skeleton]; unfold k1_part1_skel
  simp only [owns_eq_rep]
  iintro H0 H1 H2 H3 H4 H5 H6 H7 H8 HS HQ Hk
  sl_exec
  sl_step
  ihave H6 := rep_read1 c arg7 _ $$ H6
  ihave H7 := rep_read1 c arg8 _ $$ H7
  ihave H8 := rep_read1 c arg9 _ $$ H8
  ihave HS := rep_read1 c arg10 _ $$ HS
  ihave HQ := rep_read1 c arg11 _ $$ HQ
  sl_unfold_words
  simp only [readAt_unit_zero1, read_writes_unit_zero1, View.read_rep, View.readCov_unit_zero (S := S1x96) _ hz1, apply_dite (View.read _ _), apply_ite (View.read _ _), dite_eq_ite]
  iapply Hk $$ H0 H1 H2 H3 H4 H5 H6 H7 H8 HS HQ

theorem before1_in (c : Dev nD) (w : Fin cfg1.W) (h : w.val < 6) : ∀ t d, (dat1 W c).before w t d = (dat1 W c).fetched w t d := by
  fin_cases w <;> first | exact absurd h (by decide) | exact (dat1 W c).before_in_eq_fetched _ rfl (fun _ => rfl) (fun _ _ _ => rfl) (fun _ => rfl)

theorem after1_out (c : Dev nD) (t : Fin cfg1.N) (w : Fin cfg1.W) (hi : cfg1.idle w (grid1.coords t) = !(k1_cond2 (grid1.coords t) == 1#1))
    (hf : (cfg1.win w).flush t = true ↔ t.val % 20 = 19) (d) (X) (hX : X = (dat1 W c).after w t) :
    owns (c : Thread nD τ) ((cfg1.win w).stage (cfg1.slots t w)) fullShare (if k1_cond2 (grid1.coords t) = 1#1 then X else (dat1 W c).before w t d)
      ⊢ (dat1 W c).leavesExact w t := by
  subst hX
  by_cases h : k1_cond2 (grid1.coords t) = 1#1
  · unfold Dat.leavesExact; rw [hi, if_pos h, beq_iff_eq.mpr h]; exact .rfl
  · rw [if_neg h, (dat1 W c).leavesExact_idle w t (hi.trans (by simp only [beq_eq_false_iff_ne.mpr h, Bool.not_false]))
      (Bool.eq_false_iff.mpr fun hh => h ((hcond1_1 t).mpr (hf.mp hh)))]
    iintro H; iexists d; iexact H

set_option maxHeartbeats 4800000 in

theorem body_obligation1 (c : Dev nD) : BodyObligation (dat1 (F := F) W c) (defs₀ (F := F)) Variants.none () Set.univ := fun t => by
  rw [bigSep_W1, bigSep_W1]
  simp (disch := decide) only [before1_in W c, show ∀ k, (dat1 W c).Φ k = Phi1 W c k.val from fun _ => rfl, Phi1, Fin.coe_castSucc, Fin.val_succ,
    Nat.add_one_ne_zero, if_false, accN1_s_succ, accN1_q_succ]
  iintro ⟨⟨⟨%ds, %dq, HS, HQ⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run1_any c Set.univ (grid1.coords t) _ _ _ _ _ _ _ _ _ _ _ _ _
    (acc1_reset t (accN1_s W c) ds) (acc1_reset t (accN1_q W c) dq) _) $$ H0 H1 H2 H3 H4 H5 H6 H7 H8 HS HQ
  iintro H0 H1 H2 H3 H4 H5 H6 H7 H8 HS HQ
  isplitl [HS HQ Hr]
  · isplitl [HS HQ]
    · iexists ds, dq; isplitl [HS]; · iexact HS
      iexact HQ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (after1_out W c t 7 rfl (flush1_7 t) d7 _ (accN1_s_succ W c t).symm); iexact H7
  iapply (after1_out W c t 8 rfl (flush1_8 t) d8 _ (accN1_q_succ W c t).symm); iexact H8

theorem hin1 (c : Dev nD) (P : sProp 𝕄) :
    iprop(iprop(∃ r, prngReg c r) ∗ P ∗ Pipeline.scopedRest (Ix := Unit) (Name := ℕ) (U := UR sig nD τ) (Lvl := ℕ) (Val := Elt F) spec1 c)
      ⊢ (dat1 W c).Φ 0 := by
  rw [show (dat1 W c).Φ 0 = Phi1 W c 0 from rfl, Phi1, scopedRest1_split]
  simp only [owns_whole, eq_self_iff_true, if_true]
  iintro ⟨Hg, -, ⟨⟨%ds, HS⟩, ⟨%dq, HQ⟩⟩, Hr⟩
  isplitl [HS HQ]
  · iexists ds, dq; isplitl [HS]; · iexact HS
    iexact HQ
  isplitl [Hr]; · iexact Hr
  iexact Hg

theorem hout1 (c : Dev nD) :
    (dat1 W c).Φ (Fin.last cfg1.N)
      ⊢ iprop(iprop(∃ r, prngReg c r) ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec1 c) := by
  rw [Pipeline.ownSems0_none, show (dat1 W c).Φ (Fin.last cfg1.N) = Phi1 W c (Fin.last cfg1.N).val from rfl, Phi1, scopedRest1_split]
  simp only [owns_whole]
  iintro ⟨⟨%ds, %dq, HS, HQ⟩, Hr, Hg⟩
  isplitl [Hg]; · iexact Hg
  isplitr; · iempintro
  isplitl [HS HQ]
  · isplitl [HS]; · iexists _; iexact HS
    iexists _; iexact HQ
  iexact Hr

end Cert.Kernel.Hand

end
-- ==== Proof.K.Reg2.lean ====
import proofs.«402019_j40432822124917_2_alg».proof.Proof.Gen.Kernel.Skeleton
import proofs.«402019_j40432822124917_2_alg».proof.Proof.Gen.Kernel.Points
import proofs.«402019_j40432822124917_2_alg».proof.Proof.K.Common
import Idealize.ShloMosaic.Lib.Pipeline.FrameBody
import Idealize.ShloMosaic.Lib.Pipeline.TableIdle
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

def iblk2 (c : Dev nD) (w : Fin cfg2.W) (t : Fin cfg2.N) : ((cfg2.win w).xblock (cfg2.grid.coords t)).Idx → Elt F (cfg2.win w).elt :=
  ((cfg2.win w).blk t).view.read (Elt F) (Vr W c (Pipeline.arrRef spec2 w))

abbrev r2_0 : Rect S5000x96 := Rect.unit (s := S5000x96) ![0, 0] S5000x96.size inb_S5000x96_S5000x96_0_0
abbrev r2_1 : Rect S1x96 := Rect.unit (s := S1x96) ![0, 0] S1x96.size inb_S1x96_S1x96_0_0

def out2_5 (x0 : Vec F S5000x96 .f32) (x1 : Vec F S1x96 .f32) (x2 : Vec F S1x96 .f32) (x3 : Vec F S1x96 .f32)
    (x4 : Vec F S1x96 .f32) : Vec F S5000x96 .f32 :=
  View.canon [⟨r2_0, k2_pay1 (View.ld x2 r2_1) (View.ld x0 r2_0) (View.ld x1 r2_1) (View.ld x3 r2_1) (View.ld x4 r2_1)⟩]

def dat2 (c : Dev nD) : Dat τ (Elt F) Unit ℕ (UR sig nD τ) ℕ cfg2 c where
  A w := Vr W c (Pipeline.arrRef spec2 w)
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => iblk2 W c 4 t
    | ⟨5, _⟩ => out2_5 (iblk2 W c 0 t) (iblk2 W c 1 t) (iblk2 W c 2 t) (iblk2 W c 3 t) (iblk2 W c 4 t)
  Φ _ := Pipeline.ΦA spec2 c
  q _ := fullShare
  owed _ := 0

theorem dat2_A (c : Dev nD) (w : Fin cfg2.W) : (dat2 W c).A w = Vr W c (Pipeline.arrRef spec2 w) := by
  dsimp only [dat2]

theorem after2_5 (c : Dev nD) (t : Fin cfg2.N) :
    (dat2 W c).after 5 t = out2_5 (iblk2 W c 0 t) (iblk2 W c 1 t) (iblk2 W c 2 t) (iblk2 W c 3 t) (iblk2 W c 4 t) := by
  dsimp only [dat2]

theorem before2_in (c : Dev nD) (t : Fin cfg2.N) : ∀ (w : Fin cfg2.W) (_ : (cfg2.win w).isOut = false) (d),
    (dat2 W c).before w t d = (dat2 W c).after w t
  | 0, _, d | 1, _, d | 2, _, d | 3, _, d | 4, _, d =>
    (dat2 W c).before_in_eq_fetched _ rfl (fun _ => rfl) (fun _ _ _ => rfl) (fun _ => rfl) t d
  | 5, h, _ => nomatch h
  | ⟨_ + 6, h⟩, _, _ => absurd h (Nat.not_lt.2 (Nat.le_add_left _ _))

set_option maxHeartbeats 1000000 in

theorem body_obligation2 (c : Dev nD) : BodyObligation (dat2 (F := F) W c) (defs₀ (F := F)) Variants.none () Set.univ := fun t => by
  have b := before2_in W c t
  rw [bigSep_W2, bigSep_W2]
  simp only [b 0 rfl, b 1 rfl, b 2 rfl, b 3 rfl, b 4 rfl, after2_5, owns_eq_rep,
    show ∀ k, (dat2 W c).Φ k = Pipeline.ΦA spec2 c from fun _ => rfl]
  show _ ⊢ wp _ _ _ (bodyAt2 t) _
  unfold bodyAt2
  simp only [cc2__bn_kernel_eq_skeleton]; unfold cc2__bn_kernel_skel
  iintro ⟨HΦ, Ho, ⟨%_, Ha⟩, ⟨%_, Hb⟩, ⟨%_, Hc⟩, ⟨%_, Hd⟩, ⟨%_, He⟩, ⟨%_, Hf⟩⟩
  sl_exec
  sl_step
  iframe HΦ Ha Hb Hc Hd He
  isplitl [Ho]; · iexact Ho
  iapply rep_of_owns
  unfold owns
  iexists _; iframe Hf
  ipureintro
  rw [View.read_writes_eq_canon _ _ _ (View.cover_of_tiled _ S5000x96.size (by rfl))]
  unfold out2_5 body_obligation2.sl.v0 body_obligation2.sl.v5 body_obligation2.sl.v7 body_obligation2.sl.v13 body_obligation2.sl.v17
  simp only [View.readAt_rep]
  rfl

end Cert.Kernel.Hand

end
-- ==== Proof.K.Reg3.lean ====
import proofs.«402019_j40432822124917_2_alg».proof.Proof.K.Common
import proofs.«402019_j40432822124917_2_alg».proof.Proof.Gen.Kernel.Skeleton
import proofs.«402019_j40432822124917_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import Idealize.ShloMosaic.Lib.Pipeline.TableIdle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

def iblk3 (c : Dev nD) (w : Fin cfg3.W) (t : Fin cfg3.N) : ((cfg3.win w).xblock (cfg3.grid.coords t)).Idx → Elt F (cfg3.win w).elt :=
  ((cfg3.win w).blk t).view.read (Elt F) (Vr W c (Pipeline.arrRef spec3 w))

theorem hz3 : (![0, 0] : Fin 2 → Nat) = fun _ => 0 := funext fun a => by fin_cases a <;> rfl

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

theorem hcond3_1 : ∀ t : Fin cfg3.N, k3_cond2 (grid3.coords t) = 1#1 ↔ t.val % 20 = 19 :=
  (by decide +kernel : ∀ t : Fin grid3.N, k3_cond2 (grid3.coords t) = 1#1 ↔ t.val % 20 = 19)

def yblk3 (c : Dev nD) (t : Fin cfg3.N) : FVec F S5000x96 .f32 :=
  k3_pay5 (iblk3 W c 0 t) (iblk3 W c 1 t) (iblk3 W c 3 t) (iblk3 W c 4 t) (iblk3 W c 2 t) (iblk3 W c 5 t)

def ymblk3 (c : Dev nD) (t : Fin cfg3.N) : FVec F S5000x96 .f32 :=
  k3_pay6 (grid3.coords t) (iblk3 W c 0 t) (iblk3 W c 1 t) (iblk3 W c 3 t) (iblk3 W c 4 t) (iblk3 W c 2 t) (iblk3 W c 5 t)

def accN3_s (c : Dev nD) : ℕ → FVec F S1x96 .f32
  | 0 => k3_pay3
  | n + 1 => if h : n < cfg3.N then k3_pay1 (ymblk3 W c ⟨n, h⟩) (accN3_s c n) else accN3_s c n

def accN3_q (c : Dev nD) : ℕ → FVec F S1x96 .f32
  | 0 => k3_pay4
  | n + 1 => if h : n < cfg3.N then k3_pay2 (ymblk3 W c ⟨n, h⟩) (accN3_q c n) else accN3_q c n

def acc3_s (c : Dev nD) (t : Fin (cfg3.N + 1)) : FVec F S1x96 .f32 := accN3_s W c t.val
def acc3_q (c : Dev nD) (t : Fin (cfg3.N + 1)) : FVec F S1x96 .f32 := accN3_q W c t.val

theorem accN3_s_zero (c : Dev nD) : accN3_s W c 0 = k3_pay3 := rfl
theorem accN3_q_zero (c : Dev nD) : accN3_q W c 0 = k3_pay4 := rfl
theorem accN3_s_succ (c : Dev nD) (t : Fin cfg3.N) :
    accN3_s W c (t.val + 1) = k3_pay1 (ymblk3 W c t) (accN3_s W c t.val) := by
  rw [accN3_s]; exact dif_pos t.isLt
theorem accN3_q_succ (c : Dev nD) (t : Fin cfg3.N) :
    accN3_q W c (t.val + 1) = k3_pay2 (ymblk3 W c t) (accN3_q W c t.val) := by
  rw [accN3_q]; exact dif_pos t.isLt

theorem acc3_reset {α : Type} (t : Fin cfg3.N) (A : ℕ → α) (d : α) :
    (if cond3_0 (grid3.coords t) then A 0 else if t.val = 0 then d else A t.val) = A t.val := by
  by_cases h : t.val = 0
  · rw [if_pos ((hcond3_0 t).mpr h), h]
  · rw [if_neg (h ∘ (hcond3_0 t).mp), if_neg h]

def Phi3 (c : Dev nD) (n : ℕ) : sProp 𝕄 :=
  iprop((∃ d e, owns (c : Thread nD τ) (Memref.whole cc3_scratch0) fullShare (if n = 0 then d else accN3_s W c n)
      ∗ owns (c : Thread nD τ) (Memref.whole cc3_scratch1) fullShare (if n = 0 then e else accN3_q W c n))
    ∗ Pipeline.scopedRestBut (Ix := Unit) (Name := ℕ) (U := UR sig nD τ) (Lvl := ℕ) (Val := Elt F) spec3 c [cc3_scratch0, cc3_scratch1]
    ∗ (∃ r, prngReg c r))

def dat3 (c : Dev nD) : Dat τ (Elt F) Unit ℕ (UR sig nD τ) ℕ cfg3 c where
  A w := Vr W c (Pipeline.arrRef spec3 w)
  after w t := match w with
    | ⟨0, _⟩ => iblk3 W c 0 t
    | ⟨1, _⟩ => iblk3 W c 1 t
    | ⟨2, _⟩ => iblk3 W c 2 t
    | ⟨3, _⟩ => iblk3 W c 3 t
    | ⟨4, _⟩ => iblk3 W c 4 t
    | ⟨5, _⟩ => iblk3 W c 5 t
    | ⟨6, _⟩ => yblk3 W c t
    | ⟨7, _⟩ => acc3_s W c t.succ
    | ⟨8, _⟩ => acc3_q W c t.succ
  Φ t := Phi3 W c t.val
  q _ := fullShare
  owed _ := 0

theorem dat3_A (c : Dev nD) (w : Fin cfg3.W) : (dat3 W c).A w = Vr W c (Pipeline.arrRef spec3 w) := by
  dsimp only [dat3]

theorem after3_6 (c : Dev nD) (t : Fin cfg3.N) : (dat3 W c).after 6 t = yblk3 W c t := by dsimp only [dat3]
theorem after3_7 (c : Dev nD) (t : Fin cfg3.N) : (dat3 W c).after 7 t = acc3_s W c t.succ := by dsimp only [dat3]
theorem after3_8 (c : Dev nD) (t : Fin cfg3.N) : (dat3 W c).after 8 t = acc3_q W c t.succ := by dsimp only [dat3]

theorem readAt_unit_zero3 {κ : Kind} {sp : Space} {d : Fin 2 → ℕ} {e : EltTy} (v : View sig κ sp ⟨2, d⟩ e) (f : v.ty.Contents (Elt F))
    (inb : ∀ a, (![0, 0] : Fin 2 → ℕ) a + d a ≤ d a) : v.readAt (Elt F) (Rect.unit (s := ⟨2, d⟩) ![0, 0] d inb).toLoadRect f = v.read (Elt F) f :=
  (View.readAt_eq_ld v f _).trans (View.ld_unit_zero hz3 inb _)

theorem read_writes_unit_zero3 {κ : Kind} {sp : Space} {d : Fin 2 → ℕ} {e : EltTy} (v : View sig κ sp ⟨2, d⟩ e) (f : v.ty.Contents (Elt F))
    (inb : ∀ a, (![0, 0] : Fin 2 → ℕ) a + d a ≤ d a) (w : Shape.Idx ⟨2, d⟩ → Elt F e) (L : List (View.Piece (Elt F) ⟨2, d⟩ e)) :
    v.read (Elt F) (v.writes (Elt F) f ((⟨Rect.unit ![0, 0] d inb, w⟩ : View.Piece (Elt F) ⟨2, d⟩ e) :: L)) = w := by
  rw [View.read_writes_eq_canon _ _ _ (fun y => ⟨_, List.mem_cons_self, View.mem_set_unit_zero hz3 inb y⟩), View.canon_cons_unit_zero hz3 inb]

theorem rep_read3 (c : Thread nD τ) {sp : Space} {S : Shape} {e : EltTy} (m : Memref sig c.2.kind sp S e) (g : m.view.ty.Contents (Elt F)) :
    (m.view.loc c ↦[m.view.set]{fullShare} g : sProp 𝕄) ⊢ (m.view.loc c ↦[m.view.set]{fullShare} m.view.rep (m.view.read (Elt F) g)) :=
  (owns_intro c m _ g).trans (rep_of_owns c m _ _)

set_option maxHeartbeats 1000000 in

theorem run3_any (c : Dev nD) (E : Set ℕ) (i : grid3.Coords) {arg1 : Memref sig .tc .vmem S5000x96 .f32} {harg1 : arg1.IsWhole} {arg2 : Memref sig .tc .vmem S5000x1 .f32} {harg2 : arg2.IsWhole} {arg3 : Memref sig .tc .vmem S5000x96 .f32} {harg3 : arg3.IsWhole} {arg4 : Memref sig .tc .vmem S96x96 .f32} {harg4 : arg4.IsWhole} {arg5 : Memref sig .tc .vmem S1x96 .f32} {harg5 : arg5.IsWhole} {arg6 : Memref sig .tc .vmem S96x96 .f32} {harg6 : arg6.IsWhole} {arg7 : Memref sig .tc .vmem S5000x96 .f32} {harg7 : arg7.IsWhole} {arg8 : Memref sig .tc .vmem S1x96 .f32} {harg8 : arg8.IsWhole} {arg9 : Memref sig .tc .vmem S1x96 .f32} {harg9 : arg9.IsWhole} {arg10 : Memref sig .tc .vmem S1x96 .f32} {harg10 : arg10.IsWhole} {arg11 : Memref sig .tc .vmem S1x96 .f32} {harg11 : arg11.IsWhole}
    (x0 : Vec F S5000x96 .f32) (x1 : Vec F S5000x1 .f32) (x2 : Vec F S5000x96 .f32) (x3 : Vec F S96x96 .f32) (x4 : Vec F S1x96 .f32) (x5 : Vec F S96x96 .f32) (d6 : Vec F S5000x96 .f32)
    (xi7 xi8 xs xq s q : Vec F S1x96 .f32) (hs : (if cond3_0 i then k3_pay3 else xs) = s) (hq : (if cond3_0 i then k3_pay4 else xq) = q) (K : PUnit → sProp 𝕄) :
    ⊢ iprop(owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare d6 -∗ owns (c : Thread nD τ) arg8 fullShare xi7 -∗ owns (c : Thread nD τ) arg9 fullShare xi8 -∗ owns (c : Thread nD τ) arg10 fullShare xs -∗ owns (c : Thread nD τ) arg11 fullShare xq
        -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare (k3_pay5 x0 x1 x3 x4 x2 x5) -∗ owns (c : Thread nD τ) arg8 fullShare (if k3_cond2 i = 1#1 then k3_pay1 (k3_pay6 i x0 x1 x3 x4 x2 x5) s else xi7) -∗ owns (c : Thread nD τ) arg9 fullShare (if k3_cond2 i = 1#1 then k3_pay2 (k3_pay6 i x0 x1 x3 x4 x2 x5) q else xi8) -∗ owns (c : Thread nD τ) arg10 fullShare (k3_pay1 (k3_pay6 i x0 x1 x3 x4 x2 x5) s) -∗ owns (c : Thread nD τ) arg11 fullShare (k3_pay2 (k3_pay6 i x0 x1 x3 x4 x2 x5) q) -∗ K ⟨⟩)
        -∗ wp frame (wpE (defs₀ (F := F)) Variants.none c none) E (cc3__combine_kernel_body i arg1 harg1 arg2 harg2 arg3 harg3 arg4 harg4 arg5 harg5 arg6 harg6 arg7 harg7 arg8 harg8 arg9 harg9 arg10 harg10 arg11 harg11) K) := by
  subst hs hq
  simp only [cc3__combine_kernel_body_eq_skeleton]; unfold cc3__combine_kernel_body_skel
  simp only [k3_part1_eq_skeleton]; unfold k3_part1_skel
  simp only [owns_eq_rep]
  iintro H0 H1 H2 H3 H4 H5 H6 H7 H8 HS HQ Hk
  sl_exec
  sl_step
  ihave H6 := rep_read3 c arg7 _ $$ H6
  ihave H7 := rep_read3 c arg8 _ $$ H7
  ihave H8 := rep_read3 c arg9 _ $$ H8
  ihave HS := rep_read3 c arg10 _ $$ HS
  ihave HQ := rep_read3 c arg11 _ $$ HQ
  sl_unfold_words
  simp only [readAt_unit_zero3, read_writes_unit_zero3, View.read_rep, View.readCov_unit_zero (S := S1x96) _ hz3, apply_dite (View.read _ _), apply_ite (View.read _ _), dite_eq_ite]
  iapply Hk $$ H0 H1 H2 H3 H4 H5 H6 H7 H8 HS HQ

theorem before3_in (c : Dev nD) (w : Fin cfg3.W) (h : w.val < 6) : ∀ t d, (dat3 W c).before w t d = (dat3 W c).fetched w t d := by
  fin_cases w <;> first | exact absurd h (by decide) | exact (dat3 W c).before_in_eq_fetched _ rfl (fun _ => rfl) (fun _ _ _ => rfl) (fun _ => rfl)

theorem after3_out (c : Dev nD) (t : Fin cfg3.N) (w : Fin cfg3.W) (hi : cfg3.idle w (grid3.coords t) = !(k3_cond2 (grid3.coords t) == 1#1))
    (hf : (cfg3.win w).flush t = true ↔ t.val % 20 = 19) (d) (X) (hX : X = (dat3 W c).after w t) :
    owns (c : Thread nD τ) ((cfg3.win w).stage (cfg3.slots t w)) fullShare (if k3_cond2 (grid3.coords t) = 1#1 then X else (dat3 W c).before w t d)
      ⊢ (dat3 W c).leavesExact w t := by
  subst hX
  by_cases h : k3_cond2 (grid3.coords t) = 1#1
  · unfold Dat.leavesExact; rw [hi, if_pos h, beq_iff_eq.mpr h]; exact .rfl
  · rw [if_neg h, (dat3 W c).leavesExact_idle w t (hi.trans (by simp only [beq_eq_false_iff_ne.mpr h, Bool.not_false]))
      (Bool.eq_false_iff.mpr fun hh => h ((hcond3_1 t).mpr (hf.mp hh)))]
    iintro H; iexists d; iexact H

set_option maxHeartbeats 4800000 in

theorem body_obligation3 (c : Dev nD) : BodyObligation (dat3 (F := F) W c) (defs₀ (F := F)) Variants.none () Set.univ := fun t => by
  rw [bigSep_W3, bigSep_W3]
  simp (disch := decide) only [before3_in W c, show ∀ k, (dat3 W c).Φ k = Phi3 W c k.val from fun _ => rfl, Phi3, Fin.coe_castSucc, Fin.val_succ,
    Nat.add_one_ne_zero, if_false, accN3_s_succ, accN3_q_succ]
  iintro ⟨⟨⟨%ds, %dq, HS, HQ⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run3_any c Set.univ (grid3.coords t) _ _ _ _ _ _ _ _ _ _ _ _ _
    (acc3_reset t (accN3_s W c) ds) (acc3_reset t (accN3_q W c) dq) _) $$ H0 H1 H2 H3 H4 H5 H6 H7 H8 HS HQ
  iintro H0 H1 H2 H3 H4 H5 H6 H7 H8 HS HQ
  isplitl [HS HQ Hr]
  · isplitl [HS HQ]
    · iexists ds, dq; isplitl [HS]; · iexact HS
      iexact HQ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (after3_out W c t 7 rfl (flush3_7 t) d7 _ (accN3_s_succ W c t).symm); iexact H7
  iapply (after3_out W c t 8 rfl (flush3_8 t) d8 _ (accN3_q_succ W c t).symm); iexact H8

theorem hin3 (c : Dev nD) (P : sProp 𝕄) :
    iprop(iprop(∃ r, prngReg c r) ∗ P ∗ Pipeline.scopedRest (Ix := Unit) (Name := ℕ) (U := UR sig nD τ) (Lvl := ℕ) (Val := Elt F) spec3 c)
      ⊢ (dat3 W c).Φ 0 := by
  rw [show (dat3 W c).Φ 0 = Phi3 W c 0 from rfl, Phi3, scopedRest3_split]
  simp only [owns_whole, eq_self_iff_true, if_true]
  iintro ⟨Hg, -, ⟨⟨%ds, HS⟩, ⟨%dq, HQ⟩⟩, Hr⟩
  isplitl [HS HQ]
  · iexists ds, dq; isplitl [HS]; · iexact HS
    iexact HQ
  isplitl [Hr]; · iexact Hr
  iexact Hg

theorem hout3 (c : Dev nD) :
    (dat3 W c).Φ (Fin.last cfg3.N)
      ⊢ iprop(iprop(∃ r, prngReg c r) ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec3 c) := by
  rw [Pipeline.ownSems0_none, show (dat3 W c).Φ (Fin.last cfg3.N) = Phi3 W c (Fin.last cfg3.N).val from rfl, Phi3, scopedRest3_split]
  simp only [owns_whole]
  iintro ⟨⟨%ds, %dq, HS, HQ⟩, Hr, Hg⟩
  isplitl [Hg]; · iexact Hg
  isplitr; · iempintro
  isplitl [HS HQ]
  · isplitl [HS]; · iexists _; iexact HS
    iexists _; iexact HQ
  iexact Hr

end Cert.Kernel.Hand

end
-- ==== Proof.K.Reg4.lean ====
import proofs.«402019_j40432822124917_2_alg».proof.Proof.Gen.Kernel.Skeleton
import proofs.«402019_j40432822124917_2_alg».proof.Proof.Gen.Kernel.Points
import proofs.«402019_j40432822124917_2_alg».proof.Proof.K.Common
import Idealize.ShloMosaic.Lib.Pipeline.FrameBody
import Idealize.ShloMosaic.Lib.Pipeline.TableIdle
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

def iblk4 (c : Dev nD) (w : Fin cfg4.W) (t : Fin cfg4.N) : ((cfg4.win w).xblock (cfg4.grid.coords t)).Idx → Elt F (cfg4.win w).elt :=
  ((cfg4.win w).blk t).view.read (Elt F) (Vr W c (Pipeline.arrRef spec4 w))

abbrev r4_0 : Rect S5000x96 := Rect.unit (s := S5000x96) ![0, 0] S5000x96.size inb_S5000x96_S5000x96_0_0
abbrev r4_1 : Rect S1x96 := Rect.unit (s := S1x96) ![0, 0] S1x96.size inb_S1x96_S1x96_0_0

def out4_5 (x0 : Vec F S5000x96 .f32) (x1 : Vec F S1x96 .f32) (x2 : Vec F S1x96 .f32) (x3 : Vec F S1x96 .f32)
    (x4 : Vec F S1x96 .f32) : Vec F S5000x96 .f32 :=
  View.canon [⟨r4_0, k4_pay1 (View.ld x2 r4_1) (View.ld x0 r4_0) (View.ld x1 r4_1) (View.ld x3 r4_1) (View.ld x4 r4_1)⟩]

def dat4 (c : Dev nD) : Dat τ (Elt F) Unit ℕ (UR sig nD τ) ℕ cfg4 c where
  A w := Vr W c (Pipeline.arrRef spec4 w)
  after w t := match w with
    | ⟨0, _⟩ => iblk4 W c 0 t
    | ⟨1, _⟩ => iblk4 W c 1 t
    | ⟨2, _⟩ => iblk4 W c 2 t
    | ⟨3, _⟩ => iblk4 W c 3 t
    | ⟨4, _⟩ => iblk4 W c 4 t
    | ⟨5, _⟩ => out4_5 (iblk4 W c 0 t) (iblk4 W c 1 t) (iblk4 W c 2 t) (iblk4 W c 3 t) (iblk4 W c 4 t)
  Φ _ := Pipeline.ΦA spec4 c
  q _ := fullShare
  owed _ := 0

theorem dat4_A (c : Dev nD) (w : Fin cfg4.W) : (dat4 W c).A w = Vr W c (Pipeline.arrRef spec4 w) := by
  dsimp only [dat4]

theorem after4_5 (c : Dev nD) (t : Fin cfg4.N) :
    (dat4 W c).after 5 t = out4_5 (iblk4 W c 0 t) (iblk4 W c 1 t) (iblk4 W c 2 t) (iblk4 W c 3 t) (iblk4 W c 4 t) := by
  dsimp only [dat4]

theorem before4_in (c : Dev nD) (t : Fin cfg4.N) : ∀ (w : Fin cfg4.W) (_ : (cfg4.win w).isOut = false) (d),
    (dat4 W c).before w t d = (dat4 W c).after w t
  | 0, _, d | 1, _, d | 2, _, d | 3, _, d | 4, _, d =>
    (dat4 W c).before_in_eq_fetched _ rfl (fun _ => rfl) (fun _ _ _ => rfl) (fun _ => rfl) t d
  | 5, h, _ => nomatch h
  | ⟨_ + 6, h⟩, _, _ => absurd h (Nat.not_lt.2 (Nat.le_add_left _ _))

set_option maxHeartbeats 1000000 in

theorem body_obligation4 (c : Dev nD) : BodyObligation (dat4 (F := F) W c) (defs₀ (F := F)) Variants.none () Set.univ := fun t => by
  have b := before4_in W c t
  rw [bigSep_W4, bigSep_W4]
  simp only [b 0 rfl, b 1 rfl, b 2 rfl, b 3 rfl, b 4 rfl, after4_5, owns_eq_rep,
    show ∀ k, (dat4 W c).Φ k = Pipeline.ΦA spec4 c from fun _ => rfl]
  show _ ⊢ wp _ _ _ (bodyAt4 t) _
  unfold bodyAt4
  simp only [cc4__bn_kernel_eq_skeleton]; unfold cc4__bn_kernel_skel
  iintro ⟨HΦ, Ho, ⟨%_, Ha⟩, ⟨%_, Hb⟩, ⟨%_, Hc⟩, ⟨%_, Hd⟩, ⟨%_, He⟩, ⟨%_, Hf⟩⟩
  sl_exec
  sl_step
  iframe HΦ Ha Hb Hc Hd He
  isplitl [Ho]; · iexact Ho
  iapply rep_of_owns
  unfold owns
  iexists _; iframe Hf
  ipureintro
  rw [View.read_writes_eq_canon _ _ _ (View.cover_of_tiled _ S5000x96.size (by rfl))]
  unfold out4_5 body_obligation4.sl.v0 body_obligation4.sl.v5 body_obligation4.sl.v7 body_obligation4.sl.v13 body_obligation4.sl.v17
  simp only [View.readAt_rep]
  rfl

end Cert.Kernel.Hand

end
-- ==== Proof.K.Reg5.lean ====
import proofs.«402019_j40432822124917_2_alg».proof.Proof.K.Common
import proofs.«402019_j40432822124917_2_alg».proof.Proof.Gen.Kernel.Skeleton
import proofs.«402019_j40432822124917_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import Idealize.ShloMosaic.Lib.Pipeline.TableIdle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

def iblk5 (c : Dev nD) (w : Fin cfg5.W) (t : Fin cfg5.N) : ((cfg5.win w).xblock (cfg5.grid.coords t)).Idx → Elt F (cfg5.win w).elt :=
  ((cfg5.win w).blk t).view.read (Elt F) (Vr W c (Pipeline.arrRef spec5 w))

theorem hz5 : (![0, 0] : Fin 2 → Nat) = fun _ => 0 := funext fun a => by fin_cases a <;> rfl

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val = 0 :=
  (by decide +kernel : ∀ t : Fin grid5.N, cond5_0 (grid5.coords t) ↔ t.val = 0)

theorem hcond5_1 : ∀ t : Fin cfg5.N, k5_cond2 (grid5.coords t) = 1#1 ↔ t.val % 20 = 19 :=
  (by decide +kernel : ∀ t : Fin grid5.N, k5_cond2 (grid5.coords t) = 1#1 ↔ t.val % 20 = 19)

def yblk5 (c : Dev nD) (t : Fin cfg5.N) : FVec F S5000x96 .f32 :=
  k5_pay5 (iblk5 W c 0 t) (iblk5 W c 1 t) (iblk5 W c 3 t) (iblk5 W c 4 t) (iblk5 W c 2 t) (iblk5 W c 5 t)

def ymblk5 (c : Dev nD) (t : Fin cfg5.N) : FVec F S5000x96 .f32 :=
  k5_pay6 (grid5.coords t) (iblk5 W c 0 t) (iblk5 W c 1 t) (iblk5 W c 3 t) (iblk5 W c 4 t) (iblk5 W c 2 t) (iblk5 W c 5 t)

def accN5_s (c : Dev nD) : ℕ → FVec F S1x96 .f32
  | 0 => k5_pay3
  | n + 1 => if h : n < cfg5.N then k5_pay1 (ymblk5 W c ⟨n, h⟩) (accN5_s c n) else accN5_s c n

def accN5_q (c : Dev nD) : ℕ → FVec F S1x96 .f32
  | 0 => k5_pay4
  | n + 1 => if h : n < cfg5.N then k5_pay2 (ymblk5 W c ⟨n, h⟩) (accN5_q c n) else accN5_q c n

def acc5_s (c : Dev nD) (t : Fin (cfg5.N + 1)) : FVec F S1x96 .f32 := accN5_s W c t.val
def acc5_q (c : Dev nD) (t : Fin (cfg5.N + 1)) : FVec F S1x96 .f32 := accN5_q W c t.val

theorem accN5_s_zero (c : Dev nD) : accN5_s W c 0 = k5_pay3 := rfl
theorem accN5_q_zero (c : Dev nD) : accN5_q W c 0 = k5_pay4 := rfl
theorem accN5_s_succ (c : Dev nD) (t : Fin cfg5.N) :
    accN5_s W c (t.val + 1) = k5_pay1 (ymblk5 W c t) (accN5_s W c t.val) := by
  rw [accN5_s]; exact dif_pos t.isLt
theorem accN5_q_succ (c : Dev nD) (t : Fin cfg5.N) :
    accN5_q W c (t.val + 1) = k5_pay2 (ymblk5 W c t) (accN5_q W c t.val) := by
  rw [accN5_q]; exact dif_pos t.isLt

theorem acc5_reset {α : Type} (t : Fin cfg5.N) (A : ℕ → α) (d : α) :
    (if cond5_0 (grid5.coords t) then A 0 else if t.val = 0 then d else A t.val) = A t.val := by
  by_cases h : t.val = 0
  · rw [if_pos ((hcond5_0 t).mpr h), h]
  · rw [if_neg (h ∘ (hcond5_0 t).mp), if_neg h]

def Phi5 (c : Dev nD) (n : ℕ) : sProp 𝕄 :=
  iprop((∃ d e, owns (c : Thread nD τ) (Memref.whole cc5_scratch0) fullShare (if n = 0 then d else accN5_s W c n)
      ∗ owns (c : Thread nD τ) (Memref.whole cc5_scratch1) fullShare (if n = 0 then e else accN5_q W c n))
    ∗ Pipeline.scopedRestBut (Ix := Unit) (Name := ℕ) (U := UR sig nD τ) (Lvl := ℕ) (Val := Elt F) spec5 c [cc5_scratch0, cc5_scratch1]
    ∗ (∃ r, prngReg c r))

def dat5 (c : Dev nD) : Dat τ (Elt F) Unit ℕ (UR sig nD τ) ℕ cfg5 c where
  A w := Vr W c (Pipeline.arrRef spec5 w)
  after w t := match w with
    | ⟨0, _⟩ => iblk5 W c 0 t
    | ⟨1, _⟩ => iblk5 W c 1 t
    | ⟨2, _⟩ => iblk5 W c 2 t
    | ⟨3, _⟩ => iblk5 W c 3 t
    | ⟨4, _⟩ => iblk5 W c 4 t
    | ⟨5, _⟩ => iblk5 W c 5 t
    | ⟨6, _⟩ => yblk5 W c t
    | ⟨7, _⟩ => acc5_s W c t.succ
    | ⟨8, _⟩ => acc5_q W c t.succ
  Φ t := Phi5 W c t.val
  q _ := fullShare
  owed _ := 0

theorem dat5_A (c : Dev nD) (w : Fin cfg5.W) : (dat5 W c).A w = Vr W c (Pipeline.arrRef spec5 w) := by
  dsimp only [dat5]

theorem after5_6 (c : Dev nD) (t : Fin cfg5.N) : (dat5 W c).after 6 t = yblk5 W c t := by dsimp only [dat5]
theorem after5_7 (c : Dev nD) (t : Fin cfg5.N) : (dat5 W c).after 7 t = acc5_s W c t.succ := by dsimp only [dat5]
theorem after5_8 (c : Dev nD) (t : Fin cfg5.N) : (dat5 W c).after 8 t = acc5_q W c t.succ := by dsimp only [dat5]

theorem readAt_unit_zero5 {κ : Kind} {sp : Space} {d : Fin 2 → ℕ} {e : EltTy} (v : View sig κ sp ⟨2, d⟩ e) (f : v.ty.Contents (Elt F))
    (inb : ∀ a, (![0, 0] : Fin 2 → ℕ) a + d a ≤ d a) : v.readAt (Elt F) (Rect.unit (s := ⟨2, d⟩) ![0, 0] d inb).toLoadRect f = v.read (Elt F) f :=
  (View.readAt_eq_ld v f _).trans (View.ld_unit_zero hz5 inb _)

theorem read_writes_unit_zero5 {κ : Kind} {sp : Space} {d : Fin 2 → ℕ} {e : EltTy} (v : View sig κ sp ⟨2, d⟩ e) (f : v.ty.Contents (Elt F))
    (inb : ∀ a, (![0, 0] : Fin 2 → ℕ) a + d a ≤ d a) (w : Shape.Idx ⟨2, d⟩ → Elt F e) (L : List (View.Piece (Elt F) ⟨2, d⟩ e)) :
    v.read (Elt F) (v.writes (Elt F) f ((⟨Rect.unit ![0, 0] d inb, w⟩ : View.Piece (Elt F) ⟨2, d⟩ e) :: L)) = w := by
  rw [View.read_writes_eq_canon _ _ _ (fun y => ⟨_, List.mem_cons_self, View.mem_set_unit_zero hz5 inb y⟩), View.canon_cons_unit_zero hz5 inb]

theorem rep_read5 (c : Thread nD τ) {sp : Space} {S : Shape} {e : EltTy} (m : Memref sig c.2.kind sp S e) (g : m.view.ty.Contents (Elt F)) :
    (m.view.loc c ↦[m.view.set]{fullShare} g : sProp 𝕄) ⊢ (m.view.loc c ↦[m.view.set]{fullShare} m.view.rep (m.view.read (Elt F) g)) :=
  (owns_intro c m _ g).trans (rep_of_owns c m _ _)

set_option maxHeartbeats 1000000 in

theorem run5_any (c : Dev nD) (E : Set ℕ) (i : grid5.Coords) {arg1 : Memref sig .tc .vmem S5000x96 .f32} {harg1 : arg1.IsWhole} {arg2 : Memref sig .tc .vmem S5000x1 .f32} {harg2 : arg2.IsWhole} {arg3 : Memref sig .tc .vmem S5000x96 .f32} {harg3 : arg3.IsWhole} {arg4 : Memref sig .tc .vmem S96x96 .f32} {harg4 : arg4.IsWhole} {arg5 : Memref sig .tc .vmem S1x96 .f32} {harg5 : arg5.IsWhole} {arg6 : Memref sig .tc .vmem S96x96 .f32} {harg6 : arg6.IsWhole} {arg7 : Memref sig .tc .vmem S5000x96 .f32} {harg7 : arg7.IsWhole} {arg8 : Memref sig .tc .vmem S1x96 .f32} {harg8 : arg8.IsWhole} {arg9 : Memref sig .tc .vmem S1x96 .f32} {harg9 : arg9.IsWhole} {arg10 : Memref sig .tc .vmem S1x96 .f32} {harg10 : arg10.IsWhole} {arg11 : Memref sig .tc .vmem S1x96 .f32} {harg11 : arg11.IsWhole}
    (x0 : Vec F S5000x96 .f32) (x1 : Vec F S5000x1 .f32) (x2 : Vec F S5000x96 .f32) (x3 : Vec F S96x96 .f32) (x4 : Vec F S1x96 .f32) (x5 : Vec F S96x96 .f32) (d6 : Vec F S5000x96 .f32)
    (xi7 xi8 xs xq s q : Vec F S1x96 .f32) (hs : (if cond5_0 i then k5_pay3 else xs) = s) (hq : (if cond5_0 i then k5_pay4 else xq) = q) (K : PUnit → sProp 𝕄) :
    ⊢ iprop(owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare d6 -∗ owns (c : Thread nD τ) arg8 fullShare xi7 -∗ owns (c : Thread nD τ) arg9 fullShare xi8 -∗ owns (c : Thread nD τ) arg10 fullShare xs -∗ owns (c : Thread nD τ) arg11 fullShare xq
        -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare (k5_pay5 x0 x1 x3 x4 x2 x5) -∗ owns (c : Thread nD τ) arg8 fullShare (if k5_cond2 i = 1#1 then k5_pay1 (k5_pay6 i x0 x1 x3 x4 x2 x5) s else xi7) -∗ owns (c : Thread nD τ) arg9 fullShare (if k5_cond2 i = 1#1 then k5_pay2 (k5_pay6 i x0 x1 x3 x4 x2 x5) q else xi8) -∗ owns (c : Thread nD τ) arg10 fullShare (k5_pay1 (k5_pay6 i x0 x1 x3 x4 x2 x5) s) -∗ owns (c : Thread nD τ) arg11 fullShare (k5_pay2 (k5_pay6 i x0 x1 x3 x4 x2 x5) q) -∗ K ⟨⟩)
        -∗ wp frame (wpE (defs₀ (F := F)) Variants.none c none) E (cc5__combine_kernel_body i arg1 harg1 arg2 harg2 arg3 harg3 arg4 harg4 arg5 harg5 arg6 harg6 arg7 harg7 arg8 harg8 arg9 harg9 arg10 harg10 arg11 harg11) K) := by
  subst hs hq
  simp only [cc5__combine_kernel_body_eq_skeleton]; unfold cc5__combine_kernel_body_skel
  simp only [k5_part1_eq_skeleton]; unfold k5_part1_skel
  simp only [owns_eq_rep]
  iintro H0 H1 H2 H3 H4 H5 H6 H7 H8 HS HQ Hk
  sl_exec
  sl_step
  ihave H6 := rep_read5 c arg7 _ $$ H6
  ihave H7 := rep_read5 c arg8 _ $$ H7
  ihave H8 := rep_read5 c arg9 _ $$ H8
  ihave HS := rep_read5 c arg10 _ $$ HS
  ihave HQ := rep_read5 c arg11 _ $$ HQ
  sl_unfold_words
  simp only [readAt_unit_zero5, read_writes_unit_zero5, View.read_rep, View.readCov_unit_zero (S := S1x96) _ hz5, apply_dite (View.read _ _), apply_ite (View.read _ _), dite_eq_ite]
  iapply Hk $$ H0 H1 H2 H3 H4 H5 H6 H7 H8 HS HQ

theorem before5_in (c : Dev nD) (w : Fin cfg5.W) (h : w.val < 6) : ∀ t d, (dat5 W c).before w t d = (dat5 W c).fetched w t d := by
  fin_cases w <;> first | exact absurd h (by decide) | exact (dat5 W c).before_in_eq_fetched _ rfl (fun _ => rfl) (fun _ _ _ => rfl) (fun _ => rfl)

theorem after5_out (c : Dev nD) (t : Fin cfg5.N) (w : Fin cfg5.W) (hi : cfg5.idle w (grid5.coords t) = !(k5_cond2 (grid5.coords t) == 1#1))
    (hf : (cfg5.win w).flush t = true ↔ t.val % 20 = 19) (d) (X) (hX : X = (dat5 W c).after w t) :
    owns (c : Thread nD τ) ((cfg5.win w).stage (cfg5.slots t w)) fullShare (if k5_cond2 (grid5.coords t) = 1#1 then X else (dat5 W c).before w t d)
      ⊢ (dat5 W c).leavesExact w t := by
  subst hX
  by_cases h : k5_cond2 (grid5.coords t) = 1#1
  · unfold Dat.leavesExact; rw [hi, if_pos h, beq_iff_eq.mpr h]; exact .rfl
  · rw [if_neg h, (dat5 W c).leavesExact_idle w t (hi.trans (by simp only [beq_eq_false_iff_ne.mpr h, Bool.not_false]))
      (Bool.eq_false_iff.mpr fun hh => h ((hcond5_1 t).mpr (hf.mp hh)))]
    iintro H; iexists d; iexact H

set_option maxHeartbeats 4800000 in

theorem body_obligation5 (c : Dev nD) : BodyObligation (dat5 (F := F) W c) (defs₀ (F := F)) Variants.none () Set.univ := fun t => by
  rw [bigSep_W5, bigSep_W5]
  simp (disch := decide) only [before5_in W c, show ∀ k, (dat5 W c).Φ k = Phi5 W c k.val from fun _ => rfl, Phi5, Fin.coe_castSucc, Fin.val_succ,
    Nat.add_one_ne_zero, if_false, accN5_s_succ, accN5_q_succ]
  iintro ⟨⟨⟨%ds, %dq, HS, HQ⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run5_any c Set.univ (grid5.coords t) _ _ _ _ _ _ _ _ _ _ _ _ _
    (acc5_reset t (accN5_s W c) ds) (acc5_reset t (accN5_q W c) dq) _) $$ H0 H1 H2 H3 H4 H5 H6 H7 H8 HS HQ
  iintro H0 H1 H2 H3 H4 H5 H6 H7 H8 HS HQ
  isplitl [HS HQ Hr]
  · isplitl [HS HQ]
    · iexists ds, dq; isplitl [HS]; · iexact HS
      iexact HQ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (after5_out W c t 7 rfl (flush5_7 t) d7 _ (accN5_s_succ W c t).symm); iexact H7
  iapply (after5_out W c t 8 rfl (flush5_8 t) d8 _ (accN5_q_succ W c t).symm); iexact H8

theorem hin5 (c : Dev nD) (P : sProp 𝕄) :
    iprop(iprop(∃ r, prngReg c r) ∗ P ∗ Pipeline.scopedRest (Ix := Unit) (Name := ℕ) (U := UR sig nD τ) (Lvl := ℕ) (Val := Elt F) spec5 c)
      ⊢ (dat5 W c).Φ 0 := by
  rw [show (dat5 W c).Φ 0 = Phi5 W c 0 from rfl, Phi5, scopedRest5_split]
  simp only [owns_whole, eq_self_iff_true, if_true]
  iintro ⟨Hg, -, ⟨⟨%ds, HS⟩, ⟨%dq, HQ⟩⟩, Hr⟩
  isplitl [HS HQ]
  · iexists ds, dq; isplitl [HS]; · iexact HS
    iexact HQ
  isplitl [Hr]; · iexact Hr
  iexact Hg

theorem hout5 (c : Dev nD) :
    (dat5 W c).Φ (Fin.last cfg5.N)
      ⊢ iprop(iprop(∃ r, prngReg c r) ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec5 c) := by
  rw [Pipeline.ownSems0_none, show (dat5 W c).Φ (Fin.last cfg5.N) = Phi5 W c (Fin.last cfg5.N).val from rfl, Phi5, scopedRest5_split]
  simp only [owns_whole]
  iintro ⟨⟨%ds, %dq, HS, HQ⟩, Hr, Hg⟩
  isplitl [Hg]; · iexact Hg
  isplitr; · iempintro
  isplitl [HS HQ]
  · isplitl [HS]; · iexists _; iexact HS
    iexists _; iexact HQ
  iexact Hr

end Cert.Kernel.Hand

end
-- ==== Proof.K.Reg6.lean ====
import proofs.«402019_j40432822124917_2_alg».proof.Proof.Gen.Kernel.Skeleton
import proofs.«402019_j40432822124917_2_alg».proof.Proof.Gen.Kernel.Points
import proofs.«402019_j40432822124917_2_alg».proof.Proof.K.Common
import Idealize.ShloMosaic.Lib.Pipeline.FrameBody
import Idealize.ShloMosaic.Lib.Pipeline.TableIdle
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

def iblk6 (c : Dev nD) (w : Fin cfg6.W) (t : Fin cfg6.N) : ((cfg6.win w).xblock (cfg6.grid.coords t)).Idx → Elt F (cfg6.win w).elt :=
  ((cfg6.win w).blk t).view.read (Elt F) (Vr W c (Pipeline.arrRef spec6 w))

abbrev r6_0 : Rect S5000x96 := Rect.unit (s := S5000x96) ![0, 0] S5000x96.size inb_S5000x96_S5000x96_0_0
abbrev r6_1 : Rect S1x96 := Rect.unit (s := S1x96) ![0, 0] S1x96.size inb_S1x96_S1x96_0_0

def out6_5 (x0 : Vec F S5000x96 .f32) (x1 : Vec F S1x96 .f32) (x2 : Vec F S1x96 .f32) (x3 : Vec F S1x96 .f32)
    (x4 : Vec F S1x96 .f32) : Vec F S5000x96 .f32 :=
  View.canon [⟨r6_0, k6_pay1 (View.ld x2 r6_1) (View.ld x0 r6_0) (View.ld x1 r6_1) (View.ld x3 r6_1) (View.ld x4 r6_1)⟩]

def dat6 (c : Dev nD) : Dat τ (Elt F) Unit ℕ (UR sig nD τ) ℕ cfg6 c where
  A w := Vr W c (Pipeline.arrRef spec6 w)
  after w t := match w with
    | ⟨0, _⟩ => iblk6 W c 0 t
    | ⟨1, _⟩ => iblk6 W c 1 t
    | ⟨2, _⟩ => iblk6 W c 2 t
    | ⟨3, _⟩ => iblk6 W c 3 t
    | ⟨4, _⟩ => iblk6 W c 4 t
    | ⟨5, _⟩ => out6_5 (iblk6 W c 0 t) (iblk6 W c 1 t) (iblk6 W c 2 t) (iblk6 W c 3 t) (iblk6 W c 4 t)
  Φ _ := Pipeline.ΦA spec6 c
  q _ := fullShare
  owed _ := 0

theorem dat6_A (c : Dev nD) (w : Fin cfg6.W) : (dat6 W c).A w = Vr W c (Pipeline.arrRef spec6 w) := by
  dsimp only [dat6]

theorem after6_5 (c : Dev nD) (t : Fin cfg6.N) :
    (dat6 W c).after 5 t = out6_5 (iblk6 W c 0 t) (iblk6 W c 1 t) (iblk6 W c 2 t) (iblk6 W c 3 t) (iblk6 W c 4 t) := by
  dsimp only [dat6]

theorem before6_in (c : Dev nD) (t : Fin cfg6.N) : ∀ (w : Fin cfg6.W) (_ : (cfg6.win w).isOut = false) (d),
    (dat6 W c).before w t d = (dat6 W c).after w t
  | 0, _, d | 1, _, d | 2, _, d | 3, _, d | 4, _, d =>
    (dat6 W c).before_in_eq_fetched _ rfl (fun _ => rfl) (fun _ _ _ => rfl) (fun _ => rfl) t d
  | 5, h, _ => nomatch h
  | ⟨_ + 6, h⟩, _, _ => absurd h (Nat.not_lt.2 (Nat.le_add_left _ _))

set_option maxHeartbeats 1000000 in

theorem body_obligation6 (c : Dev nD) : BodyObligation (dat6 (F := F) W c) (defs₀ (F := F)) Variants.none () Set.univ := fun t => by
  have b := before6_in W c t
  rw [bigSep_W6, bigSep_W6]
  simp only [b 0 rfl, b 1 rfl, b 2 rfl, b 3 rfl, b 4 rfl, after6_5, owns_eq_rep,
    show ∀ k, (dat6 W c).Φ k = Pipeline.ΦA spec6 c from fun _ => rfl]
  show _ ⊢ wp _ _ _ (bodyAt6 t) _
  unfold bodyAt6
  simp only [cc6__bn_kernel_eq_skeleton]; unfold cc6__bn_kernel_skel
  iintro ⟨HΦ, Ho, ⟨%_, Ha⟩, ⟨%_, Hb⟩, ⟨%_, Hc⟩, ⟨%_, Hd⟩, ⟨%_, He⟩, ⟨%_, Hf⟩⟩
  sl_exec
  sl_step
  iframe HΦ Ha Hb Hc Hd He
  isplitl [Ho]; · iexact Ho
  iapply rep_of_owns
  unfold owns
  iexists _; iframe Hf
  ipureintro
  rw [View.read_writes_eq_canon _ _ _ (View.cover_of_tiled _ S5000x96.size (by rfl))]
  unfold out6_5 body_obligation6.sl.v0 body_obligation6.sl.v5 body_obligation6.sl.v7 body_obligation6.sl.v13 body_obligation6.sl.v17
  simp only [View.readAt_rep]
  rfl

end Cert.Kernel.Hand

end
-- ==== Proof.K.Reg7.lean ====
import proofs.«402019_j40432822124917_2_alg».proof.Proof.Gen.Kernel.Skeleton
import proofs.«402019_j40432822124917_2_alg».proof.Proof.Gen.Kernel.Points
import proofs.«402019_j40432822124917_2_alg».proof.Proof.K.Common
import Idealize.ShloMosaic.Lib.Pipeline.FrameBody
import Idealize.ShloMosaic.Lib.Pipeline.TableIdle
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

def iblk7 (c : Dev nD) (w : Fin cfg7.W) (t : Fin cfg7.N) : ((cfg7.win w).xblock (cfg7.grid.coords t)).Idx → Elt F (cfg7.win w).elt :=
  ((cfg7.win w).blk t).view.read (Elt F) (Vr W c (Pipeline.arrRef spec7 w))

abbrev r7_0 : Rect S512x1 := Rect.unit (s := S512x1) ![0, 0] S512x1.size inb_S512x1_S512x1_0_0

def out7_5 (x0 : Vec F S512x96 .f32) (x1 : Vec F S96x96 .f32) (x2 : Vec F S1x96 .f32) (x3 : Vec F S96x1 .f32) (x4 : Vec F S1x1 .f32) : Vec F S512x1 .f32 :=
  View.canon [⟨r7_0, k7_pay1 (View.ld x0 (Rect.unit (s := S512x96) ![0, 0] S512x96.size inb_S512x96_S512x96_0_0)) (View.ld x1 (Rect.unit (s := S96x96) ![0, 0] S96x96.size inb_S96x96_S96x96_0_0)) (View.ld x2 (Rect.unit (s := S1x96) ![0, 0] S1x96.size inb_S1x96_S1x96_0_0)) (View.ld x3 (Rect.unit (s := S96x1) ![0, 0] S96x1.size inb_S96x1_S96x1_0_0)) (View.ld x4 (Rect.unit (s := S1x1) ![0, 0] S1x1.size inb_S1x1_S1x1_0_0))⟩]

def dat7 (c : Dev nD) : Dat τ (Elt F) Unit ℕ (UR sig nD τ) ℕ cfg7 c where
  A w := Vr W c (Pipeline.arrRef spec7 w)
  after w t := match w with
    | ⟨0, _⟩ => iblk7 W c 0 t
    | ⟨1, _⟩ => iblk7 W c 1 t
    | ⟨2, _⟩ => iblk7 W c 2 t
    | ⟨3, _⟩ => iblk7 W c 3 t
    | ⟨4, _⟩ => iblk7 W c 4 t
    | ⟨5, _⟩ => out7_5 (iblk7 W c 0 t) (iblk7 W c 1 t) (iblk7 W c 2 t) (iblk7 W c 3 t) (iblk7 W c 4 t)
  Φ _ := Pipeline.ΦA spec7 c
  q _ := fullShare
  owed _ := 0

theorem dat7_A (c : Dev nD) (w : Fin cfg7.W) : (dat7 W c).A w = Vr W c (Pipeline.arrRef spec7 w) := by
  dsimp only [dat7]

theorem after7_5 (c : Dev nD) (t : Fin cfg7.N) : (dat7 W c).after 5 t
    = out7_5 (iblk7 W c 0 t) (iblk7 W c 1 t) (iblk7 W c 2 t) (iblk7 W c 3 t) (iblk7 W c 4 t) := by
  dsimp only [dat7]

theorem before7_in (c : Dev nD) (t : Fin cfg7.N) : ∀ (w : Fin cfg7.W) (_ : (cfg7.win w).isOut = false) (d),
    (dat7 W c).before w t d = (dat7 W c).after w t
  | 0, _, d | 1, _, d | 2, _, d | 3, _, d | 4, _, d =>
    (dat7 W c).before_in_eq_fetched _ rfl (fun _ => rfl) (fun _ _ _ => rfl) (fun _ => rfl) t d
  | 5, h, _ => nomatch h
  | ⟨_ + 6, h⟩, _, _ => absurd h (Nat.not_lt.2 (Nat.le_add_left _ _))

set_option maxHeartbeats 1000000 in

theorem body_obligation7 (c : Dev nD) : BodyObligation (dat7 (F := F) W c) (defs₀ (F := F)) Variants.none () Set.univ := fun t => by
  have b := before7_in W c t
  rw [bigSep_W7, bigSep_W7]
  simp only [b 0 rfl, b 1 rfl, b 2 rfl, b 3 rfl, b 4 rfl, after7_5, owns_eq_rep,
    show ∀ k, (dat7 W c).Φ k = Pipeline.ΦA spec7 c from fun _ => rfl]
  show _ ⊢ wp _ _ _ (bodyAt7 t) _
  unfold bodyAt7
  simp only [cc7__head_kernel_eq_skeleton]; unfold cc7__head_kernel_skel
  iintro ⟨HΦ, Ho, ⟨%_, Ha⟩, ⟨%_, Hb⟩, ⟨%_, Hc⟩, ⟨%_, Hd⟩, ⟨%_, He⟩, ⟨%_, Hf⟩⟩
  sl_exec
  sl_step
  iframe HΦ Ha Hb Hc Hd He
  isplitl [Ho]; · iexact Ho
  iapply rep_of_owns
  unfold owns
  iexists _; iframe Hf
  ipureintro
  rw [View.read_writes_eq_canon _ _ _ (View.cover_of_tiled _ S512x1.size (by rfl))]
  unfold out7_5 body_obligation7.sl.v0 body_obligation7.sl.v2 body_obligation7.sl.v4 body_obligation7.sl.v10 body_obligation7.sl.v12
  simp only [View.readAt_rep]
  rfl

end Cert.Kernel.Hand

end
-- ==== Proof.K.Chain.lean ====
import proofs.«402019_j40432822124917_2_alg».proof.Proof.Gen.Kernel.Regions
import proofs.«402019_j40432822124917_2_alg».proof.Proof.K.Reg0
import proofs.«402019_j40432822124917_2_alg».proof.Proof.K.Reg1
import proofs.«402019_j40432822124917_2_alg».proof.Proof.K.Reg2
import proofs.«402019_j40432822124917_2_alg».proof.Proof.K.Reg3
import proofs.«402019_j40432822124917_2_alg».proof.Proof.K.Reg4
import proofs.«402019_j40432822124917_2_alg».proof.Proof.K.Reg5
import proofs.«402019_j40432822124917_2_alg».proof.Proof.K.Reg6
import proofs.«402019_j40432822124917_2_alg».proof.Proof.K.Reg7

noncomputable section

namespace Cert.Kernel.Hand

open Idealize.ShloMosaic Idealize.ShloMosaic.TcCoe
open Cert.Kernel Cert.Kernel.Gen

variable {F : FTy → Type} [FloatOps F]

variable (m : (ℓ : Loc nD τ sig) → Buf (Elt F) ℓ)

section
variable {gr W : ℕ} (spec : Fin W → Pipeline.WinSpec sig gr)
  (a : (w : Fin W) → (Proc.devRef (τ := τ) .tc (Pipeline.arrRef spec w)).ty.Contents (Elt F))

private abbrev upd (V : Valuation τ sig (Elt F)) (os : List (Fin W)) : Valuation τ sig (Elt F) :=
  os.foldl (fun V o => Function.update V (Pipeline.arrRef spec o) (a o)) V

private theorem upd_rest : ∀ (os : List (Fin W)) (V : Valuation τ sig (Elt F)) (b : Ref sig .tc),
    b ∉ Finset.univ.image (Pipeline.arrRef spec) → upd spec a V os b = V b
  | [], _, _, _ => rfl
  | o :: os, _, b, h => (upd_rest os _ b h).trans (Function.update_of_ne (StableHlo.devRef_ne_of_ne
    (ne_of_mem_of_not_mem (Finset.mem_image_of_mem _ (Finset.mem_univ o)) h).symm) ..)

private theorem upd_arr (hs : Function.Injective (Pipeline.arrRef spec)) : ∀ (os : List (Fin W)) (V : Valuation τ sig (Elt F)) (w : Fin W),
    (w ∉ os → a w = V (Pipeline.arrRef spec w)) → a w = upd spec a V os (Pipeline.arrRef spec w)
  | [], _, _, h => h List.not_mem_nil
  | o :: os, _, w, h => upd_arr hs os _ w fun hw => by
    by_cases e : w = o
    · subst e; exact Eq.symm (Function.update_self ..)
    · exact (h (List.not_mem_cons_of_ne_of_not_mem e hw)).trans (Eq.symm (Function.update_of_ne (StableHlo.devRef_ne_of_ne (hs.ne e)) ..))
end

section
variable {cfg : Pipeline.Cfg sig Λ₀} {c : Dev nD} (d : Pipeline.Dat τ (Elt F) Unit ℕ (UR sig nD τ) ℕ cfg c)
  (V : Valuation τ sig (Elt F)) (os : List (Fin cfg.W))

private abbrev exit : Valuation τ sig (Elt F) := upd cfg.spec (d.arrAt · cfg.N) V os

private theorem exit_rest : ∀ b : Ref sig .tc, b ∉ Finset.univ.image (Pipeline.arrRef cfg.spec) → exit d V os b = V b :=
  upd_rest _ _ os V

private theorem exit_arr (hs : Function.Injective (Pipeline.arrRef cfg.spec)) (hA : ∀ w, d.A w = V (Pipeline.arrRef cfg.spec w))
    (ho : ∀ w, w ∉ os → (cfg.spec w).isOut = false) (w : Fin cfg.W) :
    d.arrAt w cfg.N = exit d V os (Pipeline.arrRef cfg.spec w) :=
  upd_arr _ (d.arrAt · cfg.N) hs os V w fun h => (d.arrAt_in w (ho w h) _).trans (hA w)
end

def B1 (c : Dev nD) : Valuation τ sig (Elt F) := Gen.V1 m c
def o2_3 (c : Dev nD) : Buf (Elt F) ((c : Thread nD τ).loc main_v5) := (dat0 (B1 m) c).arrAt 3 cfg0.N
def B2 (c : Dev nD) : Valuation τ sig (Elt F) := Function.update (B1 m c) main_v5 (o2_3 m c)
def B5 (c : Dev nD) : Valuation τ sig (Elt F) := StableHlo.after hostOps1_2 (StableHlo.after hostOps1_1 (StableHlo.after hostOps1 (B2 m c)))
def o6_6 (c : Dev nD) : Buf (Elt F) ((c : Thread nD τ).loc main_v26_0) := (dat1 (B5 m) c).arrAt 6 cfg1.N
def o6_7 (c : Dev nD) : Buf (Elt F) ((c : Thread nD τ).loc main_v26_1) := (dat1 (B5 m) c).arrAt 7 cfg1.N
def o6_8 (c : Dev nD) : Buf (Elt F) ((c : Thread nD τ).loc main_v26_2) := (dat1 (B5 m) c).arrAt 8 cfg1.N
def B6 (c : Dev nD) : Valuation τ sig (Elt F) := Function.update (Function.update (Function.update (B5 m c) main_v26_0 (o6_6 m c)) main_v26_1 (o6_7 m c)) main_v26_2 (o6_8 m c)
def B7 (c : Dev nD) : Valuation τ sig (Elt F) := StableHlo.after hostOps2 (B6 m c)
def o8_5 (c : Dev nD) : Buf (Elt F) ((c : Thread nD τ).loc main_v45) := (dat2 (B7 m) c).arrAt 5 cfg2.N
def B8 (c : Dev nD) : Valuation τ sig (Elt F) := Function.update (B7 m c) main_v45 (o8_5 m c)
def B10 (c : Dev nD) : Valuation τ sig (Elt F) := StableHlo.after hostOps3_1 (StableHlo.after hostOps3 (B8 m c))
def o11_6 (c : Dev nD) : Buf (Elt F) ((c : Thread nD τ).loc main_v57_0) := (dat3 (B10 m) c).arrAt 6 cfg3.N
def o11_7 (c : Dev nD) : Buf (Elt F) ((c : Thread nD τ).loc main_v57_1) := (dat3 (B10 m) c).arrAt 7 cfg3.N
def o11_8 (c : Dev nD) : Buf (Elt F) ((c : Thread nD τ).loc main_v57_2) := (dat3 (B10 m) c).arrAt 8 cfg3.N
def B11 (c : Dev nD) : Valuation τ sig (Elt F) := Function.update (Function.update (Function.update (B10 m c) main_v57_0 (o11_6 m c)) main_v57_1 (o11_7 m c)) main_v57_2 (o11_8 m c)
def B12 (c : Dev nD) : Valuation τ sig (Elt F) := StableHlo.after hostOps4 (B11 m c)
def o13_5 (c : Dev nD) : Buf (Elt F) ((c : Thread nD τ).loc main_v76) := (dat4 (B12 m) c).arrAt 5 cfg4.N
def B13 (c : Dev nD) : Valuation τ sig (Elt F) := Function.update (B12 m c) main_v76 (o13_5 m c)
def B15 (c : Dev nD) : Valuation τ sig (Elt F) := StableHlo.after hostOps5_1 (StableHlo.after hostOps5 (B13 m c))
def o16_6 (c : Dev nD) : Buf (Elt F) ((c : Thread nD τ).loc main_v88_0) := (dat5 (B15 m) c).arrAt 6 cfg5.N
def o16_7 (c : Dev nD) : Buf (Elt F) ((c : Thread nD τ).loc main_v88_1) := (dat5 (B15 m) c).arrAt 7 cfg5.N
def o16_8 (c : Dev nD) : Buf (Elt F) ((c : Thread nD τ).loc main_v88_2) := (dat5 (B15 m) c).arrAt 8 cfg5.N
def B16 (c : Dev nD) : Valuation τ sig (Elt F) := Function.update (Function.update (Function.update (B15 m c) main_v88_0 (o16_6 m c)) main_v88_1 (o16_7 m c)) main_v88_2 (o16_8 m c)
def B17 (c : Dev nD) : Valuation τ sig (Elt F) := StableHlo.after hostOps6 (B16 m c)
def o18_5 (c : Dev nD) : Buf (Elt F) ((c : Thread nD τ).loc main_v107) := (dat6 (B17 m) c).arrAt 5 cfg6.N
def B18 (c : Dev nD) : Valuation τ sig (Elt F) := Function.update (B17 m c) main_v107 (o18_5 m c)
def B20 (c : Dev nD) : Valuation τ sig (Elt F) := StableHlo.after hostOps7_1 (StableHlo.after hostOps7 (B18 m c))
def o21_5 (c : Dev nD) : Buf (Elt F) ((c : Thread nD τ).loc main_v111) := (dat7 (B20 m) c).arrAt 5 cfg7.N
def B21 (c : Dev nD) : Valuation τ sig (Elt F) := Function.update (B20 m c) main_v111 (o21_5 m c)

def outs : Gen.Outs (F := F) := fun _ r c =>
  if h : r = main_v5 then h ▸ o2_3 m c else
  if h : r = main_v26_0 then h ▸ o6_6 m c else
  if h : r = main_v26_1 then h ▸ o6_7 m c else
  if h : r = main_v26_2 then h ▸ o6_8 m c else
  if h : r = main_v45 then h ▸ o8_5 m c else
  if h : r = main_v57_0 then h ▸ o11_6 m c else
  if h : r = main_v57_1 then h ▸ o11_7 m c else
  if h : r = main_v57_2 then h ▸ o11_8 m c else
  if h : r = main_v76 then h ▸ o13_5 m c else
  if h : r = main_v88_0 then h ▸ o16_6 m c else
  if h : r = main_v88_1 then h ▸ o16_7 m c else
  if h : r = main_v88_2 then h ▸ o16_8 m c else
  if h : r = main_v107 then h ▸ o18_5 m c else
  if h : r = main_v111 then h ▸ o21_5 m c else
  m ((c : Thread nD τ).loc r)

theorem outs_main_v5 (J : ℕ) (c : Dev nD) : outs m J main_v5 c = o2_3 m c := by simp +decide only [outs, ↓reduceDIte]
theorem outs_main_v26_0 (J : ℕ) (c : Dev nD) : outs m J main_v26_0 c = o6_6 m c := by simp +decide only [outs, ↓reduceDIte]
theorem outs_main_v26_1 (J : ℕ) (c : Dev nD) : outs m J main_v26_1 c = o6_7 m c := by simp +decide only [outs, ↓reduceDIte]
theorem outs_main_v26_2 (J : ℕ) (c : Dev nD) : outs m J main_v26_2 c = o6_8 m c := by simp +decide only [outs, ↓reduceDIte]
theorem outs_main_v45 (J : ℕ) (c : Dev nD) : outs m J main_v45 c = o8_5 m c := by simp +decide only [outs, ↓reduceDIte]
theorem outs_main_v57_0 (J : ℕ) (c : Dev nD) : outs m J main_v57_0 c = o11_6 m c := by simp +decide only [outs, ↓reduceDIte]
theorem outs_main_v57_1 (J : ℕ) (c : Dev nD) : outs m J main_v57_1 c = o11_7 m c := by simp +decide only [outs, ↓reduceDIte]
theorem outs_main_v57_2 (J : ℕ) (c : Dev nD) : outs m J main_v57_2 c = o11_8 m c := by simp +decide only [outs, ↓reduceDIte]
theorem outs_main_v76 (J : ℕ) (c : Dev nD) : outs m J main_v76 c = o13_5 m c := by simp +decide only [outs, ↓reduceDIte]
theorem outs_main_v88_0 (J : ℕ) (c : Dev nD) : outs m J main_v88_0 c = o16_6 m c := by simp +decide only [outs, ↓reduceDIte]
theorem outs_main_v88_1 (J : ℕ) (c : Dev nD) : outs m J main_v88_1 c = o16_7 m c := by simp +decide only [outs, ↓reduceDIte]
theorem outs_main_v88_2 (J : ℕ) (c : Dev nD) : outs m J main_v88_2 c = o16_8 m c := by simp +decide only [outs, ↓reduceDIte]
theorem outs_main_v107 (J : ℕ) (c : Dev nD) : outs m J main_v107 c = o18_5 m c := by simp +decide only [outs, ↓reduceDIte]
theorem outs_main_v111 (J : ℕ) (c : Dev nD) : outs m J main_v111 c = o21_5 m c := by simp +decide only [outs, ↓reduceDIte]

theorem V1_eq (c : Dev nD) : Gen.V1 m c = B1 m c := rfl
theorem V2_eq (c : Dev nD) : Gen.V2 m (outs m) c = B2 m c := by
  rw [Gen.V2, B2, V1_eq, outs_main_v5]
theorem V5_eq (c : Dev nD) : Gen.V5 m (outs m) c = B5 m c := by
  rw [Gen.V5, Gen.V4, Gen.V3, V2_eq, B5]
theorem V6_eq (c : Dev nD) : Gen.V6 m (outs m) c = B6 m c := by
  rw [Gen.V6, B6, V5_eq, outs_main_v26_0, outs_main_v26_1, outs_main_v26_2]
theorem V7_eq (c : Dev nD) : Gen.V7 m (outs m) c = B7 m c := by
  rw [Gen.V7, V6_eq, B7]
theorem V8_eq (c : Dev nD) : Gen.V8 m (outs m) c = B8 m c := by
  rw [Gen.V8, B8, V7_eq, outs_main_v45]
theorem V10_eq (c : Dev nD) : Gen.V10 m (outs m) c = B10 m c := by
  rw [Gen.V10, Gen.V9, V8_eq, B10]
theorem V11_eq (c : Dev nD) : Gen.V11 m (outs m) c = B11 m c := by
  rw [Gen.V11, B11, V10_eq, outs_main_v57_0, outs_main_v57_1, outs_main_v57_2]
theorem V12_eq (c : Dev nD) : Gen.V12 m (outs m) c = B12 m c := by
  rw [Gen.V12, V11_eq, B12]
theorem V13_eq (c : Dev nD) : Gen.V13 m (outs m) c = B13 m c := by
  rw [Gen.V13, B13, V12_eq, outs_main_v76]
theorem V15_eq (c : Dev nD) : Gen.V15 m (outs m) c = B15 m c := by
  rw [Gen.V15, Gen.V14, V13_eq, B15]
theorem V16_eq (c : Dev nD) : Gen.V16 m (outs m) c = B16 m c := by
  rw [Gen.V16, B16, V15_eq, outs_main_v88_0, outs_main_v88_1, outs_main_v88_2]
theorem V17_eq (c : Dev nD) : Gen.V17 m (outs m) c = B17 m c := by
  rw [Gen.V17, V16_eq, B17]
theorem V18_eq (c : Dev nD) : Gen.V18 m (outs m) c = B18 m c := by
  rw [Gen.V18, B18, V17_eq, outs_main_v107]
theorem V20_eq (c : Dev nD) : Gen.V20 m (outs m) c = B20 m c := by
  rw [Gen.V20, Gen.V19, V18_eq, B20]
theorem V21_eq (c : Dev nD) : Gen.V21 m (outs m) c = B21 m c := by
  rw [Gen.V21, B21, V20_eq, outs_main_v111]

theorem hrest0 (c : Dev nD) : ∀ b : Ref sig .tc, b ∉ Finset.univ.image (Pipeline.arrRef spec0) → B2 m c b = B1 m c b :=
  exit_rest (dat0 (B1 m) c) _ [3]
theorem hF0 (c : Dev nD) (w : Fin cfg0.W) : (dat0 (B1 m) c).arrAt w cfg0.N = B2 m c (Pipeline.arrRef spec0 w) :=
  exit_arr (dat0 (B1 m) c) _ [3] winFacts0.arr_inj (dat0_A (B1 m) c) (by decide) w
theorem hrest1 (c : Dev nD) : ∀ b : Ref sig .tc, b ∉ Finset.univ.image (Pipeline.arrRef spec1) → B6 m c b = B5 m c b :=
  exit_rest (dat1 (B5 m) c) _ [6, 7, 8]
theorem hF1 (c : Dev nD) (w : Fin cfg1.W) : (dat1 (B5 m) c).arrAt w cfg1.N = B6 m c (Pipeline.arrRef spec1 w) :=
  exit_arr (dat1 (B5 m) c) _ [6, 7, 8] winFacts1.arr_inj (dat1_A (B5 m) c) (by decide) w
theorem hrest2 (c : Dev nD) : ∀ b : Ref sig .tc, b ∉ Finset.univ.image (Pipeline.arrRef spec2) → B8 m c b = B7 m c b :=
  exit_rest (dat2 (B7 m) c) _ [5]
theorem hF2 (c : Dev nD) (w : Fin cfg2.W) : (dat2 (B7 m) c).arrAt w cfg2.N = B8 m c (Pipeline.arrRef spec2 w) :=
  exit_arr (dat2 (B7 m) c) _ [5] winFacts2.arr_inj (dat2_A (B7 m) c) (by decide) w
theorem hrest3 (c : Dev nD) : ∀ b : Ref sig .tc, b ∉ Finset.univ.image (Pipeline.arrRef spec3) → B11 m c b = B10 m c b :=
  exit_rest (dat3 (B10 m) c) _ [6, 7, 8]
theorem hF3 (c : Dev nD) (w : Fin cfg3.W) : (dat3 (B10 m) c).arrAt w cfg3.N = B11 m c (Pipeline.arrRef spec3 w) :=
  exit_arr (dat3 (B10 m) c) _ [6, 7, 8] winFacts3.arr_inj (dat3_A (B10 m) c) (by decide) w
theorem hrest4 (c : Dev nD) : ∀ b : Ref sig .tc, b ∉ Finset.univ.image (Pipeline.arrRef spec4) → B13 m c b = B12 m c b :=
  exit_rest (dat4 (B12 m) c) _ [5]
theorem hF4 (c : Dev nD) (w : Fin cfg4.W) : (dat4 (B12 m) c).arrAt w cfg4.N = B13 m c (Pipeline.arrRef spec4 w) :=
  exit_arr (dat4 (B12 m) c) _ [5] winFacts4.arr_inj (dat4_A (B12 m) c) (by decide) w
theorem hrest5 (c : Dev nD) : ∀ b : Ref sig .tc, b ∉ Finset.univ.image (Pipeline.arrRef spec5) → B16 m c b = B15 m c b :=
  exit_rest (dat5 (B15 m) c) _ [6, 7, 8]
theorem hF5 (c : Dev nD) (w : Fin cfg5.W) : (dat5 (B15 m) c).arrAt w cfg5.N = B16 m c (Pipeline.arrRef spec5 w) :=
  exit_arr (dat5 (B15 m) c) _ [6, 7, 8] winFacts5.arr_inj (dat5_A (B15 m) c) (by decide) w
theorem hrest6 (c : Dev nD) : ∀ b : Ref sig .tc, b ∉ Finset.univ.image (Pipeline.arrRef spec6) → B18 m c b = B17 m c b :=
  exit_rest (dat6 (B17 m) c) _ [5]
theorem hF6 (c : Dev nD) (w : Fin cfg6.W) : (dat6 (B17 m) c).arrAt w cfg6.N = B18 m c (Pipeline.arrRef spec6 w) :=
  exit_arr (dat6 (B17 m) c) _ [5] winFacts6.arr_inj (dat6_A (B17 m) c) (by decide) w
theorem hrest7 (c : Dev nD) : ∀ b : Ref sig .tc, b ∉ Finset.univ.image (Pipeline.arrRef spec7) → B21 m c b = B20 m c b :=
  exit_rest (dat7 (B20 m) c) _ [5]
theorem hF7 (c : Dev nD) (w : Fin cfg7.W) : (dat7 (B20 m) c).arrAt w cfg7.N = B21 m c (Pipeline.arrRef spec7 w) :=
  exit_arr (dat7 (B20 m) c) _ [5] winFacts7.arr_inj (dat7_A (B20 m) c) (by decide) w

end Cert.Kernel.Hand

end
-- ==== Proof.K.Segs.lean ====
import proofs.«402019_j40432822124917_2_alg».proof.Proof.Gen.Kernel.Regions
import proofs.«402019_j40432822124917_2_alg».proof.Proof.K.Chain
import Idealize.ShloMosaic.Lib.Pipeline.Frame
import Idealize.ShloMosaic.Lib.Pipeline.Kit
import Idealize.ShloMosaic.Lib.Pipeline.Regions
import Idealize.ShloMosaic.Lib.Pipeline.RegionsLoop

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev L : GSem nD τ sig → Finset Unit := fun _ => ∅
abbrev lv : GSem nD τ sig → Unit → ℕ := fun _ _ => 0

def pdats : (p : Fin 8) → (c : Dev nD) → Dat τ (Elt F) Unit ℕ (UR sig nD τ) ℕ (cfgs p) c
  | ⟨0, _⟩ => dat0 (B1 m)
  | ⟨1, _⟩ => dat1 (B5 m)
  | ⟨2, _⟩ => dat2 (B7 m)
  | ⟨3, _⟩ => dat3 (B10 m)
  | ⟨4, _⟩ => dat4 (B12 m)
  | ⟨5, _⟩ => dat5 (B15 m)
  | ⟨6, _⟩ => dat6 (B17 m)
  | ⟨7, _⟩ => dat7 (B20 m)

abbrev P (c : Dev nD) : sProp 𝕄 := iprop(∃ r, prngReg c r)

abbrev R (c : Dev nD) : sProp 𝕄 := iprop(P c ∗ ∃ W, owes (c : Thread nD τ) (0 : CellTallies nD τ sig Unit) W)

abbrev T (V : Valuation τ sig (Elt F)) (c : Dev nD) : sProp 𝕄 := iprop(StableHlo.held (c : Thread nD τ) (Pipeline.ucRefs τ sig) V ∗ R c)

theorem hT {V B : Dev nD → Valuation τ sig (Elt F)} (h : ∀ c, V c = B c) : (∀ c, T (V c) c ⊢ T (B c) c) ∧ ∀ c, T (B c) c ⊢ T (V c) c :=
  ⟨fun c => h c ▸ .rfl, fun c => h c ▸ .rfl⟩

theorem hinA {gr W : Nat} (win : Fin W → Pipeline.WinSpec sig gr) (c : Dev nD) (Q : sProp 𝕄) :
    iprop(P c ∗ Q ∗ Pipeline.scopedRest win c) ⊢ Pipeline.ΦA win c := by
  unfold Pipeline.ΦA; iintro ⟨Hp, -, Hr⟩; iframe

theorem houtA {gr W : Nat} (win : Fin W → Pipeline.WinSpec sig gr) (c : Dev nD) :
    (Pipeline.ΦA win c : sProp 𝕄) ⊢ iprop(P c ∗ Pipeline.ownSems0 (fun k : PEmpty => k.elim) c ∗ Pipeline.scopedRest win c) := by
  rw [Pipeline.ownSems0_none]; unfold Pipeline.ΦA; iintro ⟨Hr, Hp⟩; iframe; iempintro

set_option backward.isDefEq.respectTransparency.types false in

def reg {pd : (p : Fin 8) → (c : Dev nD) → Dat τ (Elt F) Unit ℕ (UR sig nD τ) ℕ (cfgs p) c} {p : Fin 8}
    (lf : Pipeline.LaunchFacts (nD := nD) (τ := τ) cfgs p) (Bi Bo : Dev nD → Valuation τ sig (Elt F))
    (hb : ∀ c, Pipeline.BodyObligation (pd p c) defs₀ Variants.none () Set.univ)
    (hA : ∀ c w, (pd p c).A w = Bi c (Pipeline.arrRef (cfgs p).spec w))
    (hF : ∀ c w, (pd p c).arrAt w (cfgs p).N = Bo c (Pipeline.arrRef (cfgs p).spec w))
    (hrest : ∀ c b, b ∉ Finset.univ.image (Pipeline.arrRef (cfgs p).spec) → Bo c b = Bi c b)
    (hin : ∀ c, iprop(P c ∗ Pipeline.prefHeld (pcfgs (F := F) p).pre c (fun _ => fullShare) (Gen.adm p).1 ∗ Pipeline.scopedRest (cfgs p).spec c) ⊢ (pd p c).Φ 0 := by exact fun c => hinA _ c _)
    (hout : ∀ c, (pd p c).Φ (Fin.last (cfgs p).N) ⊢ iprop(P c ∗ Pipeline.ownSems0 (fun k : PEmpty => k.elim) c ∗ Pipeline.scopedRest (cfgs p).spec c) := by exact fun c => houtA _ c)
    (hd : ∀ c, (∀ w, (pd p c).q w = fullShare) ∧ (∀ t, (pd p c).owed t = 0) ∧ (pd p c).recorded 0 = Set.univ := by exact fun _ => ⟨fun _ => rfl, fun _ => rfl, rfl⟩) :
    Pipeline.RegionSeg (pcfgs (F := F)) Gen.adm pd () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (hd c).2.1
  pre c := T (Bi c) c
  post c := T (Bo c) c
  X := P
  Y := P
  Z c := Pipeline.unscopedRest (cfgs p).spec c (fun b => Bi c b)
  hentry c := by
    have h := Pipeline.arrays_of_unscopedBufs (p := p) pcfgs Gen.adm pd lf.win lf.arr_whole c ((pd p c).share_full (hd c).1) (fun b => Bi c b) (hA c)
    rw [Pipeline.unscopedBufs_held] at h
    rw [Pipeline.ownSems0_none]; unfold Pipeline.prefHeld Pipeline.Dat.owesAt Pipeline.owesWithin
    rw [(hd c).2.1, show (Finset.univ : Finset (Fin 0)) = ∅ from rfl, BI.bigSep_empty]
    iintro ⟨⟨Hub, Hp, %W, HO⟩, -, -⟩
    ihave ⟨Ha, Hr⟩ := h $$ Hub
    imodintro; iframe Ha Hp Hr; isplitr; · iempintro
    iexists W; iframe HO; ipureintro; exact fun _ _ => Or.inl ((hd c).2.2 ▸ trivial)
  hin := hin
  hout := hout
  hexit c := by
    have h := Pipeline.unscopedBufs_of_arrays (p := p) pcfgs Gen.adm lf.win lf.arr_whole c pd ((pd p c).share_full (hd c).1)
      (fun b => Bi c b) (fun b => Bo c b) _ (hF c) (hrest c)
    rw [Pipeline.unscopedBufs_held] at h
    unfold Pipeline.Dat.owesAt Pipeline.owesWithin; rw [(hd c).2.1]
    iintro ⟨Ha, ⟨%W, -, HO⟩, HY, Hr⟩
    imodintro; unfold T R P; iframe HY; isplitr [HO]
    · iapply h; iframe
    iexists W; iexact HO

def reg0 := reg (pd := pdats m) launch0 (B1 m) (B2 m) (body_obligation0 (B1 m)) (dat0_A (B1 m)) (hF0 m) (hrest0 m)
def reg1 := reg (pd := pdats m) launch1 (B5 m) (B6 m) (body_obligation1 (B5 m)) (dat1_A (B5 m)) (hF1 m) (hrest1 m)
  (fun c => hin1 (B5 m) c _) (hout1 (B5 m))
def reg2 := reg (pd := pdats m) launch2 (B7 m) (B8 m) (body_obligation2 (B7 m)) (dat2_A (B7 m)) (hF2 m) (hrest2 m)
def reg3 := reg (pd := pdats m) launch3 (B10 m) (B11 m) (body_obligation3 (B10 m)) (dat3_A (B10 m)) (hF3 m) (hrest3 m)
  (fun c => hin3 (B10 m) c _) (hout3 (B10 m))
def reg4 := reg (pd := pdats m) launch4 (B12 m) (B13 m) (body_obligation4 (B12 m)) (dat4_A (B12 m)) (hF4 m) (hrest4 m)
def reg5 := reg (pd := pdats m) launch5 (B15 m) (B16 m) (body_obligation5 (B15 m)) (dat5_A (B15 m)) (hF5 m) (hrest5 m)
  (fun c => hin5 (B15 m) c _) (hout5 (B15 m))
def reg6 := reg (pd := pdats m) launch6 (B17 m) (B18 m) (body_obligation6 (B17 m)) (dat6_A (B17 m)) (hF6 m) (hrest6 m)
def reg7 := reg (pd := pdats m) launch7 (B20 m) (B21 m) (body_obligation7 (B20 m)) (dat7_A (B20 m)) (hF7 m) (hrest7 m)

abbrev u₀ : UR sig nD τ := initOf (Pipeline.cells cfgs cellOf_inj) (Pipeline.launchToks cfgs cellOf_inj)

theorem hu₀ : (ownU u₀ : sProp 𝕄) ⊢ |={Set.univ}=> iprop(BI.own (emb₁ u₀) ∗ bigSep Finset.univ fun _ : Dev nD => (BI.emp : sProp 𝕄)) := by
  rw [BI.bigSep_emp_const, ownU_emb₁]; iintro Hu; imodintro; iframe Hu; iempintro

theorem hE {A B C D : sProp 𝕄} {c : Dev nD} {r : PrngReg} :
    iprop((A ∗ owes (c : Thread nD τ) (0 : CellTallies nD τ sig Unit) ∅ ∗ B ∗ prngReg c r ∗ C) ∗ D) ⊢ |={Set.univ}=> R c := by
  iintro ⟨⟨-, HO, -, Hp, -⟩, -⟩; imodintro; isplitl [Hp] <;> iexists _ <;> iassumption

set_option backward.isDefEq.respectTransparency.types false in
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m (EP := emb₁) () Variants.none L lv (fun _ _ => rfl) ρ (outs m) (pdats m) (O₀ := 0) (G := fun _ => BI.emp) (u₀ := u₀)
    (hu₀ := hu₀) (E := fun _ c => R c) (hE0 := Pipeline.initEach L lv fun _ => hE) (hE8 := fun _ => sep_elim_right)
    (reg0 m) (hT (V1_eq m)).1 (hT (V2_eq m)).2
    (reg1 m) (hT (V5_eq m)).1 (hT (V6_eq m)).2
    (reg2 m) (hT (V7_eq m)).1 (hT (V8_eq m)).2
    (reg3 m) (hT (V10_eq m)).1 (hT (V11_eq m)).2
    (reg4 m) (hT (V12_eq m)).1 (hT (V13_eq m)).2
    (reg5 m) (hT (V15_eq m)).1 (hT (V16_eq m)).2
    (reg6 m) (hT (V17_eq m)).1 (hT (V18_eq m)).2
    (reg7 m) (hT (V20_eq m)).1 (hT (V21_eq m)).2

end Cert.Kernel.Hand

end
-- ==== Proof.KI.Common.lean ====
import proofs.«402019_j40432822124917_2_alg».proof.Proof.Gen.KernelIdeal.Launch

noncomputable section

namespace Cert.KernelIdeal.Hand

open Idealize.ShloMosaic Idealize.ShloMosaic.TcCoe Idealize.SL.Sem Cert.KernelIdeal

variable {F : FTy → Type} [FloatOps F]

abbrev Vr (W : Dev nD → Valuation τ sig (Elt F)) (c : Dev nD) (b : Ref sig .tc) : Buf (Elt F) ((c : Thread nD τ).loc b) :=
  W c (Proc.devRef .tc b)

end Cert.KernelIdeal.Hand

end
-- ==== Proof.KI.Reg0.lean ====
import proofs.«402019_j40432822124917_2_alg».proof.Proof.Gen.KernelIdeal.Skeleton
import proofs.«402019_j40432822124917_2_alg».proof.Proof.Gen.KernelIdeal.Points
import proofs.«402019_j40432822124917_2_alg».proof.Proof.KI.Common
import Idealize.ShloMosaic.Lib.Pipeline.FrameBody
import Idealize.ShloMosaic.Lib.Pipeline.TableIdle
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

def iblk0 (c : Dev nD) (w : Fin cfg0.W) (t : Fin cfg0.N) : ((cfg0.win w).xblock (cfg0.grid.coords t)).Idx → Elt F (cfg0.win w).elt :=
  ((cfg0.win w).blk t).view.read (Elt F) (Vr W c (Pipeline.arrRef spec0 w))

abbrev r0_x : Rect S5000x64 := Rect.unit (s := S5000x64) ![0, 0] S5000x64.size inb_S5000x64_S5000x64_0_0
abbrev r0_w : Rect S64x96 := Rect.unit (s := S64x96) ![0, 0] S64x96.size inb_S64x96_S64x96_0_0
abbrev r0_b : Rect S1x96 := Rect.unit (s := S1x96) ![0, 0] S1x96.size inb_S1x96_S1x96_0_0
abbrev r0_out : Rect S5000x96 := Rect.unit (s := S5000x96) ![0, 0] S5000x96.size inb_S5000x96_S5000x96_0_0

def out0_3 (x : Vec F S5000x64 .f32) (w : Vec F S64x96 .f32) (b : Vec F S1x96 .f32) : Vec F S5000x96 .f32 :=
  View.canon [⟨r0_out, k0_pay1 (View.ld x r0_x) (View.ld w r0_w) (View.ld b r0_b)⟩]

def dat0 (c : Dev nD) : Dat τ (Elt F) Unit ℕ (UR sig nD τ) ℕ cfg0 c where
  A w := Vr W c (Pipeline.arrRef spec0 w)
  after w t := match w with
    | ⟨0, _⟩ => iblk0 W c 0 t
    | ⟨1, _⟩ => iblk0 W c 1 t
    | ⟨2, _⟩ => iblk0 W c 2 t
    | ⟨3, _⟩ => out0_3 (iblk0 W c 0 t) (iblk0 W c 1 t) (iblk0 W c 2 t)
  Φ _ := Pipeline.ΦA spec0 c
  q _ := fullShare
  owed _ := 0

theorem dat0_A (c : Dev nD) (w : Fin cfg0.W) : (dat0 W c).A w = Vr W c (Pipeline.arrRef spec0 w) := by
  dsimp only [dat0]

theorem after0_3 (c : Dev nD) (t : Fin cfg0.N) :
    (dat0 W c).after 3 t = out0_3 (iblk0 W c 0 t) (iblk0 W c 1 t) (iblk0 W c 2 t) := by
  dsimp only [dat0]

theorem before0_in (c : Dev nD) (t : Fin cfg0.N) : ∀ (w : Fin cfg0.W) (_ : (cfg0.win w).isOut = false) (d),
    (dat0 W c).before w t d = (dat0 W c).after w t
  | 0, _, d | 1, _, d | 2, _, d =>
    (dat0 W c).before_in_eq_fetched _ rfl (fun _ => rfl) (fun _ _ _ => rfl) (fun _ => rfl) t d
  | 3, h, _ => nomatch h
  | ⟨_ + 4, h⟩, _, _ => absurd h (Nat.not_lt.2 (Nat.le_add_left _ _))

set_option maxHeartbeats 1000000 in

theorem body_obligation0 (c : Dev nD) : BodyObligation (dat0 (F := F) W c) (defs₀ (F := F)) Variants.none () Set.univ := fun t => by
  have b := before0_in W c t
  rw [bigSep_W0, bigSep_W0]
  simp only [b 0 rfl, b 1 rfl, b 2 rfl, after0_3, owns_eq_rep,
    show ∀ k, (dat0 W c).Φ k = Pipeline.ΦA spec0 c from fun _ => rfl]
  show _ ⊢ wp _ _ _ (bodyAt0 t) _
  unfold bodyAt0
  simp only [cc0__emb_kernel_eq_skeleton]; unfold cc0__emb_kernel_skel
  iintro ⟨HΦ, Ho, ⟨%_, Ha⟩, ⟨%_, Hb⟩, ⟨%_, Hc⟩, ⟨%_, Hd⟩⟩
  sl_exec
  sl_step
  iframe HΦ Ha Hb Hc
  isplitl [Ho]; · iexact Ho
  iapply rep_of_owns
  unfold owns
  iexists _; iframe Hd
  ipureintro
  rw [View.read_writes_eq_canon _ _ _ (View.cover_of_tiled _ S5000x96.size (by rfl))]
  unfold out0_3 body_obligation0.sl.v0 body_obligation0.sl.v1 body_obligation0.sl.v3
  simp only [View.readAt_rep]
  rfl

end Cert.KernelIdeal.Hand

end
-- ==== Proof.KI.Reg1.lean ====
import proofs.«402019_j40432822124917_2_alg».proof.Proof.KI.Common
import proofs.«402019_j40432822124917_2_alg».proof.Proof.Gen.KernelIdeal.Skeleton
import proofs.«402019_j40432822124917_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import Idealize.ShloMosaic.Lib.Pipeline.TableIdle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

def iblk1 (c : Dev nD) (w : Fin cfg1.W) (t : Fin cfg1.N) : ((cfg1.win w).xblock (cfg1.grid.coords t)).Idx → Elt F (cfg1.win w).elt :=
  ((cfg1.win w).blk t).view.read (Elt F) (Vr W c (Pipeline.arrRef spec1 w))

theorem hz1 : (![0, 0] : Fin 2 → Nat) = fun _ => 0 := funext fun a => by fin_cases a <;> rfl

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

theorem hcond1_1 : ∀ t : Fin cfg1.N, k1_cond2 (grid1.coords t) = 1#1 ↔ t.val % 20 = 19 :=
  (by decide +kernel : ∀ t : Fin grid1.N, k1_cond2 (grid1.coords t) = 1#1 ↔ t.val % 20 = 19)

def yblk1 (c : Dev nD) (t : Fin cfg1.N) : FVec F S5000x96 .f32 :=
  k1_pay5 (iblk1 W c 0 t) (iblk1 W c 1 t) (iblk1 W c 3 t) (iblk1 W c 4 t) (iblk1 W c 2 t) (iblk1 W c 5 t)

def ymblk1 (c : Dev nD) (t : Fin cfg1.N) : FVec F S5000x96 .f32 :=
  k1_pay6 (grid1.coords t) (iblk1 W c 0 t) (iblk1 W c 1 t) (iblk1 W c 3 t) (iblk1 W c 4 t) (iblk1 W c 2 t) (iblk1 W c 5 t)

def accN1_s (c : Dev nD) : ℕ → FVec F S1x96 .f32
  | 0 => k1_pay3
  | n + 1 => if h : n < cfg1.N then k1_pay1 (ymblk1 W c ⟨n, h⟩) (accN1_s c n) else accN1_s c n

def accN1_q (c : Dev nD) : ℕ → FVec F S1x96 .f32
  | 0 => k1_pay4
  | n + 1 => if h : n < cfg1.N then k1_pay2 (ymblk1 W c ⟨n, h⟩) (accN1_q c n) else accN1_q c n

def acc1_s (c : Dev nD) (t : Fin (cfg1.N + 1)) : FVec F S1x96 .f32 := accN1_s W c t.val
def acc1_q (c : Dev nD) (t : Fin (cfg1.N + 1)) : FVec F S1x96 .f32 := accN1_q W c t.val

theorem accN1_s_zero (c : Dev nD) : accN1_s W c 0 = k1_pay3 := rfl
theorem accN1_q_zero (c : Dev nD) : accN1_q W c 0 = k1_pay4 := rfl
theorem accN1_s_succ (c : Dev nD) (t : Fin cfg1.N) :
    accN1_s W c (t.val + 1) = k1_pay1 (ymblk1 W c t) (accN1_s W c t.val) := by
  rw [accN1_s]; exact dif_pos t.isLt
theorem accN1_q_succ (c : Dev nD) (t : Fin cfg1.N) :
    accN1_q W c (t.val + 1) = k1_pay2 (ymblk1 W c t) (accN1_q W c t.val) := by
  rw [accN1_q]; exact dif_pos t.isLt

theorem acc1_reset {α : Type} (t : Fin cfg1.N) (A : ℕ → α) (d : α) :
    (if cond1_0 (grid1.coords t) then A 0 else if t.val = 0 then d else A t.val) = A t.val := by
  by_cases h : t.val = 0
  · rw [if_pos ((hcond1_0 t).mpr h), h]
  · rw [if_neg (h ∘ (hcond1_0 t).mp), if_neg h]

def Phi1 (c : Dev nD) (n : ℕ) : sProp 𝕄 :=
  iprop((∃ d e, owns (c : Thread nD τ) (Memref.whole cc1_scratch0) fullShare (if n = 0 then d else accN1_s W c n)
      ∗ owns (c : Thread nD τ) (Memref.whole cc1_scratch1) fullShare (if n = 0 then e else accN1_q W c n))
    ∗ Pipeline.scopedRestBut (Ix := Unit) (Name := ℕ) (U := UR sig nD τ) (Lvl := ℕ) (Val := Elt F) spec1 c [cc1_scratch0, cc1_scratch1]
    ∗ (∃ r, prngReg c r))

def dat1 (c : Dev nD) : Dat τ (Elt F) Unit ℕ (UR sig nD τ) ℕ cfg1 c where
  A w := Vr W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => yblk1 W c t
    | ⟨7, _⟩ => acc1_s W c t.succ
    | ⟨8, _⟩ => acc1_q W c t.succ
  Φ t := Phi1 W c t.val
  q _ := fullShare
  owed _ := 0

theorem dat1_A (c : Dev nD) (w : Fin cfg1.W) : (dat1 W c).A w = Vr W c (Pipeline.arrRef spec1 w) := by
  dsimp only [dat1]

theorem after1_6 (c : Dev nD) (t : Fin cfg1.N) : (dat1 W c).after 6 t = yblk1 W c t := by dsimp only [dat1]
theorem after1_7 (c : Dev nD) (t : Fin cfg1.N) : (dat1 W c).after 7 t = acc1_s W c t.succ := by dsimp only [dat1]
theorem after1_8 (c : Dev nD) (t : Fin cfg1.N) : (dat1 W c).after 8 t = acc1_q W c t.succ := by dsimp only [dat1]

theorem readAt_unit_zero1 {κ : Kind} {sp : Space} {d : Fin 2 → ℕ} {e : EltTy} (v : View sig κ sp ⟨2, d⟩ e) (f : v.ty.Contents (Elt F))
    (inb : ∀ a, (![0, 0] : Fin 2 → ℕ) a + d a ≤ d a) : v.readAt (Elt F) (Rect.unit (s := ⟨2, d⟩) ![0, 0] d inb).toLoadRect f = v.read (Elt F) f :=
  (View.readAt_eq_ld v f _).trans (View.ld_unit_zero hz1 inb _)

theorem read_writes_unit_zero1 {κ : Kind} {sp : Space} {d : Fin 2 → ℕ} {e : EltTy} (v : View sig κ sp ⟨2, d⟩ e) (f : v.ty.Contents (Elt F))
    (inb : ∀ a, (![0, 0] : Fin 2 → ℕ) a + d a ≤ d a) (w : Shape.Idx ⟨2, d⟩ → Elt F e) (L : List (View.Piece (Elt F) ⟨2, d⟩ e)) :
    v.read (Elt F) (v.writes (Elt F) f ((⟨Rect.unit ![0, 0] d inb, w⟩ : View.Piece (Elt F) ⟨2, d⟩ e) :: L)) = w := by
  rw [View.read_writes_eq_canon _ _ _ (fun y => ⟨_, List.mem_cons_self, View.mem_set_unit_zero hz1 inb y⟩), View.canon_cons_unit_zero hz1 inb]

theorem rep_read1 (c : Thread nD τ) {sp : Space} {S : Shape} {e : EltTy} (m : Memref sig c.2.kind sp S e) (g : m.view.ty.Contents (Elt F)) :
    (m.view.loc c ↦[m.view.set]{fullShare} g : sProp 𝕄) ⊢ (m.view.loc c ↦[m.view.set]{fullShare} m.view.rep (m.view.read (Elt F) g)) :=
  (owns_intro c m _ g).trans (rep_of_owns c m _ _)

set_option maxHeartbeats 1000000 in

theorem run1_any (c : Dev nD) (E : Set ℕ) (i : grid1.Coords) {arg1 : Memref sig .tc .vmem S5000x96 .f32} {harg1 : arg1.IsWhole} {arg2 : Memref sig .tc .vmem S5000x1 .f32} {harg2 : arg2.IsWhole} {arg3 : Memref sig .tc .vmem S5000x96 .f32} {harg3 : arg3.IsWhole} {arg4 : Memref sig .tc .vmem S96x96 .f32} {harg4 : arg4.IsWhole} {arg5 : Memref sig .tc .vmem S1x96 .f32} {harg5 : arg5.IsWhole} {arg6 : Memref sig .tc .vmem S96x96 .f32} {harg6 : arg6.IsWhole} {arg7 : Memref sig .tc .vmem S5000x96 .f32} {harg7 : arg7.IsWhole} {arg8 : Memref sig .tc .vmem S1x96 .f32} {harg8 : arg8.IsWhole} {arg9 : Memref sig .tc .vmem S1x96 .f32} {harg9 : arg9.IsWhole} {arg10 : Memref sig .tc .vmem S1x96 .f32} {harg10 : arg10.IsWhole} {arg11 : Memref sig .tc .vmem S1x96 .f32} {harg11 : arg11.IsWhole}
    (x0 : Vec F S5000x96 .f32) (x1 : Vec F S5000x1 .f32) (x2 : Vec F S5000x96 .f32) (x3 : Vec F S96x96 .f32) (x4 : Vec F S1x96 .f32) (x5 : Vec F S96x96 .f32) (d6 : Vec F S5000x96 .f32)
    (xi7 xi8 xs xq s q : Vec F S1x96 .f32) (hs : (if cond1_0 i then k1_pay3 else xs) = s) (hq : (if cond1_0 i then k1_pay4 else xq) = q) (K : PUnit → sProp 𝕄) :
    ⊢ iprop(owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare d6 -∗ owns (c : Thread nD τ) arg8 fullShare xi7 -∗ owns (c : Thread nD τ) arg9 fullShare xi8 -∗ owns (c : Thread nD τ) arg10 fullShare xs -∗ owns (c : Thread nD τ) arg11 fullShare xq
        -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare (k1_pay5 x0 x1 x3 x4 x2 x5) -∗ owns (c : Thread nD τ) arg8 fullShare (if k1_cond2 i = 1#1 then k1_pay1 (k1_pay6 i x0 x1 x3 x4 x2 x5) s else xi7) -∗ owns (c : Thread nD τ) arg9 fullShare (if k1_cond2 i = 1#1 then k1_pay2 (k1_pay6 i x0 x1 x3 x4 x2 x5) q else xi8) -∗ owns (c : Thread nD τ) arg10 fullShare (k1_pay1 (k1_pay6 i x0 x1 x3 x4 x2 x5) s) -∗ owns (c : Thread nD τ) arg11 fullShare (k1_pay2 (k1_pay6 i x0 x1 x3 x4 x2 x5) q) -∗ K ⟨⟩)
        -∗ wp frame (wpE (defs₀ (F := F)) Variants.none c none) E (cc1__combine_kernel_body i arg1 harg1 arg2 harg2 arg3 harg3 arg4 harg4 arg5 harg5 arg6 harg6 arg7 harg7 arg8 harg8 arg9 harg9 arg10 harg10 arg11 harg11) K) := by
  subst hs hq
  simp only [cc1__combine_kernel_body_eq_skeleton]; unfold cc1__combine_kernel_body_skel
  simp only [k1_part1_eq_skeleton]; unfold k1_part1_skel
  simp only [owns_eq_rep]
  iintro H0 H1 H2 H3 H4 H5 H6 H7 H8 HS HQ Hk
  sl_exec
  sl_step
  ihave H6 := rep_read1 c arg7 _ $$ H6
  ihave H7 := rep_read1 c arg8 _ $$ H7
  ihave H8 := rep_read1 c arg9 _ $$ H8
  ihave HS := rep_read1 c arg10 _ $$ HS
  ihave HQ := rep_read1 c arg11 _ $$ HQ
  sl_unfold_words
  simp only [readAt_unit_zero1, read_writes_unit_zero1, View.read_rep, View.readCov_unit_zero (S := S1x96) _ hz1, apply_dite (View.read _ _), apply_ite (View.read _ _), dite_eq_ite]
  iapply Hk $$ H0 H1 H2 H3 H4 H5 H6 H7 H8 HS HQ

theorem before1_in (c : Dev nD) (w : Fin cfg1.W) (h : w.val < 6) : ∀ t d, (dat1 W c).before w t d = (dat1 W c).fetched w t d := by
  fin_cases w <;> first | exact absurd h (by decide) | exact (dat1 W c).before_in_eq_fetched _ rfl (fun _ => rfl) (fun _ _ _ => rfl) (fun _ => rfl)

theorem after1_out (c : Dev nD) (t : Fin cfg1.N) (w : Fin cfg1.W) (hi : cfg1.idle w (grid1.coords t) = !(k1_cond2 (grid1.coords t) == 1#1))
    (hf : (cfg1.win w).flush t = true ↔ t.val % 20 = 19) (d) (X) (hX : X = (dat1 W c).after w t) :
    owns (c : Thread nD τ) ((cfg1.win w).stage (cfg1.slots t w)) fullShare (if k1_cond2 (grid1.coords t) = 1#1 then X else (dat1 W c).before w t d)
      ⊢ (dat1 W c).leavesExact w t := by
  subst hX
  by_cases h : k1_cond2 (grid1.coords t) = 1#1
  · unfold Dat.leavesExact; rw [hi, if_pos h, beq_iff_eq.mpr h]; exact .rfl
  · rw [if_neg h, (dat1 W c).leavesExact_idle w t (hi.trans (by simp only [beq_eq_false_iff_ne.mpr h, Bool.not_false]))
      (Bool.eq_false_iff.mpr fun hh => h ((hcond1_1 t).mpr (hf.mp hh)))]
    iintro H; iexists d; iexact H

set_option maxHeartbeats 4800000 in

theorem body_obligation1 (c : Dev nD) : BodyObligation (dat1 (F := F) W c) (defs₀ (F := F)) Variants.none () Set.univ := fun t => by
  rw [bigSep_W1, bigSep_W1]
  simp (disch := decide) only [before1_in W c, show ∀ k, (dat1 W c).Φ k = Phi1 W c k.val from fun _ => rfl, Phi1, Fin.coe_castSucc, Fin.val_succ,
    Nat.add_one_ne_zero, if_false, accN1_s_succ, accN1_q_succ]
  iintro ⟨⟨⟨%ds, %dq, HS, HQ⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run1_any c Set.univ (grid1.coords t) _ _ _ _ _ _ _ _ _ _ _ _ _
    (acc1_reset t (accN1_s W c) ds) (acc1_reset t (accN1_q W c) dq) _) $$ H0 H1 H2 H3 H4 H5 H6 H7 H8 HS HQ
  iintro H0 H1 H2 H3 H4 H5 H6 H7 H8 HS HQ
  isplitl [HS HQ Hr]
  · isplitl [HS HQ]
    · iexists ds, dq; isplitl [HS]; · iexact HS
      iexact HQ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (after1_out W c t 7 rfl (flush1_7 t) d7 _ (accN1_s_succ W c t).symm); iexact H7
  iapply (after1_out W c t 8 rfl (flush1_8 t) d8 _ (accN1_q_succ W c t).symm); iexact H8

theorem hin1 (c : Dev nD) (P : sProp 𝕄) :
    iprop(iprop(∃ r, prngReg c r) ∗ P ∗ Pipeline.scopedRest (Ix := Unit) (Name := ℕ) (U := UR sig nD τ) (Lvl := ℕ) (Val := Elt F) spec1 c)
      ⊢ (dat1 W c).Φ 0 := by
  rw [show (dat1 W c).Φ 0 = Phi1 W c 0 from rfl, Phi1, scopedRest1_split]
  simp only [owns_whole, eq_self_iff_true, if_true]
  iintro ⟨Hg, -, ⟨⟨%ds, HS⟩, ⟨%dq, HQ⟩⟩, Hr⟩
  isplitl [HS HQ]
  · iexists ds, dq; isplitl [HS]; · iexact HS
    iexact HQ
  isplitl [Hr]; · iexact Hr
  iexact Hg

theorem hout1 (c : Dev nD) :
    (dat1 W c).Φ (Fin.last cfg1.N)
      ⊢ iprop(iprop(∃ r, prngReg c r) ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec1 c) := by
  rw [Pipeline.ownSems0_none, show (dat1 W c).Φ (Fin.last cfg1.N) = Phi1 W c (Fin.last cfg1.N).val from rfl, Phi1, scopedRest1_split]
  simp only [owns_whole]
  iintro ⟨⟨%ds, %dq, HS, HQ⟩, Hr, Hg⟩
  isplitl [Hg]; · iexact Hg
  isplitr; · iempintro
  isplitl [HS HQ]
  · isplitl [HS]; · iexists _; iexact HS
    iexists _; iexact HQ
  iexact Hr

end Cert.KernelIdeal.Hand

end
-- ==== Proof.KI.Reg2.lean ====
import proofs.«402019_j40432822124917_2_alg».proof.Proof.Gen.KernelIdeal.Skeleton
import proofs.«402019_j40432822124917_2_alg».proof.Proof.Gen.KernelIdeal.Points
import proofs.«402019_j40432822124917_2_alg».proof.Proof.KI.Common
import Idealize.ShloMosaic.Lib.Pipeline.FrameBody
import Idealize.ShloMosaic.Lib.Pipeline.TableIdle
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

def iblk2 (c : Dev nD) (w : Fin cfg2.W) (t : Fin cfg2.N) : ((cfg2.win w).xblock (cfg2.grid.coords t)).Idx → Elt F (cfg2.win w).elt :=
  ((cfg2.win w).blk t).view.read (Elt F) (Vr W c (Pipeline.arrRef spec2 w))

abbrev r2_0 : Rect S5000x96 := Rect.unit (s := S5000x96) ![0, 0] S5000x96.size inb_S5000x96_S5000x96_0_0
abbrev r2_1 : Rect S1x96 := Rect.unit (s := S1x96) ![0, 0] S1x96.size inb_S1x96_S1x96_0_0

def out2_5 (x0 : Vec F S5000x96 .f32) (x1 : Vec F S1x96 .f32) (x2 : Vec F S1x96 .f32) (x3 : Vec F S1x96 .f32)
    (x4 : Vec F S1x96 .f32) : Vec F S5000x96 .f32 :=
  View.canon [⟨r2_0, k2_pay1 (View.ld x2 r2_1) (View.ld x0 r2_0) (View.ld x1 r2_1) (View.ld x3 r2_1) (View.ld x4 r2_1)⟩]

def dat2 (c : Dev nD) : Dat τ (Elt F) Unit ℕ (UR sig nD τ) ℕ cfg2 c where
  A w := Vr W c (Pipeline.arrRef spec2 w)
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => iblk2 W c 4 t
    | ⟨5, _⟩ => out2_5 (iblk2 W c 0 t) (iblk2 W c 1 t) (iblk2 W c 2 t) (iblk2 W c 3 t) (iblk2 W c 4 t)
  Φ _ := Pipeline.ΦA spec2 c
  q _ := fullShare
  owed _ := 0

theorem dat2_A (c : Dev nD) (w : Fin cfg2.W) : (dat2 W c).A w = Vr W c (Pipeline.arrRef spec2 w) := by
  dsimp only [dat2]

theorem after2_5 (c : Dev nD) (t : Fin cfg2.N) :
    (dat2 W c).after 5 t = out2_5 (iblk2 W c 0 t) (iblk2 W c 1 t) (iblk2 W c 2 t) (iblk2 W c 3 t) (iblk2 W c 4 t) := by
  dsimp only [dat2]

theorem before2_in (c : Dev nD) (t : Fin cfg2.N) : ∀ (w : Fin cfg2.W) (_ : (cfg2.win w).isOut = false) (d),
    (dat2 W c).before w t d = (dat2 W c).after w t
  | 0, _, d | 1, _, d | 2, _, d | 3, _, d | 4, _, d =>
    (dat2 W c).before_in_eq_fetched _ rfl (fun _ => rfl) (fun _ _ _ => rfl) (fun _ => rfl) t d
  | 5, h, _ => nomatch h
  | ⟨_ + 6, h⟩, _, _ => absurd h (Nat.not_lt.2 (Nat.le_add_left _ _))

set_option maxHeartbeats 1000000 in

theorem body_obligation2 (c : Dev nD) : BodyObligation (dat2 (F := F) W c) (defs₀ (F := F)) Variants.none () Set.univ := fun t => by
  have b := before2_in W c t
  rw [bigSep_W2, bigSep_W2]
  simp only [b 0 rfl, b 1 rfl, b 2 rfl, b 3 rfl, b 4 rfl, after2_5, owns_eq_rep,
    show ∀ k, (dat2 W c).Φ k = Pipeline.ΦA spec2 c from fun _ => rfl]
  show _ ⊢ wp _ _ _ (bodyAt2 t) _
  unfold bodyAt2
  simp only [cc2__bn_kernel_eq_skeleton]; unfold cc2__bn_kernel_skel
  iintro ⟨HΦ, Ho, ⟨%_, Ha⟩, ⟨%_, Hb⟩, ⟨%_, Hc⟩, ⟨%_, Hd⟩, ⟨%_, He⟩, ⟨%_, Hf⟩⟩
  sl_exec
  sl_step
  iframe HΦ Ha Hb Hc Hd He
  isplitl [Ho]; · iexact Ho
  iapply rep_of_owns
  unfold owns
  iexists _; iframe Hf
  ipureintro
  rw [View.read_writes_eq_canon _ _ _ (View.cover_of_tiled _ S5000x96.size (by rfl))]
  unfold out2_5 body_obligation2.sl.v0 body_obligation2.sl.v5 body_obligation2.sl.v7 body_obligation2.sl.v13 body_obligation2.sl.v17
  simp only [View.readAt_rep]
  rfl

end Cert.KernelIdeal.Hand

end
-- ==== Proof.KI.Reg3.lean ====
import proofs.«402019_j40432822124917_2_alg».proof.Proof.KI.Common
import proofs.«402019_j40432822124917_2_alg».proof.Proof.Gen.KernelIdeal.Skeleton
import proofs.«402019_j40432822124917_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import Idealize.ShloMosaic.Lib.Pipeline.TableIdle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

def iblk3 (c : Dev nD) (w : Fin cfg3.W) (t : Fin cfg3.N) : ((cfg3.win w).xblock (cfg3.grid.coords t)).Idx → Elt F (cfg3.win w).elt :=
  ((cfg3.win w).blk t).view.read (Elt F) (Vr W c (Pipeline.arrRef spec3 w))

theorem hz3 : (![0, 0] : Fin 2 → Nat) = fun _ => 0 := funext fun a => by fin_cases a <;> rfl

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

theorem hcond3_1 : ∀ t : Fin cfg3.N, k3_cond2 (grid3.coords t) = 1#1 ↔ t.val % 20 = 19 :=
  (by decide +kernel : ∀ t : Fin grid3.N, k3_cond2 (grid3.coords t) = 1#1 ↔ t.val % 20 = 19)

def yblk3 (c : Dev nD) (t : Fin cfg3.N) : FVec F S5000x96 .f32 :=
  k3_pay5 (iblk3 W c 0 t) (iblk3 W c 1 t) (iblk3 W c 3 t) (iblk3 W c 4 t) (iblk3 W c 2 t) (iblk3 W c 5 t)

def ymblk3 (c : Dev nD) (t : Fin cfg3.N) : FVec F S5000x96 .f32 :=
  k3_pay6 (grid3.coords t) (iblk3 W c 0 t) (iblk3 W c 1 t) (iblk3 W c 3 t) (iblk3 W c 4 t) (iblk3 W c 2 t) (iblk3 W c 5 t)

def accN3_s (c : Dev nD) : ℕ → FVec F S1x96 .f32
  | 0 => k3_pay3
  | n + 1 => if h : n < cfg3.N then k3_pay1 (ymblk3 W c ⟨n, h⟩) (accN3_s c n) else accN3_s c n

def accN3_q (c : Dev nD) : ℕ → FVec F S1x96 .f32
  | 0 => k3_pay4
  | n + 1 => if h : n < cfg3.N then k3_pay2 (ymblk3 W c ⟨n, h⟩) (accN3_q c n) else accN3_q c n

def acc3_s (c : Dev nD) (t : Fin (cfg3.N + 1)) : FVec F S1x96 .f32 := accN3_s W c t.val
def acc3_q (c : Dev nD) (t : Fin (cfg3.N + 1)) : FVec F S1x96 .f32 := accN3_q W c t.val

theorem accN3_s_zero (c : Dev nD) : accN3_s W c 0 = k3_pay3 := rfl
theorem accN3_q_zero (c : Dev nD) : accN3_q W c 0 = k3_pay4 := rfl
theorem accN3_s_succ (c : Dev nD) (t : Fin cfg3.N) :
    accN3_s W c (t.val + 1) = k3_pay1 (ymblk3 W c t) (accN3_s W c t.val) := by
  rw [accN3_s]; exact dif_pos t.isLt
theorem accN3_q_succ (c : Dev nD) (t : Fin cfg3.N) :
    accN3_q W c (t.val + 1) = k3_pay2 (ymblk3 W c t) (accN3_q W c t.val) := by
  rw [accN3_q]; exact dif_pos t.isLt

theorem acc3_reset {α : Type} (t : Fin cfg3.N) (A : ℕ → α) (d : α) :
    (if cond3_0 (grid3.coords t) then A 0 else if t.val = 0 then d else A t.val) = A t.val := by
  by_cases h : t.val = 0
  · rw [if_pos ((hcond3_0 t).mpr h), h]
  · rw [if_neg (h ∘ (hcond3_0 t).mp), if_neg h]

def Phi3 (c : Dev nD) (n : ℕ) : sProp 𝕄 :=
  iprop((∃ d e, owns (c : Thread nD τ) (Memref.whole cc3_scratch0) fullShare (if n = 0 then d else accN3_s W c n)
      ∗ owns (c : Thread nD τ) (Memref.whole cc3_scratch1) fullShare (if n = 0 then e else accN3_q W c n))
    ∗ Pipeline.scopedRestBut (Ix := Unit) (Name := ℕ) (U := UR sig nD τ) (Lvl := ℕ) (Val := Elt F) spec3 c [cc3_scratch0, cc3_scratch1]
    ∗ (∃ r, prngReg c r))

def dat3 (c : Dev nD) : Dat τ (Elt F) Unit ℕ (UR sig nD τ) ℕ cfg3 c where
  A w := Vr W c (Pipeline.arrRef spec3 w)
  after w t := match w with
    | ⟨0, _⟩ => iblk3 W c 0 t
    | ⟨1, _⟩ => iblk3 W c 1 t
    | ⟨2, _⟩ => iblk3 W c 2 t
    | ⟨3, _⟩ => iblk3 W c 3 t
    | ⟨4, _⟩ => iblk3 W c 4 t
    | ⟨5, _⟩ => iblk3 W c 5 t
    | ⟨6, _⟩ => yblk3 W c t
    | ⟨7, _⟩ => acc3_s W c t.succ
    | ⟨8, _⟩ => acc3_q W c t.succ
  Φ t := Phi3 W c t.val
  q _ := fullShare
  owed _ := 0

theorem dat3_A (c : Dev nD) (w : Fin cfg3.W) : (dat3 W c).A w = Vr W c (Pipeline.arrRef spec3 w) := by
  dsimp only [dat3]

theorem after3_6 (c : Dev nD) (t : Fin cfg3.N) : (dat3 W c).after 6 t = yblk3 W c t := by dsimp only [dat3]
theorem after3_7 (c : Dev nD) (t : Fin cfg3.N) : (dat3 W c).after 7 t = acc3_s W c t.succ := by dsimp only [dat3]
theorem after3_8 (c : Dev nD) (t : Fin cfg3.N) : (dat3 W c).after 8 t = acc3_q W c t.succ := by dsimp only [dat3]

theorem readAt_unit_zero3 {κ : Kind} {sp : Space} {d : Fin 2 → ℕ} {e : EltTy} (v : View sig κ sp ⟨2, d⟩ e) (f : v.ty.Contents (Elt F))
    (inb : ∀ a, (![0, 0] : Fin 2 → ℕ) a + d a ≤ d a) : v.readAt (Elt F) (Rect.unit (s := ⟨2, d⟩) ![0, 0] d inb).toLoadRect f = v.read (Elt F) f :=
  (View.readAt_eq_ld v f _).trans (View.ld_unit_zero hz3 inb _)

theorem read_writes_unit_zero3 {κ : Kind} {sp : Space} {d : Fin 2 → ℕ} {e : EltTy} (v : View sig κ sp ⟨2, d⟩ e) (f : v.ty.Contents (Elt F))
    (inb : ∀ a, (![0, 0] : Fin 2 → ℕ) a + d a ≤ d a) (w : Shape.Idx ⟨2, d⟩ → Elt F e) (L : List (View.Piece (Elt F) ⟨2, d⟩ e)) :
    v.read (Elt F) (v.writes (Elt F) f ((⟨Rect.unit ![0, 0] d inb, w⟩ : View.Piece (Elt F) ⟨2, d⟩ e) :: L)) = w := by
  rw [View.read_writes_eq_canon _ _ _ (fun y => ⟨_, List.mem_cons_self, View.mem_set_unit_zero hz3 inb y⟩), View.canon_cons_unit_zero hz3 inb]

theorem rep_read3 (c : Thread nD τ) {sp : Space} {S : Shape} {e : EltTy} (m : Memref sig c.2.kind sp S e) (g : m.view.ty.Contents (Elt F)) :
    (m.view.loc c ↦[m.view.set]{fullShare} g : sProp 𝕄) ⊢ (m.view.loc c ↦[m.view.set]{fullShare} m.view.rep (m.view.read (Elt F) g)) :=
  (owns_intro c m _ g).trans (rep_of_owns c m _ _)

set_option maxHeartbeats 1000000 in

theorem run3_any (c : Dev nD) (E : Set ℕ) (i : grid3.Coords) {arg1 : Memref sig .tc .vmem S5000x96 .f32} {harg1 : arg1.IsWhole} {arg2 : Memref sig .tc .vmem S5000x1 .f32} {harg2 : arg2.IsWhole} {arg3 : Memref sig .tc .vmem S5000x96 .f32} {harg3 : arg3.IsWhole} {arg4 : Memref sig .tc .vmem S96x96 .f32} {harg4 : arg4.IsWhole} {arg5 : Memref sig .tc .vmem S1x96 .f32} {harg5 : arg5.IsWhole} {arg6 : Memref sig .tc .vmem S96x96 .f32} {harg6 : arg6.IsWhole} {arg7 : Memref sig .tc .vmem S5000x96 .f32} {harg7 : arg7.IsWhole} {arg8 : Memref sig .tc .vmem S1x96 .f32} {harg8 : arg8.IsWhole} {arg9 : Memref sig .tc .vmem S1x96 .f32} {harg9 : arg9.IsWhole} {arg10 : Memref sig .tc .vmem S1x96 .f32} {harg10 : arg10.IsWhole} {arg11 : Memref sig .tc .vmem S1x96 .f32} {harg11 : arg11.IsWhole}
    (x0 : Vec F S5000x96 .f32) (x1 : Vec F S5000x1 .f32) (x2 : Vec F S5000x96 .f32) (x3 : Vec F S96x96 .f32) (x4 : Vec F S1x96 .f32) (x5 : Vec F S96x96 .f32) (d6 : Vec F S5000x96 .f32)
    (xi7 xi8 xs xq s q : Vec F S1x96 .f32) (hs : (if cond3_0 i then k3_pay3 else xs) = s) (hq : (if cond3_0 i then k3_pay4 else xq) = q) (K : PUnit → sProp 𝕄) :
    ⊢ iprop(owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare d6 -∗ owns (c : Thread nD τ) arg8 fullShare xi7 -∗ owns (c : Thread nD τ) arg9 fullShare xi8 -∗ owns (c : Thread nD τ) arg10 fullShare xs -∗ owns (c : Thread nD τ) arg11 fullShare xq
        -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare (k3_pay5 x0 x1 x3 x4 x2 x5) -∗ owns (c : Thread nD τ) arg8 fullShare (if k3_cond2 i = 1#1 then k3_pay1 (k3_pay6 i x0 x1 x3 x4 x2 x5) s else xi7) -∗ owns (c : Thread nD τ) arg9 fullShare (if k3_cond2 i = 1#1 then k3_pay2 (k3_pay6 i x0 x1 x3 x4 x2 x5) q else xi8) -∗ owns (c : Thread nD τ) arg10 fullShare (k3_pay1 (k3_pay6 i x0 x1 x3 x4 x2 x5) s) -∗ owns (c : Thread nD τ) arg11 fullShare (k3_pay2 (k3_pay6 i x0 x1 x3 x4 x2 x5) q) -∗ K ⟨⟩)
        -∗ wp frame (wpE (defs₀ (F := F)) Variants.none c none) E (cc3__combine_kernel_body i arg1 harg1 arg2 harg2 arg3 harg3 arg4 harg4 arg5 harg5 arg6 harg6 arg7 harg7 arg8 harg8 arg9 harg9 arg10 harg10 arg11 harg11) K) := by
  subst hs hq
  simp only [cc3__combine_kernel_body_eq_skeleton]; unfold cc3__combine_kernel_body_skel
  simp only [k3_part1_eq_skeleton]; unfold k3_part1_skel
  simp only [owns_eq_rep]
  iintro H0 H1 H2 H3 H4 H5 H6 H7 H8 HS HQ Hk
  sl_exec
  sl_step
  ihave H6 := rep_read3 c arg7 _ $$ H6
  ihave H7 := rep_read3 c arg8 _ $$ H7
  ihave H8 := rep_read3 c arg9 _ $$ H8
  ihave HS := rep_read3 c arg10 _ $$ HS
  ihave HQ := rep_read3 c arg11 _ $$ HQ
  sl_unfold_words
  simp only [readAt_unit_zero3, read_writes_unit_zero3, View.read_rep, View.readCov_unit_zero (S := S1x96) _ hz3, apply_dite (View.read _ _), apply_ite (View.read _ _), dite_eq_ite]
  iapply Hk $$ H0 H1 H2 H3 H4 H5 H6 H7 H8 HS HQ

theorem before3_in (c : Dev nD) (w : Fin cfg3.W) (h : w.val < 6) : ∀ t d, (dat3 W c).before w t d = (dat3 W c).fetched w t d := by
  fin_cases w <;> first | exact absurd h (by decide) | exact (dat3 W c).before_in_eq_fetched _ rfl (fun _ => rfl) (fun _ _ _ => rfl) (fun _ => rfl)

theorem after3_out (c : Dev nD) (t : Fin cfg3.N) (w : Fin cfg3.W) (hi : cfg3.idle w (grid3.coords t) = !(k3_cond2 (grid3.coords t) == 1#1))
    (hf : (cfg3.win w).flush t = true ↔ t.val % 20 = 19) (d) (X) (hX : X = (dat3 W c).after w t) :
    owns (c : Thread nD τ) ((cfg3.win w).stage (cfg3.slots t w)) fullShare (if k3_cond2 (grid3.coords t) = 1#1 then X else (dat3 W c).before w t d)
      ⊢ (dat3 W c).leavesExact w t := by
  subst hX
  by_cases h : k3_cond2 (grid3.coords t) = 1#1
  · unfold Dat.leavesExact; rw [hi, if_pos h, beq_iff_eq.mpr h]; exact .rfl
  · rw [if_neg h, (dat3 W c).leavesExact_idle w t (hi.trans (by simp only [beq_eq_false_iff_ne.mpr h, Bool.not_false]))
      (Bool.eq_false_iff.mpr fun hh => h ((hcond3_1 t).mpr (hf.mp hh)))]
    iintro H; iexists d; iexact H

set_option maxHeartbeats 4800000 in

theorem body_obligation3 (c : Dev nD) : BodyObligation (dat3 (F := F) W c) (defs₀ (F := F)) Variants.none () Set.univ := fun t => by
  rw [bigSep_W3, bigSep_W3]
  simp (disch := decide) only [before3_in W c, show ∀ k, (dat3 W c).Φ k = Phi3 W c k.val from fun _ => rfl, Phi3, Fin.coe_castSucc, Fin.val_succ,
    Nat.add_one_ne_zero, if_false, accN3_s_succ, accN3_q_succ]
  iintro ⟨⟨⟨%ds, %dq, HS, HQ⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run3_any c Set.univ (grid3.coords t) _ _ _ _ _ _ _ _ _ _ _ _ _
    (acc3_reset t (accN3_s W c) ds) (acc3_reset t (accN3_q W c) dq) _) $$ H0 H1 H2 H3 H4 H5 H6 H7 H8 HS HQ
  iintro H0 H1 H2 H3 H4 H5 H6 H7 H8 HS HQ
  isplitl [HS HQ Hr]
  · isplitl [HS HQ]
    · iexists ds, dq; isplitl [HS]; · iexact HS
      iexact HQ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (after3_out W c t 7 rfl (flush3_7 t) d7 _ (accN3_s_succ W c t).symm); iexact H7
  iapply (after3_out W c t 8 rfl (flush3_8 t) d8 _ (accN3_q_succ W c t).symm); iexact H8

theorem hin3 (c : Dev nD) (P : sProp 𝕄) :
    iprop(iprop(∃ r, prngReg c r) ∗ P ∗ Pipeline.scopedRest (Ix := Unit) (Name := ℕ) (U := UR sig nD τ) (Lvl := ℕ) (Val := Elt F) spec3 c)
      ⊢ (dat3 W c).Φ 0 := by
  rw [show (dat3 W c).Φ 0 = Phi3 W c 0 from rfl, Phi3, scopedRest3_split]
  simp only [owns_whole, eq_self_iff_true, if_true]
  iintro ⟨Hg, -, ⟨⟨%ds, HS⟩, ⟨%dq, HQ⟩⟩, Hr⟩
  isplitl [HS HQ]
  · iexists ds, dq; isplitl [HS]; · iexact HS
    iexact HQ
  isplitl [Hr]; · iexact Hr
  iexact Hg

theorem hout3 (c : Dev nD) :
    (dat3 W c).Φ (Fin.last cfg3.N)
      ⊢ iprop(iprop(∃ r, prngReg c r) ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec3 c) := by
  rw [Pipeline.ownSems0_none, show (dat3 W c).Φ (Fin.last cfg3.N) = Phi3 W c (Fin.last cfg3.N).val from rfl, Phi3, scopedRest3_split]
  simp only [owns_whole]
  iintro ⟨⟨%ds, %dq, HS, HQ⟩, Hr, Hg⟩
  isplitl [Hg]; · iexact Hg
  isplitr; · iempintro
  isplitl [HS HQ]
  · isplitl [HS]; · iexists _; iexact HS
    iexists _; iexact HQ
  iexact Hr

end Cert.KernelIdeal.Hand

end
-- ==== Proof.KI.Reg4.lean ====
import proofs.«402019_j40432822124917_2_alg».proof.Proof.Gen.KernelIdeal.Skeleton
import proofs.«402019_j40432822124917_2_alg».proof.Proof.Gen.KernelIdeal.Points
import proofs.«402019_j40432822124917_2_alg».proof.Proof.KI.Common
import Idealize.ShloMosaic.Lib.Pipeline.FrameBody
import Idealize.ShloMosaic.Lib.Pipeline.TableIdle
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

def iblk4 (c : Dev nD) (w : Fin cfg4.W) (t : Fin cfg4.N) : ((cfg4.win w).xblock (cfg4.grid.coords t)).Idx → Elt F (cfg4.win w).elt :=
  ((cfg4.win w).blk t).view.read (Elt F) (Vr W c (Pipeline.arrRef spec4 w))

abbrev r4_0 : Rect S5000x96 := Rect.unit (s := S5000x96) ![0, 0] S5000x96.size inb_S5000x96_S5000x96_0_0
abbrev r4_1 : Rect S1x96 := Rect.unit (s := S1x96) ![0, 0] S1x96.size inb_S1x96_S1x96_0_0

def out4_5 (x0 : Vec F S5000x96 .f32) (x1 : Vec F S1x96 .f32) (x2 : Vec F S1x96 .f32) (x3 : Vec F S1x96 .f32)
    (x4 : Vec F S1x96 .f32) : Vec F S5000x96 .f32 :=
  View.canon [⟨r4_0, k4_pay1 (View.ld x2 r4_1) (View.ld x0 r4_0) (View.ld x1 r4_1) (View.ld x3 r4_1) (View.ld x4 r4_1)⟩]

def dat4 (c : Dev nD) : Dat τ (Elt F) Unit ℕ (UR sig nD τ) ℕ cfg4 c where
  A w := Vr W c (Pipeline.arrRef spec4 w)
  after w t := match w with
    | ⟨0, _⟩ => iblk4 W c 0 t
    | ⟨1, _⟩ => iblk4 W c 1 t
    | ⟨2, _⟩ => iblk4 W c 2 t
    | ⟨3, _⟩ => iblk4 W c 3 t
    | ⟨4, _⟩ => iblk4 W c 4 t
    | ⟨5, _⟩ => out4_5 (iblk4 W c 0 t) (iblk4 W c 1 t) (iblk4 W c 2 t) (iblk4 W c 3 t) (iblk4 W c 4 t)
  Φ _ := Pipeline.ΦA spec4 c
  q _ := fullShare
  owed _ := 0

theorem dat4_A (c : Dev nD) (w : Fin cfg4.W) : (dat4 W c).A w = Vr W c (Pipeline.arrRef spec4 w) := by
  dsimp only [dat4]

theorem after4_5 (c : Dev nD) (t : Fin cfg4.N) :
    (dat4 W c).after 5 t = out4_5 (iblk4 W c 0 t) (iblk4 W c 1 t) (iblk4 W c 2 t) (iblk4 W c 3 t) (iblk4 W c 4 t) := by
  dsimp only [dat4]

theorem before4_in (c : Dev nD) (t : Fin cfg4.N) : ∀ (w : Fin cfg4.W) (_ : (cfg4.win w).isOut = false) (d),
    (dat4 W c).before w t d = (dat4 W c).after w t
  | 0, _, d | 1, _, d | 2, _, d | 3, _, d | 4, _, d =>
    (dat4 W c).before_in_eq_fetched _ rfl (fun _ => rfl) (fun _ _ _ => rfl) (fun _ => rfl) t d
  | 5, h, _ => nomatch h
  | ⟨_ + 6, h⟩, _, _ => absurd h (Nat.not_lt.2 (Nat.le_add_left _ _))

set_option maxHeartbeats 1000000 in

theorem body_obligation4 (c : Dev nD) : BodyObligation (dat4 (F := F) W c) (defs₀ (F := F)) Variants.none () Set.univ := fun t => by
  have b := before4_in W c t
  rw [bigSep_W4, bigSep_W4]
  simp only [b 0 rfl, b 1 rfl, b 2 rfl, b 3 rfl, b 4 rfl, after4_5, owns_eq_rep,
    show ∀ k, (dat4 W c).Φ k = Pipeline.ΦA spec4 c from fun _ => rfl]
  show _ ⊢ wp _ _ _ (bodyAt4 t) _
  unfold bodyAt4
  simp only [cc4__bn_kernel_eq_skeleton]; unfold cc4__bn_kernel_skel
  iintro ⟨HΦ, Ho, ⟨%_, Ha⟩, ⟨%_, Hb⟩, ⟨%_, Hc⟩, ⟨%_, Hd⟩, ⟨%_, He⟩, ⟨%_, Hf⟩⟩
  sl_exec
  sl_step
  iframe HΦ Ha Hb Hc Hd He
  isplitl [Ho]; · iexact Ho
  iapply rep_of_owns
  unfold owns
  iexists _; iframe Hf
  ipureintro
  rw [View.read_writes_eq_canon _ _ _ (View.cover_of_tiled _ S5000x96.size (by rfl))]
  unfold out4_5 body_obligation4.sl.v0 body_obligation4.sl.v5 body_obligation4.sl.v7 body_obligation4.sl.v13 body_obligation4.sl.v17
  simp only [View.readAt_rep]
  rfl

end Cert.KernelIdeal.Hand

end
-- ==== Proof.KI.Reg5.lean ====
import proofs.«402019_j40432822124917_2_alg».proof.Proof.KI.Common
import proofs.«402019_j40432822124917_2_alg».proof.Proof.Gen.KernelIdeal.Skeleton
import proofs.«402019_j40432822124917_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import Idealize.ShloMosaic.Lib.Pipeline.TableIdle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

def iblk5 (c : Dev nD) (w : Fin cfg5.W) (t : Fin cfg5.N) : ((cfg5.win w).xblock (cfg5.grid.coords t)).Idx → Elt F (cfg5.win w).elt :=
  ((cfg5.win w).blk t).view.read (Elt F) (Vr W c (Pipeline.arrRef spec5 w))

theorem hz5 : (![0, 0] : Fin 2 → Nat) = fun _ => 0 := funext fun a => by fin_cases a <;> rfl

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val = 0 :=
  (by decide +kernel : ∀ t : Fin grid5.N, cond5_0 (grid5.coords t) ↔ t.val = 0)

theorem hcond5_1 : ∀ t : Fin cfg5.N, k5_cond2 (grid5.coords t) = 1#1 ↔ t.val % 20 = 19 :=
  (by decide +kernel : ∀ t : Fin grid5.N, k5_cond2 (grid5.coords t) = 1#1 ↔ t.val % 20 = 19)

def yblk5 (c : Dev nD) (t : Fin cfg5.N) : FVec F S5000x96 .f32 :=
  k5_pay5 (iblk5 W c 0 t) (iblk5 W c 1 t) (iblk5 W c 3 t) (iblk5 W c 4 t) (iblk5 W c 2 t) (iblk5 W c 5 t)

def ymblk5 (c : Dev nD) (t : Fin cfg5.N) : FVec F S5000x96 .f32 :=
  k5_pay6 (grid5.coords t) (iblk5 W c 0 t) (iblk5 W c 1 t) (iblk5 W c 3 t) (iblk5 W c 4 t) (iblk5 W c 2 t) (iblk5 W c 5 t)

def accN5_s (c : Dev nD) : ℕ → FVec F S1x96 .f32
  | 0 => k5_pay3
  | n + 1 => if h : n < cfg5.N then k5_pay1 (ymblk5 W c ⟨n, h⟩) (accN5_s c n) else accN5_s c n

def accN5_q (c : Dev nD) : ℕ → FVec F S1x96 .f32
  | 0 => k5_pay4
  | n + 1 => if h : n < cfg5.N then k5_pay2 (ymblk5 W c ⟨n, h⟩) (accN5_q c n) else accN5_q c n

def acc5_s (c : Dev nD) (t : Fin (cfg5.N + 1)) : FVec F S1x96 .f32 := accN5_s W c t.val
def acc5_q (c : Dev nD) (t : Fin (cfg5.N + 1)) : FVec F S1x96 .f32 := accN5_q W c t.val

theorem accN5_s_zero (c : Dev nD) : accN5_s W c 0 = k5_pay3 := rfl
theorem accN5_q_zero (c : Dev nD) : accN5_q W c 0 = k5_pay4 := rfl
theorem accN5_s_succ (c : Dev nD) (t : Fin cfg5.N) :
    accN5_s W c (t.val + 1) = k5_pay1 (ymblk5 W c t) (accN5_s W c t.val) := by
  rw [accN5_s]; exact dif_pos t.isLt
theorem accN5_q_succ (c : Dev nD) (t : Fin cfg5.N) :
    accN5_q W c (t.val + 1) = k5_pay2 (ymblk5 W c t) (accN5_q W c t.val) := by
  rw [accN5_q]; exact dif_pos t.isLt

theorem acc5_reset {α : Type} (t : Fin cfg5.N) (A : ℕ → α) (d : α) :
    (if cond5_0 (grid5.coords t) then A 0 else if t.val = 0 then d else A t.val) = A t.val := by
  by_cases h : t.val = 0
  · rw [if_pos ((hcond5_0 t).mpr h), h]
  · rw [if_neg (h ∘ (hcond5_0 t).mp), if_neg h]

def Phi5 (c : Dev nD) (n : ℕ) : sProp 𝕄 :=
  iprop((∃ d e, owns (c : Thread nD τ) (Memref.whole cc5_scratch0) fullShare (if n = 0 then d else accN5_s W c n)
      ∗ owns (c : Thread nD τ) (Memref.whole cc5_scratch1) fullShare (if n = 0 then e else accN5_q W c n))
    ∗ Pipeline.scopedRestBut (Ix := Unit) (Name := ℕ) (U := UR sig nD τ) (Lvl := ℕ) (Val := Elt F) spec5 c [cc5_scratch0, cc5_scratch1]
    ∗ (∃ r, prngReg c r))

def dat5 (c : Dev nD) : Dat τ (Elt F) Unit ℕ (UR sig nD τ) ℕ cfg5 c where
  A w := Vr W c (Pipeline.arrRef spec5 w)
  after w t := match w with
    | ⟨0, _⟩ => iblk5 W c 0 t
    | ⟨1, _⟩ => iblk5 W c 1 t
    | ⟨2, _⟩ => iblk5 W c 2 t
    | ⟨3, _⟩ => iblk5 W c 3 t
    | ⟨4, _⟩ => iblk5 W c 4 t
    | ⟨5, _⟩ => iblk5 W c 5 t
    | ⟨6, _⟩ => yblk5 W c t
    | ⟨7, _⟩ => acc5_s W c t.succ
    | ⟨8, _⟩ => acc5_q W c t.succ
  Φ t := Phi5 W c t.val
  q _ := fullShare
  owed _ := 0

theorem dat5_A (c : Dev nD) (w : Fin cfg5.W) : (dat5 W c).A w = Vr W c (Pipeline.arrRef spec5 w) := by
  dsimp only [dat5]

theorem after5_6 (c : Dev nD) (t : Fin cfg5.N) : (dat5 W c).after 6 t = yblk5 W c t := by dsimp only [dat5]
theorem after5_7 (c : Dev nD) (t : Fin cfg5.N) : (dat5 W c).after 7 t = acc5_s W c t.succ := by dsimp only [dat5]
theorem after5_8 (c : Dev nD) (t : Fin cfg5.N) : (dat5 W c).after 8 t = acc5_q W c t.succ := by dsimp only [dat5]

theorem readAt_unit_zero5 {κ : Kind} {sp : Space} {d : Fin 2 → ℕ} {e : EltTy} (v : View sig κ sp ⟨2, d⟩ e) (f : v.ty.Contents (Elt F))
    (inb : ∀ a, (![0, 0] : Fin 2 → ℕ) a + d a ≤ d a) : v.readAt (Elt F) (Rect.unit (s := ⟨2, d⟩) ![0, 0] d inb).toLoadRect f = v.read (Elt F) f :=
  (View.readAt_eq_ld v f _).trans (View.ld_unit_zero hz5 inb _)

theorem read_writes_unit_zero5 {κ : Kind} {sp : Space} {d : Fin 2 → ℕ} {e : EltTy} (v : View sig κ sp ⟨2, d⟩ e) (f : v.ty.Contents (Elt F))
    (inb : ∀ a, (![0, 0] : Fin 2 → ℕ) a + d a ≤ d a) (w : Shape.Idx ⟨2, d⟩ → Elt F e) (L : List (View.Piece (Elt F) ⟨2, d⟩ e)) :
    v.read (Elt F) (v.writes (Elt F) f ((⟨Rect.unit ![0, 0] d inb, w⟩ : View.Piece (Elt F) ⟨2, d⟩ e) :: L)) = w := by
  rw [View.read_writes_eq_canon _ _ _ (fun y => ⟨_, List.mem_cons_self, View.mem_set_unit_zero hz5 inb y⟩), View.canon_cons_unit_zero hz5 inb]

theorem rep_read5 (c : Thread nD τ) {sp : Space} {S : Shape} {e : EltTy} (m : Memref sig c.2.kind sp S e) (g : m.view.ty.Contents (Elt F)) :
    (m.view.loc c ↦[m.view.set]{fullShare} g : sProp 𝕄) ⊢ (m.view.loc c ↦[m.view.set]{fullShare} m.view.rep (m.view.read (Elt F) g)) :=
  (owns_intro c m _ g).trans (rep_of_owns c m _ _)

set_option maxHeartbeats 1000000 in

theorem run5_any (c : Dev nD) (E : Set ℕ) (i : grid5.Coords) {arg1 : Memref sig .tc .vmem S5000x96 .f32} {harg1 : arg1.IsWhole} {arg2 : Memref sig .tc .vmem S5000x1 .f32} {harg2 : arg2.IsWhole} {arg3 : Memref sig .tc .vmem S5000x96 .f32} {harg3 : arg3.IsWhole} {arg4 : Memref sig .tc .vmem S96x96 .f32} {harg4 : arg4.IsWhole} {arg5 : Memref sig .tc .vmem S1x96 .f32} {harg5 : arg5.IsWhole} {arg6 : Memref sig .tc .vmem S96x96 .f32} {harg6 : arg6.IsWhole} {arg7 : Memref sig .tc .vmem S5000x96 .f32} {harg7 : arg7.IsWhole} {arg8 : Memref sig .tc .vmem S1x96 .f32} {harg8 : arg8.IsWhole} {arg9 : Memref sig .tc .vmem S1x96 .f32} {harg9 : arg9.IsWhole} {arg10 : Memref sig .tc .vmem S1x96 .f32} {harg10 : arg10.IsWhole} {arg11 : Memref sig .tc .vmem S1x96 .f32} {harg11 : arg11.IsWhole}
    (x0 : Vec F S5000x96 .f32) (x1 : Vec F S5000x1 .f32) (x2 : Vec F S5000x96 .f32) (x3 : Vec F S96x96 .f32) (x4 : Vec F S1x96 .f32) (x5 : Vec F S96x96 .f32) (d6 : Vec F S5000x96 .f32)
    (xi7 xi8 xs xq s q : Vec F S1x96 .f32) (hs : (if cond5_0 i then k5_pay3 else xs) = s) (hq : (if cond5_0 i then k5_pay4 else xq) = q) (K : PUnit → sProp 𝕄) :
    ⊢ iprop(owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare d6 -∗ owns (c : Thread nD τ) arg8 fullShare xi7 -∗ owns (c : Thread nD τ) arg9 fullShare xi8 -∗ owns (c : Thread nD τ) arg10 fullShare xs -∗ owns (c : Thread nD τ) arg11 fullShare xq
        -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare (k5_pay5 x0 x1 x3 x4 x2 x5) -∗ owns (c : Thread nD τ) arg8 fullShare (if k5_cond2 i = 1#1 then k5_pay1 (k5_pay6 i x0 x1 x3 x4 x2 x5) s else xi7) -∗ owns (c : Thread nD τ) arg9 fullShare (if k5_cond2 i = 1#1 then k5_pay2 (k5_pay6 i x0 x1 x3 x4 x2 x5) q else xi8) -∗ owns (c : Thread nD τ) arg10 fullShare (k5_pay1 (k5_pay6 i x0 x1 x3 x4 x2 x5) s) -∗ owns (c : Thread nD τ) arg11 fullShare (k5_pay2 (k5_pay6 i x0 x1 x3 x4 x2 x5) q) -∗ K ⟨⟩)
        -∗ wp frame (wpE (defs₀ (F := F)) Variants.none c none) E (cc5__combine_kernel_body i arg1 harg1 arg2 harg2 arg3 harg3 arg4 harg4 arg5 harg5 arg6 harg6 arg7 harg7 arg8 harg8 arg9 harg9 arg10 harg10 arg11 harg11) K) := by
  subst hs hq
  simp only [cc5__combine_kernel_body_eq_skeleton]; unfold cc5__combine_kernel_body_skel
  simp only [k5_part1_eq_skeleton]; unfold k5_part1_skel
  simp only [owns_eq_rep]
  iintro H0 H1 H2 H3 H4 H5 H6 H7 H8 HS HQ Hk
  sl_exec
  sl_step
  ihave H6 := rep_read5 c arg7 _ $$ H6
  ihave H7 := rep_read5 c arg8 _ $$ H7
  ihave H8 := rep_read5 c arg9 _ $$ H8
  ihave HS := rep_read5 c arg10 _ $$ HS
  ihave HQ := rep_read5 c arg11 _ $$ HQ
  sl_unfold_words
  simp only [readAt_unit_zero5, read_writes_unit_zero5, View.read_rep, View.readCov_unit_zero (S := S1x96) _ hz5, apply_dite (View.read _ _), apply_ite (View.read _ _), dite_eq_ite]
  iapply Hk $$ H0 H1 H2 H3 H4 H5 H6 H7 H8 HS HQ

theorem before5_in (c : Dev nD) (w : Fin cfg5.W) (h : w.val < 6) : ∀ t d, (dat5 W c).before w t d = (dat5 W c).fetched w t d := by
  fin_cases w <;> first | exact absurd h (by decide) | exact (dat5 W c).before_in_eq_fetched _ rfl (fun _ => rfl) (fun _ _ _ => rfl) (fun _ => rfl)

theorem after5_out (c : Dev nD) (t : Fin cfg5.N) (w : Fin cfg5.W) (hi : cfg5.idle w (grid5.coords t) = !(k5_cond2 (grid5.coords t) == 1#1))
    (hf : (cfg5.win w).flush t = true ↔ t.val % 20 = 19) (d) (X) (hX : X = (dat5 W c).after w t) :
    owns (c : Thread nD τ) ((cfg5.win w).stage (cfg5.slots t w)) fullShare (if k5_cond2 (grid5.coords t) = 1#1 then X else (dat5 W c).before w t d)
      ⊢ (dat5 W c).leavesExact w t := by
  subst hX
  by_cases h : k5_cond2 (grid5.coords t) = 1#1
  · unfold Dat.leavesExact; rw [hi, if_pos h, beq_iff_eq.mpr h]; exact .rfl
  · rw [if_neg h, (dat5 W c).leavesExact_idle w t (hi.trans (by simp only [beq_eq_false_iff_ne.mpr h, Bool.not_false]))
      (Bool.eq_false_iff.mpr fun hh => h ((hcond5_1 t).mpr (hf.mp hh)))]
    iintro H; iexists d; iexact H

set_option maxHeartbeats 4800000 in

theorem body_obligation5 (c : Dev nD) : BodyObligation (dat5 (F := F) W c) (defs₀ (F := F)) Variants.none () Set.univ := fun t => by
  rw [bigSep_W5, bigSep_W5]
  simp (disch := decide) only [before5_in W c, show ∀ k, (dat5 W c).Φ k = Phi5 W c k.val from fun _ => rfl, Phi5, Fin.coe_castSucc, Fin.val_succ,
    Nat.add_one_ne_zero, if_false, accN5_s_succ, accN5_q_succ]
  iintro ⟨⟨⟨%ds, %dq, HS, HQ⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run5_any c Set.univ (grid5.coords t) _ _ _ _ _ _ _ _ _ _ _ _ _
    (acc5_reset t (accN5_s W c) ds) (acc5_reset t (accN5_q W c) dq) _) $$ H0 H1 H2 H3 H4 H5 H6 H7 H8 HS HQ
  iintro H0 H1 H2 H3 H4 H5 H6 H7 H8 HS HQ
  isplitl [HS HQ Hr]
  · isplitl [HS HQ]
    · iexists ds, dq; isplitl [HS]; · iexact HS
      iexact HQ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (after5_out W c t 7 rfl (flush5_7 t) d7 _ (accN5_s_succ W c t).symm); iexact H7
  iapply (after5_out W c t 8 rfl (flush5_8 t) d8 _ (accN5_q_succ W c t).symm); iexact H8

theorem hin5 (c : Dev nD) (P : sProp 𝕄) :
    iprop(iprop(∃ r, prngReg c r) ∗ P ∗ Pipeline.scopedRest (Ix := Unit) (Name := ℕ) (U := UR sig nD τ) (Lvl := ℕ) (Val := Elt F) spec5 c)
      ⊢ (dat5 W c).Φ 0 := by
  rw [show (dat5 W c).Φ 0 = Phi5 W c 0 from rfl, Phi5, scopedRest5_split]
  simp only [owns_whole, eq_self_iff_true, if_true]
  iintro ⟨Hg, -, ⟨⟨%ds, HS⟩, ⟨%dq, HQ⟩⟩, Hr⟩
  isplitl [HS HQ]
  · iexists ds, dq; isplitl [HS]; · iexact HS
    iexact HQ
  isplitl [Hr]; · iexact Hr
  iexact Hg

theorem hout5 (c : Dev nD) :
    (dat5 W c).Φ (Fin.last cfg5.N)
      ⊢ iprop(iprop(∃ r, prngReg c r) ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec5 c) := by
  rw [Pipeline.ownSems0_none, show (dat5 W c).Φ (Fin.last cfg5.N) = Phi5 W c (Fin.last cfg5.N).val from rfl, Phi5, scopedRest5_split]
  simp only [owns_whole]
  iintro ⟨⟨%ds, %dq, HS, HQ⟩, Hr, Hg⟩
  isplitl [Hg]; · iexact Hg
  isplitr; · iempintro
  isplitl [HS HQ]
  · isplitl [HS]; · iexists _; iexact HS
    iexists _; iexact HQ
  iexact Hr

end Cert.KernelIdeal.Hand

end
-- ==== Proof.KI.Reg6.lean ====
import proofs.«402019_j40432822124917_2_alg».proof.Proof.Gen.KernelIdeal.Skeleton
import proofs.«402019_j40432822124917_2_alg».proof.Proof.Gen.KernelIdeal.Points
import proofs.«402019_j40432822124917_2_alg».proof.Proof.KI.Common
import Idealize.ShloMosaic.Lib.Pipeline.FrameBody
import Idealize.ShloMosaic.Lib.Pipeline.TableIdle
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

def iblk6 (c : Dev nD) (w : Fin cfg6.W) (t : Fin cfg6.N) : ((cfg6.win w).xblock (cfg6.grid.coords t)).Idx → Elt F (cfg6.win w).elt :=
  ((cfg6.win w).blk t).view.read (Elt F) (Vr W c (Pipeline.arrRef spec6 w))

abbrev r6_0 : Rect S5000x96 := Rect.unit (s := S5000x96) ![0, 0] S5000x96.size inb_S5000x96_S5000x96_0_0
abbrev r6_1 : Rect S1x96 := Rect.unit (s := S1x96) ![0, 0] S1x96.size inb_S1x96_S1x96_0_0

def out6_5 (x0 : Vec F S5000x96 .f32) (x1 : Vec F S1x96 .f32) (x2 : Vec F S1x96 .f32) (x3 : Vec F S1x96 .f32)
    (x4 : Vec F S1x96 .f32) : Vec F S5000x96 .f32 :=
  View.canon [⟨r6_0, k6_pay1 (View.ld x2 r6_1) (View.ld x0 r6_0) (View.ld x1 r6_1) (View.ld x3 r6_1) (View.ld x4 r6_1)⟩]

def dat6 (c : Dev nD) : Dat τ (Elt F) Unit ℕ (UR sig nD τ) ℕ cfg6 c where
  A w := Vr W c (Pipeline.arrRef spec6 w)
  after w t := match w with
    | ⟨0, _⟩ => iblk6 W c 0 t
    | ⟨1, _⟩ => iblk6 W c 1 t
    | ⟨2, _⟩ => iblk6 W c 2 t
    | ⟨3, _⟩ => iblk6 W c 3 t
    | ⟨4, _⟩ => iblk6 W c 4 t
    | ⟨5, _⟩ => out6_5 (iblk6 W c 0 t) (iblk6 W c 1 t) (iblk6 W c 2 t) (iblk6 W c 3 t) (iblk6 W c 4 t)
  Φ _ := Pipeline.ΦA spec6 c
  q _ := fullShare
  owed _ := 0

theorem dat6_A (c : Dev nD) (w : Fin cfg6.W) : (dat6 W c).A w = Vr W c (Pipeline.arrRef spec6 w) := by
  dsimp only [dat6]

theorem after6_5 (c : Dev nD) (t : Fin cfg6.N) :
    (dat6 W c).after 5 t = out6_5 (iblk6 W c 0 t) (iblk6 W c 1 t) (iblk6 W c 2 t) (iblk6 W c 3 t) (iblk6 W c 4 t) := by
  dsimp only [dat6]

theorem before6_in (c : Dev nD) (t : Fin cfg6.N) : ∀ (w : Fin cfg6.W) (_ : (cfg6.win w).isOut = false) (d),
    (dat6 W c).before w t d = (dat6 W c).after w t
  | 0, _, d | 1, _, d | 2, _, d | 3, _, d | 4, _, d =>
    (dat6 W c).before_in_eq_fetched _ rfl (fun _ => rfl) (fun _ _ _ => rfl) (fun _ => rfl) t d
  | 5, h, _ => nomatch h
  | ⟨_ + 6, h⟩, _, _ => absurd h (Nat.not_lt.2 (Nat.le_add_left _ _))

set_option maxHeartbeats 1000000 in

theorem body_obligation6 (c : Dev nD) : BodyObligation (dat6 (F := F) W c) (defs₀ (F := F)) Variants.none () Set.univ := fun t => by
  have b := before6_in W c t
  rw [bigSep_W6, bigSep_W6]
  simp only [b 0 rfl, b 1 rfl, b 2 rfl, b 3 rfl, b 4 rfl, after6_5, owns_eq_rep,
    show ∀ k, (dat6 W c).Φ k = Pipeline.ΦA spec6 c from fun _ => rfl]
  show _ ⊢ wp _ _ _ (bodyAt6 t) _
  unfold bodyAt6
  simp only [cc6__bn_kernel_eq_skeleton]; unfold cc6__bn_kernel_skel
  iintro ⟨HΦ, Ho, ⟨%_, Ha⟩, ⟨%_, Hb⟩, ⟨%_, Hc⟩, ⟨%_, Hd⟩, ⟨%_, He⟩, ⟨%_, Hf⟩⟩
  sl_exec
  sl_step
  iframe HΦ Ha Hb Hc Hd He
  isplitl [Ho]; · iexact Ho
  iapply rep_of_owns
  unfold owns
  iexists _; iframe Hf
  ipureintro
  rw [View.read_writes_eq_canon _ _ _ (View.cover_of_tiled _ S5000x96.size (by rfl))]
  unfold out6_5 body_obligation6.sl.v0 body_obligation6.sl.v5 body_obligation6.sl.v7 body_obligation6.sl.v13 body_obligation6.sl.v17
  simp only [View.readAt_rep]
  rfl

end Cert.KernelIdeal.Hand

end
-- ==== Proof.KI.Reg7.lean ====
import proofs.«402019_j40432822124917_2_alg».proof.Proof.Gen.KernelIdeal.Skeleton
import proofs.«402019_j40432822124917_2_alg».proof.Proof.Gen.KernelIdeal.Points
import proofs.«402019_j40432822124917_2_alg».proof.Proof.KI.Common
import Idealize.ShloMosaic.Lib.Pipeline.FrameBody
import Idealize.ShloMosaic.Lib.Pipeline.TableIdle
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

def iblk7 (c : Dev nD) (w : Fin cfg7.W) (t : Fin cfg7.N) : ((cfg7.win w).xblock (cfg7.grid.coords t)).Idx → Elt F (cfg7.win w).elt :=
  ((cfg7.win w).blk t).view.read (Elt F) (Vr W c (Pipeline.arrRef spec7 w))

abbrev r7_0 : Rect S512x1 := Rect.unit (s := S512x1) ![0, 0] S512x1.size inb_S512x1_S512x1_0_0

def out7_5 (x0 : Vec F S512x96 .f32) (x1 : Vec F S96x96 .f32) (x2 : Vec F S1x96 .f32) (x3 : Vec F S96x1 .f32) (x4 : Vec F S1x1 .f32) : Vec F S512x1 .f32 :=
  View.canon [⟨r7_0, k7_pay1 (View.ld x0 (Rect.unit (s := S512x96) ![0, 0] S512x96.size inb_S512x96_S512x96_0_0)) (View.ld x1 (Rect.unit (s := S96x96) ![0, 0] S96x96.size inb_S96x96_S96x96_0_0)) (View.ld x2 (Rect.unit (s := S1x96) ![0, 0] S1x96.size inb_S1x96_S1x96_0_0)) (View.ld x3 (Rect.unit (s := S96x1) ![0, 0] S96x1.size inb_S96x1_S96x1_0_0)) (View.ld x4 (Rect.unit (s := S1x1) ![0, 0] S1x1.size inb_S1x1_S1x1_0_0))⟩]

def dat7 (c : Dev nD) : Dat τ (Elt F) Unit ℕ (UR sig nD τ) ℕ cfg7 c where
  A w := Vr W c (Pipeline.arrRef spec7 w)
  after w t := match w with
    | ⟨0, _⟩ => iblk7 W c 0 t
    | ⟨1, _⟩ => iblk7 W c 1 t
    | ⟨2, _⟩ => iblk7 W c 2 t
    | ⟨3, _⟩ => iblk7 W c 3 t
    | ⟨4, _⟩ => iblk7 W c 4 t
    | ⟨5, _⟩ => out7_5 (iblk7 W c 0 t) (iblk7 W c 1 t) (iblk7 W c 2 t) (iblk7 W c 3 t) (iblk7 W c 4 t)
  Φ _ := Pipeline.ΦA spec7 c
  q _ := fullShare
  owed _ := 0

theorem dat7_A (c : Dev nD) (w : Fin cfg7.W) : (dat7 W c).A w = Vr W c (Pipeline.arrRef spec7 w) := by
  dsimp only [dat7]

theorem after7_5 (c : Dev nD) (t : Fin cfg7.N) : (dat7 W c).after 5 t
    = out7_5 (iblk7 W c 0 t) (iblk7 W c 1 t) (iblk7 W c 2 t) (iblk7 W c 3 t) (iblk7 W c 4 t) := by
  dsimp only [dat7]

theorem before7_in (c : Dev nD) (t : Fin cfg7.N) : ∀ (w : Fin cfg7.W) (_ : (cfg7.win w).isOut = false) (d),
    (dat7 W c).before w t d = (dat7 W c).after w t
  | 0, _, d | 1, _, d | 2, _, d | 3, _, d | 4, _, d =>
    (dat7 W c).before_in_eq_fetched _ rfl (fun _ => rfl) (fun _ _ _ => rfl) (fun _ => rfl) t d
  | 5, h, _ => nomatch h
  | ⟨_ + 6, h⟩, _, _ => absurd h (Nat.not_lt.2 (Nat.le_add_left _ _))

set_option maxHeartbeats 1000000 in

theorem body_obligation7 (c : Dev nD) : BodyObligation (dat7 (F := F) W c) (defs₀ (F := F)) Variants.none () Set.univ := fun t => by
  have b := before7_in W c t
  rw [bigSep_W7, bigSep_W7]
  simp only [b 0 rfl, b 1 rfl, b 2 rfl, b 3 rfl, b 4 rfl, after7_5, owns_eq_rep,
    show ∀ k, (dat7 W c).Φ k = Pipeline.ΦA spec7 c from fun _ => rfl]
  show _ ⊢ wp _ _ _ (bodyAt7 t) _
  unfold bodyAt7
  simp only [cc7__head_kernel_eq_skeleton]; unfold cc7__head_kernel_skel
  iintro ⟨HΦ, Ho, ⟨%_, Ha⟩, ⟨%_, Hb⟩, ⟨%_, Hc⟩, ⟨%_, Hd⟩, ⟨%_, He⟩, ⟨%_, Hf⟩⟩
  sl_exec
  sl_step
  iframe HΦ Ha Hb Hc Hd He
  isplitl [Ho]; · iexact Ho
  iapply rep_of_owns
  unfold owns
  iexists _; iframe Hf
  ipureintro
  rw [View.read_writes_eq_canon _ _ _ (View.cover_of_tiled _ S512x1.size (by rfl))]
  unfold out7_5 body_obligation7.sl.v0 body_obligation7.sl.v2 body_obligation7.sl.v4 body_obligation7.sl.v10 body_obligation7.sl.v12
  simp only [View.readAt_rep]
  rfl

end Cert.KernelIdeal.Hand

end
-- ==== Proof.KI.Chain.lean ====
import proofs.«402019_j40432822124917_2_alg».proof.Proof.Gen.KernelIdeal.Regions
import proofs.«402019_j40432822124917_2_alg».proof.Proof.KI.Reg0
import proofs.«402019_j40432822124917_2_alg».proof.Proof.KI.Reg1
import proofs.«402019_j40432822124917_2_alg».proof.Proof.KI.Reg2
import proofs.«402019_j40432822124917_2_alg».proof.Proof.KI.Reg3
import proofs.«402019_j40432822124917_2_alg».proof.Proof.KI.Reg4
import proofs.«402019_j40432822124917_2_alg».proof.Proof.KI.Reg5
import proofs.«402019_j40432822124917_2_alg».proof.Proof.KI.Reg6
import proofs.«402019_j40432822124917_2_alg».proof.Proof.KI.Reg7

noncomputable section

namespace Cert.KernelIdeal.Hand

open Idealize.ShloMosaic Idealize.ShloMosaic.TcCoe
open Cert.KernelIdeal Cert.KernelIdeal.Gen

variable {F : FTy → Type} [FloatOps F]

variable (m : (ℓ : Loc nD τ sig) → Buf (Elt F) ℓ)

section
variable {gr W : ℕ} (spec : Fin W → Pipeline.WinSpec sig gr)
  (a : (w : Fin W) → (Proc.devRef (τ := τ) .tc (Pipeline.arrRef spec w)).ty.Contents (Elt F))

private abbrev upd (V : Valuation τ sig (Elt F)) (os : List (Fin W)) : Valuation τ sig (Elt F) :=
  os.foldl (fun V o => Function.update V (Pipeline.arrRef spec o) (a o)) V

private theorem upd_rest : ∀ (os : List (Fin W)) (V : Valuation τ sig (Elt F)) (b : Ref sig .tc),
    b ∉ Finset.univ.image (Pipeline.arrRef spec) → upd spec a V os b = V b
  | [], _, _, _ => rfl
  | o :: os, _, b, h => (upd_rest os _ b h).trans (Function.update_of_ne (StableHlo.devRef_ne_of_ne
    (ne_of_mem_of_not_mem (Finset.mem_image_of_mem _ (Finset.mem_univ o)) h).symm) ..)

private theorem upd_arr (hs : Function.Injective (Pipeline.arrRef spec)) : ∀ (os : List (Fin W)) (V : Valuation τ sig (Elt F)) (w : Fin W),
    (w ∉ os → a w = V (Pipeline.arrRef spec w)) → a w = upd spec a V os (Pipeline.arrRef spec w)
  | [], _, _, h => h List.not_mem_nil
  | o :: os, _, w, h => upd_arr hs os _ w fun hw => by
    by_cases e : w = o
    · subst e; exact Eq.symm (Function.update_self ..)
    · exact (h (List.not_mem_cons_of_ne_of_not_mem e hw)).trans (Eq.symm (Function.update_of_ne (StableHlo.devRef_ne_of_ne (hs.ne e)) ..))
end

section
variable {cfg : Pipeline.Cfg sig Λ₀} {c : Dev nD} (d : Pipeline.Dat τ (Elt F) Unit ℕ (UR sig nD τ) ℕ cfg c)
  (V : Valuation τ sig (Elt F)) (os : List (Fin cfg.W))

private abbrev exit : Valuation τ sig (Elt F) := upd cfg.spec (d.arrAt · cfg.N) V os

private theorem exit_rest : ∀ b : Ref sig .tc, b ∉ Finset.univ.image (Pipeline.arrRef cfg.spec) → exit d V os b = V b :=
  upd_rest _ _ os V

private theorem exit_arr (hs : Function.Injective (Pipeline.arrRef cfg.spec)) (hA : ∀ w, d.A w = V (Pipeline.arrRef cfg.spec w))
    (ho : ∀ w, w ∉ os → (cfg.spec w).isOut = false) (w : Fin cfg.W) :
    d.arrAt w cfg.N = exit d V os (Pipeline.arrRef cfg.spec w) :=
  upd_arr _ (d.arrAt · cfg.N) hs os V w fun h => (d.arrAt_in w (ho w h) _).trans (hA w)
end

def B1 (c : Dev nD) : Valuation τ sig (Elt F) := Gen.V1 m c
def o2_3 (c : Dev nD) : Buf (Elt F) ((c : Thread nD τ).loc main_v5) := (dat0 (B1 m) c).arrAt 3 cfg0.N
def B2 (c : Dev nD) : Valuation τ sig (Elt F) := Function.update (B1 m c) main_v5 (o2_3 m c)
def B5 (c : Dev nD) : Valuation τ sig (Elt F) := StableHlo.after hostOps1_2 (StableHlo.after hostOps1_1 (StableHlo.after hostOps1 (B2 m c)))
def o6_6 (c : Dev nD) : Buf (Elt F) ((c : Thread nD τ).loc main_v26_0) := (dat1 (B5 m) c).arrAt 6 cfg1.N
def o6_7 (c : Dev nD) : Buf (Elt F) ((c : Thread nD τ).loc main_v26_1) := (dat1 (B5 m) c).arrAt 7 cfg1.N
def o6_8 (c : Dev nD) : Buf (Elt F) ((c : Thread nD τ).loc main_v26_2) := (dat1 (B5 m) c).arrAt 8 cfg1.N
def B6 (c : Dev nD) : Valuation τ sig (Elt F) := Function.update (Function.update (Function.update (B5 m c) main_v26_0 (o6_6 m c)) main_v26_1 (o6_7 m c)) main_v26_2 (o6_8 m c)
def B7 (c : Dev nD) : Valuation τ sig (Elt F) := StableHlo.after hostOps2 (B6 m c)
def o8_5 (c : Dev nD) : Buf (Elt F) ((c : Thread nD τ).loc main_v45) := (dat2 (B7 m) c).arrAt 5 cfg2.N
def B8 (c : Dev nD) : Valuation τ sig (Elt F) := Function.update (B7 m c) main_v45 (o8_5 m c)
def B10 (c : Dev nD) : Valuation τ sig (Elt F) := StableHlo.after hostOps3_1 (StableHlo.after hostOps3 (B8 m c))
def o11_6 (c : Dev nD) : Buf (Elt F) ((c : Thread nD τ).loc main_v57_0) := (dat3 (B10 m) c).arrAt 6 cfg3.N
def o11_7 (c : Dev nD) : Buf (Elt F) ((c : Thread nD τ).loc main_v57_1) := (dat3 (B10 m) c).arrAt 7 cfg3.N
def o11_8 (c : Dev nD) : Buf (Elt F) ((c : Thread nD τ).loc main_v57_2) := (dat3 (B10 m) c).arrAt 8 cfg3.N
def B11 (c : Dev nD) : Valuation τ sig (Elt F) := Function.update (Function.update (Function.update (B10 m c) main_v57_0 (o11_6 m c)) main_v57_1 (o11_7 m c)) main_v57_2 (o11_8 m c)
def B12 (c : Dev nD) : Valuation τ sig (Elt F) := StableHlo.after hostOps4 (B11 m c)
def o13_5 (c : Dev nD) : Buf (Elt F) ((c : Thread nD τ).loc main_v76) := (dat4 (B12 m) c).arrAt 5 cfg4.N
def B13 (c : Dev nD) : Valuation τ sig (Elt F) := Function.update (B12 m c) main_v76 (o13_5 m c)
def B15 (c : Dev nD) : Valuation τ sig (Elt F) := StableHlo.after hostOps5_1 (StableHlo.after hostOps5 (B13 m c))
def o16_6 (c : Dev nD) : Buf (Elt F) ((c : Thread nD τ).loc main_v88_0) := (dat5 (B15 m) c).arrAt 6 cfg5.N
def o16_7 (c : Dev nD) : Buf (Elt F) ((c : Thread nD τ).loc main_v88_1) := (dat5 (B15 m) c).arrAt 7 cfg5.N
def o16_8 (c : Dev nD) : Buf (Elt F) ((c : Thread nD τ).loc main_v88_2) := (dat5 (B15 m) c).arrAt 8 cfg5.N
def B16 (c : Dev nD) : Valuation τ sig (Elt F) := Function.update (Function.update (Function.update (B15 m c) main_v88_0 (o16_6 m c)) main_v88_1 (o16_7 m c)) main_v88_2 (o16_8 m c)
def B17 (c : Dev nD) : Valuation τ sig (Elt F) := StableHlo.after hostOps6 (B16 m c)
def o18_5 (c : Dev nD) : Buf (Elt F) ((c : Thread nD τ).loc main_v107) := (dat6 (B17 m) c).arrAt 5 cfg6.N
def B18 (c : Dev nD) : Valuation τ sig (Elt F) := Function.update (B17 m c) main_v107 (o18_5 m c)
def B20 (c : Dev nD) : Valuation τ sig (Elt F) := StableHlo.after hostOps7_1 (StableHlo.after hostOps7 (B18 m c))
def o21_5 (c : Dev nD) : Buf (Elt F) ((c : Thread nD τ).loc main_v111) := (dat7 (B20 m) c).arrAt 5 cfg7.N
def B21 (c : Dev nD) : Valuation τ sig (Elt F) := Function.update (B20 m c) main_v111 (o21_5 m c)

def outs : Gen.Outs (F := F) := fun _ r c =>
  if h : r = main_v5 then h ▸ o2_3 m c else
  if h : r = main_v26_0 then h ▸ o6_6 m c else
  if h : r = main_v26_1 then h ▸ o6_7 m c else
  if h : r = main_v26_2 then h ▸ o6_8 m c else
  if h : r = main_v45 then h ▸ o8_5 m c else
  if h : r = main_v57_0 then h ▸ o11_6 m c else
  if h : r = main_v57_1 then h ▸ o11_7 m c else
  if h : r = main_v57_2 then h ▸ o11_8 m c else
  if h : r = main_v76 then h ▸ o13_5 m c else
  if h : r = main_v88_0 then h ▸ o16_6 m c else
  if h : r = main_v88_1 then h ▸ o16_7 m c else
  if h : r = main_v88_2 then h ▸ o16_8 m c else
  if h : r = main_v107 then h ▸ o18_5 m c else
  if h : r = main_v111 then h ▸ o21_5 m c else
  m ((c : Thread nD τ).loc r)

theorem outs_main_v5 (J : ℕ) (c : Dev nD) : outs m J main_v5 c = o2_3 m c := by simp +decide only [outs, ↓reduceDIte]
theorem outs_main_v26_0 (J : ℕ) (c : Dev nD) : outs m J main_v26_0 c = o6_6 m c := by simp +decide only [outs, ↓reduceDIte]
theorem outs_main_v26_1 (J : ℕ) (c : Dev nD) : outs m J main_v26_1 c = o6_7 m c := by simp +decide only [outs, ↓reduceDIte]
theorem outs_main_v26_2 (J : ℕ) (c : Dev nD) : outs m J main_v26_2 c = o6_8 m c := by simp +decide only [outs, ↓reduceDIte]
theorem outs_main_v45 (J : ℕ) (c : Dev nD) : outs m J main_v45 c = o8_5 m c := by simp +decide only [outs, ↓reduceDIte]
theorem outs_main_v57_0 (J : ℕ) (c : Dev nD) : outs m J main_v57_0 c = o11_6 m c := by simp +decide only [outs, ↓reduceDIte]
theorem outs_main_v57_1 (J : ℕ) (c : Dev nD) : outs m J main_v57_1 c = o11_7 m c := by simp +decide only [outs, ↓reduceDIte]
theorem outs_main_v57_2 (J : ℕ) (c : Dev nD) : outs m J main_v57_2 c = o11_8 m c := by simp +decide only [outs, ↓reduceDIte]
theorem outs_main_v76 (J : ℕ) (c : Dev nD) : outs m J main_v76 c = o13_5 m c := by simp +decide only [outs, ↓reduceDIte]
theorem outs_main_v88_0 (J : ℕ) (c : Dev nD) : outs m J main_v88_0 c = o16_6 m c := by simp +decide only [outs, ↓reduceDIte]
theorem outs_main_v88_1 (J : ℕ) (c : Dev nD) : outs m J main_v88_1 c = o16_7 m c := by simp +decide only [outs, ↓reduceDIte]
theorem outs_main_v88_2 (J : ℕ) (c : Dev nD) : outs m J main_v88_2 c = o16_8 m c := by simp +decide only [outs, ↓reduceDIte]
theorem outs_main_v107 (J : ℕ) (c : Dev nD) : outs m J main_v107 c = o18_5 m c := by simp +decide only [outs, ↓reduceDIte]
theorem outs_main_v111 (J : ℕ) (c : Dev nD) : outs m J main_v111 c = o21_5 m c := by simp +decide only [outs, ↓reduceDIte]

theorem V1_eq (c : Dev nD) : Gen.V1 m c = B1 m c := rfl
theorem V2_eq (c : Dev nD) : Gen.V2 m (outs m) c = B2 m c := by
  rw [Gen.V2, B2, V1_eq, outs_main_v5]
theorem V5_eq (c : Dev nD) : Gen.V5 m (outs m) c = B5 m c := by
  rw [Gen.V5, Gen.V4, Gen.V3, V2_eq, B5]
theorem V6_eq (c : Dev nD) : Gen.V6 m (outs m) c = B6 m c := by
  rw [Gen.V6, B6, V5_eq, outs_main_v26_0, outs_main_v26_1, outs_main_v26_2]
theorem V7_eq (c : Dev nD) : Gen.V7 m (outs m) c = B7 m c := by
  rw [Gen.V7, V6_eq, B7]
theorem V8_eq (c : Dev nD) : Gen.V8 m (outs m) c = B8 m c := by
  rw [Gen.V8, B8, V7_eq, outs_main_v45]
theorem V10_eq (c : Dev nD) : Gen.V10 m (outs m) c = B10 m c := by
  rw [Gen.V10, Gen.V9, V8_eq, B10]
theorem V11_eq (c : Dev nD) : Gen.V11 m (outs m) c = B11 m c := by
  rw [Gen.V11, B11, V10_eq, outs_main_v57_0, outs_main_v57_1, outs_main_v57_2]
theorem V12_eq (c : Dev nD) : Gen.V12 m (outs m) c = B12 m c := by
  rw [Gen.V12, V11_eq, B12]
theorem V13_eq (c : Dev nD) : Gen.V13 m (outs m) c = B13 m c := by
  rw [Gen.V13, B13, V12_eq, outs_main_v76]
theorem V15_eq (c : Dev nD) : Gen.V15 m (outs m) c = B15 m c := by
  rw [Gen.V15, Gen.V14, V13_eq, B15]
theorem V16_eq (c : Dev nD) : Gen.V16 m (outs m) c = B16 m c := by
  rw [Gen.V16, B16, V15_eq, outs_main_v88_0, outs_main_v88_1, outs_main_v88_2]
theorem V17_eq (c : Dev nD) : Gen.V17 m (outs m) c = B17 m c := by
  rw [Gen.V17, V16_eq, B17]
theorem V18_eq (c : Dev nD) : Gen.V18 m (outs m) c = B18 m c := by
  rw [Gen.V18, B18, V17_eq, outs_main_v107]
theorem V20_eq (c : Dev nD) : Gen.V20 m (outs m) c = B20 m c := by
  rw [Gen.V20, Gen.V19, V18_eq, B20]
theorem V21_eq (c : Dev nD) : Gen.V21 m (outs m) c = B21 m c := by
  rw [Gen.V21, B21, V20_eq, outs_main_v111]

theorem hrest0 (c : Dev nD) : ∀ b : Ref sig .tc, b ∉ Finset.univ.image (Pipeline.arrRef spec0) → B2 m c b = B1 m c b :=
  exit_rest (dat0 (B1 m) c) _ [3]
theorem hF0 (c : Dev nD) (w : Fin cfg0.W) : (dat0 (B1 m) c).arrAt w cfg0.N = B2 m c (Pipeline.arrRef spec0 w) :=
  exit_arr (dat0 (B1 m) c) _ [3] winFacts0.arr_inj (dat0_A (B1 m) c) (by decide) w
theorem hrest1 (c : Dev nD) : ∀ b : Ref sig .tc, b ∉ Finset.univ.image (Pipeline.arrRef spec1) → B6 m c b = B5 m c b :=
  exit_rest (dat1 (B5 m) c) _ [6, 7, 8]
theorem hF1 (c : Dev nD) (w : Fin cfg1.W) : (dat1 (B5 m) c).arrAt w cfg1.N = B6 m c (Pipeline.arrRef spec1 w) :=
  exit_arr (dat1 (B5 m) c) _ [6, 7, 8] winFacts1.arr_inj (dat1_A (B5 m) c) (by decide) w
theorem hrest2 (c : Dev nD) : ∀ b : Ref sig .tc, b ∉ Finset.univ.image (Pipeline.arrRef spec2) → B8 m c b = B7 m c b :=
  exit_rest (dat2 (B7 m) c) _ [5]
theorem hF2 (c : Dev nD) (w : Fin cfg2.W) : (dat2 (B7 m) c).arrAt w cfg2.N = B8 m c (Pipeline.arrRef spec2 w) :=
  exit_arr (dat2 (B7 m) c) _ [5] winFacts2.arr_inj (dat2_A (B7 m) c) (by decide) w
theorem hrest3 (c : Dev nD) : ∀ b : Ref sig .tc, b ∉ Finset.univ.image (Pipeline.arrRef spec3) → B11 m c b = B10 m c b :=
  exit_rest (dat3 (B10 m) c) _ [6, 7, 8]
theorem hF3 (c : Dev nD) (w : Fin cfg3.W) : (dat3 (B10 m) c).arrAt w cfg3.N = B11 m c (Pipeline.arrRef spec3 w) :=
  exit_arr (dat3 (B10 m) c) _ [6, 7, 8] winFacts3.arr_inj (dat3_A (B10 m) c) (by decide) w
theorem hrest4 (c : Dev nD) : ∀ b : Ref sig .tc, b ∉ Finset.univ.image (Pipeline.arrRef spec4) → B13 m c b = B12 m c b :=
  exit_rest (dat4 (B12 m) c) _ [5]
theorem hF4 (c : Dev nD) (w : Fin cfg4.W) : (dat4 (B12 m) c).arrAt w cfg4.N = B13 m c (Pipeline.arrRef spec4 w) :=
  exit_arr (dat4 (B12 m) c) _ [5] winFacts4.arr_inj (dat4_A (B12 m) c) (by decide) w
theorem hrest5 (c : Dev nD) : ∀ b : Ref sig .tc, b ∉ Finset.univ.image (Pipeline.arrRef spec5) → B16 m c b = B15 m c b :=
  exit_rest (dat5 (B15 m) c) _ [6, 7, 8]
theorem hF5 (c : Dev nD) (w : Fin cfg5.W) : (dat5 (B15 m) c).arrAt w cfg5.N = B16 m c (Pipeline.arrRef spec5 w) :=
  exit_arr (dat5 (B15 m) c) _ [6, 7, 8] winFacts5.arr_inj (dat5_A (B15 m) c) (by decide) w
theorem hrest6 (c : Dev nD) : ∀ b : Ref sig .tc, b ∉ Finset.univ.image (Pipeline.arrRef spec6) → B18 m c b = B17 m c b :=
  exit_rest (dat6 (B17 m) c) _ [5]
theorem hF6 (c : Dev nD) (w : Fin cfg6.W) : (dat6 (B17 m) c).arrAt w cfg6.N = B18 m c (Pipeline.arrRef spec6 w) :=
  exit_arr (dat6 (B17 m) c) _ [5] winFacts6.arr_inj (dat6_A (B17 m) c) (by decide) w
theorem hrest7 (c : Dev nD) : ∀ b : Ref sig .tc, b ∉ Finset.univ.image (Pipeline.arrRef spec7) → B21 m c b = B20 m c b :=
  exit_rest (dat7 (B20 m) c) _ [5]
theorem hF7 (c : Dev nD) (w : Fin cfg7.W) : (dat7 (B20 m) c).arrAt w cfg7.N = B21 m c (Pipeline.arrRef spec7 w) :=
  exit_arr (dat7 (B20 m) c) _ [5] winFacts7.arr_inj (dat7_A (B20 m) c) (by decide) w

end Cert.KernelIdeal.Hand

end
-- ==== Proof.KI.Segs.lean ====
import proofs.«402019_j40432822124917_2_alg».proof.Proof.Gen.KernelIdeal.Regions
import proofs.«402019_j40432822124917_2_alg».proof.Proof.KI.Chain
import Idealize.ShloMosaic.Lib.Pipeline.Frame
import Idealize.ShloMosaic.Lib.Pipeline.Kit
import Idealize.ShloMosaic.Lib.Pipeline.Regions
import Idealize.ShloMosaic.Lib.Pipeline.RegionsLoop

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev L : GSem nD τ sig → Finset Unit := fun _ => ∅
abbrev lv : GSem nD τ sig → Unit → ℕ := fun _ _ => 0

def pdats : (p : Fin 8) → (c : Dev nD) → Dat τ (Elt F) Unit ℕ (UR sig nD τ) ℕ (cfgs p) c
  | ⟨0, _⟩ => dat0 (B1 m)
  | ⟨1, _⟩ => dat1 (B5 m)
  | ⟨2, _⟩ => dat2 (B7 m)
  | ⟨3, _⟩ => dat3 (B10 m)
  | ⟨4, _⟩ => dat4 (B12 m)
  | ⟨5, _⟩ => dat5 (B15 m)
  | ⟨6, _⟩ => dat6 (B17 m)
  | ⟨7, _⟩ => dat7 (B20 m)

abbrev P (c : Dev nD) : sProp 𝕄 := iprop(∃ r, prngReg c r)

abbrev R (c : Dev nD) : sProp 𝕄 := iprop(P c ∗ ∃ W, owes (c : Thread nD τ) (0 : CellTallies nD τ sig Unit) W)

abbrev T (V : Valuation τ sig (Elt F)) (c : Dev nD) : sProp 𝕄 := iprop(StableHlo.held (c : Thread nD τ) (Pipeline.ucRefs τ sig) V ∗ R c)

theorem hT {V B : Dev nD → Valuation τ sig (Elt F)} (h : ∀ c, V c = B c) : (∀ c, T (V c) c ⊢ T (B c) c) ∧ ∀ c, T (B c) c ⊢ T (V c) c :=
  ⟨fun c => h c ▸ .rfl, fun c => h c ▸ .rfl⟩

theorem hinA {gr W : Nat} (win : Fin W → Pipeline.WinSpec sig gr) (c : Dev nD) (Q : sProp 𝕄) :
    iprop(P c ∗ Q ∗ Pipeline.scopedRest win c) ⊢ Pipeline.ΦA win c := by
  unfold Pipeline.ΦA; iintro ⟨Hp, -, Hr⟩; iframe

theorem houtA {gr W : Nat} (win : Fin W → Pipeline.WinSpec sig gr) (c : Dev nD) :
    (Pipeline.ΦA win c : sProp 𝕄) ⊢ iprop(P c ∗ Pipeline.ownSems0 (fun k : PEmpty => k.elim) c ∗ Pipeline.scopedRest win c) := by
  rw [Pipeline.ownSems0_none]; unfold Pipeline.ΦA; iintro ⟨Hr, Hp⟩; iframe; iempintro

set_option backward.isDefEq.respectTransparency.types false in

def reg {pd : (p : Fin 8) → (c : Dev nD) → Dat τ (Elt F) Unit ℕ (UR sig nD τ) ℕ (cfgs p) c} {p : Fin 8}
    (lf : Pipeline.LaunchFacts (nD := nD) (τ := τ) cfgs p) (Bi Bo : Dev nD → Valuation τ sig (Elt F))
    (hb : ∀ c, Pipeline.BodyObligation (pd p c) defs₀ Variants.none () Set.univ)
    (hA : ∀ c w, (pd p c).A w = Bi c (Pipeline.arrRef (cfgs p).spec w))
    (hF : ∀ c w, (pd p c).arrAt w (cfgs p).N = Bo c (Pipeline.arrRef (cfgs p).spec w))
    (hrest : ∀ c b, b ∉ Finset.univ.image (Pipeline.arrRef (cfgs p).spec) → Bo c b = Bi c b)
    (hin : ∀ c, iprop(P c ∗ Pipeline.prefHeld (pcfgs (F := F) p).pre c (fun _ => fullShare) (Gen.adm p).1 ∗ Pipeline.scopedRest (cfgs p).spec c) ⊢ (pd p c).Φ 0 := by exact fun c => hinA _ c _)
    (hout : ∀ c, (pd p c).Φ (Fin.last (cfgs p).N) ⊢ iprop(P c ∗ Pipeline.ownSems0 (fun k : PEmpty => k.elim) c ∗ Pipeline.scopedRest (cfgs p).spec c) := by exact fun c => houtA _ c)
    (hd : ∀ c, (∀ w, (pd p c).q w = fullShare) ∧ (∀ t, (pd p c).owed t = 0) ∧ (pd p c).recorded 0 = Set.univ := by exact fun _ => ⟨fun _ => rfl, fun _ => rfl, rfl⟩) :
    Pipeline.RegionSeg (pcfgs (F := F)) Gen.adm pd () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (hd c).2.1
  pre c := T (Bi c) c
  post c := T (Bo c) c
  X := P
  Y := P
  Z c := Pipeline.unscopedRest (cfgs p).spec c (fun b => Bi c b)
  hentry c := by
    have h := Pipeline.arrays_of_unscopedBufs (p := p) pcfgs Gen.adm pd lf.win lf.arr_whole c ((pd p c).share_full (hd c).1) (fun b => Bi c b) (hA c)
    rw [Pipeline.unscopedBufs_held] at h
    rw [Pipeline.ownSems0_none]; unfold Pipeline.prefHeld Pipeline.Dat.owesAt Pipeline.owesWithin
    rw [(hd c).2.1, show (Finset.univ : Finset (Fin 0)) = ∅ from rfl, BI.bigSep_empty]
    iintro ⟨⟨Hub, Hp, %W, HO⟩, -, -⟩
    ihave ⟨Ha, Hr⟩ := h $$ Hub
    imodintro; iframe Ha Hp Hr; isplitr; · iempintro
    iexists W; iframe HO; ipureintro; exact fun _ _ => Or.inl ((hd c).2.2 ▸ trivial)
  hin := hin
  hout := hout
  hexit c := by
    have h := Pipeline.unscopedBufs_of_arrays (p := p) pcfgs Gen.adm lf.win lf.arr_whole c pd ((pd p c).share_full (hd c).1)
      (fun b => Bi c b) (fun b => Bo c b) _ (hF c) (hrest c)
    rw [Pipeline.unscopedBufs_held] at h
    unfold Pipeline.Dat.owesAt Pipeline.owesWithin; rw [(hd c).2.1]
    iintro ⟨Ha, ⟨%W, -, HO⟩, HY, Hr⟩
    imodintro; unfold T R P; iframe HY; isplitr [HO]
    · iapply h; iframe
    iexists W; iexact HO

def reg0 := reg (pd := pdats m) launch0 (B1 m) (B2 m) (body_obligation0 (B1 m)) (dat0_A (B1 m)) (hF0 m) (hrest0 m)
def reg1 := reg (pd := pdats m) launch1 (B5 m) (B6 m) (body_obligation1 (B5 m)) (dat1_A (B5 m)) (hF1 m) (hrest1 m)
  (fun c => hin1 (B5 m) c _) (hout1 (B5 m))
def reg2 := reg (pd := pdats m) launch2 (B7 m) (B8 m) (body_obligation2 (B7 m)) (dat2_A (B7 m)) (hF2 m) (hrest2 m)
def reg3 := reg (pd := pdats m) launch3 (B10 m) (B11 m) (body_obligation3 (B10 m)) (dat3_A (B10 m)) (hF3 m) (hrest3 m)
  (fun c => hin3 (B10 m) c _) (hout3 (B10 m))
def reg4 := reg (pd := pdats m) launch4 (B12 m) (B13 m) (body_obligation4 (B12 m)) (dat4_A (B12 m)) (hF4 m) (hrest4 m)
def reg5 := reg (pd := pdats m) launch5 (B15 m) (B16 m) (body_obligation5 (B15 m)) (dat5_A (B15 m)) (hF5 m) (hrest5 m)
  (fun c => hin5 (B15 m) c _) (hout5 (B15 m))
def reg6 := reg (pd := pdats m) launch6 (B17 m) (B18 m) (body_obligation6 (B17 m)) (dat6_A (B17 m)) (hF6 m) (hrest6 m)
def reg7 := reg (pd := pdats m) launch7 (B20 m) (B21 m) (body_obligation7 (B20 m)) (dat7_A (B20 m)) (hF7 m) (hrest7 m)

abbrev u₀ : UR sig nD τ := initOf (Pipeline.cells cfgs cellOf_inj) (Pipeline.launchToks cfgs cellOf_inj)

theorem hu₀ : (ownU u₀ : sProp 𝕄) ⊢ |={Set.univ}=> iprop(BI.own (emb₁ u₀) ∗ bigSep Finset.univ fun _ : Dev nD => (BI.emp : sProp 𝕄)) := by
  rw [BI.bigSep_emp_const, ownU_emb₁]; iintro Hu; imodintro; iframe Hu; iempintro

theorem hE {A B C D : sProp 𝕄} {c : Dev nD} {r : PrngReg} :
    iprop((A ∗ owes (c : Thread nD τ) (0 : CellTallies nD τ sig Unit) ∅ ∗ B ∗ prngReg c r ∗ C) ∗ D) ⊢ |={Set.univ}=> R c := by
  iintro ⟨⟨-, HO, -, Hp, -⟩, -⟩; imodintro; isplitl [Hp] <;> iexists _ <;> iassumption

set_option backward.isDefEq.respectTransparency.types false in
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m (EP := emb₁) () Variants.none L lv (fun _ _ => rfl) ρ (outs m) (pdats m) (O₀ := 0) (G := fun _ => BI.emp) (u₀ := u₀)
    (hu₀ := hu₀) (E := fun _ c => R c) (hE0 := Pipeline.initEach L lv fun _ => hE) (hE8 := fun _ => sep_elim_right)
    (reg0 m) (hT (V1_eq m)).1 (hT (V2_eq m)).2
    (reg1 m) (hT (V5_eq m)).1 (hT (V6_eq m)).2
    (reg2 m) (hT (V7_eq m)).1 (hT (V8_eq m)).2
    (reg3 m) (hT (V10_eq m)).1 (hT (V11_eq m)).2
    (reg4 m) (hT (V12_eq m)).1 (hT (V13_eq m)).2
    (reg5 m) (hT (V15_eq m)).1 (hT (V16_eq m)).2
    (reg6 m) (hT (V17_eq m)).1 (hT (V18_eq m)).2
    (reg7 m) (hT (V20_eq m)).1 (hT (V21_eq m)).2

end Cert.KernelIdeal.Hand

end
-- ==== Proof.KI.SegsRun.lean ====
import proofs.«402019_j40432822124917_2_alg».proof.Proof.KI.Segs
import proofs.«402019_j40432822124917_2_alg».proof.Proof.KI.RunCond

set_option maxRecDepth 16384

noncomputable section

namespace Cert.KernelIdeal.Hand

open Idealize.ShloMosaic Idealize.ShloMosaic.TcCoe Idealize.SL Idealize.SL.BI.Laws
open Cert.KernelIdeal Cert.KernelIdeal.Gen

variable {F : FTy → Type} [FloatOps F] (m : (ℓ : Loc nD τ sig) → Buf (Elt F) ℓ)

set_option backward.isDefEq.respectTransparency.types false in
theorem run_all (ρ : Dev nD → PrngReg) :
    θ_run defs (onTc (τ := τ) (main (F := F))) ⟨m, fun _ => 0, ρ⟩ (fun r => ∀ c : Dev nD,
      r.2.mem ((c.tc : Thread nD τ).loc main_v111) = B21 m c main_v111
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (by rw [V21_eq]), (h c).2⟩)
    (run_cond m (EP := emb₁) () Variants.none L lv (fun _ _ => rfl) ρ (outs m) (pdats m) (O₀ := 0) (G := fun _ => BI.emp) (u₀ := u₀)
      (hu₀ := hu₀) (E := fun _ c => R c) (hE0 := Pipeline.initEach L lv fun _ => hE) (hE8 := fun _ => sep_elim_right)
      (reg0 m) (hT (V1_eq m)).1 (hT (V2_eq m)).2
      (reg1 m) (hT (V5_eq m)).1 (hT (V6_eq m)).2
      (reg2 m) (hT (V7_eq m)).1 (hT (V8_eq m)).2
      (reg3 m) (hT (V10_eq m)).1 (hT (V11_eq m)).2
      (reg4 m) (hT (V12_eq m)).1 (hT (V13_eq m)).2
      (reg5 m) (hT (V15_eq m)).1 (hT (V16_eq m)).2
      (reg6 m) (hT (V17_eq m)).1 (hT (V18_eq m)).2
      (reg7 m) (hT (V20_eq m)).1 (hT (V21_eq m)).2)

end Cert.KernelIdeal.Hand

end
-- ==== Proof.Ref.Ops.lean ====
/- The reference program's 295 operations in order — each called function's operations written in place of
   its call, over that call's buffers — as 8 consecutive lists; per list the buffers it writes, that every
   operation's buffers are the device's, and that every operation writes inside the list of written buffers. -/
import proofs.«402019_j40432822124917_2_alg».proof.Proof.Gen.ReferenceIdeal
import Idealize.ShloMosaic.Lib.StableHlo.Run

noncomputable section

namespace Cert.ReferenceIdeal.Value

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- Operations 1 … 48, in order (the last writes main_v39). -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg4 main_v4 ((fun l r => Host.dotGeneral dot_S100000x64_S64x96_S100000x96_1_0_0_1_n_n none l r) : (⟨S100000x64, .f32⟩ : BufTy).Contents (Elt F) → (⟨S64x96, .f32⟩ : BufTy).Contents (Elt F) → (⟨S100000x96, .f32⟩ : BufTy).Contents (Elt F)),
    unary main_arg5 main_v5 (broadcastInDim S1x96 ![1] bcast_S96_S1x96_1 : (⟨S96, .f32⟩ : BufTy).Contents (Elt F) → (⟨S1x96, .f32⟩ : BufTy).Contents (Elt F)),
    unary main_v5 main_v6 (broadcastInDim S100000x96 ![0, 1] bcast_S1x96_S100000x96_0_1 : (⟨S1x96, .f32⟩ : BufTy).Contents (Elt F) → (⟨S100000x96, .f32⟩ : BufTy).Contents (Elt F)),
    binary main_v4 main_v6 main_v7 (addf : (⟨S100000x96, .f32⟩ : BufTy).Contents (Elt F) → (⟨S100000x96, .f32⟩ : BufTy).Contents (Elt F) → (⟨S100000x96, .f32⟩ : BufTy).Contents (Elt F)),
    TRef.nullary main_call0.cst (constant S_ .f32 0x00000000#32),
    TRef.unary main_call0.cst main_call0.v0 (broadcastInDim S100000x96 ![] bcast_S_S100000x96),
    TRef.binary (.of main_v7 : TRef sig ⟨S100000x96, .f32⟩) main_call0.v0 main_call0.v1 maximumf,
    nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_v1 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v11 (broadcastInDim S800000 ![] bcast_S_S800000 : (⟨S_, .i32⟩ : BufTy).Contents (Elt F) → (⟨S800000, .i32⟩ : BufTy).Contents (Elt F)),
    binary main_v1 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_v1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v8 main_v14 main_v15 ((fun x i => Host.gather gather_S100000x96_S800000x1_S800000x96_1_0_n_n_0_1_196 x i) : (⟨S100000x96, .f32⟩ : BufTy).Contents (Elt F) → (⟨S800000x1, .i32⟩ : BufTy).Contents (Elt F) → (⟨S800000x96, .f32⟩ : BufTy).Contents (Elt F)),
    nullary main_cst (constant S_ .f32 0x00000000#32),
    unary main_cst main_v16 (broadcastInDim S100000x96 ![] bcast_S_S100000x96 : (⟨S_, .f32⟩ : BufTy).Contents (Elt F) → (⟨S100000x96, .f32⟩ : BufTy).Contents (Elt F)),
    unary main_v3 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S100000x96_S800000x1_S800000x96_1_0_0_1 x i u) : (⟨S100000x96, .f32⟩ : BufTy).Contents (Elt F) → (⟨S800000x1, .i32⟩ : BufTy).Contents (Elt F) → (⟨S800000x96, .f32⟩ : BufTy).Contents (Elt F) → (⟨S100000x96, .f32⟩ : BufTy).Contents (Elt F)),
    nullary main_cst_1 (constant S_ .f32 0x3F800000#32),
    unary main_cst_1 main_v19 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v20 (broadcastInDim S100000 ![] bcast_S_S100000 : (⟨S_, .f32⟩ : BufTy).Contents (Elt F) → (⟨S100000, .f32⟩ : BufTy).Contents (Elt F)),
    unary main_v3 main_v21 (broadcastInDim S800000x1 ![0] bcast_S800000_S800000x1_0 : (⟨S800000, .i32⟩ : BufTy).Contents (Elt F) → (⟨S800000x1, .i32⟩ : BufTy).Contents (Elt F)),
    ternary main_v20 main_v21 main_v19 main_v22 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_3 (constant S_ .f32 0x3F800000#32),
    unary main_cst_3 main_v23 (broadcastInDim S100000 ![] bcast_S_S100000 : (⟨S_, .f32⟩ : BufTy).Contents (Elt F) → (⟨S100000, .f32⟩ : BufTy).Contents (Elt F)),
    binary main_v22 main_v23 main_v24 (maximumf : (⟨S100000, .f32⟩ : BufTy).Contents (Elt F) → (⟨S100000, .f32⟩ : BufTy).Contents (Elt F) → (⟨S100000, .f32⟩ : BufTy).Contents (Elt F)),
    unary main_v24 main_v25 (broadcastInDim S100000x1 ![0] bcast_S100000_S100000x1_0 : (⟨S100000, .f32⟩ : BufTy).Contents (Elt F) → (⟨S100000x1, .f32⟩ : BufTy).Contents (Elt F)),
    unary main_v25 main_v26 (broadcastInDim S100000x96 ![0, 1] bcast_S100000x1_S100000x96_0_1 : (⟨S100000x1, .f32⟩ : BufTy).Contents (Elt F) → (⟨S100000x96, .f32⟩ : BufTy).Contents (Elt F)),
    binary main_v18 main_v26 main_v27 (Host.divf : (⟨S100000x96, .f32⟩ : BufTy).Contents (Elt F) → (⟨S100000x96, .f32⟩ : BufTy).Contents (Elt F) → (⟨S100000x96, .f32⟩ : BufTy).Contents (Elt F)),
    unary main_arg6 main_v28 ((extractStridedSlice S1x96x96 ![0, 0, 0] · slices_S3x96x96_S1x96x96_0_0_0) : (⟨S3x96x96, .f32⟩ : BufTy).Contents (Elt F) → (⟨S1x96x96, .f32⟩ : BufTy).Contents (Elt F)),
    reshape main_v28 main_v29 rfl shapeCasts_S1x96x96_S96x96,
    binary main_v27 main_v29 main_v30 ((fun l r => Host.dotGeneral dot_S100000x96_S96x96_S100000x96_1_0_0_1_n_n none l r) : (⟨S100000x96, .f32⟩ : BufTy).Contents (Elt F) → (⟨S96x96, .f32⟩ : BufTy).Contents (Elt F) → (⟨S100000x96, .f32⟩ : BufTy).Contents (Elt F)),
    unary main_arg7 main_v31 ((extractStridedSlice S1x96 ![0, 0] · slices_S3x96_S1x96_0_0) : (⟨S3x96, .f32⟩ : BufTy).Contents (Elt F) → (⟨S1x96, .f32⟩ : BufTy).Contents (Elt F)),
    reshape main_v31 main_v32 rfl shapeCasts_S1x96_S96,
    unary main_v32 main_v33 (broadcastInDim S1x96 ![1] bcast_S96_S1x96_1 : (⟨S96, .f32⟩ : BufTy).Contents (Elt F) → (⟨S1x96, .f32⟩ : BufTy).Contents (Elt F)),
    unary main_v33 main_v34 (broadcastInDim S100000x96 ![0, 1] bcast_S1x96_S100000x96_0_1 : (⟨S1x96, .f32⟩ : BufTy).Contents (Elt F) → (⟨S100000x96, .f32⟩ : BufTy).Contents (Elt F)),
    binary main_v30 main_v34 main_v35 (addf : (⟨S100000x96, .f32⟩ : BufTy).Contents (Elt F) → (⟨S100000x96, .f32⟩ : BufTy).Contents (Elt F) → (⟨S100000x96, .f32⟩ : BufTy).Contents (Elt F)),
    unary main_arg8 main_v36 ((extractStridedSlice S1x96x96 ![0, 0, 0] · slices_S3x96x96_S1x96x96_0_0_0) : (⟨S3x96x96, .f32⟩ : BufTy).Contents (Elt F) → (⟨S1x96x96, .f32⟩ : BufTy).Contents (Elt F)),
    reshape main_v36 main_v37 rfl shapeCasts_S1x96x96_S96x96,
    binary main_v8 main_v37 main_v38 ((fun l r => Host.dotGeneral dot_S100000x96_S96x96_S100000x96_1_0_0_1_n_n none l r) : (⟨S100000x96, .f32⟩ : BufTy).Contents (Elt F) → (⟨S96x96, .f32⟩ : BufTy).Contents (Elt F) → (⟨S100000x96, .f32⟩ : BufTy).Contents (Elt F)),
    binary main_v35 main_v38 main_v39 (addf : (⟨S100000x96, .f32⟩ : BufTy).Contents (Elt F) → (⟨S100000x96, .f32⟩ : BufTy).Contents (Elt F) → (⟨S100000x96, .f32⟩ : BufTy).Contents (Elt F)) ]

/-- The buffers that list writes. -/
abbrev ops0_W : List (Ref sig .tc) := [main_v0, main_v1, main_v2, main_v3, main_v4, main_v5, main_v6, main_v7, main_call0_cst, main_call0_v0, main_v8, main_c, main_v9, main_v10, main_c_0, main_v11, main_v12, main_v13, main_v14, main_v15, main_cst, main_v16, main_v17, main_v18, main_cst_1, main_v19, main_cst_2, main_v20, main_v21, main_v22, main_cst_3, main_v23, main_v24, main_v25, main_v26, main_v27, main_v28, main_v29, main_v30, main_v31, main_v32, main_v33, main_v34, main_v35, main_v36, main_v37, main_v38, main_v39]

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub ..⟩

set_option maxRecDepth 8192 in
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 49 … 83, in order (the last writes main_v49). -/
abbrev ops1 : List (HloOp τ sig (Elt F)) :=
  [ nullary main_cst_4 (constant S_ .f32 0x00000000#32),
    binary main_v39 main_cst_4 main_v40 ((fun x v => Host.reduceAdd x v reducesTo_S100000x96_S96_d0 h_S_) : (⟨S100000x96, .f32⟩ : BufTy).Contents (Elt F) → (⟨S_, .f32⟩ : BufTy).Contents (Elt F) → (⟨S96, .f32⟩ : BufTy).Contents (Elt F)),
    nullary main_cst_5 (constant S_ .f32 0x47C35000#32),
    unary main_cst_5 main_v41 (broadcastInDim S96 ![] bcast_S_S96 : (⟨S_, .f32⟩ : BufTy).Contents (Elt F) → (⟨S96, .f32⟩ : BufTy).Contents (Elt F)),
    binary main_v40 main_v41 main_v42 (Host.divf : (⟨S96, .f32⟩ : BufTy).Contents (Elt F) → (⟨S96, .f32⟩ : BufTy).Contents (Elt F) → (⟨S96, .f32⟩ : BufTy).Contents (Elt F)),
    nullary main_c_6 (constantI S_ 32 0#32),
    TRef.nullary main_call1.cst (constant S_ .f32 0x00000000#32),
    TRef.binary (.of main_v39 : TRef sig ⟨S100000x96, .f32⟩) main_call1.cst main_call1.v0 (fun x v => Host.reduceAdd x v reducesTo_S100000x96_S96_d0 h_S_),
    TRef.unary main_call1.v0 main_call1.v1 (broadcastInDim S1x96 ![1] bcast_S96_S1x96_1),
    TRef.nullary main_call1.cst_0 (constant S_ .f32 0x47C35000#32),
    TRef.unary main_call1.cst_0 main_call1.v2 (broadcastInDim S1x96 ![] bcast_S_S1x96),
    TRef.binary main_call1.v1 main_call1.v2 main_call1.v3 Host.divf,
    TRef.unary main_call1.v3 main_call1.v4 (broadcastInDim S100000x96 ![0, 1] bcast_S1x96_S100000x96_0_1),
    TRef.binary (.of main_v39 : TRef sig ⟨S100000x96, .f32⟩) main_call1.v4 main_call1.v5 subf,
    TRef.binary main_call1.v5 main_call1.v5 main_call1.v6 mulf,
    TRef.unary (.of main_c_6 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x96_S96_d0 h_S_),
    TRef.unary main_call1.v8 main_call1.v10 (broadcastInDim S96 ![] bcast_S_S96),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S96 ![] bcast_S_S96),
    TRef.ternary main_call1.v12 main_call1.v11 main_call1.call0.v1 main_call1.call0.v2 (fun p a b => select (broadcastInDim S96 ![] bcast_S_S96 p) a b),
    unary main_v42 main_v44 (broadcastInDim S1x96 ![1] bcast_S96_S1x96_1 : (⟨S96, .f32⟩ : BufTy).Contents (Elt F) → (⟨S1x96, .f32⟩ : BufTy).Contents (Elt F)),
    unary main_v44 main_v45 (broadcastInDim S100000x96 ![0, 1] bcast_S1x96_S100000x96_0_1 : (⟨S1x96, .f32⟩ : BufTy).Contents (Elt F) → (⟨S100000x96, .f32⟩ : BufTy).Contents (Elt F)),
    binary main_v39 main_v45 main_v46 (subf : (⟨S100000x96, .f32⟩ : BufTy).Contents (Elt F) → (⟨S100000x96, .f32⟩ : BufTy).Contents (Elt F) → (⟨S100000x96, .f32⟩ : BufTy).Contents (Elt F)),
    nullary main_cst_7 (constant S_ .f32 0x3727C5AC#32),
    unary main_cst_7 main_v47 (broadcastInDim S96 ![] bcast_S_S96 : (⟨S_, .f32⟩ : BufTy).Contents (Elt F) → (⟨S96, .f32⟩ : BufTy).Contents (Elt F)),
    binary main_v43 main_v47 main_v48 (addf : (⟨S96, .f32⟩ : BufTy).Contents (Elt F) → (⟨S96, .f32⟩ : BufTy).Contents (Elt F) → (⟨S96, .f32⟩ : BufTy).Contents (Elt F)),
    unary main_v48 main_v49 (Host.rsqrt : (⟨S96, .f32⟩ : BufTy).Contents (Elt F) → (⟨S96, .f32⟩ : BufTy).Contents (Elt F)) ]

/-- The buffers that list writes. -/
abbrev ops1_W : List (Ref sig .tc) := [main_cst_4, main_v40, main_cst_5, main_v41, main_v42, main_c_6, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v43, main_v44, main_v45, main_v46, main_cst_7, main_v47, main_v48, main_v49]

theorem ops1_sub : (ops1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub ..⟩

set_option maxRecDepth 8192 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 84 … 136, in order (the last writes main_v94). -/
abbrev ops2 : List (HloOp τ sig (Elt F)) :=
  [ unary main_v49 main_v50 (broadcastInDim S1x96 ![1] bcast_S96_S1x96_1 : (⟨S96, .f32⟩ : BufTy).Contents (Elt F) → (⟨S1x96, .f32⟩ : BufTy).Contents (Elt F)),
    unary main_v50 main_v51 (broadcastInDim S100000x96 ![0, 1] bcast_S1x96_S100000x96_0_1 : (⟨S1x96, .f32⟩ : BufTy).Contents (Elt F) → (⟨S100000x96, .f32⟩ : BufTy).Contents (Elt F)),
    binary main_v46 main_v51 main_v52 (mulf : (⟨S100000x96, .f32⟩ : BufTy).Contents (Elt F) → (⟨S100000x96, .f32⟩ : BufTy).Contents (Elt F) → (⟨S100000x96, .f32⟩ : BufTy).Contents (Elt F)),
    unary main_arg9 main_v53 ((extractStridedSlice S1x96 ![0, 0] · slices_S3x96_S1x96_0_0) : (⟨S3x96, .f32⟩ : BufTy).Contents (Elt F) → (⟨S1x96, .f32⟩ : BufTy).Contents (Elt F)),
    reshape main_v53 main_v54 rfl shapeCasts_S1x96_S96,
    unary main_v54 main_v55 (broadcastInDim S1x96 ![1] bcast_S96_S1x96_1 : (⟨S96, .f32⟩ : BufTy).Contents (Elt F) → (⟨S1x96, .f32⟩ : BufTy).Contents (Elt F)),
    unary main_v55 main_v56 (broadcastInDim S100000x96 ![0, 1] bcast_S1x96_S100000x96_0_1 : (⟨S1x96, .f32⟩ : BufTy).Contents (Elt F) → (⟨S100000x96, .f32⟩ : BufTy).Contents (Elt F)),
    binary main_v52 main_v56 main_v57 (mulf : (⟨S100000x96, .f32⟩ : BufTy).Contents (Elt F) → (⟨S100000x96, .f32⟩ : BufTy).Contents (Elt F) → (⟨S100000x96, .f32⟩ : BufTy).Contents (Elt F)),
    unary main_arg10 main_v58 ((extractStridedSlice S1x96 ![0, 0] · slices_S3x96_S1x96_0_0) : (⟨S3x96, .f32⟩ : BufTy).Contents (Elt F) → (⟨S1x96, .f32⟩ : BufTy).Contents (Elt F)),
    reshape main_v58 main_v59 rfl shapeCasts_S1x96_S96,
    unary main_v59 main_v60 (broadcastInDim S1x96 ![1] bcast_S96_S1x96_1 : (⟨S96, .f32⟩ : BufTy).Contents (Elt F) → (⟨S1x96, .f32⟩ : BufTy).Contents (Elt F)),
    unary main_v60 main_v61 (broadcastInDim S100000x96 ![0, 1] bcast_S1x96_S100000x96_0_1 : (⟨S1x96, .f32⟩ : BufTy).Contents (Elt F) → (⟨S100000x96, .f32⟩ : BufTy).Contents (Elt F)),
    binary main_v57 main_v61 main_v62 (addf : (⟨S100000x96, .f32⟩ : BufTy).Contents (Elt F) → (⟨S100000x96, .f32⟩ : BufTy).Contents (Elt F) → (⟨S100000x96, .f32⟩ : BufTy).Contents (Elt F)),
    TRef.nullary main_call2.cst (constant S_ .f32 0x00000000#32),
    TRef.unary main_call2.cst main_call2.v0 (broadcastInDim S100000x96 ![] bcast_S_S100000x96),
    TRef.binary (.of main_v62 : TRef sig ⟨S100000x96, .f32⟩) main_call2.v0 main_call2.v1 maximumf,
    nullary main_c_8 (constantI S_ 32 0#32),
    unary main_c_8 main_v64 (broadcastInDim S800000 ![] bcast_S_S800000 : (⟨S_, .i32⟩ : BufTy).Contents (Elt F) → (⟨S800000, .i32⟩ : BufTy).Contents (Elt F)),
    binary main_v1 main_v64 main_v65 (cmpi .slt : (⟨S800000, .i32⟩ : BufTy).Contents (Elt F) → (⟨S800000, .i32⟩ : BufTy).Contents (Elt F) → (⟨S800000, .i1⟩ : BufTy).Contents (Elt F)),
    nullary main_c_9 (constantI S_ 32 100000#32),
    unary main_c_9 main_v66 (broadcastInDim S800000 ![] bcast_S_S800000 : (⟨S_, .i32⟩ : BufTy).Contents (Elt F) → (⟨S800000, .i32⟩ : BufTy).Contents (Elt F)),
    binary main_v1 main_v66 main_v67 (addi : (⟨S800000, .i32⟩ : BufTy).Contents (Elt F) → (⟨S800000, .i32⟩ : BufTy).Contents (Elt F) → (⟨S800000, .i32⟩ : BufTy).Contents (Elt F)),
    ternary main_v65 main_v67 main_v1 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v68 main_v69 (broadcastInDim S800000x1 ![0] bcast_S800000_S800000x1_0 : (⟨S800000, .i32⟩ : BufTy).Contents (Elt F) → (⟨S800000x1, .i32⟩ : BufTy).Contents (Elt F)),
    binary main_v63 main_v69 main_v70 ((fun x i => Host.gather gather_S100000x96_S800000x1_S800000x96_1_0_n_n_0_1_196 x i) : (⟨S100000x96, .f32⟩ : BufTy).Contents (Elt F) → (⟨S800000x1, .i32⟩ : BufTy).Contents (Elt F) → (⟨S800000x96, .f32⟩ : BufTy).Contents (Elt F)),
    nullary main_cst_10 (constant S_ .f32 0x00000000#32),
    unary main_cst_10 main_v71 (broadcastInDim S100000x96 ![] bcast_S_S100000x96 : (⟨S_, .f32⟩ : BufTy).Contents (Elt F) → (⟨S100000x96, .f32⟩ : BufTy).Contents (Elt F)),
    unary main_v3 main_v72 (broadcastInDim S800000x1 ![0] bcast_S800000_S800000x1_0 : (⟨S800000, .i32⟩ : BufTy).Contents (Elt F) → (⟨S800000x1, .i32⟩ : BufTy).Contents (Elt F)),
    ternary main_v71 main_v72 main_v70 main_v73 ((fun x i u => Host.scatterAdd scatter_S100000x96_S800000x1_S800000x96_1_0_0_1 x i u) : (⟨S100000x96, .f32⟩ : BufTy).Contents (Elt F) → (⟨S800000x1, .i32⟩ : BufTy).Contents (Elt F) → (⟨S800000x96, .f32⟩ : BufTy).Contents (Elt F) → (⟨S100000x96, .f32⟩ : BufTy).Contents (Elt F)),
    nullary main_cst_11 (constant S_ .f32 0x3F800000#32),
    unary main_cst_11 main_v74 (broadcastInDim S800000 ![] bcast_S_S800000 : (⟨S_, .f32⟩ : BufTy).Contents (Elt F) → (⟨S800000, .f32⟩ : BufTy).Contents (Elt F)),
    nullary main_cst_12 (constant S_ .f32 0x00000000#32),
    unary main_cst_12 main_v75 (broadcastInDim S100000 ![] bcast_S_S100000 : (⟨S_, .f32⟩ : BufTy).Contents (Elt F) → (⟨S100000, .f32⟩ : BufTy).Contents (Elt F)),
    unary main_v3 main_v76 (broadcastInDim S800000x1 ![0] bcast_S800000_S800000x1_0 : (⟨S800000, .i32⟩ : BufTy).Contents (Elt F) → (⟨S800000x1, .i32⟩ : BufTy).Contents (Elt F)),
    ternary main_v75 main_v76 main_v74 main_v77 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_13 (constant S_ .f32 0x3F800000#32),
    unary main_cst_13 main_v78 (broadcastInDim S100000 ![] bcast_S_S100000 : (⟨S_, .f32⟩ : BufTy).Contents (Elt F) → (⟨S100000, .f32⟩ : BufTy).Contents (Elt F)),
    binary main_v77 main_v78 main_v79 (maximumf : (⟨S100000, .f32⟩ : BufTy).Contents (Elt F) → (⟨S100000, .f32⟩ : BufTy).Contents (Elt F) → (⟨S100000, .f32⟩ : BufTy).Contents (Elt F)),
    unary main_v79 main_v80 (broadcastInDim S100000x1 ![0] bcast_S100000_S100000x1_0 : (⟨S100000, .f32⟩ : BufTy).Contents (Elt F) → (⟨S100000x1, .f32⟩ : BufTy).Contents (Elt F)),
    unary main_v80 main_v81 (broadcastInDim S100000x96 ![0, 1] bcast_S100000x1_S100000x96_0_1 : (⟨S100000x1, .f32⟩ : BufTy).Contents (Elt F) → (⟨S100000x96, .f32⟩ : BufTy).Contents (Elt F)),
    binary main_v73 main_v81 main_v82 (Host.divf : (⟨S100000x96, .f32⟩ : BufTy).Contents (Elt F) → (⟨S100000x96, .f32⟩ : BufTy).Contents (Elt F) → (⟨S100000x96, .f32⟩ : BufTy).Contents (Elt F)),
    unary main_arg6 main_v83 ((extractStridedSlice S1x96x96 ![1, 0, 0] · slices_S3x96x96_S1x96x96_1_0_0) : (⟨S3x96x96, .f32⟩ : BufTy).Contents (Elt F) → (⟨S1x96x96, .f32⟩ : BufTy).Contents (Elt F)),
    reshape main_v83 main_v84 rfl shapeCasts_S1x96x96_S96x96,
    binary main_v82 main_v84 main_v85 ((fun l r => Host.dotGeneral dot_S100000x96_S96x96_S100000x96_1_0_0_1_n_n none l r) : (⟨S100000x96, .f32⟩ : BufTy).Contents (Elt F) → (⟨S96x96, .f32⟩ : BufTy).Contents (Elt F) → (⟨S100000x96, .f32⟩ : BufTy).Contents (Elt F)),
    unary main_arg7 main_v86 ((extractStridedSlice S1x96 ![1, 0] · slices_S3x96_S1x96_1_0) : (⟨S3x96, .f32⟩ : BufTy).Contents (Elt F) → (⟨S1x96, .f32⟩ : BufTy).Contents (Elt F)),
    reshape main_v86 main_v87 rfl shapeCasts_S1x96_S96,
    unary main_v87 main_v88 (broadcastInDim S1x96 ![1] bcast_S96_S1x96_1 : (⟨S96, .f32⟩ : BufTy).Contents (Elt F) → (⟨S1x96, .f32⟩ : BufTy).Contents (Elt F)),
    unary main_v88 main_v89 (broadcastInDim S100000x96 ![0, 1] bcast_S1x96_S100000x96_0_1 : (⟨S1x96, .f32⟩ : BufTy).Contents (Elt F) → (⟨S100000x96, .f32⟩ : BufTy).Contents (Elt F)),
    binary main_v85 main_v89 main_v90 (addf : (⟨S100000x96, .f32⟩ : BufTy).Contents (Elt F) → (⟨S100000x96, .f32⟩ : BufTy).Contents (Elt F) → (⟨S100000x96, .f32⟩ : BufTy).Contents (Elt F)),
    unary main_arg8 main_v91 ((extractStridedSlice S1x96x96 ![1, 0, 0] · slices_S3x96x96_S1x96x96_1_0_0) : (⟨S3x96x96, .f32⟩ : BufTy).Contents (Elt F) → (⟨S1x96x96, .f32⟩ : BufTy).Contents (Elt F)),
    reshape main_v91 main_v92 rfl shapeCasts_S1x96x96_S96x96,
    binary main_v63 main_v92 main_v93 ((fun l r => Host.dotGeneral dot_S100000x96_S96x96_S100000x96_1_0_0_1_n_n none l r) : (⟨S100000x96, .f32⟩ : BufTy).Contents (Elt F) → (⟨S96x96, .f32⟩ : BufTy).Contents (Elt F) → (⟨S100000x96, .f32⟩ : BufTy).Contents (Elt F)),
    binary main_v90 main_v93 main_v94 (addf : (⟨S100000x96, .f32⟩ : BufTy).Contents (Elt F) → (⟨S100000x96, .f32⟩ : BufTy).Contents (Elt F) → (⟨S100000x96, .f32⟩ : BufTy).Contents (Elt F)) ]

/-- The buffers that list writes. -/
abbrev ops2_W : List (Ref sig .tc) := [main_v50, main_v51, main_v52, main_v53, main_v54, main_v55, main_v56, main_v57, main_v58, main_v59, main_v60, main_v61, main_v62, main_call2_cst, main_call2_v0, main_v63, main_c_8, main_v64, main_v65, main_c_9, main_v66, main_v67, main_v68, main_v69, main_v70, main_cst_10, main_v71, main_v72, main_v73, main_cst_11, main_v74, main_cst_12, main_v75, main_v76, main_v77, main_cst_13, main_v78, main_v79, main_v80, main_v81, main_v82, main_v83, main_v84, main_v85, main_v86, main_v87, main_v88, main_v89, main_v90, main_v91, main_v92, main_v93, main_v94]

theorem ops2_sub : (ops2 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub ..⟩

set_option maxRecDepth 8192 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 137 … 166, in order (the last writes main_v100). -/
abbrev ops3 : List (HloOp τ sig (Elt F)) :=
  [ nullary main_cst_14 (constant S_ .f32 0x00000000#32),
    binary main_v94 main_cst_14 main_v95 ((fun x v => Host.reduceAdd x v reducesTo_S100000x96_S96_d0 h_S_) : (⟨S100000x96, .f32⟩ : BufTy).Contents (Elt F) → (⟨S_, .f32⟩ : BufTy).Contents (Elt F) → (⟨S96, .f32⟩ : BufTy).Contents (Elt F)),
    nullary main_cst_15 (constant S_ .f32 0x47C35000#32),
    unary main_cst_15 main_v96 (broadcastInDim S96 ![] bcast_S_S96 : (⟨S_, .f32⟩ : BufTy).Contents (Elt F) → (⟨S96, .f32⟩ : BufTy).Contents (Elt F)),
    binary main_v95 main_v96 main_v97 (Host.divf : (⟨S96, .f32⟩ : BufTy).Contents (Elt F) → (⟨S96, .f32⟩ : BufTy).Contents (Elt F) → (⟨S96, .f32⟩ : BufTy).Contents (Elt F)),
    nullary main_c_16 (constantI S_ 32 0#32),
    TRef.nullary main_call3.cst (constant S_ .f32 0x00000000#32),
    TRef.binary (.of main_v94 : TRef sig ⟨S100000x96, .f32⟩) main_call3.cst main_call3.v0 (fun x v => Host.reduceAdd x v reducesTo_S100000x96_S96_d0 h_S_),
    TRef.unary main_call3.v0 main_call3.v1 (broadcastInDim S1x96 ![1] bcast_S96_S1x96_1),
    TRef.nullary main_call3.cst_0 (constant S_ .f32 0x47C35000#32),
    TRef.unary main_call3.cst_0 main_call3.v2 (broadcastInDim S1x96 ![] bcast_S_S1x96),
    TRef.binary main_call3.v1 main_call3.v2 main_call3.v3 Host.divf,
    TRef.unary main_call3.v3 main_call3.v4 (broadcastInDim S100000x96 ![0, 1] bcast_S1x96_S100000x96_0_1),
    TRef.binary (.of main_v94 : TRef sig ⟨S100000x96, .f32⟩) main_call3.v4 main_call3.v5 subf,
    TRef.binary main_call3.v5 main_call3.v5 main_call3.v6 mulf,
    TRef.unary (.of main_c_16 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x96_S96_d0 h_S_),
    TRef.unary main_call3.v8 main_call3.v10 (broadcastInDim S96 ![] bcast_S_S96),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S96 ![] bcast_S_S96),
    TRef.ternary main_call3.v12 main_call3.v11 main_call3.call0.v1 main_call3.call0.v2 (fun p a b => select (broadcastInDim S96 ![] bcast_S_S96 p) a b),
    unary main_v97 main_v99 (broadcastInDim S1x96 ![1] bcast_S96_S1x96_1 : (⟨S96, .f32⟩ : BufTy).Contents (Elt F) → (⟨S1x96, .f32⟩ : BufTy).Contents (Elt F)),
    unary main_v99 main_v100 (broadcastInDim S100000x96 ![0, 1] bcast_S1x96_S100000x96_0_1 : (⟨S1x96, .f32⟩ : BufTy).Contents (Elt F) → (⟨S100000x96, .f32⟩ : BufTy).Contents (Elt F)) ]

/-- The buffers that list writes. -/
abbrev ops3_W : List (Ref sig .tc) := [main_cst_14, main_v95, main_cst_15, main_v96, main_v97, main_c_16, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v98, main_v99, main_v100]

theorem ops3_sub : (ops3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub ..⟩

set_option maxRecDepth 8192 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 167 … 187, in order (the last writes main_v118). -/
abbrev ops4 : List (HloOp τ sig (Elt F)) :=
  [ binary main_v94 main_v100 main_v101 (subf : (⟨S100000x96, .f32⟩ : BufTy).Contents (Elt F) → (⟨S100000x96, .f32⟩ : BufTy).Contents (Elt F) → (⟨S100000x96, .f32⟩ : BufTy).Contents (Elt F)),
    nullary main_cst_17 (constant S_ .f32 0x3727C5AC#32),
    unary main_cst_17 main_v102 (broadcastInDim S96 ![] bcast_S_S96 : (⟨S_, .f32⟩ : BufTy).Contents (Elt F) → (⟨S96, .f32⟩ : BufTy).Contents (Elt F)),
    binary main_v98 main_v102 main_v103 (addf : (⟨S96, .f32⟩ : BufTy).Contents (Elt F) → (⟨S96, .f32⟩ : BufTy).Contents (Elt F) → (⟨S96, .f32⟩ : BufTy).Contents (Elt F)),
    unary main_v103 main_v104 (Host.rsqrt : (⟨S96, .f32⟩ : BufTy).Contents (Elt F) → (⟨S96, .f32⟩ : BufTy).Contents (Elt F)),
    unary main_v104 main_v105 (broadcastInDim S1x96 ![1] bcast_S96_S1x96_1 : (⟨S96, .f32⟩ : BufTy).Contents (Elt F) → (⟨S1x96, .f32⟩ : BufTy).Contents (Elt F)),
    unary main_v105 main_v106 (broadcastInDim S100000x96 ![0, 1] bcast_S1x96_S100000x96_0_1 : (⟨S1x96, .f32⟩ : BufTy).Contents (Elt F) → (⟨S100000x96, .f32⟩ : BufTy).Contents (Elt F)),
    binary main_v101 main_v106 main_v107 (mulf : (⟨S100000x96, .f32⟩ : BufTy).Contents (Elt F) → (⟨S100000x96, .f32⟩ : BufTy).Contents (Elt F) → (⟨S100000x96, .f32⟩ : BufTy).Contents (Elt F)),
    unary main_arg9 main_v108 ((extractStridedSlice S1x96 ![1, 0] · slices_S3x96_S1x96_1_0) : (⟨S3x96, .f32⟩ : BufTy).Contents (Elt F) → (⟨S1x96, .f32⟩ : BufTy).Contents (Elt F)),
    reshape main_v108 main_v109 rfl shapeCasts_S1x96_S96,
    unary main_v109 main_v110 (broadcastInDim S1x96 ![1] bcast_S96_S1x96_1 : (⟨S96, .f32⟩ : BufTy).Contents (Elt F) → (⟨S1x96, .f32⟩ : BufTy).Contents (Elt F)),
    unary main_v110 main_v111 (broadcastInDim S100000x96 ![0, 1] bcast_S1x96_S100000x96_0_1 : (⟨S1x96, .f32⟩ : BufTy).Contents (Elt F) → (⟨S100000x96, .f32⟩ : BufTy).Contents (Elt F)),
    binary main_v107 main_v111 main_v112 (mulf : (⟨S100000x96, .f32⟩ : BufTy).Contents (Elt F) → (⟨S100000x96, .f32⟩ : BufTy).Contents (Elt F) → (⟨S100000x96, .f32⟩ : BufTy).Contents (Elt F)),
    unary main_arg10 main_v113 ((extractStridedSlice S1x96 ![1, 0] · slices_S3x96_S1x96_1_0) : (⟨S3x96, .f32⟩ : BufTy).Contents (Elt F) → (⟨S1x96, .f32⟩ : BufTy).Contents (Elt F)),
    reshape main_v113 main_v114 rfl shapeCasts_S1x96_S96,
    unary main_v114 main_v115 (broadcastInDim S1x96 ![1] bcast_S96_S1x96_1 : (⟨S96, .f32⟩ : BufTy).Contents (Elt F) → (⟨S1x96, .f32⟩ : BufTy).Contents (Elt F)),
    unary main_v115 main_v116 (broadcastInDim S100000x96 ![0, 1] bcast_S1x96_S100000x96_0_1 : (⟨S1x96, .f32⟩ : BufTy).Contents (Elt F) → (⟨S100000x96, .f32⟩ : BufTy).Contents (Elt F)),
    binary main_v112 main_v116 main_v117 (addf : (⟨S100000x96, .f32⟩ : BufTy).Contents (Elt F) → (⟨S100000x96, .f32⟩ : BufTy).Contents (Elt F) → (⟨S100000x96, .f32⟩ : BufTy).Contents (Elt F)),
    TRef.nullary main_call4.cst (constant S_ .f32 0x00000000#32),
    TRef.unary main_call4.cst main_call4.v0 (broadcastInDim S100000x96 ![] bcast_S_S100000x96),
    TRef.binary (.of main_v117 : TRef sig ⟨S100000x96, .f32⟩) main_call4.v0 main_call4.v1 maximumf ]

/-- The buffers that list writes. -/
abbrev ops4_W : List (Ref sig .tc) := [main_v101, main_cst_17, main_v102, main_v103, main_v104, main_v105, main_v106, main_v107, main_v108, main_v109, main_v110, main_v111, main_v112, main_v113, main_v114, main_v115, main_v116, main_v117, main_call4_cst, main_call4_v0, main_v118]

theorem ops4_sub : (ops4 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 188 … 228, in order (the last writes main_v151). -/
abbrev ops5 : List (HloOp τ sig (Elt F)) :=
  [ nullary main_c_18 (constantI S_ 32 0#32),
    unary main_c_18 main_v119 (broadcastInDim S800000 ![] bcast_S_S800000 : (⟨S_, .i32⟩ : BufTy).Contents (Elt F) → (⟨S800000, .i32⟩ : BufTy).Contents (Elt F)),
    binary main_v1 main_v119 main_v120 (cmpi .slt : (⟨S800000, .i32⟩ : BufTy).Contents (Elt F) → (⟨S800000, .i32⟩ : BufTy).Contents (Elt F) → (⟨S800000, .i1⟩ : BufTy).Contents (Elt F)),
    nullary main_c_19 (constantI S_ 32 100000#32),
    unary main_c_19 main_v121 (broadcastInDim S800000 ![] bcast_S_S800000 : (⟨S_, .i32⟩ : BufTy).Contents (Elt F) → (⟨S800000, .i32⟩ : BufTy).Contents (Elt F)),
    binary main_v1 main_v121 main_v122 (addi : (⟨S800000, .i32⟩ : BufTy).Contents (Elt F) → (⟨S800000, .i32⟩ : BufTy).Contents (Elt F) → (⟨S800000, .i32⟩ : BufTy).Contents (Elt F)),
    ternary main_v120 main_v122 main_v1 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v123 main_v124 (broadcastInDim S800000x1 ![0] bcast_S800000_S800000x1_0 : (⟨S800000, .i32⟩ : BufTy).Contents (Elt F) → (⟨S800000x1, .i32⟩ : BufTy).Contents (Elt F)),
    binary main_v118 main_v124 main_v125 ((fun x i => Host.gather gather_S100000x96_S800000x1_S800000x96_1_0_n_n_0_1_196 x i) : (⟨S100000x96, .f32⟩ : BufTy).Contents (Elt F) → (⟨S800000x1, .i32⟩ : BufTy).Contents (Elt F) → (⟨S800000x96, .f32⟩ : BufTy).Contents (Elt F)),
    nullary main_cst_20 (constant S_ .f32 0x00000000#32),
    unary main_cst_20 main_v126 (broadcastInDim S100000x96 ![] bcast_S_S100000x96 : (⟨S_, .f32⟩ : BufTy).Contents (Elt F) → (⟨S100000x96, .f32⟩ : BufTy).Contents (Elt F)),
    unary main_v3 main_v127 (broadcastInDim S800000x1 ![0] bcast_S800000_S800000x1_0 : (⟨S800000, .i32⟩ : BufTy).Contents (Elt F) → (⟨S800000x1, .i32⟩ : BufTy).Contents (Elt F)),
    ternary main_v126 main_v127 main_v125 main_v128 ((fun x i u => Host.scatterAdd scatter_S100000x96_S800000x1_S800000x96_1_0_0_1 x i u) : (⟨S100000x96, .f32⟩ : BufTy).Contents (Elt F) → (⟨S800000x1, .i32⟩ : BufTy).Contents (Elt F) → (⟨S800000x96, .f32⟩ : BufTy).Contents (Elt F) → (⟨S100000x96, .f32⟩ : BufTy).Contents (Elt F)),
    nullary main_cst_21 (constant S_ .f32 0x3F800000#32),
    unary main_cst_21 main_v129 (broadcastInDim S800000 ![] bcast_S_S800000 : (⟨S_, .f32⟩ : BufTy).Contents (Elt F) → (⟨S800000, .f32⟩ : BufTy).Contents (Elt F)),
    nullary main_cst_22 (constant S_ .f32 0x00000000#32),
    unary main_cst_22 main_v130 (broadcastInDim S100000 ![] bcast_S_S100000 : (⟨S_, .f32⟩ : BufTy).Contents (Elt F) → (⟨S100000, .f32⟩ : BufTy).Contents (Elt F)),
    unary main_v3 main_v131 (broadcastInDim S800000x1 ![0] bcast_S800000_S800000x1_0 : (⟨S800000, .i32⟩ : BufTy).Contents (Elt F) → (⟨S800000x1, .i32⟩ : BufTy).Contents (Elt F)),
    ternary main_v130 main_v131 main_v129 main_v132 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_23 (constant S_ .f32 0x3F800000#32),
    unary main_cst_23 main_v133 (broadcastInDim S100000 ![] bcast_S_S100000 : (⟨S_, .f32⟩ : BufTy).Contents (Elt F) → (⟨S100000, .f32⟩ : BufTy).Contents (Elt F)),
    binary main_v132 main_v133 main_v134 (maximumf : (⟨S100000, .f32⟩ : BufTy).Contents (Elt F) → (⟨S100000, .f32⟩ : BufTy).Contents (Elt F) → (⟨S100000, .f32⟩ : BufTy).Contents (Elt F)),
    unary main_v134 main_v135 (broadcastInDim S100000x1 ![0] bcast_S100000_S100000x1_0 : (⟨S100000, .f32⟩ : BufTy).Contents (Elt F) → (⟨S100000x1, .f32⟩ : BufTy).Contents (Elt F)),
    unary main_v135 main_v136 (broadcastInDim S100000x96 ![0, 1] bcast_S100000x1_S100000x96_0_1 : (⟨S100000x1, .f32⟩ : BufTy).Contents (Elt F) → (⟨S100000x96, .f32⟩ : BufTy).Contents (Elt F)),
    binary main_v128 main_v136 main_v137 (Host.divf : (⟨S100000x96, .f32⟩ : BufTy).Contents (Elt F) → (⟨S100000x96, .f32⟩ : BufTy).Contents (Elt F) → (⟨S100000x96, .f32⟩ : BufTy).Contents (Elt F)),
    unary main_arg6 main_v138 ((extractStridedSlice S1x96x96 ![2, 0, 0] · slices_S3x96x96_S1x96x96_2_0_0) : (⟨S3x96x96, .f32⟩ : BufTy).Contents (Elt F) → (⟨S1x96x96, .f32⟩ : BufTy).Contents (Elt F)),
    reshape main_v138 main_v139 rfl shapeCasts_S1x96x96_S96x96,
    binary main_v137 main_v139 main_v140 ((fun l r => Host.dotGeneral dot_S100000x96_S96x96_S100000x96_1_0_0_1_n_n none l r) : (⟨S100000x96, .f32⟩ : BufTy).Contents (Elt F) → (⟨S96x96, .f32⟩ : BufTy).Contents (Elt F) → (⟨S100000x96, .f32⟩ : BufTy).Contents (Elt F)),
    unary main_arg7 main_v141 ((extractStridedSlice S1x96 ![2, 0] · slices_S3x96_S1x96_2_0) : (⟨S3x96, .f32⟩ : BufTy).Contents (Elt F) → (⟨S1x96, .f32⟩ : BufTy).Contents (Elt F)),
    reshape main_v141 main_v142 rfl shapeCasts_S1x96_S96,
    unary main_v142 main_v143 (broadcastInDim S1x96 ![1] bcast_S96_S1x96_1 : (⟨S96, .f32⟩ : BufTy).Contents (Elt F) → (⟨S1x96, .f32⟩ : BufTy).Contents (Elt F)),
    unary main_v143 main_v144 (broadcastInDim S100000x96 ![0, 1] bcast_S1x96_S100000x96_0_1 : (⟨S1x96, .f32⟩ : BufTy).Contents (Elt F) → (⟨S100000x96, .f32⟩ : BufTy).Contents (Elt F)),
    binary main_v140 main_v144 main_v145 (addf : (⟨S100000x96, .f32⟩ : BufTy).Contents (Elt F) → (⟨S100000x96, .f32⟩ : BufTy).Contents (Elt F) → (⟨S100000x96, .f32⟩ : BufTy).Contents (Elt F)),
    unary main_arg8 main_v146 ((extractStridedSlice S1x96x96 ![2, 0, 0] · slices_S3x96x96_S1x96x96_2_0_0) : (⟨S3x96x96, .f32⟩ : BufTy).Contents (Elt F) → (⟨S1x96x96, .f32⟩ : BufTy).Contents (Elt F)),
    reshape main_v146 main_v147 rfl shapeCasts_S1x96x96_S96x96,
    binary main_v118 main_v147 main_v148 ((fun l r => Host.dotGeneral dot_S100000x96_S96x96_S100000x96_1_0_0_1_n_n none l r) : (⟨S100000x96, .f32⟩ : BufTy).Contents (Elt F) → (⟨S96x96, .f32⟩ : BufTy).Contents (Elt F) → (⟨S100000x96, .f32⟩ : BufTy).Contents (Elt F)),
    binary main_v145 main_v148 main_v149 (addf : (⟨S100000x96, .f32⟩ : BufTy).Contents (Elt F) → (⟨S100000x96, .f32⟩ : BufTy).Contents (Elt F) → (⟨S100000x96, .f32⟩ : BufTy).Contents (Elt F)),
    nullary main_cst_24 (constant S_ .f32 0x00000000#32),
    binary main_v149 main_cst_24 main_v150 ((fun x v => Host.reduceAdd x v reducesTo_S100000x96_S96_d0 h_S_) : (⟨S100000x96, .f32⟩ : BufTy).Contents (Elt F) → (⟨S_, .f32⟩ : BufTy).Contents (Elt F) → (⟨S96, .f32⟩ : BufTy).Contents (Elt F)),
    nullary main_cst_25 (constant S_ .f32 0x47C35000#32),
    unary main_cst_25 main_v151 (broadcastInDim S96 ![] bcast_S_S96 : (⟨S_, .f32⟩ : BufTy).Contents (Elt F) → (⟨S96, .f32⟩ : BufTy).Contents (Elt F)) ]

/-- The buffers that list writes. -/
abbrev ops5_W : List (Ref sig .tc) := [main_c_18, main_v119, main_v120, main_c_19, main_v121, main_v122, main_v123, main_v124, main_v125, main_cst_20, main_v126, main_v127, main_v128, main_cst_21, main_v129, main_cst_22, main_v130, main_v131, main_v132, main_cst_23, main_v133, main_v134, main_v135, main_v136, main_v137, main_v138, main_v139, main_v140, main_v141, main_v142, main_v143, main_v144, main_v145, main_v146, main_v147, main_v148, main_v149, main_cst_24, main_v150, main_cst_25, main_v151]

theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., binary_bufs_sub .., nullary_bufs_sub .., unary_bufs_sub ..⟩

set_option maxRecDepth 8192 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 229 … 275, in order (the last writes main_v173). -/
abbrev ops6 : List (HloOp τ sig (Elt F)) :=
  [ binary main_v150 main_v151 main_v152 (Host.divf : (⟨S96, .f32⟩ : BufTy).Contents (Elt F) → (⟨S96, .f32⟩ : BufTy).Contents (Elt F) → (⟨S96, .f32⟩ : BufTy).Contents (Elt F)),
    nullary main_c_26 (constantI S_ 32 0#32),
    TRef.nullary main_call5.cst (constant S_ .f32 0x00000000#32),
    TRef.binary (.of main_v149 : TRef sig ⟨S100000x96, .f32⟩) main_call5.cst main_call5.v0 (fun x v => Host.reduceAdd x v reducesTo_S100000x96_S96_d0 h_S_),
    TRef.unary main_call5.v0 main_call5.v1 (broadcastInDim S1x96 ![1] bcast_S96_S1x96_1),
    TRef.nullary main_call5.cst_0 (constant S_ .f32 0x47C35000#32),
    TRef.unary main_call5.cst_0 main_call5.v2 (broadcastInDim S1x96 ![] bcast_S_S1x96),
    TRef.binary main_call5.v1 main_call5.v2 main_call5.v3 Host.divf,
    TRef.unary main_call5.v3 main_call5.v4 (broadcastInDim S100000x96 ![0, 1] bcast_S1x96_S100000x96_0_1),
    TRef.binary (.of main_v149 : TRef sig ⟨S100000x96, .f32⟩) main_call5.v4 main_call5.v5 subf,
    TRef.binary main_call5.v5 main_call5.v5 main_call5.v6 mulf,
    TRef.unary (.of main_c_26 : TRef sig ⟨S_, .i32⟩) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x96_S96_d0 h_S_),
    TRef.unary main_call5.v8 main_call5.v10 (broadcastInDim S96 ![] bcast_S_S96),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S96 ![] bcast_S_S96),
    TRef.ternary main_call5.v12 main_call5.v11 main_call5.call0.v1 main_call5.call0.v2 (fun p a b => select (broadcastInDim S96 ![] bcast_S_S96 p) a b),
    unary main_v152 main_v154 (broadcastInDim S1x96 ![1] bcast_S96_S1x96_1 : (⟨S96, .f32⟩ : BufTy).Contents (Elt F) → (⟨S1x96, .f32⟩ : BufTy).Contents (Elt F)),
    unary main_v154 main_v155 (broadcastInDim S100000x96 ![0, 1] bcast_S1x96_S100000x96_0_1 : (⟨S1x96, .f32⟩ : BufTy).Contents (Elt F) → (⟨S100000x96, .f32⟩ : BufTy).Contents (Elt F)),
    binary main_v149 main_v155 main_v156 (subf : (⟨S100000x96, .f32⟩ : BufTy).Contents (Elt F) → (⟨S100000x96, .f32⟩ : BufTy).Contents (Elt F) → (⟨S100000x96, .f32⟩ : BufTy).Contents (Elt F)),
    nullary main_cst_27 (constant S_ .f32 0x3727C5AC#32),
    unary main_cst_27 main_v157 (broadcastInDim S96 ![] bcast_S_S96 : (⟨S_, .f32⟩ : BufTy).Contents (Elt F) → (⟨S96, .f32⟩ : BufTy).Contents (Elt F)),
    binary main_v153 main_v157 main_v158 (addf : (⟨S96, .f32⟩ : BufTy).Contents (Elt F) → (⟨S96, .f32⟩ : BufTy).Contents (Elt F) → (⟨S96, .f32⟩ : BufTy).Contents (Elt F)),
    unary main_v158 main_v159 (Host.rsqrt : (⟨S96, .f32⟩ : BufTy).Contents (Elt F) → (⟨S96, .f32⟩ : BufTy).Contents (Elt F)),
    unary main_v159 main_v160 (broadcastInDim S1x96 ![1] bcast_S96_S1x96_1 : (⟨S96, .f32⟩ : BufTy).Contents (Elt F) → (⟨S1x96, .f32⟩ : BufTy).Contents (Elt F)),
    unary main_v160 main_v161 (broadcastInDim S100000x96 ![0, 1] bcast_S1x96_S100000x96_0_1 : (⟨S1x96, .f32⟩ : BufTy).Contents (Elt F) → (⟨S100000x96, .f32⟩ : BufTy).Contents (Elt F)),
    binary main_v156 main_v161 main_v162 (mulf : (⟨S100000x96, .f32⟩ : BufTy).Contents (Elt F) → (⟨S100000x96, .f32⟩ : BufTy).Contents (Elt F) → (⟨S100000x96, .f32⟩ : BufTy).Contents (Elt F)),
    unary main_arg9 main_v163 ((extractStridedSlice S1x96 ![2, 0] · slices_S3x96_S1x96_2_0) : (⟨S3x96, .f32⟩ : BufTy).Contents (Elt F) → (⟨S1x96, .f32⟩ : BufTy).Contents (Elt F)),
    reshape main_v163 main_v164 rfl shapeCasts_S1x96_S96,
    unary main_v164 main_v165 (broadcastInDim S1x96 ![1] bcast_S96_S1x96_1 : (⟨S96, .f32⟩ : BufTy).Contents (Elt F) → (⟨S1x96, .f32⟩ : BufTy).Contents (Elt F)),
    unary main_v165 main_v166 (broadcastInDim S100000x96 ![0, 1] bcast_S1x96_S100000x96_0_1 : (⟨S1x96, .f32⟩ : BufTy).Contents (Elt F) → (⟨S100000x96, .f32⟩ : BufTy).Contents (Elt F)),
    binary main_v162 main_v166 main_v167 (mulf : (⟨S100000x96, .f32⟩ : BufTy).Contents (Elt F) → (⟨S100000x96, .f32⟩ : BufTy).Contents (Elt F) → (⟨S100000x96, .f32⟩ : BufTy).Contents (Elt F)),
    unary main_arg10 main_v168 ((extractStridedSlice S1x96 ![2, 0] · slices_S3x96_S1x96_2_0) : (⟨S3x96, .f32⟩ : BufTy).Contents (Elt F) → (⟨S1x96, .f32⟩ : BufTy).Contents (Elt F)),
    reshape main_v168 main_v169 rfl shapeCasts_S1x96_S96,
    unary main_v169 main_v170 (broadcastInDim S1x96 ![1] bcast_S96_S1x96_1 : (⟨S96, .f32⟩ : BufTy).Contents (Elt F) → (⟨S1x96, .f32⟩ : BufTy).Contents (Elt F)),
    unary main_v170 main_v171 (broadcastInDim S100000x96 ![0, 1] bcast_S1x96_S100000x96_0_1 : (⟨S1x96, .f32⟩ : BufTy).Contents (Elt F) → (⟨S100000x96, .f32⟩ : BufTy).Contents (Elt F)),
    binary main_v167 main_v171 main_v172 (addf : (⟨S100000x96, .f32⟩ : BufTy).Contents (Elt F) → (⟨S100000x96, .f32⟩ : BufTy).Contents (Elt F) → (⟨S100000x96, .f32⟩ : BufTy).Contents (Elt F)),
    TRef.nullary main_call6.cst (constant S_ .f32 0x00000000#32),
    TRef.unary main_call6.cst main_call6.v0 (broadcastInDim S100000x96 ![] bcast_S_S100000x96),
    TRef.binary (.of main_v172 : TRef sig ⟨S100000x96, .f32⟩) main_call6.v0 main_call6.v1 maximumf ]

/-- The buffers that list writes. -/
abbrev ops6_W : List (Ref sig .tc) := [main_v152, main_c_26, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v153, main_v154, main_v155, main_v156, main_cst_27, main_v157, main_v158, main_v159, main_v160, main_v161, main_v162, main_v163, main_v164, main_v165, main_v166, main_v167, main_v168, main_v169, main_v170, main_v171, main_v172, main_call6_cst, main_call6_v0, main_v173]

theorem ops6_sub : (ops6 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 276 … 295, in order (the last writes main_v189). -/
abbrev ops7 : List (HloOp τ sig (Elt F)) :=
  [ nullary main_c_28 (constantI S_ 32 0#32),
    unary main_c_28 main_v174 (broadcastInDim S512 ![] bcast_S_S512 : (⟨S_, .i32⟩ : BufTy).Contents (Elt F) → (⟨S512, .i32⟩ : BufTy).Contents (Elt F)),
    binary main_arg3 main_v174 main_v175 (cmpi .slt : (⟨S512, .i32⟩ : BufTy).Contents (Elt F) → (⟨S512, .i32⟩ : BufTy).Contents (Elt F) → (⟨S512, .i1⟩ : BufTy).Contents (Elt F)),
    nullary main_c_29 (constantI S_ 32 100000#32),
    unary main_c_29 main_v176 (broadcastInDim S512 ![] bcast_S_S512 : (⟨S_, .i32⟩ : BufTy).Contents (Elt F) → (⟨S512, .i32⟩ : BufTy).Contents (Elt F)),
    binary main_arg3 main_v176 main_v177 (addi : (⟨S512, .i32⟩ : BufTy).Contents (Elt F) → (⟨S512, .i32⟩ : BufTy).Contents (Elt F) → (⟨S512, .i32⟩ : BufTy).Contents (Elt F)),
    ternary main_v175 main_v177 main_arg3 main_v178 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v178 main_v179 (broadcastInDim S512x1 ![0] bcast_S512_S512x1_0 : (⟨S512, .i32⟩ : BufTy).Contents (Elt F) → (⟨S512x1, .i32⟩ : BufTy).Contents (Elt F)),
    binary main_v173 main_v179 main_v180 ((fun x i => Host.gather gather_S100000x96_S512x1_S512x96_1_0_n_n_0_1_196 x i) : (⟨S100000x96, .f32⟩ : BufTy).Contents (Elt F) → (⟨S512x1, .i32⟩ : BufTy).Contents (Elt F) → (⟨S512x96, .f32⟩ : BufTy).Contents (Elt F)),
    binary main_v180 main_arg11 main_v181 ((fun l r => Host.dotGeneral dot_S512x96_S96x96_S512x96_1_0_0_1_n_n none l r) : (⟨S512x96, .f32⟩ : BufTy).Contents (Elt F) → (⟨S96x96, .f32⟩ : BufTy).Contents (Elt F) → (⟨S512x96, .f32⟩ : BufTy).Contents (Elt F)),
    unary main_arg12 main_v182 (broadcastInDim S1x96 ![1] bcast_S96_S1x96_1 : (⟨S96, .f32⟩ : BufTy).Contents (Elt F) → (⟨S1x96, .f32⟩ : BufTy).Contents (Elt F)),
    unary main_v182 main_v183 (broadcastInDim S512x96 ![0, 1] bcast_S1x96_S512x96_0_1 : (⟨S1x96, .f32⟩ : BufTy).Contents (Elt F) → (⟨S512x96, .f32⟩ : BufTy).Contents (Elt F)),
    binary main_v181 main_v183 main_v184 (addf : (⟨S512x96, .f32⟩ : BufTy).Contents (Elt F) → (⟨S512x96, .f32⟩ : BufTy).Contents (Elt F) → (⟨S512x96, .f32⟩ : BufTy).Contents (Elt F)),
    TRef.nullary main_call7.cst (constant S_ .f32 0x00000000#32),
    TRef.unary main_call7.cst main_call7.v0 (broadcastInDim S512x96 ![] bcast_S_S512x96),
    TRef.binary (.of main_v184 : TRef sig ⟨S512x96, .f32⟩) main_call7.v0 main_call7.v1 maximumf,
    binary main_v185 main_arg13 main_v186 ((fun l r => Host.dotGeneral dot_S512x96_S96x1_S512x1_1_0_0_1_n_n none l r) : (⟨S512x96, .f32⟩ : BufTy).Contents (Elt F) → (⟨S96x1, .f32⟩ : BufTy).Contents (Elt F) → (⟨S512x1, .f32⟩ : BufTy).Contents (Elt F)),
    unary main_arg14 main_v187 (broadcastInDim S1x1 ![1] bcast_S1_S1x1_1 : (⟨S1, .f32⟩ : BufTy).Contents (Elt F) → (⟨S1x1, .f32⟩ : BufTy).Contents (Elt F)),
    unary main_v187 main_v188 (broadcastInDim S512x1 ![0, 1] bcast_S1x1_S512x1_0_1 : (⟨S1x1, .f32⟩ : BufTy).Contents (Elt F) → (⟨S512x1, .f32⟩ : BufTy).Contents (Elt F)),
    binary main_v186 main_v188 main_v189 (addf : (⟨S512x1, .f32⟩ : BufTy).Contents (Elt F) → (⟨S512x1, .f32⟩ : BufTy).Contents (Elt F) → (⟨S512x1, .f32⟩ : BufTy).Contents (Elt F)) ]

/-- The buffers that list writes. -/
abbrev ops7_W : List (Ref sig .tc) := [main_c_28, main_v174, main_v175, main_c_29, main_v176, main_v177, main_v178, main_v179, main_v180, main_v181, main_v182, main_v183, main_v184, main_call7_cst, main_call7_v0, main_v185, main_v186, main_v187, main_v188, main_v189]

theorem ops7_sub : (ops7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.ReferenceIdeal.Value

end
-- ==== Proof.Ref.Stages.lean ====
import proofs.«402019_j40432822124917_2_alg».proof.ReferenceIdeal

noncomputable section

namespace Cert.ReferenceIdeal.Stages

open Idealize.ShloMosaic Idealize.SL.Sem
open Cert.ReferenceIdeal Cert.ReferenceIdeal.Facts₀ Cert.ReferenceIdeal.Facts

variable {F : FTy → Type} [FloatOps F] [Facts]

abbrev T (F : FTy → Type) [FloatOps F] (S : Shape) (e : EltTy) : Type := (⟨S, e⟩ : BufTy).Contents (Elt F)

def relu (x : T F S100000x96 .f32) : T F S100000x96 .f32 :=
  maximumf x (broadcastInDim S100000x96 ![] bcast_S_S100000x96 (constant S_ .f32 0x00000000#32 : T F S_ .f32))

def relu512 (x : T F S512x96 .f32) : T F S512x96 .f32 :=
  maximumf x (broadcastInDim S512x96 ![] bcast_S_S512x96 (constant S_ .f32 0x00000000#32 : T F S_ .f32))

def rows (b : T F S96 .f32) : T F S100000x96 .f32 :=
  broadcastInDim S100000x96 ![0, 1] bcast_S1x96_S100000x96_0_1 (broadcastInDim S1x96 ![1] bcast_S96_S1x96_1 b : T F S1x96 .f32)

def wrap (i : T F S800000 .i32) : T F S800000 .i32 :=
  select (cmpi .slt i (broadcastInDim S800000 ![] bcast_S_S800000 (constantI S_ 32 0#32 : T F S_ .i32) : T F S800000 .i32) : T F S800000 .i1)
    (addi i (broadcastInDim S800000 ![] bcast_S_S800000 (constantI S_ 32 100000#32 : T F S_ .i32) : T F S800000 .i32) : T F S800000 .i32) i

def wrap512 (i : T F S512 .i32) : T F S512 .i32 :=
  select (cmpi .slt i (broadcastInDim S512 ![] bcast_S_S512 (constantI S_ 32 0#32 : T F S_ .i32) : T F S512 .i32) : T F S512 .i1)
    (addi i (broadcastInDim S512 ![] bcast_S_S512 (constantI S_ 32 100000#32 : T F S_ .i32) : T F S512 .i32) : T F S512 .i32) i

def mat0 (w : T F S3x96x96 .f32) : T F S96x96 .f32 :=
  shapeCast S96x96 (extractStridedSlice S1x96x96 ![0, 0, 0] w slices_S3x96x96_S1x96x96_0_0_0 : T F S1x96x96 .f32) shapeCasts_S1x96x96_S96x96
def mat1 (w : T F S3x96x96 .f32) : T F S96x96 .f32 :=
  shapeCast S96x96 (extractStridedSlice S1x96x96 ![1, 0, 0] w slices_S3x96x96_S1x96x96_1_0_0 : T F S1x96x96 .f32) shapeCasts_S1x96x96_S96x96
def mat2 (w : T F S3x96x96 .f32) : T F S96x96 .f32 :=
  shapeCast S96x96 (extractStridedSlice S1x96x96 ![2, 0, 0] w slices_S3x96x96_S1x96x96_2_0_0 : T F S1x96x96 .f32) shapeCasts_S1x96x96_S96x96

def row0 (b : T F S3x96 .f32) : T F S96 .f32 :=
  shapeCast S96 (extractStridedSlice S1x96 ![0, 0] b slices_S3x96_S1x96_0_0 : T F S1x96 .f32) shapeCasts_S1x96_S96
def row1 (b : T F S3x96 .f32) : T F S96 .f32 :=
  shapeCast S96 (extractStridedSlice S1x96 ![1, 0] b slices_S3x96_S1x96_1_0 : T F S1x96 .f32) shapeCasts_S1x96_S96
def row2 (b : T F S3x96 .f32) : T F S96 .f32 :=
  shapeCast S96 (extractStridedSlice S1x96 ![2, 0] b slices_S3x96_S1x96_2_0 : T F S1x96 .f32) shapeCasts_S1x96_S96

def h0 (x : T F S100000x64 .f32) (w : T F S64x96 .f32) (b : T F S96 .f32) : T F S100000x96 .f32 :=
  relu (addf (Host.dotGeneral dot_S100000x64_S64x96_S100000x96_1_0_0_1_n_n none x w : T F S100000x96 .f32) (rows b))

def src1 (ei : T F S2x800000 .i32) : T F S800000 .i32 :=
  shapeCast S800000 (extractStridedSlice S1x800000 ![0, 0] ei slices_S2x800000_S1x800000_0_0 : T F S1x800000 .i32) shapeCasts_S1x800000_S800000

def dst1 (ei : T F S2x800000 .i32) : T F S800000 .i32 :=
  shapeCast S800000 (extractStridedSlice S1x800000 ![1, 0] ei slices_S2x800000_S1x800000_1_0 : T F S1x800000 .i32) shapeCasts_S1x800000_S800000

def dstCol (d : T F S800000 .i32) : T F S800000x1 .i32 :=
  broadcastInDim S800000x1 ![0] bcast_S800000_S800000x1_0 d

def deg (d : T F S800000 .i32) : T F S100000 .f32 :=
  maximumf
    (Host.scatterAdd scatter_S100000_S800000x1_S800000_n_0_0_1
      (broadcastInDim S100000 ![] bcast_S_S100000 (constant S_ .f32 0x00000000#32 : T F S_ .f32) : T F S100000 .f32)
      (dstCol d)
      (broadcastInDim S800000 ![] bcast_S_S800000 (constant S_ .f32 0x3F800000#32 : T F S_ .f32) : T F S800000 .f32) : T F S100000 .f32)
    (broadcastInDim S100000 ![] bcast_S_S100000 (constant S_ .f32 0x3F800000#32 : T F S_ .f32) : T F S100000 .f32)

def msg (h : T F S100000x96 .f32) (s : T F S800000 .i32) : T F S800000x96 .f32 :=
  Host.gather gather_S100000x96_S800000x1_S800000x96_1_0_n_n_0_1_196 h
    (broadcastInDim S800000x1 ![0] bcast_S800000_S800000x1_0 (wrap s) : T F S800000x1 .i32)

def summed (mg : T F S800000x96 .f32) (d : T F S800000 .i32) : T F S100000x96 .f32 :=
  Host.scatterAdd scatter_S100000x96_S800000x1_S800000x96_1_0_0_1
    (broadcastInDim S100000x96 ![] bcast_S_S100000x96 (constant S_ .f32 0x00000000#32 : T F S_ .f32) : T F S100000x96 .f32)
    (dstCol d) mg

def agg (sm : T F S100000x96 .f32) (dg : T F S100000 .f32) : T F S100000x96 .f32 :=
  Host.divf sm
    (broadcastInDim S100000x96 ![0, 1] bcast_S100000x1_S100000x96_0_1
      (broadcastInDim S100000x1 ![0] bcast_S100000_S100000x1_0 dg : T F S100000x1 .f32) : T F S100000x96 .f32)

def y (ag h : T F S100000x96 .f32) (wl : T F S96x96 .f32) (bl : T F S96 .f32) (wr : T F S96x96 .f32) : T F S100000x96 .f32 :=
  addf
    (addf (Host.dotGeneral dot_S100000x96_S96x96_S100000x96_1_0_0_1_n_n none ag wl : T F S100000x96 .f32) (rows bl) : T F S100000x96 .f32)
    (Host.dotGeneral dot_S100000x96_S96x96_S100000x96_1_0_0_1_n_n none h wr : T F S100000x96 .f32)

def colSums (v : T F S100000x96 .f32) : T F S96 .f32 :=
  Host.reduceAdd v (constant S_ .f32 0x00000000#32 : T F S_ .f32) reducesTo_S100000x96_S96_d0 h_S_

def mean (yy : T F S100000x96 .f32) : T F S96 .f32 :=
  Host.divf (colSums yy) (broadcastInDim S96 ![] bcast_S_S96 (constant S_ .f32 0x47C35000#32 : T F S_ .f32) : T F S96 .f32)

def dev (yy : T F S100000x96 .f32) : T F S100000x96 .f32 :=
  subf yy
    (broadcastInDim S100000x96 ![0, 1] bcast_S1x96_S100000x96_0_1
      (Host.divf (broadcastInDim S1x96 ![1] bcast_S96_S1x96_1 (colSums yy) : T F S1x96 .f32)
        (broadcastInDim S1x96 ![] bcast_S_S1x96 (constant S_ .f32 0x47C35000#32 : T F S_ .f32) : T F S1x96 .f32) : T F S1x96 .f32) : T F S100000x96 .f32)

def den : T F S_ .f32 :=
  subf (constant S_ .f32 0x47C35000#32 : T F S_ .f32) (sitofp .f32 (constantI S_ 32 0#32 : T F S_ .i32) : T F S_ .f32)

def var (yy : T F S100000x96 .f32) : T F S96 .f32 :=
  select (broadcastInDim S96 ![] bcast_S_S96 (cmpf .ogt (den (F := F)) (constant S_ .f32 0x00000000#32 : T F S_ .f32) : T F S_ .i1) : T F S96 .i1)
    (Host.divf (colSums (mulf (dev yy) (dev yy) : T F S100000x96 .f32)) (broadcastInDim S96 ![] bcast_S_S96 (den (F := F)) : T F S96 .f32) : T F S96 .f32)
    (broadcastInDim S96 ![] bcast_S_S96 (id (constant S_ .f32 0x7FC00000#32 : T F S_ .f32) : T F S_ .f32) : T F S96 .f32)

def hnext (yy : T F S100000x96 .f32) (mn vr g b : T F S96 .f32) : T F S100000x96 .f32 :=
  relu (addf
    (mulf
      (mulf (subf yy (rows mn) : T F S100000x96 .f32)
        (rows (Host.rsqrt (addf vr (broadcastInDim S96 ![] bcast_S_S96 (constant S_ .f32 0x3727C5AC#32 : T F S_ .f32) : T F S96 .f32) : T F S96 .f32) : T F S96 .f32)) : T F S100000x96 .f32)
      (rows g) : T F S100000x96 .f32)
    (rows b) : T F S100000x96 .f32)

def central (h : T F S100000x96 .f32) (ci : T F S512 .i32) : T F S512x96 .f32 :=
  Host.gather gather_S100000x96_S512x1_S512x96_1_0_n_n_0_1_196 h
    (broadcastInDim S512x1 ![0] bcast_S512_S512x1_0 (wrap512 ci) : T F S512x1 .i32)

def head (c : T F S512x96 .f32) (w1 : T F S96x96 .f32) (b1 : T F S96 .f32) (w2 : T F S96x1 .f32) (b2 : T F S1 .f32) : T F S512x1 .f32 :=
  addf
    (Host.dotGeneral dot_S512x96_S96x1_S512x1_1_0_0_1_n_n none
      (relu512 (addf (Host.dotGeneral dot_S512x96_S96x96_S512x96_1_0_0_1_n_n none c w1 : T F S512x96 .f32)
        (broadcastInDim S512x96 ![0, 1] bcast_S1x96_S512x96_0_1 (broadcastInDim S1x96 ![1] bcast_S96_S1x96_1 b1 : T F S1x96 .f32) : T F S512x96 .f32) : T F S512x96 .f32))
      w2 : T F S512x1 .f32)
    (broadcastInDim S512x1 ![0, 1] bcast_S1x1_S512x1_0_1 (broadcastInDim S1x1 ![1] bcast_S1_S1x1_1 b2 : T F S1x1 .f32) : T F S512x1 .f32)

def yOf (h : T F S100000x96 .f32) (ei : T F S2x800000 .i32) (wl : T F S96x96 .f32) (bl : T F S96 .f32) (wr : T F S96x96 .f32) :
    T F S100000x96 .f32 :=
  y (agg (summed (msg h (src1 ei)) (dst1 ei)) (deg (dst1 ei))) h wl bl wr

def layer (h : T F S100000x96 .f32) (ei : T F S2x800000 .i32) (wl : T F S96x96 .f32) (bl : T F S96 .f32) (wr : T F S96x96 .f32)
    (g b : T F S96 .f32) : T F S100000x96 .f32 :=
  hnext (yOf h ei wl bl wr) (mean (yOf h ei wl bl wr)) (var (yOf h ei wl bl wr)) g b

def h1 (x : T F S100000x64 .f32) (ei : T F S2x800000 .i32) (we : T F S64x96 .f32) (be : T F S96 .f32)
    (wl : T F S3x96x96 .f32) (bl : T F S3x96 .f32) (wr : T F S3x96x96 .f32) (g b : T F S3x96 .f32) : T F S100000x96 .f32 :=
  layer (h0 x we be) ei (mat0 wl) (row0 bl) (mat0 wr) (row0 g) (row0 b)

def h2 (x : T F S100000x64 .f32) (ei : T F S2x800000 .i32) (we : T F S64x96 .f32) (be : T F S96 .f32)
    (wl : T F S3x96x96 .f32) (bl : T F S3x96 .f32) (wr : T F S3x96x96 .f32) (g b : T F S3x96 .f32) : T F S100000x96 .f32 :=
  layer (h1 x ei we be wl bl wr g b) ei (mat1 wl) (row1 bl) (mat1 wr) (row1 g) (row1 b)

def h3 (x : T F S100000x64 .f32) (ei : T F S2x800000 .i32) (we : T F S64x96 .f32) (be : T F S96 .f32)
    (wl : T F S3x96x96 .f32) (bl : T F S3x96 .f32) (wr : T F S3x96x96 .f32) (g b : T F S3x96 .f32) : T F S100000x96 .f32 :=
  layer (h2 x ei we be wl bl wr g b) ei (mat2 wl) (row2 bl) (mat2 wr) (row2 g) (row2 b)

def out (a0 : T F S100000x64 .f32) (a1 : T F S2x800000 .i32) (a2 : T F S100000 .i32) (a3 : T F S512 .i32)
    (a4 : T F S64x96 .f32) (a5 : T F S96 .f32) (a6 : T F S3x96x96 .f32) (a7 : T F S3x96 .f32) (a8 : T F S3x96x96 .f32)
    (a9 a10 : T F S3x96 .f32) (a11 : T F S96x96 .f32) (a12 : T F S96 .f32) (a13 : T F S96x1 .f32) (a14 : T F S1 .f32) :
    T F S512x1 .f32 :=
  head (central (h3 a0 a1 a4 a5 a6 a7 a8 a9 a10) a3) a11 a12 a13 a14

end Cert.ReferenceIdeal.Stages

end
-- ==== Proof.Ref.Run.lean ====
import proofs.«402019_j40432822124917_2_alg».proof.Proof.Ref.Ops
import proofs.«402019_j40432822124917_2_alg».proof.Proof.Ref.Stages
import Idealize.ShloMosaic.Lib.Pipeline.Frame
import Idealize.ShloMosaic.Lib.Pipeline.Regions

noncomputable section

namespace Cert.ReferenceIdeal.Value

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

abbrev ops : List (HloOp τ sig (Elt F)) :=
  (ops0 ++ ops1) ++ ((ops2 ++ ops3) ++ ((ops4 ++ ops5) ++ (ops6 ++ ops7)))

theorem main_part0_eq (d : Dev nD) : main_part0 (F := F) d = seq (ops0 ++ ops1) := by chain_rfl
theorem main_part1_eq (d : Dev nD) : main_part1 (F := F) d = seq (ops2 ++ ops3) := by chain_rfl
theorem main_part2_eq (d : Dev nD) : main_part2 (F := F) d = seq (ops4 ++ ops5) := by chain_rfl
theorem main_part3_eq (d : Dev nD) : main_part3 (F := F) d = seq (ops6 ++ ops7) := by chain_rfl

theorem main_eq (c : Dev nD) : main (F := F) c = seq ops := by
  rw [seq_append (ops0 ++ ops1), seq_append (ops2 ++ ops3), seq_append (ops4 ++ ops5),
    ← main_part0_eq c, ← main_part1_eq c, ← main_part2_eq c, ← main_part3_eq c]
  rfl

theorem ops_sub : (ops : List (HloOp τ sig (Elt F))).Forall fun op => op.bufs ⊆ tcRefs τ sig := by
  simp only [ops, List.forall_append]
  exact ⟨⟨ops0_sub, ops1_sub⟩, ⟨ops2_sub, ops3_sub⟩, ⟨ops4_sub, ops5_sub⟩, ops6_sub, ops7_sub⟩

local notation:max "⟪" V ", " r "⟫" => V (Proc.devRef Proc.tc r)

variable (V : Valuation τ sig (Elt F))

def val1 := after ops0 V
def val2 := after ops1 (val1 V)
def val3 := after ops2 (val2 V)
def val4 := after ops3 (val3 V)
def val5 := after ops4 (val4 V)
def val6 := after ops5 (val5 V)
def val7 := after ops6 (val6 V)
def val8 := after ops7 (val7 V)

theorem after_ops : after ops V = val8 V := by
  simp only [ops, StableHlo.after_append]
  rfl

theorem same (r : Ref sig .tc)
    (h : r ∉ ops0_W ++ ops1_W ++ ops2_W ++ ops3_W ++ ops4_W ++ ops5_W ++ ops6_W ++ ops7_W := by decide) :
    ⟪val8 V, r⟫ = ⟪V, r⟫ ∧ ⟪val7 V, r⟫ = ⟪V, r⟫ ∧ ⟪val6 V, r⟫ = ⟪V, r⟫ ∧ ⟪val5 V, r⟫ = ⟪V, r⟫ ∧ ⟪val4 V, r⟫ = ⟪V, r⟫
      ∧ ⟪val2 V, r⟫ = ⟪V, r⟫ := by
  simp only [List.mem_append, not_or] at h
  obtain ⟨⟨⟨⟨⟨⟨⟨h0, h1⟩, h2⟩, h3⟩, h4⟩, h5⟩, h6⟩, h7⟩ := h
  have e2 := (after_of_writes_sub ops1 _ ops1_writes h1).trans (after_of_writes_sub ops0 V ops0_writes h0)
  have e4 := (after_of_writes_sub ops3 _ ops3_writes h3).trans ((after_of_writes_sub ops2 _ ops2_writes h2).trans e2)
  have e5 := (after_of_writes_sub ops4 _ ops4_writes h4).trans e4
  have e6 := (after_of_writes_sub ops5 _ ops5_writes h5).trans e5
  have e7 := (after_of_writes_sub ops6 _ ops6_writes h6).trans e6
  exact ⟨(after_of_writes_sub ops7 _ ops7_writes h7).trans e7, e7, e6, e5, e4, e2⟩

theorem kept (r : Ref sig .tc) (h : r ∉ ops1_W ++ ops2_W ++ ops3_W ++ ops4_W := by decide) :
    ⟪val5 V, r⟫ = ⟪val1 V, r⟫ ∧ ⟪val2 V, r⟫ = ⟪val1 V, r⟫ := by
  simp only [List.mem_append, not_or] at h
  obtain ⟨⟨⟨h1, h2⟩, h3⟩, h4⟩ := h
  have e2 := after_of_writes_sub ops1 (val1 V) ops1_writes h1
  exact ⟨(after_of_writes_sub ops4 _ ops4_writes h4).trans ((after_of_writes_sub ops3 _ ops3_writes h3).trans
    ((after_of_writes_sub ops2 _ ops2_writes h2).trans e2)), e2⟩

abbrev H0 :=
  Stages.h0 ⟪V, main_arg0⟫ ⟪V, main_arg4⟫ ⟪V, main_arg5⟫

abbrev Y1 :=
  Stages.yOf (H0 V) ⟪V, main_arg1⟫ (Stages.mat0 ⟪V, main_arg6⟫) (Stages.row0 ⟪V, main_arg7⟫) (Stages.mat0 ⟪V, main_arg8⟫)

abbrev H1 :=
  Stages.h1 ⟪V, main_arg0⟫ ⟪V, main_arg1⟫ ⟪V, main_arg4⟫ ⟪V, main_arg5⟫ ⟪V, main_arg6⟫ ⟪V, main_arg7⟫ ⟪V, main_arg8⟫ ⟪V, main_arg9⟫ ⟪V, main_arg10⟫

abbrev Y2 :=
  Stages.yOf (H1 V) ⟪V, main_arg1⟫ (Stages.mat1 ⟪V, main_arg6⟫) (Stages.row1 ⟪V, main_arg7⟫) (Stages.mat1 ⟪V, main_arg8⟫)

abbrev H2 :=
  Stages.h2 ⟪V, main_arg0⟫ ⟪V, main_arg1⟫ ⟪V, main_arg4⟫ ⟪V, main_arg5⟫ ⟪V, main_arg6⟫ ⟪V, main_arg7⟫ ⟪V, main_arg8⟫ ⟪V, main_arg9⟫ ⟪V, main_arg10⟫

abbrev Y3 :=
  Stages.yOf (H2 V) ⟪V, main_arg1⟫ (Stages.mat2 ⟪V, main_arg6⟫) (Stages.row2 ⟪V, main_arg7⟫) (Stages.mat2 ⟪V, main_arg8⟫)

abbrev H3 :=
  Stages.h3 ⟪V, main_arg0⟫ ⟪V, main_arg1⟫ ⟪V, main_arg4⟫ ⟪V, main_arg5⟫ ⟪V, main_arg6⟫ ⟪V, main_arg7⟫ ⟪V, main_arg8⟫ ⟪V, main_arg9⟫ ⟪V, main_arg10⟫

section
set_option maxRecDepth 8192

theorem val1_main_v1 :
    val1 V (no_index (Proc.devRef .tc main_v1)) = Stages.src1 ⟪V, main_arg1⟫ := by
  unfold val1
  simp only [ops0]
  after_results_simp
  rfl

theorem val1_main_v3 :
    val1 V (no_index (Proc.devRef .tc main_v3)) = Stages.dst1 ⟪V, main_arg1⟫ := by
  unfold val1
  simp only [ops0]
  after_results_simp
  rfl

set_option maxHeartbeats 2000000 in
theorem val1_main_v39 :
    val1 V (no_index (Proc.devRef .tc main_v39)) = Y1 V := by
  unfold val1
  simp only [ops0]
  after_results_simp
  rfl

set_option maxHeartbeats 2000000 in
theorem val2_main_v46 :
    val2 V (no_index (Proc.devRef .tc main_v46)) = (subf (Y1 V) (Stages.rows (Stages.mean (Y1 V))) : Stages.T F S100000x96 .f32) := by
  unfold val2
  simp only [ops1]
  after_results_simp
  simp only [val1_main_v39]
  rfl

set_option maxHeartbeats 2000000 in
theorem val2_main_v49 :
    val2 V (no_index (Proc.devRef .tc main_v49))
      = (Host.rsqrt (addf (Stages.var (Y1 V)) (broadcastInDim S96 ![] bcast_S_S96 (constant S_ .f32 0x3727C5AC#32 : Stages.T F S_ .f32) : Stages.T F S96 .f32) : Stages.T F S96 .f32) : Stages.T F S96 .f32) := by
  unfold val2
  simp only [ops1]
  after_results_simp
  simp only [val1_main_v39]
  rfl

set_option maxHeartbeats 4000000 in
theorem val3_main_v94 :
    val3 V (no_index (Proc.devRef .tc main_v94)) = Y2 V := by
  unfold val3
  simp only [ops2]
  after_results_simp
  simp only [val2_main_v46, val2_main_v49, kept V main_v1, kept V main_v3, val1_main_v1, val1_main_v3, same V main_arg6, same V main_arg7, same V main_arg8, same V main_arg9, same V main_arg10]
  rfl

end

theorem val4_main_v94 :
    val4 V (no_index (Proc.devRef .tc main_v94)) = Y2 V :=
  (after_of_writes_sub ops3 _ ops3_writes (by decide)).trans (val3_main_v94 V)

section
set_option maxRecDepth 8192

set_option maxHeartbeats 2000000 in
theorem val4_main_v98 :
    val4 V (no_index (Proc.devRef .tc main_v98)) = Stages.var (Y2 V) := by
  unfold val4
  simp only [ops3]
  after_results_simp
  simp only [val3_main_v94]
  rfl

set_option maxHeartbeats 2000000 in
theorem val4_main_v100 :
    val4 V (no_index (Proc.devRef .tc main_v100)) = Stages.rows (Stages.mean (Y2 V)) := by
  unfold val4
  simp only [ops3]
  after_results_simp
  simp only [val3_main_v94]
  rfl

set_option maxHeartbeats 2000000 in
theorem val5_main_v118 :
    val5 V (no_index (Proc.devRef .tc main_v118)) = H2 V := by
  unfold val5
  simp only [ops4]
  after_results_simp
  simp only [val4_main_v94, val4_main_v98, val4_main_v100, same V main_arg9, same V main_arg10]
  rfl

set_option maxHeartbeats 4000000 in
theorem val6_main_v149 :
    val6 V (no_index (Proc.devRef .tc main_v149)) = Y3 V := by
  unfold val6
  simp only [ops5]
  after_results_simp
  simp only [val5_main_v118, kept V main_v1, kept V main_v3, val1_main_v1, val1_main_v3, same V main_arg6, same V main_arg7, same V main_arg8]
  rfl

set_option maxHeartbeats 4000000 in
theorem val6_main_v150 :
    val6 V (no_index (Proc.devRef .tc main_v150)) = Stages.colSums (Y3 V) := by
  unfold val6
  simp only [ops5]
  after_results_simp
  simp only [val5_main_v118, kept V main_v1, kept V main_v3, val1_main_v1, val1_main_v3, same V main_arg6, same V main_arg7, same V main_arg8]
  rfl

theorem val6_main_v151 :
    val6 V (no_index (Proc.devRef .tc main_v151)) = (broadcastInDim S96 ![] bcast_S_S96 (constant S_ .f32 0x47C35000#32 : Stages.T F S_ .f32) : Stages.T F S96 .f32) := by
  unfold val6
  simp only [ops5]
  after_results_simp

set_option maxHeartbeats 4000000 in
theorem val7_main_v173 :
    val7 V (no_index (Proc.devRef .tc main_v173)) = H3 V := by
  unfold val7
  simp only [ops6]
  after_results_simp
  simp only [val6_main_v149, val6_main_v150, val6_main_v151, same V main_arg9, same V main_arg10]
  rfl

set_option maxHeartbeats 2000000 in
theorem val8_main_v189 :
    val8 V (no_index (Proc.devRef .tc main_v189))
      = Stages.out ⟪V, main_arg0⟫ ⟪V, main_arg1⟫ ⟪V, main_arg2⟫ ⟪V, main_arg3⟫ ⟪V, main_arg4⟫ ⟪V, main_arg5⟫ ⟪V, main_arg6⟫ ⟪V, main_arg7⟫ ⟪V, main_arg8⟫ ⟪V, main_arg9⟫ ⟪V, main_arg10⟫ ⟪V, main_arg11⟫ ⟪V, main_arg12⟫ ⟪V, main_arg13⟫ ⟪V, main_arg14⟫ := by
  unfold val8
  simp only [ops7]
  after_results_simp
  simp only [val7_main_v173, same V main_arg3, same V main_arg11, same V main_arg12, same V main_arg13, same V main_arg14]
  rfl

end

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v189) = Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => by
      refine ⟨(h c _).trans ((congrFun (after_ops _) _).trans (val8_main_v189 _)), ?_⟩
      and_intros <;> exact (h c _).trans ((congrFun (after_ops _) _).trans (same _ _).1))
    (run_seq (by decide) (by decide) defs main (fun _ => ops) main_eq (fun _ => ops_sub) m ρ)

end Cert.ReferenceIdeal.Value

end
-- ==== Proof.Spec.lean ====
import Idealize.ShloMosaic.PureOps.Ideal
import Idealize.ShloMosaic.Lib.ValueIdx

noncomputable section

namespace Cert.Spec

open Idealize.ShloMosaic

def cur2 {n0 n1 : Nat} (v : (⟨2, ![n0, n1]⟩ : Shape).Idx → EReal) (p : Fin n0) (q : Fin n1) : EReal :=
  v (ValueIdx.ix2 p q)

def cur1 {n0 : Nat} (v : (⟨1, ![n0]⟩ : Shape).Idx → EReal) (p : Fin n0) : EReal :=
  v (ValueIdx.ix1 p)

def eps : EReal := Ideal.ofBits .f32 0x3727C5AC#32

def embS (x : Fin 100000 → Fin 64 → EReal) (w : Fin 64 → Fin 96 → EReal) (b : Fin 96 → EReal)
    (p : Fin 100000) (q : Fin 96) : EReal :=
  max ((∑ t : Fin 64, x p t * w t q) + b q) 0

def combS (s : Fin 100000 → Fin 96 → EReal) (r : Fin 100000 → EReal) (h : Fin 100000 → Fin 96 → EReal)
    (wl : Fin 96 → Fin 96 → EReal) (bl : Fin 96 → EReal) (wr : Fin 96 → Fin 96 → EReal)
    (p : Fin 100000) (q : Fin 96) : EReal :=
  ((∑ t : Fin 96, (s p t * r p) * wl t q) + bl q) + ∑ t : Fin 96, h p t * wr t q

def colSum (y : Fin 100000 → Fin 96 → EReal) (q : Fin 96) : EReal := ∑ p : Fin 100000, y p q

def colSumSq (y : Fin 100000 → Fin 96 → EReal) (q : Fin 96) : EReal := ∑ p : Fin 100000, y p q * y p q

def bnS (y : Fin 100000 → Fin 96 → EReal) (mean var g b : Fin 96 → EReal)
    (p : Fin 100000) (q : Fin 96) : EReal :=
  max ((((y p q - mean q) * Ideal.rsqrt (var q + eps)) * g q) + b q) 0

def headS (c : Fin 512 → Fin 96 → EReal) (w1 : Fin 96 → Fin 96 → EReal) (b1 : Fin 96 → EReal)
    (w2 : Fin 96 → Fin 1 → EReal) (b2 : Fin 1 → EReal) (p : Fin 512) (q : Fin 1) : EReal :=
  (∑ t : Fin 96, (max ((∑ u : Fin 96, c p u * w1 u t) + b1 t) 0) * w2 t q) + b2 q

def nRows : EReal := Ideal.ofBits .f32 0x47C35000#32

def meanS (y : Fin 100000 → Fin 96 → EReal) (q : Fin 96) : EReal := Ideal.div (colSum y q) nRows

def varK (y : Fin 100000 → Fin 96 → EReal) (q : Fin 96) : EReal :=
  max (Ideal.div (colSumSq y q) nRows - meanS y q * meanS y q) 0

def varR (y : Fin 100000 → Fin 96 → EReal) (q : Fin 96) : EReal :=
  Ideal.div (∑ p : Fin 100000, (y p q - meanS y q) * (y p q - meanS y q)) nRows

def combR (s : Fin 100000 → Fin 96 → EReal) (d : Fin 100000 → EReal) (h : Fin 100000 → Fin 96 → EReal)
    (wl : Fin 96 → Fin 96 → EReal) (bl : Fin 96 → EReal) (wr : Fin 96 → Fin 96 → EReal)
    (p : Fin 100000) (q : Fin 96) : EReal :=
  ((∑ t : Fin 96, Ideal.div (s p t) (d p) * wl t q) + bl q) + ∑ t : Fin 96, h p t * wr t q

def Real2 {n0 n1 : Nat} (y : Fin n0 → Fin n1 → EReal) : Prop := ∀ p q, ∃ r : ℝ, y p q = (r : EReal)

def Real1 {n0 : Nat} (y : Fin n0 → EReal) : Prop := ∀ p, ∃ r : ℝ, y p = (r : EReal)

end Cert.Spec

end
-- ==== Proof.KI.HostVals.lean ====
import proofs.«402019_j40432822124917_2_alg».proof.Proof.Gen.KernelIdeal.Regions
import proofs.«402019_j40432822124917_2_alg».proof.Proof.Spec
import Idealize.ShloMosaic.Lib.StableHlo.Run
import Idealize.ShloMosaic.Lib.StableHlo.Predicate
import Idealize.ShloMosaic.Lib.ValueLayout
import Idealize.ShloMosaic.Lib.IdealHost

set_option maxRecDepth 1784

noncomputable section

namespace Cert.KernelIdeal.Val

open Idealize.ShloMosaic Idealize.ShloMosaic.TcCoe
open Idealize.ShloMosaic.ValueIdx
open Cert.KernelIdeal Cert.KernelIdeal.Gen
open Cert.Spec

abbrev Arr (s : Shape) (e : EltTy) : Type := (⟨s, e⟩ : BufTy).Contents (Elt Ideal)

def srcK (a1 : Arr S2x800000 .i32) : Arr S800000 .i32 :=
  shapeCast S800000 (extractStridedSlice S1x800000 ![0, 0] a1 slices_S2x800000_S1x800000_0_0) shapeCasts_S1x800000_S800000

def dstK (a1 : Arr S2x800000 .i32) : Arr S800000 .i32 :=
  shapeCast S800000 (extractStridedSlice S1x800000 ![1, 0] a1 slices_S2x800000_S1x800000_1_0) shapeCasts_S1x800000_S800000

def degK (a1 : Arr S2x800000 .i32) : Arr S100000 .f32 :=
  Host.scatterAdd scatter_S100000_S800000x1_S800000_n_0_0_1
    (broadcastInDim S100000 ![] bcast_S_S100000 (constant (F := Ideal) S_ .f32 0x00000000#32))
    (broadcastInDim S800000x1 ![0] bcast_S800000_S800000x1_0 (dstK a1))
    (broadcastInDim S800000 ![] bcast_S_S800000 (constant (F := Ideal) S_ .f32 0x3F800000#32))

def takeK (hb : Arr S100000x96 .f32) (a1 : Arr S2x800000 .i32) : Arr S800000x96 .f32 :=
  Host.gather gather_S100000x96_S800000x1_S800000x96_1_0_n_n_0_1_196 hb
    (broadcastInDim S800000x1 ![0] bcast_S800000_S800000x1_0 (srcK a1))

def summedK (a1 : Arr S2x800000 .i32) (u : Arr S800000x96 .f32) : Arr S100000x96 .f32 :=
  Host.scatterAdd scatter_S100000x96_S800000x1_S800000x96_1_0_0_1
    (broadcastInDim S100000x96 ![] bcast_S_S100000x96 (constant (F := Ideal) S_ .f32 0x00000000#32))
    (broadcastInDim S800000x1 ![0] bcast_S800000_S800000x1_0 (dstK a1)) u

abbrev colK (v : Arr S800000 .i32) : Arr S800000x1 .i32 := broadcastInDim S800000x1 ![0] bcast_S800000_S800000x1_0 v

def wrapK (src : Arr S800000 .i32) : Arr S800000 .i32 :=
  select (cmpi .slt src (broadcastInDim S800000 ![] bcast_S_S800000 (constantI S_ 32 0#32)))
    (addi src (broadcastInDim S800000 ![] bcast_S_S800000 (constantI S_ 32 100000#32))) src

def maskK (col : Arr S800000x1 .i32) : Arr S800000 .i1 :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1
        (broadcastInDim S1x1 ![1] bcast_S1_S1x1_1 (constantI S1 32 99999#32)))))
    (constantI S_ 1 1#1) reducesTo_S800000x1_S800000_d1 h_S_

def takeRawK (hb : Arr S100000x96 .f32) (col : Arr S800000x1 .i32) (mask : Arr S800000 .i1) : Arr S800000x96 .f32 :=
  select (broadcastInDim S800000x96 ![0] bcast_S800000_S800000x96_0 mask)
    (Host.gather gather_S100000x96_S800000x1_S800000x96_1_0_n_n_0_1_196 hb col)
    (broadcastInDim S800000x96 ![] bcast_S_S800000x96 (constant (F := Ideal) S_ .f32 0x7FC00000#32))

theorem foldl_andi_one {ι : Type} (x : ι → BitVec 1) (hx : ∀ i, x i = 1#1) (l : List ι) :
    l.foldl (fun r i => IntOp.andi r (x i)) 1#1 = 1#1 := by
  induction l with
  | nil => rfl
  | cons a l ih => rwa [List.foldl_cons, hx a]

theorem wrap_pt (x : BitVec 32) (h : 0 ≤ x.toInt) :
    Scalar.select (IntOp.cmpi .slt x 0#32) (IntOp.addi x 100000#32) x = x := by
  rw [eq_zero_of_ne_one fun e => not_lt.2 h (IntOp.cmpi_slt.1 e), select_zero]

theorem mask_pt (x : BitVec 32) (h : 0 ≤ x.toInt ∧ x.toInt < 100000) :
    IntOp.andi (IntOp.cmpi .sge x 0#32) (IntOp.cmpi .sle x 99999#32) = 1#1 :=
  IntOp.andi_eq_one.2 ⟨IntOp.cmpi_sge.2 h.1, IntOp.cmpi_sle.2 (Int.le_of_lt_add_one h.2)⟩

theorem srcK_apply (a1 : Arr S2x800000 .i32) (e : Fin 800000) : srcK a1 (ix1 e) = a1 (ix2 0 e) := by
  unfold srcK
  rw [shapeCast_1a_a_apply]
  exact slice2_axis0_apply 0 a1 _ 0 e 0 rfl

theorem wslice_of {Z : S96x96.Idx → EReal} {X Y : S3x96x96.Idx → EReal} (o : Nat) {h : S3x96x96.Slices ![o, 0, 0] S1x96x96}
    (L : Fin 3) (hL : L.val = o) (e : Z = shapeCast S96x96 (extractStridedSlice S1x96x96 ![o, 0, 0] Y h) shapeCasts_S1x96x96_S96x96)
    (eY : Y = X) (t q : Fin 96) : cur2 Z t q = X (ix3 L t q) := by
  rw [e, eY]
  unfold cur2
  rw [shapeCast_1ab_ab_apply]
  exact extractStridedSlice_apply _ _ _ _ _ (fun ax => by
    match ax with
    | ⟨0, _⟩ => show L.val = o + 0; omega
    | ⟨1, _⟩ => exact (Nat.zero_add _).symm
    | ⟨2, _⟩ => exact (Nat.zero_add _).symm)

theorem bslice_of {Z : S1x96.Idx → EReal} {X Y : S3x96.Idx → EReal} (o : Nat) {h : S3x96.Slices ![o, 0] S1x96}
    (L : Fin 3) (hL : L.val = o)
    (e : Z = shapeCast S1x96 (shapeCast S96 (extractStridedSlice S1x96 ![o, 0] Y h) shapeCasts_S1x96_S96) shapeCasts_S96_S1x96)
    (eY : Y = X) (q : Fin 96) : cur2 Z 0 q = X (ix2 L q) := by
  rw [e, eY]
  unfold cur2
  rw [shapeCast_a_1a_apply, shapeCast_1a_a_apply]
  exact slice2_axis0_apply o X h 0 q L (by show L.val = o + 0; omega)

theorem maskK_eq_one (col : Arr S800000x1 .i32) (h : ∀ i, 0 ≤ (col i).toInt ∧ (col i).toInt < 100000) (j : S800000.Idx) :
    maskK col j = 1#1 := by
  unfold maskK
  rw [Host.reduce_eq_foldl]
  exact foldl_andi_one _ (fun i => mask_pt _ (h i)) _

theorem take_math (hb : Arr S100000x96 .f32) (a1 : Arr S2x800000 .i32)
    (hsrc : ∀ e : Fin 800000, 0 ≤ (a1 (ix2 0 e)).toInt ∧ (a1 (ix2 0 e)).toInt < 100000) :
    takeRawK hb (colK (wrapK (srcK a1))) (maskK (colK (wrapK (srcK a1)))) = takeK hb a1 := by
  have hs : ∀ i : S800000.Idx, 0 ≤ (srcK a1 i).toInt ∧ (srcK a1 i).toInt < 100000 := fun i => by
    rw [(congrArg (srcK a1) (eq_ix1 (n := 800000) i)).trans (srcK_apply a1 (i 0))]; exact hsrc _
  rw [show wrapK (srcK a1) = srcK a1 from funext fun i => wrap_pt _ (hs i).1, takeRawK]
  funext i
  show Scalar.select (maskK _ _) _ _ = _
  rw [maskK_eq_one (colK (srcK a1)) (fun _ => hs _), select_one]; rfl

section Raw

variable (W : Valuation τ sig (Elt Ideal))

theorem tA0_v4 : StableHlo.after (hostOps1_1.take 7) W (Proc.devRef .tc main_call0_v4) = wrapK (W main_v1) := by
  show StableHlo.after [_, _, _, _, _, _, _] W _ = _; after_results <;> rfl
theorem tA0_feat : StableHlo.after (hostOps1_1.take 7) W (Proc.devRef .tc main_v5) = W main_v5 := by
  show StableHlo.after [_, _, _, _, _, _, _] W _ = _; after_results
theorem tB0_v5 : StableHlo.after ((hostOps1_1.drop 7).take 11) W (Proc.devRef .tc main_call0_v5) = colK (W main_call0_v4) := by
  show StableHlo.after [_, _, _, _, _, _, _, _, _, _, _] W _ = _; after_results <;> rfl
theorem tB0_v12 : StableHlo.after ((hostOps1_1.drop 7).take 11) W (Proc.devRef .tc main_call0_v12) = maskK (colK (W main_call0_v4)) := by
  show StableHlo.after [_, _, _, _, _, _, _, _, _, _, _] W _ = _; after_results <;> (try simp only [StableHlo.TRef.ofBuf, StableHlo.TRef.toBuf, cast_eq]) <;> rfl
theorem tB0_feat : StableHlo.after ((hostOps1_1.drop 7).take 11) W (Proc.devRef .tc main_v5) = W main_v5 := by
  show StableHlo.after [_, _, _, _, _, _, _, _, _, _, _] W _ = _; after_results
theorem tC0 : StableHlo.after (hostOps1_1.drop 18) W (Proc.devRef .tc main_v15)
    = takeRawK (W main_v5) (W main_call0_v5) (W main_call0_v12) := by
  show StableHlo.after [_, _, _, _, _] W _ = _; after_results <;> rfl

theorem take_raw0 : StableHlo.after hostOps1_1 W (Proc.devRef .tc main_v15)
    = takeRawK (W main_v5) (colK (wrapK (W main_v1))) (maskK (colK (wrapK (W main_v1)))) := by
  show StableHlo.after (hostOps1_1.take 7 ++ ((hostOps1_1.drop 7).take 11 ++ hostOps1_1.drop 18)) W _ = _
  rw [StableHlo.after_append, StableHlo.after_append, tC0, tB0_v5, tB0_v12, tB0_feat, tA0_v4, tA0_feat]

theorem tA1_v4 : StableHlo.after (hostOps3.take 7) W (Proc.devRef .tc main_call1_v4) = wrapK (W main_v1) := by
  show StableHlo.after [_, _, _, _, _, _, _] W _ = _; after_results <;> rfl
theorem tA1_feat : StableHlo.after (hostOps3.take 7) W (Proc.devRef .tc main_v45) = W main_v45 := by
  show StableHlo.after [_, _, _, _, _, _, _] W _ = _; after_results
theorem tB1_v5 : StableHlo.after ((hostOps3.drop 7).take 11) W (Proc.devRef .tc main_call1_v5) = colK (W main_call1_v4) := by
  show StableHlo.after [_, _, _, _, _, _, _, _, _, _, _] W _ = _; after_results <;> rfl
theorem tB1_v12 : StableHlo.after ((hostOps3.drop 7).take 11) W (Proc.devRef .tc main_call1_v12) = maskK (colK (W main_call1_v4)) := by
  show StableHlo.after [_, _, _, _, _, _, _, _, _, _, _] W _ = _; after_results <;> (try simp only [StableHlo.TRef.ofBuf, StableHlo.TRef.toBuf, cast_eq]) <;> rfl
theorem tB1_feat : StableHlo.after ((hostOps3.drop 7).take 11) W (Proc.devRef .tc main_v45) = W main_v45 := by
  show StableHlo.after [_, _, _, _, _, _, _, _, _, _, _] W _ = _; after_results
theorem tC1 : StableHlo.after (hostOps3.drop 18) W (Proc.devRef .tc main_v46)
    = takeRawK (W main_v45) (W main_call1_v5) (W main_call1_v12) := by
  show StableHlo.after [_, _, _, _, _] W _ = _; after_results <;> rfl

theorem take_raw1 : StableHlo.after hostOps3 W (Proc.devRef .tc main_v46)
    = takeRawK (W main_v45) (colK (wrapK (W main_v1))) (maskK (colK (wrapK (W main_v1)))) := by
  show StableHlo.after (hostOps3.take 7 ++ ((hostOps3.drop 7).take 11 ++ hostOps3.drop 18)) W _ = _
  rw [StableHlo.after_append, StableHlo.after_append, tC1, tB1_v5, tB1_v12, tB1_feat, tA1_v4, tA1_feat]

theorem tA2_v4 : StableHlo.after (hostOps5.take 7) W (Proc.devRef .tc main_call2_v4) = wrapK (W main_v1) := by
  show StableHlo.after [_, _, _, _, _, _, _] W _ = _; after_results <;> rfl
theorem tA2_feat : StableHlo.after (hostOps5.take 7) W (Proc.devRef .tc main_v76) = W main_v76 := by
  show StableHlo.after [_, _, _, _, _, _, _] W _ = _; after_results
theorem tB2_v5 : StableHlo.after ((hostOps5.drop 7).take 11) W (Proc.devRef .tc main_call2_v5) = colK (W main_call2_v4) := by
  show StableHlo.after [_, _, _, _, _, _, _, _, _, _, _] W _ = _; after_results <;> rfl
theorem tB2_v12 : StableHlo.after ((hostOps5.drop 7).take 11) W (Proc.devRef .tc main_call2_v12) = maskK (colK (W main_call2_v4)) := by
  show StableHlo.after [_, _, _, _, _, _, _, _, _, _, _] W _ = _; after_results <;> (try simp only [StableHlo.TRef.ofBuf, StableHlo.TRef.toBuf, cast_eq]) <;> rfl
theorem tB2_feat : StableHlo.after ((hostOps5.drop 7).take 11) W (Proc.devRef .tc main_v76) = W main_v76 := by
  show StableHlo.after [_, _, _, _, _, _, _, _, _, _, _] W _ = _; after_results
theorem tC2 : StableHlo.after (hostOps5.drop 18) W (Proc.devRef .tc main_v77)
    = takeRawK (W main_v76) (W main_call2_v5) (W main_call2_v12) := by
  show StableHlo.after [_, _, _, _, _] W _ = _; after_results <;> rfl

theorem take_raw2 : StableHlo.after hostOps5 W (Proc.devRef .tc main_v77)
    = takeRawK (W main_v76) (colK (wrapK (W main_v1))) (maskK (colK (wrapK (W main_v1)))) := by
  show StableHlo.after (hostOps5.take 7 ++ ((hostOps5.drop 7).take 11 ++ hostOps5.drop 18)) W _ = _
  rw [StableHlo.after_append, StableHlo.after_append, tC2, tB2_v5, tB2_v12, tB2_feat, tA2_v4, tA2_feat]

end Raw

variable (m : (ℓ : Loc nD τ sig) → Buf (Elt Ideal) ℓ) (outs : Gen.Outs (F := Ideal)) (c : Dev nD)

abbrev A1 : Arr S2x800000 .i32 := m ((c : Thread nD τ).loc main_arg1)
abbrev A6 : Arr S3x96x96 .f32 := m ((c : Thread nD τ).loc main_arg6)
abbrev A7 : Arr S3x96 .f32 := m ((c : Thread nD τ).loc main_arg7)
abbrev A8 : Arr S3x96x96 .f32 := m ((c : Thread nD τ).loc main_arg8)

abbrev Ws : List (List (Ref sig .tc)) :=
  [hostOps1_1_W, hostOps1_2_W, [main_v26_0, main_v26_1, main_v26_2], hostOps2_W, [main_v45], hostOps3_W, hostOps3_1_W,
    [main_v57_0, main_v57_1, main_v57_2], hostOps4_W, [main_v76], hostOps5_W, hostOps5_1_W,
    [main_v88_0, main_v88_1, main_v88_2], hostOps6_W, [main_v107], hostOps7_W]

abbrev Kept (r : Ref sig .tc) : Prop := ∀ L ∈ Ws, r ∉ L

section Kept
variable (r : Ref sig .tc) (h : Kept r)
include h
theorem K4 : Gen.V4 m outs c r = Gen.V3 m outs c r := Gen.V4_of m outs c r (h _ (by decide))
theorem K5 : Gen.V5 m outs c r = Gen.V3 m outs c r := (Gen.V5_of m outs c r (h _ (by decide))).trans (K4 m outs c r h)
theorem K6 : Gen.V6 m outs c r = Gen.V3 m outs c r := (Gen.V6_of m outs c r (h _ (by decide))).trans (K5 m outs c r h)
theorem K8 : Gen.V8 m outs c r = Gen.V3 m outs c r :=
  (Gen.V8_of m outs c r (h _ (by decide))).trans <| (Gen.V7_of m outs c r (h _ (by decide))).trans (K6 m outs c r h)
theorem K9 : Gen.V9 m outs c r = Gen.V3 m outs c r := (Gen.V9_of m outs c r (h _ (by decide))).trans (K8 m outs c r h)
theorem K10 : Gen.V10 m outs c r = Gen.V3 m outs c r := (Gen.V10_of m outs c r (h _ (by decide))).trans (K9 m outs c r h)
theorem K11 : Gen.V11 m outs c r = Gen.V3 m outs c r := (Gen.V11_of m outs c r (h _ (by decide))).trans (K10 m outs c r h)
theorem K13 : Gen.V13 m outs c r = Gen.V3 m outs c r :=
  (Gen.V13_of m outs c r (h _ (by decide))).trans <| (Gen.V12_of m outs c r (h _ (by decide))).trans (K11 m outs c r h)
theorem K14 : Gen.V14 m outs c r = Gen.V3 m outs c r := (Gen.V14_of m outs c r (h _ (by decide))).trans (K13 m outs c r h)
theorem K15 : Gen.V15 m outs c r = Gen.V3 m outs c r := (Gen.V15_of m outs c r (h _ (by decide))).trans (K14 m outs c r h)
theorem K16 : Gen.V16 m outs c r = Gen.V3 m outs c r := (Gen.V16_of m outs c r (h _ (by decide))).trans (K15 m outs c r h)
theorem K18 : Gen.V18 m outs c r = Gen.V3 m outs c r :=
  (Gen.V18_of m outs c r (h _ (by decide))).trans <| (Gen.V17_of m outs c r (h _ (by decide))).trans (K16 m outs c r h)
theorem K19 : Gen.V19 m outs c r = Gen.V3 m outs c r := (Gen.V19_of m outs c r (h _ (by decide))).trans (K18 m outs c r h)
end Kept

theorem arg_V3 (r : Ref sig .tc) (h : r ∉ hostOps0_W ∧ r ∉ [main_v5] ∧ r ∉ hostOps1_W) : Gen.V3 m outs c r = Gen.V0 m c r :=
  (Gen.V3_of m outs c r h.2.2).trans <| (Gen.V2_of m outs c r h.2.1).trans (Gen.V1_of m c r h.1)

theorem v1_V3 : Gen.V3 m outs c main_v1 = srcK (A1 m c) := by
  rw [Gen.V3_of m outs c main_v1 (by decide), Gen.V2_of m outs c main_v1 (by decide)]
  show StableHlo.after hostOps0 _ _ = _
  after_results <;> rfl

theorem v3_V2 : Gen.V2 m outs c main_v3 = dstK (A1 m c) := by
  rw [Gen.V2_of m outs c main_v3 (by decide)]
  show StableHlo.after hostOps0 _ _ = _
  after_results <;> rfl

theorem v3_V3 : Gen.V3 m outs c main_v3 = dstK (A1 m c) :=
  (Gen.V3_of m outs c main_v3 (by decide)).trans (v3_V2 m outs c)

theorem deg0 : Gen.V5 m outs c main_v9 = degK (A1 m c) := by
  rw [K5 m outs c main_v9 (by decide), degK, ← v3_V2 m outs c]
  show StableHlo.after hostOps1 _ _ = _
  after_results <;> rfl

theorem invdeg0 (p : Fin 100000) :
    cur2 (Gen.V5 m outs c main_v14) p 0 = Ideal.div 1 (max (cur1 (Gen.V5 m outs c main_v9) p) 1) := by
  rw [K5 m outs c main_v14 (by decide), K5 m outs c main_v9 (by decide)]
  unfold cur2 cur1
  after_results
  show shapeCast S100000x1 _ shapeCasts_S100000_S100000x1 (ix2 p (0 : Fin 1)) = _
  rw [shapeCast_apply _ _ (ix2 p (0 : Fin 1)) (ix1 p) (by
    rw [Shape.rowMajor_val_two, Shape.rowMajor_val_one]; show p.val = p.val * 1 + 0; omega)]
  rw [hostDivf_apply, maximumf_apply, broadcastInDim_scalar_apply, constant_apply, Ideal.ofBits_one_f32]

theorem take0 (hsrc : ∀ e : Fin 800000, 0 ≤ (A1 m c (ix2 0 e)).toInt ∧ (A1 m c (ix2 0 e)).toInt < 100000) :
    Gen.V5 m outs c main_v15 = takeK (Gen.V2 m outs c main_v5) (A1 m c) := by
  rw [Gen.V5_of m outs c main_v15 (by decide)]
  show StableHlo.after hostOps1_1 (Gen.V3 m outs c) (Proc.devRef .tc main_v15) = _
  rw [take_raw0, v1_V3, Gen.V3_of m outs c main_v5 (by decide)]
  exact take_math _ _ hsrc

theorem summed0 : Gen.V5 m outs c main_v18 = summedK (A1 m c) (Gen.V5 m outs c main_v15) := by
  rw [Gen.V5_of m outs c main_v15 (by decide), summedK, ← v3_V3 m outs c, ← K4 m outs c main_v3 (by decide)]
  show StableHlo.after hostOps1_2 _ _ = _
  generalize Gen.V4 m outs c = W
  after_results <;> rfl

theorem wl0 (t q : Fin 96) : cur2 (Gen.V5 m outs c main_v20) t q = A6 m c (ix3 0 t q) :=
  wslice_of 0 0 rfl (by show StableHlo.after hostOps1_2 _ _ = _; generalize Gen.V4 m outs c = W; after_results <;> rfl)
    ((K4 m outs c main_arg6 (by decide)).trans (arg_V3 m outs c main_arg6 (by decide))) t q

theorem bl0 (q : Fin 96) : cur2 (Gen.V5 m outs c main_v25) 0 q = A7 m c (ix2 0 q) :=
  bslice_of 0 0 rfl (by show StableHlo.after hostOps1_2 _ _ = _; generalize Gen.V4 m outs c = W; after_results <;> rfl)
    ((K4 m outs c main_arg7 (by decide)).trans (arg_V3 m outs c main_arg7 (by decide))) q

theorem wr0 (t q : Fin 96) : cur2 (Gen.V5 m outs c main_v24) t q = A8 m c (ix3 0 t q) :=
  wslice_of 0 0 rfl (by show StableHlo.after hostOps1_2 _ _ = _; generalize Gen.V4 m outs c = W; after_results <;> rfl)
    ((K4 m outs c main_arg8 (by decide)).trans (arg_V3 m outs c main_arg8 (by decide))) t q

theorem feat0 : Gen.V5 m outs c main_v5 = Gen.V2 m outs c main_v5 :=
  (K5 m outs c main_v5 (by decide)).trans (Gen.V3_of m outs c main_v5 (by decide))

theorem invdeg1 (p : Fin 100000) :
    cur2 (Gen.V10 m outs c main_v14) p 0 = Ideal.div 1 (max (cur1 (degK (A1 m c)) p) 1) := by
  rw [K10 m outs c main_v14 (by decide), ← K5 m outs c main_v14 (by decide), invdeg0, deg0]

theorem take1 (hsrc : ∀ e : Fin 800000, 0 ≤ (A1 m c (ix2 0 e)).toInt ∧ (A1 m c (ix2 0 e)).toInt < 100000) :
    Gen.V10 m outs c main_v46 = takeK (Gen.V8 m outs c main_v45) (A1 m c) := by
  rw [Gen.V10_of m outs c main_v46 (by decide)]
  show StableHlo.after hostOps3 (Gen.V8 m outs c) (Proc.devRef .tc main_v46) = _
  rw [take_raw1, K8 m outs c main_v1 (by decide), v1_V3]
  exact take_math _ _ hsrc

theorem summed1 : Gen.V10 m outs c main_v49 = summedK (A1 m c) (Gen.V10 m outs c main_v46) := by
  rw [Gen.V10_of m outs c main_v46 (by decide), summedK, ← v3_V3 m outs c, ← K9 m outs c main_v3 (by decide)]
  show StableHlo.after hostOps3_1 _ _ = _
  generalize Gen.V9 m outs c = W
  after_results <;> rfl

theorem wl1 (t q : Fin 96) : cur2 (Gen.V10 m outs c main_v51) t q = A6 m c (ix3 1 t q) :=
  wslice_of 1 1 rfl (by show StableHlo.after hostOps3_1 _ _ = _; generalize Gen.V9 m outs c = W; after_results <;> rfl)
    ((K9 m outs c main_arg6 (by decide)).trans (arg_V3 m outs c main_arg6 (by decide))) t q

theorem bl1 (q : Fin 96) : cur2 (Gen.V10 m outs c main_v56) 0 q = A7 m c (ix2 1 q) :=
  bslice_of 1 1 rfl (by show StableHlo.after hostOps3_1 _ _ = _; generalize Gen.V9 m outs c = W; after_results <;> rfl)
    ((K9 m outs c main_arg7 (by decide)).trans (arg_V3 m outs c main_arg7 (by decide))) q

theorem wr1 (t q : Fin 96) : cur2 (Gen.V10 m outs c main_v55) t q = A8 m c (ix3 1 t q) :=
  wslice_of 1 1 rfl (by show StableHlo.after hostOps3_1 _ _ = _; generalize Gen.V9 m outs c = W; after_results <;> rfl)
    ((K9 m outs c main_arg8 (by decide)).trans (arg_V3 m outs c main_arg8 (by decide))) t q

theorem feat1 : Gen.V10 m outs c main_v45 = Gen.V8 m outs c main_v45 :=
  (Gen.V10_of m outs c main_v45 (by decide)).trans (Gen.V9_of m outs c main_v45 (by decide))

theorem invdeg2 (p : Fin 100000) :
    cur2 (Gen.V15 m outs c main_v14) p 0 = Ideal.div 1 (max (cur1 (degK (A1 m c)) p) 1) := by
  rw [K15 m outs c main_v14 (by decide), ← K5 m outs c main_v14 (by decide), invdeg0, deg0]

theorem take2 (hsrc : ∀ e : Fin 800000, 0 ≤ (A1 m c (ix2 0 e)).toInt ∧ (A1 m c (ix2 0 e)).toInt < 100000) :
    Gen.V15 m outs c main_v77 = takeK (Gen.V13 m outs c main_v76) (A1 m c) := by
  rw [Gen.V15_of m outs c main_v77 (by decide)]
  show StableHlo.after hostOps5 (Gen.V13 m outs c) (Proc.devRef .tc main_v77) = _
  rw [take_raw2, K13 m outs c main_v1 (by decide), v1_V3]
  exact take_math _ _ hsrc

theorem summed2 : Gen.V15 m outs c main_v80 = summedK (A1 m c) (Gen.V15 m outs c main_v77) := by
  rw [Gen.V15_of m outs c main_v77 (by decide), summedK, ← v3_V3 m outs c, ← K14 m outs c main_v3 (by decide)]
  show StableHlo.after hostOps5_1 _ _ = _
  generalize Gen.V14 m outs c = W
  after_results <;> rfl

theorem wl2 (t q : Fin 96) : cur2 (Gen.V15 m outs c main_v82) t q = A6 m c (ix3 2 t q) :=
  wslice_of 2 2 rfl (by show StableHlo.after hostOps5_1 _ _ = _; generalize Gen.V14 m outs c = W; after_results <;> rfl)
    ((K14 m outs c main_arg6 (by decide)).trans (arg_V3 m outs c main_arg6 (by decide))) t q

theorem bl2 (q : Fin 96) : cur2 (Gen.V15 m outs c main_v87) 0 q = A7 m c (ix2 2 q) :=
  bslice_of 2 2 rfl (by show StableHlo.after hostOps5_1 _ _ = _; generalize Gen.V14 m outs c = W; after_results <;> rfl)
    ((K14 m outs c main_arg7 (by decide)).trans (arg_V3 m outs c main_arg7 (by decide))) q

theorem wr2 (t q : Fin 96) : cur2 (Gen.V15 m outs c main_v86) t q = A8 m c (ix3 2 t q) :=
  wslice_of 2 2 rfl (by show StableHlo.after hostOps5_1 _ _ = _; generalize Gen.V14 m outs c = W; after_results <;> rfl)
    ((K14 m outs c main_arg8 (by decide)).trans (arg_V3 m outs c main_arg8 (by decide))) t q

theorem feat2 : Gen.V15 m outs c main_v76 = Gen.V13 m outs c main_v76 :=
  (Gen.V15_of m outs c main_v76 (by decide)).trans (Gen.V14_of m outs c main_v76 (by decide))

end Cert.KernelIdeal.Val

end
-- ==== Proof.KI.HostVals2.lean ====
import proofs.«402019_j40432822124917_2_alg».proof.Proof.Gen.KernelIdeal.Regions
import proofs.«402019_j40432822124917_2_alg».proof.Proof.Spec
import proofs.«402019_j40432822124917_2_alg».proof.Proof.KI.HostVals
import Idealize.ShloMosaic.Lib.ValueLayout
import Idealize.ShloMosaic.Lib.IdealHost
import Idealize.ShloMosaic.Lib.Affine
import Idealize.ShloMosaic.Lib.StableHlo.Predicate

set_option maxRecDepth 1784

noncomputable section

namespace Cert.KernelIdeal.Val

open Idealize.ShloMosaic Idealize.ShloMosaic.TcCoe Idealize.ShloMosaic.ValueIdx Idealize.ShloMosaic.StableHlo
open Cert.KernelIdeal Cert.KernelIdeal.Gen Cert.Spec

variable (m : (ℓ : Loc nD τ sig) → Buf (Elt Ideal) ℓ) (outs : Gen.Outs (F := Ideal))

abbrev arg3 (c : Dev nD) : S512.Idx → BitVec 32 := m ((c : Thread nD τ).loc main_arg3)
abbrev arg5 (c : Dev nD) : S96.Idx → EReal := m ((c : Thread nD τ).loc main_arg5)
abbrev arg9 (c : Dev nD) : S3x96.Idx → EReal := m ((c : Thread nD τ).loc main_arg9)
abbrev arg10 (c : Dev nD) : S3x96.Idx → EReal := m ((c : Thread nD τ).loc main_arg10)
abbrev arg12 (c : Dev nD) : S96.Idx → EReal := m ((c : Thread nD τ).loc main_arg12)
abbrev arg14 (c : Dev nD) : S1.Idx → EReal := m ((c : Thread nD τ).loc main_arg14)

abbrev nRows96 : S96.Idx → EReal :=
  broadcastInDim S96 ![] bcast_S_S96 (constant (F := Ideal) S_ .f32 0x47C35000#32)

def mean96 (s1 : S1x96.Idx → EReal) : S96.Idx → EReal :=
  Host.divf (F := Ideal) (φ := .f32) (shapeCast S96 s1 shapeCasts_S1x96_S96) nRows96

def var96 (s1 s2 : S1x96.Idx → EReal) : S96.Idx → EReal :=
  maximumf (F := Ideal) (φ := .f32)
    (subf (F := Ideal) (φ := .f32)
      (Host.divf (F := Ideal) (φ := .f32) (shapeCast S96 s2 shapeCasts_S1x96_S96) nRows96)
      (mulf (F := Ideal) (φ := .f32) (mean96 s1) (mean96 s1)))
    (broadcastInDim S96 ![] bcast_S_S96 (constant (F := Ideal) S_ .f32 0x00000000#32))

theorem nRows96_apply (i : S96.Idx) : nRows96 i = nRows := by
  show broadcastInDim S96 ![] bcast_S_S96 (constant (F := Ideal) S_ .f32 0x47C35000#32) i = _
  rw [broadcastInDim_scalar_apply, constant_apply]
  rfl

theorem row_of_vec_apply (v : S96.Idx → EReal) (q : Fin 96) :
    cur2 (shapeCast S1x96 v shapeCasts_S96_S1x96) 0 q = v (ix1 q) :=
  shapeCast_a_1a_apply v shapeCasts_S96_S1x96 0 q

theorem mean96_apply (s1 : S1x96.Idx → EReal) (q : Fin 96) :
    mean96 s1 (ix1 q) = Ideal.div (cur2 s1 0 q) nRows := by
  unfold mean96
  rw [hostDivf_apply, shapeCast_1a_a_apply, nRows96_apply]
  rfl

theorem var96_apply (s1 s2 : S1x96.Idx → EReal) (q : Fin 96) :
    var96 s1 s2 (ix1 q)
      = max (Ideal.div (cur2 s2 0 q) nRows - Ideal.div (cur2 s1 0 q) nRows * Ideal.div (cur2 s1 0 q) nRows) 0 := by
  unfold var96
  rw [maximumf_apply, subf_apply, mulf_apply, hostDivf_apply, shapeCast_1a_a_apply, nRows96_apply, broadcastInDim_scalar_apply,
    constant_apply, Ideal.ofBits_zero_f32, mean96_apply]
  rfl

variable {v s1 s2 : S1x96.Idx → EReal}

theorem mean_row_of (e : v = shapeCast S1x96 (mean96 s1) shapeCasts_S96_S1x96) (q : Fin 96) :
    cur2 v 0 q = Ideal.div (cur2 s1 0 q) nRows := by
  rw [e, row_of_vec_apply, mean96_apply]

theorem var_row_of (e : v = shapeCast S1x96 (var96 s1 s2) shapeCasts_S96_S1x96) (q : Fin 96) :
    cur2 v 0 q
      = max (Ideal.div (cur2 s2 0 q) nRows - Ideal.div (cur2 s1 0 q) nRows * Ideal.div (cur2 s1 0 q) nRows) 0 := by
  rw [e, row_of_vec_apply, var96_apply]

theorem hostOps0_bias (c : Dev nD) (q : Fin 96) :
    cur2 (Gen.V1 m c main_v4 : S1x96.Idx → EReal) 0 q = cur1 (arg5 m c) q := by
  have e : (Gen.V1 m c main_v4 : S1x96.Idx → EReal) = shapeCast S1x96 (arg5 m c) shapeCasts_S96_S1x96 := by
    show StableHlo.after Gen.hostOps0 (fun b => m (c, b)) (Proc.devRef .tc main_v4) = _
    after_results
    rfl
  rw [e]
  exact row_of_vec_apply (arg5 m c) q

theorem hostOps2_mean (c : Dev nD) (q : Fin 96) :
    cur2 (Gen.V7 m outs c main_v41 : S1x96.Idx → EReal) 0 q
      = Ideal.div (cur2 (Gen.V6 m outs c main_v26_1 : S1x96.Idx → EReal) 0 q) nRows :=
  mean_row_of (by show StableHlo.after Gen.hostOps2 _ _ = _; after_results; rfl) q

theorem hostOps2_var (c : Dev nD) (q : Fin 96) :
    cur2 (Gen.V7 m outs c main_v42 : S1x96.Idx → EReal) 0 q
      = max (Ideal.div (cur2 (Gen.V6 m outs c main_v26_2 : S1x96.Idx → EReal) 0 q) nRows
          - Ideal.div (cur2 (Gen.V6 m outs c main_v26_1 : S1x96.Idx → EReal) 0 q) nRows
            * Ideal.div (cur2 (Gen.V6 m outs c main_v26_1 : S1x96.Idx → EReal) 0 q) nRows) 0 :=
  var_row_of (by show StableHlo.after Gen.hostOps2 _ _ = _; after_results; rfl) q

theorem hostOps2_arg9row (c : Dev nD) (q : Fin 96) :
    cur2 (Gen.V7 m outs c main_v43 : S1x96.Idx → EReal) 0 q = cur2 (arg9 m c) (0 : Fin 3) q :=
  bslice_of 0 0 rfl (by show StableHlo.after Gen.hostOps2 _ _ = _; after_results; rfl)
    ((K6 m outs c main_arg9 (by decide)).trans (arg_V3 m outs c main_arg9 (by decide))) q

theorem hostOps2_arg10row (c : Dev nD) (q : Fin 96) :
    cur2 (Gen.V7 m outs c main_v44 : S1x96.Idx → EReal) 0 q = cur2 (arg10 m c) (0 : Fin 3) q :=
  bslice_of 0 0 rfl (by show StableHlo.after Gen.hostOps2 _ _ = _; after_results; rfl)
    ((K6 m outs c main_arg10 (by decide)).trans (arg_V3 m outs c main_arg10 (by decide))) q

theorem hostOps2_keep (c : Dev nD) : Gen.V7 m outs c main_v26_0 = Gen.V6 m outs c main_v26_0 :=
  V7_of m outs c main_v26_0 (by decide)

theorem hostOps4_mean (c : Dev nD) (q : Fin 96) :
    cur2 (Gen.V12 m outs c main_v72 : S1x96.Idx → EReal) 0 q
      = Ideal.div (cur2 (Gen.V11 m outs c main_v57_1 : S1x96.Idx → EReal) 0 q) nRows :=
  mean_row_of (by show StableHlo.after Gen.hostOps4 _ _ = _; after_results; rfl) q

theorem hostOps4_var (c : Dev nD) (q : Fin 96) :
    cur2 (Gen.V12 m outs c main_v73 : S1x96.Idx → EReal) 0 q
      = max (Ideal.div (cur2 (Gen.V11 m outs c main_v57_2 : S1x96.Idx → EReal) 0 q) nRows
          - Ideal.div (cur2 (Gen.V11 m outs c main_v57_1 : S1x96.Idx → EReal) 0 q) nRows
            * Ideal.div (cur2 (Gen.V11 m outs c main_v57_1 : S1x96.Idx → EReal) 0 q) nRows) 0 :=
  var_row_of (by show StableHlo.after Gen.hostOps4 _ _ = _; after_results; rfl) q

theorem hostOps4_arg9row (c : Dev nD) (q : Fin 96) :
    cur2 (Gen.V12 m outs c main_v74 : S1x96.Idx → EReal) 0 q = cur2 (arg9 m c) (1 : Fin 3) q :=
  bslice_of 1 1 rfl (by show StableHlo.after Gen.hostOps4 _ _ = _; after_results; rfl)
    ((K11 m outs c main_arg9 (by decide)).trans (arg_V3 m outs c main_arg9 (by decide))) q

theorem hostOps4_arg10row (c : Dev nD) (q : Fin 96) :
    cur2 (Gen.V12 m outs c main_v75 : S1x96.Idx → EReal) 0 q = cur2 (arg10 m c) (1 : Fin 3) q :=
  bslice_of 1 1 rfl (by show StableHlo.after Gen.hostOps4 _ _ = _; after_results; rfl)
    ((K11 m outs c main_arg10 (by decide)).trans (arg_V3 m outs c main_arg10 (by decide))) q

theorem hostOps4_keep (c : Dev nD) : Gen.V12 m outs c main_v57_0 = Gen.V11 m outs c main_v57_0 :=
  V12_of m outs c main_v57_0 (by decide)

theorem hostOps6_mean (c : Dev nD) (q : Fin 96) :
    cur2 (Gen.V17 m outs c main_v103 : S1x96.Idx → EReal) 0 q
      = Ideal.div (cur2 (Gen.V16 m outs c main_v88_1 : S1x96.Idx → EReal) 0 q) nRows :=
  mean_row_of (by show StableHlo.after Gen.hostOps6 _ _ = _; after_results; rfl) q

theorem hostOps6_var (c : Dev nD) (q : Fin 96) :
    cur2 (Gen.V17 m outs c main_v104 : S1x96.Idx → EReal) 0 q
      = max (Ideal.div (cur2 (Gen.V16 m outs c main_v88_2 : S1x96.Idx → EReal) 0 q) nRows
          - Ideal.div (cur2 (Gen.V16 m outs c main_v88_1 : S1x96.Idx → EReal) 0 q) nRows
            * Ideal.div (cur2 (Gen.V16 m outs c main_v88_1 : S1x96.Idx → EReal) 0 q) nRows) 0 :=
  var_row_of (by show StableHlo.after Gen.hostOps6 _ _ = _; after_results; rfl) q

theorem hostOps6_arg9row (c : Dev nD) (q : Fin 96) :
    cur2 (Gen.V17 m outs c main_v105 : S1x96.Idx → EReal) 0 q = cur2 (arg9 m c) (2 : Fin 3) q :=
  bslice_of 2 2 rfl (by show StableHlo.after Gen.hostOps6 _ _ = _; after_results; rfl)
    ((K16 m outs c main_arg9 (by decide)).trans (arg_V3 m outs c main_arg9 (by decide))) q

theorem hostOps6_arg10row (c : Dev nD) (q : Fin 96) :
    cur2 (Gen.V17 m outs c main_v106 : S1x96.Idx → EReal) 0 q = cur2 (arg10 m c) (2 : Fin 3) q :=
  bslice_of 2 2 rfl (by show StableHlo.after Gen.hostOps6 _ _ = _; after_results; rfl)
    ((K16 m outs c main_arg10 (by decide)).trans (arg_V3 m outs c main_arg10 (by decide))) q

theorem hostOps6_keep (c : Dev nD) : Gen.V17 m outs c main_v88_0 = Gen.V16 m outs c main_v88_0 :=
  V17_of m outs c main_v88_0 (by decide)

def wrapIdx (a3 : S512.Idx → BitVec 32) : S512.Idx → BitVec 32 :=
  select (cmpi .slt a3 (broadcastInDim S512 ![] bcast_S_S512 (constantI S_ 32 0#32)))
    (addi a3 (broadcastInDim S512 ![] bcast_S_S512 (constantI S_ 32 100000#32))) a3

def idxCol (a3 : S512.Idx → BitVec 32) : S512x1.Idx → BitVec 32 :=
  broadcastInDim S512x1 ![0] bcast_S512_S512x1_0 a3

def inRange (col : S512x1.Idx → BitVec 32) : S512.Idx → BitVec 1 :=
  Host.reduce IntOp.andi
    (andi (cmpi .sge col (broadcastInDim S512x1 ![] bcast_S_S512x1 (constantI S_ 32 0#32)))
      (cmpi .sle col (broadcastInDim S512x1 ![0, 1] bcast_S1x1_S512x1_0_1
        (broadcastInDim S1x1 ![1] bcast_S1_S1x1_1 (constantI S1 32 99999#32)))))
    (constantI S_ 1 1#1) reducesTo_S512x1_S512_d1 h_S_

def takeC (hb : S100000x96.Idx → EReal) (a3 : S512.Idx → BitVec 32) : S512x96.Idx → EReal :=
  Host.gather gather_S100000x96_S512x1_S512x96_1_0_n_n_0_1_196 hb (idxCol a3)

theorem take512_math (hb : S100000x96.Idx → EReal) (a3 : S512.Idx → BitVec 32)
    (h : ∀ e : Fin 512, 0 ≤ (a3 (ix1 e)).toInt ∧ (a3 (ix1 e)).toInt < 100000) :
    select (broadcastInDim S512x96 ![0] bcast_S512_S512x96_0 (inRange (idxCol (wrapIdx a3))))
      (Host.gather gather_S100000x96_S512x1_S512x96_1_0_n_n_0_1_196 hb (idxCol (wrapIdx a3)))
      (broadcastInDim S512x96 ![] bcast_S_S512x96 (constant (F := Ideal) S_ .f32 0x7FC00000#32)) = takeC hb a3 := by
  have hs : ∀ i : S512.Idx, 0 ≤ (a3 i).toInt ∧ (a3 i).toInt < 100000 := fun i => by rw [eq_ix1 i]; exact h _
  rw [show wrapIdx a3 = a3 from funext fun i => wrap_pt _ (hs i).1]
  funext j
  show Scalar.select (inRange _ _) _ _ = _
  have hm : ∀ p, inRange (idxCol a3) p = 1#1 := fun p => by
    unfold inRange
    rw [Host.reduce_eq_foldl]
    exact foldl_andi_one _ (fun i => mask_pt _ (hs _)) _
  rw [hm, select_one]; rfl

theorem hostOps7_take (c : Dev nD)
    (hcen : ∀ e : Fin 512, 0 ≤ (arg3 m c (ix1 e)).toInt ∧ (arg3 m c (ix1 e)).toInt < 100000) :
    (Gen.V20 m outs c main_v108 : S512x96.Idx → EReal)
      = takeC (Gen.V18 m outs c main_v107 : S100000x96.Idx → EReal) (arg3 m c) := by
  rw [V20_of m outs c main_v108 (by decide)]
  show StableHlo.after Gen.hostOps7 _ _ = _
  after_results_simp
  simp only [TRef.ofBuf, TRef.toBuf, cast_eq]
  rw [K18 m outs c main_arg3 (by decide), arg_V3 m outs c main_arg3 (by decide)]
  exact take512_math _ _ hcen

theorem hostOps7_1_bias1 (c : Dev nD) (q : Fin 96) :
    cur2 (Gen.V20 m outs c main_v109 : S1x96.Idx → EReal) 0 q = cur1 (arg12 m c) q := by
  have e : (Gen.V20 m outs c main_v109 : S1x96.Idx → EReal)
      = shapeCast S1x96 (Gen.V19 m outs c main_arg12 : S96.Idx → EReal) shapeCasts_S96_S1x96 := by
    show StableHlo.after Gen.hostOps7_1 (Gen.V19 m outs c) (Proc.devRef .tc main_v109) = _
    after_results
    rfl
  rw [e, K19 m outs c main_arg12 (by decide), arg_V3 m outs c main_arg12 (by decide)]
  exact row_of_vec_apply (arg12 m c) q

theorem hostOps7_1_bias2 (c : Dev nD) (q : Fin 1) :
    cur2 (Gen.V20 m outs c main_v110 : S1x1.Idx → EReal) 0 q = cur1 (arg14 m c) q := by
  have e : (Gen.V20 m outs c main_v110 : S1x1.Idx → EReal)
      = shapeCast S1x1 (Gen.V19 m outs c main_arg14 : S1.Idx → EReal) shapeCasts_S1_S1x1 := by
    show StableHlo.after Gen.hostOps7_1 (Gen.V19 m outs c) (Proc.devRef .tc main_v110) = _
    after_results
    rfl
  rw [e, K19 m outs c main_arg14 (by decide), arg_V3 m outs c main_arg14 (by decide)]
  exact shapeCast_a_1a_apply (arg14 m c) shapeCasts_S1_S1x1 0 q

end Cert.KernelIdeal.Val

end
-- ==== Proof.Ref.Read.lean ====
import proofs.«402019_j40432822124917_2_alg».proof.Proof.Gen.ReferenceIdeal
import proofs.«402019_j40432822124917_2_alg».proof.Proof.Spec
import proofs.«402019_j40432822124917_2_alg».proof.Proof.Ref.Stages
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost
import Idealize.ShloMosaic.Lib.StackMember

noncomputable section

namespace Cert.ReferenceIdeal.Read

open Idealize.ShloMosaic Idealize.ShloMosaic.ValueIdx Cert.ReferenceIdeal Cert.ReferenceIdeal.Facts₀ Cert.Spec
open Cert.ReferenceIdeal.Stages (T)
open Idealize.ShloMosaic.StackMember (dotGeneral_plain_apply)

theorem rowsN_apply {m : Nat} (h : S1x96.BroadcastsInDim ⟨2, ![m, 96]⟩ ![0, 1]) (b : T Ideal S96 .f32) (p : Fin m) (q : Fin 96) :
    broadcastInDim ⟨2, ![m, 96]⟩ ![0, 1] h (broadcastInDim S1x96 ![1] bcast_S96_S1x96_1 b : T Ideal S1x96 .f32) (ix2 p q) = b (ix1 q) := by
  rw [broadcastInDim_oneRow_apply]
  exact broadcastInDim_apply ![1] bcast_S96_S1x96_1 b (ix2 (0 : Fin 1) q) (ix1 q) (fun a => by match a with | ⟨0, _⟩ => rfl)

theorem rows_apply (b : T Ideal S96 .f32) (p : Fin 100000) (q : Fin 96) : Stages.rows b (ix2 p q) = b (ix1 q) :=
  rowsN_apply bcast_S1x96_S100000x96_0_1 b p q

theorem rows512x1_apply (b : T Ideal S1 .f32) (p : Fin 512) (q : Fin 1) :
    broadcastInDim S512x1 ![0, 1] bcast_S1x1_S512x1_0_1 (broadcastInDim S1x1 ![1] bcast_S1_S1x1_1 b : T Ideal S1x1 .f32) (ix2 p q)
      = b (ix1 q) := by
  rw [broadcastInDim_oneRow_apply]
  exact broadcastInDim_apply ![1] bcast_S1_S1x1_1 b (ix2 (0 : Fin 1) q) (ix1 q) (fun a => by
    match a with
    | ⟨0, _⟩ =>
      show q.val = if (1 : ℕ) = 1 then 0 else _
      rw [if_pos rfl]; omega)

theorem cols_apply (d : T Ideal S100000 .f32) (p : Fin 100000) (q : Fin 96) :
    broadcastInDim S100000x96 ![0, 1] bcast_S100000x1_S100000x96_0_1
      (broadcastInDim S100000x1 ![0] bcast_S100000_S100000x1_0 d : T Ideal S100000x1 .f32) (ix2 p q) = d (ix1 p) :=
  (broadcastInDim_apply ![0, 1] bcast_S100000x1_S100000x96_0_1 _ (ix2 p q) (ix2 p (0 : Fin 1)) (fun a => by
    match a with
    | ⟨0, _⟩ => rfl
    | ⟨1, _⟩ => rfl)).trans
  (broadcastInDim_apply ![0] bcast_S100000_S100000x1_0 d (ix2 p (0 : Fin 1)) (ix1 p) (fun a => by
    match a with
    | ⟨0, _⟩ => rfl))

theorem relu_apply (x : T Ideal S100000x96 .f32) (i : S100000x96.Idx) : Stages.relu x i = max (x i) 0 := by
  unfold Stages.relu
  rw [maximumf_apply, broadcastInDim_scalar_apply, constant_apply, Ideal.ofBits_zero_f32]

theorem relu512_apply (x : T Ideal S512x96 .f32) (i : S512x96.Idx) : Stages.relu512 x i = max (x i) 0 := by
  unfold Stages.relu512
  rw [maximumf_apply, broadcastInDim_scalar_apply, constant_apply, Ideal.ofBits_zero_f32]

theorem colSums_apply (v : T Ideal S100000x96 .f32) (q : Fin 96) :
    Stages.colSums v (ix1 q) = ∑ p : Fin 100000, v (ix2 p q) := by
  unfold Stages.colSums
  rw [hostReduceAdd_apply, Ideal.hostReduceAdd_single reducesTo_S100000x96_S96_d0 (by decide), constant_apply,
    Ideal.ofBits_zero_f32, zero_add]
  refine Finset.sum_congr rfl fun k _ => ?_
  exact congrArg v (funext fun a => Fin.ext (by match a with | ⟨0, _⟩ => rfl | ⟨1, _⟩ => rfl))

theorem agg_apply (sm : T Ideal S100000x96 .f32) (dg : T Ideal S100000 .f32) (p : Fin 100000) (q : Fin 96) :
    Stages.agg sm dg (ix2 p q) = Ideal.div (sm (ix2 p q)) (dg (ix1 p)) := by
  unfold Stages.agg
  rw [hostDivf_apply, cols_apply]

theorem nRows_pos : 0 < nRows := by
  have h : nRows = ((100000 : ℝ) : EReal) := by
    unfold nRows
    simp [Ideal.ofBits, Ideal.ieee, -EReal.coe_mul] <;> norm_num
  rw [h]
  exact EReal.coe_pos.mpr (by norm_num)

theorem den_apply (i : S_.Idx) : Stages.den (F := Ideal) i = nRows := by
  unfold Stages.den
  rw [subf_apply, constant_apply, sitofp_apply, constantI_apply]
  show Ideal.ofBits .f32 0x47C35000#32 - (((0#32 : BitVec 32).toInt : ℝ) : EReal) = nRows
  simp [nRows]

theorem dev_apply (yy : T Ideal S100000x96 .f32) (p : Fin 100000) (q : Fin 96) :
    Stages.dev yy (ix2 p q) = yy (ix2 p q) - meanS (cur2 yy) q := by
  unfold Stages.dev
  rw [subf_apply, broadcastInDim_oneRow_apply, hostDivf_apply, broadcastInDim_scalar_apply, constant_apply,
    broadcastInDim_apply ![1] bcast_S96_S1x96_1 (Stages.colSums yy) (ix2 (0 : Fin 1) q) (ix1 q)
      (fun a => by match a with | ⟨0, _⟩ => rfl), colSums_apply]
  rfl

theorem mat_apply (k : Fin 3) (w : T Ideal S3x96x96 .f32) (hs : S3x96x96.Slices ![k.val, 0, 0] S1x96x96)
    (hc : S1x96x96.ShapeCasts S96x96) (a b : Fin 96) :
    shapeCast S96x96 (extractStridedSlice S1x96x96 ![k.val, 0, 0] w hs) hc (ix2 a b) = w (ix3 k a b) := by
  rw [shapeCast_1ab_ab_apply]
  exact extractStridedSlice_apply _ w _ _ (ix3 k a b) (fun ax => by
    match ax with
    | ⟨0, _⟩ => rfl
    | ⟨1, _⟩ => exact (Nat.zero_add _).symm
    | ⟨2, _⟩ => exact (Nat.zero_add _).symm)

theorem row_apply (k : Fin 3) (v : T Ideal S3x96 .f32) (hs : S3x96.Slices ![k.val, 0] S1x96) (hc : S1x96.ShapeCasts S96)
    (q : Fin 96) : shapeCast S96 (extractStridedSlice S1x96 ![k.val, 0] v hs) hc (ix1 q) = v (ix2 k q) := by
  rw [shapeCast_1a_a_apply]
  exact slice2_axis0_apply k.val v _ (0 : Fin 1) q k rfl

theorem cur2_mat0 (w : T Ideal S3x96x96 .f32) : cur2 (Stages.mat0 w) = fun a b => w (ix3 (0 : Fin 3) a b) :=
  funext fun a => funext fun b => mat_apply 0 w (by decide) (by decide) a b
theorem cur2_mat1 (w : T Ideal S3x96x96 .f32) : cur2 (Stages.mat1 w) = fun a b => w (ix3 (1 : Fin 3) a b) :=
  funext fun a => funext fun b => mat_apply 1 w (by decide) (by decide) a b
theorem cur2_mat2 (w : T Ideal S3x96x96 .f32) : cur2 (Stages.mat2 w) = fun a b => w (ix3 (2 : Fin 3) a b) :=
  funext fun a => funext fun b => mat_apply 2 w (by decide) (by decide) a b
theorem cur1_row0 (v : T Ideal S3x96 .f32) : cur1 (Stages.row0 v) = fun q => cur2 v (0 : Fin 3) q :=
  funext fun q => row_apply 0 v (by decide) (by decide) q
theorem cur1_row1 (v : T Ideal S3x96 .f32) : cur1 (Stages.row1 v) = fun q => cur2 v (1 : Fin 3) q :=
  funext fun q => row_apply 1 v (by decide) (by decide) q
theorem cur1_row2 (v : T Ideal S3x96 .f32) : cur1 (Stages.row2 v) = fun q => cur2 v (2 : Fin 3) q :=
  funext fun q => row_apply 2 v (by decide) (by decide) q

theorem cur2_h0 (x : T Ideal S100000x64 .f32) (w : T Ideal S64x96 .f32) (b : T Ideal S96 .f32) :
    cur2 (Stages.h0 x w b) = embS (cur2 x) (cur2 w) (cur1 b) := by
  funext p q
  show Stages.h0 x w b (ix2 p q) = max ((∑ t : Fin 64, x (ix2 p t) * w (ix2 t q)) + b (ix1 q)) 0
  unfold Stages.h0
  erw [relu_apply, addf_apply, dotGeneral_plain_apply, rows_apply]

theorem cur2_y (sm : T Ideal S100000x96 .f32) (dg : T Ideal S100000 .f32) (h : T Ideal S100000x96 .f32)
    (wl : T Ideal S96x96 .f32) (bl : T Ideal S96 .f32) (wr : T Ideal S96x96 .f32) :
    cur2 (Stages.y (Stages.agg sm dg) h wl bl wr) = combR (cur2 sm) (cur1 dg) (cur2 h) (cur2 wl) (cur1 bl) (cur2 wr) := by
  funext p q
  show Stages.y (Stages.agg sm dg) h wl bl wr (ix2 p q)
    = ((∑ t : Fin 96, Ideal.div (sm (ix2 p t)) (dg (ix1 p)) * wl (ix2 t q)) + bl (ix1 q)) + ∑ t : Fin 96, h (ix2 p t) * wr (ix2 t q)
  unfold Stages.y
  erw [addf_apply, addf_apply, dotGeneral_plain_apply, dotGeneral_plain_apply, rows_apply]
  simp only [agg_apply]

theorem cur1_mean (yy : T Ideal S100000x96 .f32) : cur1 (Stages.mean yy) = meanS (cur2 yy) := by
  funext q
  show Stages.mean yy (ix1 q) = Ideal.div (∑ p : Fin 100000, yy (ix2 p q)) nRows
  unfold Stages.mean
  rw [hostDivf_apply, colSums_apply, broadcastInDim_scalar_apply, constant_apply]
  rfl

theorem cur1_var (yy : T Ideal S100000x96 .f32) : cur1 (Stages.var yy) = varR (cur2 yy) := by
  funext q
  show Stages.var yy (ix1 q)
    = Ideal.div (∑ p : Fin 100000, (yy (ix2 p q) - meanS (cur2 yy) q) * (yy (ix2 p q) - meanS (cur2 yy) q)) nRows
  unfold Stages.var
  have hc : Ideal.cmp .ogt nRows 0 = 1#1 := by simp [Ideal.cmp, nRows_pos]
  rw [select_apply, hostDivf_apply, broadcastInDim_scalar_apply, broadcastInDim_scalar_apply, broadcastInDim_scalar_apply,
    cmpf_apply, den_apply, constant_apply, Ideal.ofBits_zero_f32, Ideal.cmpf_def, hc, select_one, colSums_apply]
  simp only [mulf_apply, dev_apply]

theorem cur2_hnext (yy : T Ideal S100000x96 .f32) (mn vr g b : T Ideal S96 .f32) :
    cur2 (Stages.hnext yy mn vr g b) = bnS (cur2 yy) (cur1 mn) (cur1 vr) (cur1 g) (cur1 b) := by
  funext p q
  show Stages.hnext yy mn vr g b (ix2 p q)
    = max ((((yy (ix2 p q) - mn (ix1 q)) * Ideal.rsqrt (vr (ix1 q) + eps)) * g (ix1 q)) + b (ix1 q)) 0
  unfold Stages.hnext
  rw [relu_apply, addf_apply, mulf_apply, mulf_apply, subf_apply]
  simp only [rows_apply]
  rfl

theorem cur2_head (c : T Ideal S512x96 .f32) (w1 : T Ideal S96x96 .f32) (b1 : T Ideal S96 .f32)
    (w2 : T Ideal S96x1 .f32) (b2 : T Ideal S1 .f32) :
    cur2 (Stages.head c w1 b1 w2 b2) = headS (cur2 c) (cur2 w1) (cur1 b1) (cur2 w2) (cur1 b2) := by
  funext p q
  show Stages.head c w1 b1 w2 b2 (ix2 p q)
    = (∑ t : Fin 96, (max ((∑ u : Fin 96, c (ix2 p u) * w1 (ix2 u t)) + b1 (ix1 t)) 0) * w2 (ix2 t q)) + b2 (ix1 q)
  unfold Stages.head
  erw [addf_apply, dotGeneral_plain_apply, rows512x1_apply]
  refine congrArg (· + b2 (ix1 q)) (Finset.sum_congr rfl fun t _ => ?_)
  erw [relu512_apply, addf_apply, dotGeneral_plain_apply, rowsN_apply]

end Cert.ReferenceIdeal.Read

end
-- ==== Proof.Asm.Ref.lean ====
import proofs.«402019_j40432822124917_2_alg».proof.Proof.Ref.Read

noncomputable section

namespace Cert.ReferenceIdeal.Asm

open Idealize.ShloMosaic Idealize.ShloMosaic.ValueIdx Cert.ReferenceIdeal Cert.ReferenceIdeal.Facts₀ Cert.Spec
open Cert.ReferenceIdeal.Stages (T)

abbrev smOf (harr : T Ideal S100000x96 .f32) (ei : T Ideal S2x800000 .i32) : Fin 100000 → Fin 96 → EReal :=
  cur2 (Stages.summed (Stages.msg harr (Stages.src1 ei)) (Stages.dst1 ei))

abbrev dgOf (ei : T Ideal S2x800000 .i32) : Fin 100000 → EReal := cur1 (Stages.deg (Stages.dst1 ei))

abbrev slab (w : T Ideal S3x96x96 .f32) (l : Fin 3) : Fin 96 → Fin 96 → EReal := fun a b => w (ix3 l a b)

abbrev rowOf (v : T Ideal S3x96 .f32) (l : Fin 3) : Fin 96 → EReal := fun q => cur2 v l q

abbrev yR (harr : T Ideal S100000x96 .f32) (ei : T Ideal S2x800000 .i32)
    (wl : Fin 96 → Fin 96 → EReal) (bl : Fin 96 → EReal) (wr : Fin 96 → Fin 96 → EReal) : Fin 100000 → Fin 96 → EReal :=
  combR (smOf harr ei) (dgOf ei) (cur2 harr) wl bl wr

abbrev layerR (harr : T Ideal S100000x96 .f32) (ei : T Ideal S2x800000 .i32)
    (wl : Fin 96 → Fin 96 → EReal) (bl : Fin 96 → EReal) (wr : Fin 96 → Fin 96 → EReal) (g b : Fin 96 → EReal) :
    Fin 100000 → Fin 96 → EReal :=
  bnS (yR harr ei wl bl wr) (meanS (yR harr ei wl bl wr)) (varR (yR harr ei wl bl wr)) g b

theorem cur2_h0 (x : T Ideal S100000x64 .f32) (w : T Ideal S64x96 .f32) (b : T Ideal S96 .f32) :
    cur2 (Stages.h0 x w b) = embS (cur2 x) (cur2 w) (cur1 b) := Read.cur2_h0 x w b

theorem cur2_layer (harr : T Ideal S100000x96 .f32) (ei : T Ideal S2x800000 .i32)
    (wl : T Ideal S96x96 .f32) (bl : T Ideal S96 .f32) (wr : T Ideal S96x96 .f32) (g b : T Ideal S96 .f32) :
    cur2 (Stages.layer harr ei wl bl wr g b) = layerR harr ei (cur2 wl) (cur1 bl) (cur2 wr) (cur1 g) (cur1 b) := by
  unfold Stages.layer Stages.yOf
  rw [Read.cur2_hnext, Read.cur1_mean, Read.cur1_var, Read.cur2_y]

section
variable (x : T Ideal S100000x64 .f32) (ei : T Ideal S2x800000 .i32) (we : T Ideal S64x96 .f32) (be : T Ideal S96 .f32)
  (wl : T Ideal S3x96x96 .f32) (bl : T Ideal S3x96 .f32) (wr : T Ideal S3x96x96 .f32) (g b : T Ideal S3x96 .f32)

theorem cur2_h1 : cur2 (Stages.h1 x ei we be wl bl wr g b)
    = layerR (Stages.h0 x we be) ei (slab wl 0) (rowOf bl 0) (slab wr 0) (rowOf g 0) (rowOf b 0) := by
  unfold Stages.h1
  rw [cur2_layer, Read.cur2_mat0, Read.cur1_row0, Read.cur2_mat0, Read.cur1_row0, Read.cur1_row0]

theorem cur2_h2 : cur2 (Stages.h2 x ei we be wl bl wr g b)
    = layerR (Stages.h1 x ei we be wl bl wr g b) ei (slab wl 1) (rowOf bl 1) (slab wr 1) (rowOf g 1) (rowOf b 1) := by
  unfold Stages.h2
  rw [cur2_layer, Read.cur2_mat1, Read.cur1_row1, Read.cur2_mat1, Read.cur1_row1, Read.cur1_row1]

theorem cur2_h3 : cur2 (Stages.h3 x ei we be wl bl wr g b)
    = layerR (Stages.h2 x ei we be wl bl wr g b) ei (slab wl 2) (rowOf bl 2) (slab wr 2) (rowOf g 2) (rowOf b 2) := by
  unfold Stages.h3
  rw [cur2_layer, Read.cur2_mat2, Read.cur1_row2, Read.cur2_mat2, Read.cur1_row2, Read.cur1_row2]

end

theorem cur2_out (a0 : T Ideal S100000x64 .f32) (a1 : T Ideal S2x800000 .i32) (a2 : T Ideal S100000 .i32) (a3 : T Ideal S512 .i32)
    (a4 : T Ideal S64x96 .f32) (a5 : T Ideal S96 .f32) (a6 : T Ideal S3x96x96 .f32) (a7 : T Ideal S3x96 .f32) (a8 : T Ideal S3x96x96 .f32)
    (a9 a10 : T Ideal S3x96 .f32) (a11 : T Ideal S96x96 .f32) (a12 : T Ideal S96 .f32) (a13 : T Ideal S96x1 .f32) (a14 : T Ideal S1 .f32) :
    cur2 (Stages.out a0 a1 a2 a3 a4 a5 a6 a7 a8 a9 a10 a11 a12 a13 a14)
      = headS (cur2 (Stages.central (Stages.h3 a0 a1 a4 a5 a6 a7 a8 a9 a10) a3)) (cur2 a11) (cur1 a12) (cur2 a13) (cur1 a14) := by
  unfold Stages.out
  exact Read.cur2_head _ _ _ _ _

end Cert.ReferenceIdeal.Asm

end
-- ==== Proof.Asm.Kernel.lean ====
import proofs.«402019_j40432822124917_2_alg».proof.Proof.KI.HostVals
import proofs.«402019_j40432822124917_2_alg».proof.Proof.KI.HostVals2
import proofs.«402019_j40432822124917_2_alg».proof.Proof.PreDecode
import proofs.«402019_j40432822124917_2_alg».proof.Proof.Spec

set_option maxRecDepth 1784

noncomputable section

namespace Cert.KernelIdeal.Asm

open Idealize.ShloMosaic Idealize.ShloMosaic.TcCoe Idealize.ShloMosaic.ValueIdx Idealize.SL.Sem
open Cert.KernelIdeal Cert.KernelIdeal.Gen Cert.KernelIdeal.Val Cert.Spec

def arr2 {n0 n1 : Nat} (h : Fin n0 → Fin n1 → EReal) : (⟨2, ![n0, n1]⟩ : Shape).Idx → EReal := fun i => h (i 0) (i 1)

theorem cur2_arr2 {n0 n1 : Nat} (h : Fin n0 → Fin n1 → EReal) : cur2 (arr2 h) = h := rfl

theorem arr2_cur2 {n0 n1 : Nat} (v : (⟨2, ![n0, n1]⟩ : Shape).Idx → EReal) : arr2 (cur2 v) = v :=
  funext fun i => (congrArg v (eq_ix2 i)).symm

def aggK (a1 : Arr S2x800000 .i32) (a6 a8 : S3x96x96.Idx → EReal) (a7 : S3x96.Idx → EReal) (ℓ : Fin 3)
    (h : Fin 100000 → Fin 96 → EReal) : Fin 100000 → Fin 96 → EReal :=
  combS (cur2 (summedK a1 (takeK (arr2 h) a1))) (fun p => Ideal.div 1 (max (cur1 (degK a1) p) 1)) h
    (fun t q => a6 (ix3 ℓ t q)) (fun q => a7 (ix2 ℓ q)) (fun t q => a8 (ix3 ℓ t q))

def layerK (a1 : Arr S2x800000 .i32) (a6 a8 : S3x96x96.Idx → EReal) (a7 a9 a10 : S3x96.Idx → EReal) (ℓ : Fin 3)
    (h : Fin 100000 → Fin 96 → EReal) : Fin 100000 → Fin 96 → EReal :=
  bnS (aggK a1 a6 a8 a7 ℓ h) (meanS (aggK a1 a6 a8 a7 ℓ h)) (varK (aggK a1 a6 a8 a7 ℓ h))
    (fun q => cur2 a9 ℓ q) (fun q => cur2 a10 ℓ q)

def featK (a0 : S100000x64.Idx → EReal) (a1 : Arr S2x800000 .i32) (a4 : S64x96.Idx → EReal) (a5 : S96.Idx → EReal)
    (a6 a8 : S3x96x96.Idx → EReal) (a7 a9 a10 : S3x96.Idx → EReal) : Fin 100000 → Fin 96 → EReal :=
  layerK a1 a6 a8 a7 a9 a10 2 (layerK a1 a6 a8 a7 a9 a10 1 (layerK a1 a6 a8 a7 a9 a10 0
    (embS (cur2 a0) (cur2 a4) (cur1 a5))))

def resultK (a0 : S100000x64.Idx → EReal) (a1 : Arr S2x800000 .i32) (a3 : S512.Idx → BitVec 32)
    (a4 : S64x96.Idx → EReal) (a5 : S96.Idx → EReal) (a6 a8 : S3x96x96.Idx → EReal) (a7 a9 a10 : S3x96.Idx → EReal)
    (a11 : S96x96.Idx → EReal) (a12 : S96.Idx → EReal) (a13 : S96x1.Idx → EReal) (a14 : S1.Idx → EReal) :
    Fin 512 → Fin 1 → EReal :=
  headS (cur2 (takeC (arr2 (featK a0 a1 a4 a5 a6 a8 a7 a9 a10)) a3)) (cur2 a11) (cur1 a12) (cur2 a13) (cur1 a14)

theorem layer_closed {a1 : Arr S2x800000 .i32} {a6 a8 : S3x96x96.Idx → EReal} {a7 a9 a10 : S3x96.Idx → EReal} (ℓ : Fin 3)
    {harr Y Yo Y' out outo summed hbuf : S100000x96.Idx → EReal} {taken : S800000x96.Idx → EReal}
    {invdeg : S100000x1.Idx → EReal} {wl wr : S96x96.Idx → EReal} {bl s1 s1o s2 s2o mn vr g b : S1x96.Idx → EReal}
    (hy : cur2 Yo = combS (cur2 summed) (fun p => cur2 invdeg p 0) (cur2 hbuf) (cur2 wl) (fun q => cur2 bl 0 q) (cur2 wr))
    (hs1 : ∀ q, cur2 s1o 0 q = colSum (cur2 Yo) q) (hs2 : ∀ q, cur2 s2o 0 q = colSumSq (cur2 Yo) q)
    (hout : cur2 outo = bnS (cur2 Y') (fun q => cur2 mn 0 q) (fun q => cur2 vr 0 q) (fun q => cur2 g 0 q) (fun q => cur2 b 0 q))
    (hsum : summed = summedK a1 taken) (htake : taken = takeK harr a1)
    (hinv : ∀ p, cur2 invdeg p 0 = Ideal.div 1 (max (cur1 (degK a1) p) 1)) (hh : hbuf = harr)
    (hwl : ∀ t q, cur2 wl t q = a6 (ix3 ℓ t q)) (hbl : ∀ q, cur2 bl 0 q = a7 (ix2 ℓ q)) (hwr : ∀ t q, cur2 wr t q = a8 (ix3 ℓ t q))
    (hmn : ∀ q, cur2 mn 0 q = Ideal.div (cur2 s1 0 q) nRows)
    (hvr : ∀ q, cur2 vr 0 q = max (Ideal.div (cur2 s2 0 q) nRows - Ideal.div (cur2 s1 0 q) nRows * Ideal.div (cur2 s1 0 q) nRows) 0)
    (hg : ∀ q, cur2 g 0 q = cur2 a9 ℓ q) (hb : ∀ q, cur2 b 0 q = cur2 a10 ℓ q) (hk : Y' = Y)
    (eY : Y = Yo) (e1 : s1 = s1o) (e2 : s2 = s2o) (eo : out = outo) :
    cur2 out = layerK a1 a6 a8 a7 a9 a10 ℓ (cur2 harr) := by
  subst Yo s1o s2o outo summed taken hbuf Y'
  have e : cur2 Y = aggK a1 a6 a8 a7 ℓ (cur2 harr) := by
    rw [hy, aggK, arr2_cur2, (funext hinv : (fun p => cur2 invdeg p 0) = _),
      (funext fun t => funext (hwl t) : cur2 wl = _), (funext hbl : (fun q => cur2 bl 0 q) = _),
      (funext fun t => funext (hwr t) : cur2 wr = _)]
  rw [hout, layerK, ← e, (funext hg : (fun q => cur2 g 0 q) = _), (funext hb : (fun q => cur2 b 0 q) = _),
    (funext fun q => (hmn q).trans (congrArg (Ideal.div · nRows) (hs1 q)) : (fun q => cur2 mn 0 q) = meanS (cur2 Y)),
    (funext fun q => by rw [hvr q, hs1 q, hs2 q]; rfl : (fun q => cur2 vr 0 q) = varK (cur2 Y))]

theorem upd_ne {W : Valuation τ sig (Elt Ideal)} {r s : Ref sig .tc} (h : r ≠ s) (v) :
    Function.update W s v r = W r := Function.update_of_ne (StableHlo.devRef_ne_of_ne h) v W

variable (m : (ℓ : Loc nD τ sig) → Buf (Elt Ideal) ℓ) (outs : Gen.Outs (F := Ideal)) (c : Dev nD)

abbrev a0 : S100000x64.Idx → EReal := m ((c : Thread nD τ).loc main_arg0)
abbrev a1 : S2x800000.Idx → BitVec 32 := m ((c : Thread nD τ).loc main_arg1)
abbrev a3 : S512.Idx → BitVec 32 := m ((c : Thread nD τ).loc main_arg3)
abbrev a4 : S64x96.Idx → EReal := m ((c : Thread nD τ).loc main_arg4)
abbrev a5 : S96.Idx → EReal := m ((c : Thread nD τ).loc main_arg5)
abbrev a6 : S3x96x96.Idx → EReal := m ((c : Thread nD τ).loc main_arg6)
abbrev a7 : S3x96.Idx → EReal := m ((c : Thread nD τ).loc main_arg7)
abbrev a8 : S3x96x96.Idx → EReal := m ((c : Thread nD τ).loc main_arg8)
abbrev a9 : S3x96.Idx → EReal := m ((c : Thread nD τ).loc main_arg9)
abbrev a10 : S3x96.Idx → EReal := m ((c : Thread nD τ).loc main_arg10)
abbrev a11 : S96x96.Idx → EReal := m ((c : Thread nD τ).loc main_arg11)
abbrev a12 : S96.Idx → EReal := m ((c : Thread nD τ).loc main_arg12)
abbrev a13 : S96x1.Idx → EReal := m ((c : Thread nD τ).loc main_arg13)
abbrev a14 : S1.Idx → EReal := m ((c : Thread nD τ).loc main_arg14)

structure RegionVals : Prop where
  r0 : cur2 (outs 2 main_v5 c) = embS (cur2 (Gen.V1 m c main_arg0)) (cur2 (Gen.V1 m c main_arg4))
    (fun q => cur2 (Gen.V1 m c main_v4) 0 q)
  r1_y : cur2 (outs 6 main_v26_0 c) = combS (cur2 (Gen.V5 m outs c main_v18)) (fun p => cur2 (Gen.V5 m outs c main_v14) p 0)
    (cur2 (Gen.V5 m outs c main_v5)) (cur2 (Gen.V5 m outs c main_v20)) (fun q => cur2 (Gen.V5 m outs c main_v25) 0 q)
    (cur2 (Gen.V5 m outs c main_v24))
  r1_s : ∀ q, cur2 (outs 6 main_v26_1 c) 0 q = colSum (cur2 (outs 6 main_v26_0 c)) q
  r1_q : ∀ q, cur2 (outs 6 main_v26_2 c) 0 q = colSumSq (cur2 (outs 6 main_v26_0 c)) q
  r2 : cur2 (outs 8 main_v45 c) = bnS (cur2 (Gen.V7 m outs c main_v26_0)) (fun q => cur2 (Gen.V7 m outs c main_v41) 0 q)
    (fun q => cur2 (Gen.V7 m outs c main_v42) 0 q) (fun q => cur2 (Gen.V7 m outs c main_v43) 0 q)
    (fun q => cur2 (Gen.V7 m outs c main_v44) 0 q)
  r3_y : cur2 (outs 11 main_v57_0 c) = combS (cur2 (Gen.V10 m outs c main_v49)) (fun p => cur2 (Gen.V10 m outs c main_v14) p 0)
    (cur2 (Gen.V10 m outs c main_v45)) (cur2 (Gen.V10 m outs c main_v51)) (fun q => cur2 (Gen.V10 m outs c main_v56) 0 q)
    (cur2 (Gen.V10 m outs c main_v55))
  r3_s : ∀ q, cur2 (outs 11 main_v57_1 c) 0 q = colSum (cur2 (outs 11 main_v57_0 c)) q
  r3_q : ∀ q, cur2 (outs 11 main_v57_2 c) 0 q = colSumSq (cur2 (outs 11 main_v57_0 c)) q
  r4 : cur2 (outs 13 main_v76 c) = bnS (cur2 (Gen.V12 m outs c main_v57_0)) (fun q => cur2 (Gen.V12 m outs c main_v72) 0 q)
    (fun q => cur2 (Gen.V12 m outs c main_v73) 0 q) (fun q => cur2 (Gen.V12 m outs c main_v74) 0 q)
    (fun q => cur2 (Gen.V12 m outs c main_v75) 0 q)
  r5_y : cur2 (outs 16 main_v88_0 c) = combS (cur2 (Gen.V15 m outs c main_v80)) (fun p => cur2 (Gen.V15 m outs c main_v14) p 0)
    (cur2 (Gen.V15 m outs c main_v76)) (cur2 (Gen.V15 m outs c main_v82)) (fun q => cur2 (Gen.V15 m outs c main_v87) 0 q)
    (cur2 (Gen.V15 m outs c main_v86))
  r5_s : ∀ q, cur2 (outs 16 main_v88_1 c) 0 q = colSum (cur2 (outs 16 main_v88_0 c)) q
  r5_q : ∀ q, cur2 (outs 16 main_v88_2 c) 0 q = colSumSq (cur2 (outs 16 main_v88_0 c)) q
  r6 : cur2 (outs 18 main_v107 c) = bnS (cur2 (Gen.V17 m outs c main_v88_0)) (fun q => cur2 (Gen.V17 m outs c main_v103) 0 q)
    (fun q => cur2 (Gen.V17 m outs c main_v104) 0 q) (fun q => cur2 (Gen.V17 m outs c main_v105) 0 q)
    (fun q => cur2 (Gen.V17 m outs c main_v106) 0 q)
  r7 : cur2 (outs 21 main_v111 c) = headS (cur2 (Gen.V20 m outs c main_v108)) (cur2 (Gen.V20 m outs c main_arg11))
    (fun t => cur2 (Gen.V20 m outs c main_v109) 0 t) (cur2 (Gen.V20 m outs c main_arg13))
    (fun r => cur2 (Gen.V20 m outs c main_v110) 0 r)

variable {m outs c}

variable (H : RegionVals m outs c)
include H

theorem stage0 : cur2 (Gen.V2 m outs c main_v5) = embS (cur2 (a0 m c)) (cur2 (a4 m c)) (cur1 (a5 m c)) := by
  rw [show Gen.V2 m outs c main_v5 = _ from Function.update_self _ _ _, H.r0, Gen.V1_of m c main_arg0 (by decide),
    Gen.V1_of m c main_arg4 (by decide)]
  exact congrArg _ (funext (hostOps0_bias m c))

variable (hsrc : ∀ e : Fin 800000, 0 ≤ (a1 m c (ix2 0 e)).toInt ∧ (a1 m c (ix2 0 e)).toInt < 100000)
include hsrc

theorem feat1_closed : cur2 (Gen.V8 m outs c main_v45) = layerK (a1 m c) (a6 m c) (a8 m c) (a7 m c) (a9 m c) (a10 m c) 0
    (embS (cur2 (a0 m c)) (cur2 (a4 m c)) (cur1 (a5 m c))) := by
  rw [← stage0 H]
  exact layer_closed 0 H.r1_y H.r1_s H.r1_q H.r2 (summed0 m outs c) (take0 m outs c hsrc) (fun p => by rw [invdeg0, deg0])
    (feat0 m outs c) (wl0 m outs c) (bl0 m outs c) (wr0 m outs c) (hostOps2_mean m outs c) (hostOps2_var m outs c)
    (hostOps2_arg9row m outs c) (hostOps2_arg10row m outs c) (hostOps2_keep m outs c)
    ((upd_ne (by decide) _).trans ((upd_ne (by decide) _).trans (Function.update_self _ _ _))) ((upd_ne (by decide) _).trans (Function.update_self _ _ _))
    (Function.update_self _ _ _) (Function.update_self _ _ _)

theorem feat2_closed : cur2 (Gen.V13 m outs c main_v76) = layerK (a1 m c) (a6 m c) (a8 m c) (a7 m c) (a9 m c) (a10 m c) 1
    (cur2 (Gen.V8 m outs c main_v45)) :=
  layer_closed 1 H.r3_y H.r3_s H.r3_q H.r4 (summed1 m outs c) (take1 m outs c hsrc) (invdeg1 m outs c)
    (feat1 m outs c) (wl1 m outs c) (bl1 m outs c) (wr1 m outs c) (hostOps4_mean m outs c) (hostOps4_var m outs c)
    (hostOps4_arg9row m outs c) (hostOps4_arg10row m outs c) (hostOps4_keep m outs c)
    ((upd_ne (by decide) _).trans ((upd_ne (by decide) _).trans (Function.update_self _ _ _))) ((upd_ne (by decide) _).trans (Function.update_self _ _ _))
    (Function.update_self _ _ _) (Function.update_self _ _ _)

theorem feat3_closed : cur2 (Gen.V18 m outs c main_v107) = layerK (a1 m c) (a6 m c) (a8 m c) (a7 m c) (a9 m c) (a10 m c) 2
    (cur2 (Gen.V13 m outs c main_v76)) :=
  layer_closed 2 H.r5_y H.r5_s H.r5_q H.r6 (summed2 m outs c) (take2 m outs c hsrc) (invdeg2 m outs c)
    (feat2 m outs c) (wl2 m outs c) (bl2 m outs c) (wr2 m outs c) (hostOps6_mean m outs c) (hostOps6_var m outs c)
    (hostOps6_arg9row m outs c) (hostOps6_arg10row m outs c) (hostOps6_keep m outs c)
    ((upd_ne (by decide) _).trans ((upd_ne (by decide) _).trans (Function.update_self _ _ _))) ((upd_ne (by decide) _).trans (Function.update_self _ _ _))
    (Function.update_self _ _ _) (Function.update_self _ _ _)

omit hsrc

theorem kernel_value
    (D : Cert.PreDecode.Decoded (a0 m c) (a1 m c) (a3 m c) (a4 m c) (a5 m c) (a6 m c) (a7 m c) (a8 m c) (a9 m c)
      (a10 m c) (a11 m c) (a12 m c) (a13 m c) (a14 m c)) :
    cur2 (Gen.V21 m outs c main_v111)
      = resultK (a0 m c) (a1 m c) (a3 m c) (a4 m c) (a5 m c) (a6 m c) (a8 m c) (a7 m c) (a9 m c) (a10 m c)
          (a11 m c) (a12 m c) (a13 m c) (a14 m c) := by
  rw [resultK, featK, ← feat1_closed H D.hsrc, ← feat2_closed H D.hsrc, ← feat3_closed H D.hsrc, arr2_cur2,
    show Gen.V21 m outs c main_v111 = _ from Function.update_self _ _ _, H.r7,
    hostOps7_take m outs c D.hcen, ← Gen.V21_of m outs c main_arg11 (by decide), Gen.V21_main_arg11,
    ← Gen.V21_of m outs c main_arg13 (by decide), Gen.V21_main_arg13,
    (funext (hostOps7_1_bias1 m outs c) : (fun t => cur2 (Gen.V20 m outs c main_v109) 0 t) = _),
    (funext (hostOps7_1_bias2 m outs c) : (fun r => cur2 (Gen.V20 m outs c main_v110) 0 r) = _)]

end Cert.KernelIdeal.Asm

end
-- ==== Proof.LibMoments.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Fin
import Mathlib.Analysis.SpecialFunctions.Pow.Real
import Mathlib.Tactic.Ring
import Mathlib.Tactic.FieldSimp

namespace Cert.LibMoments

open scoped BigOperators
open Idealize.ShloMosaic

theorem coe_finset_sum {ι : Type*} (s : Finset ι) (r : ι → ℝ) :
    ((∑ i ∈ s, r i : ℝ) : EReal) = ∑ i ∈ s, ((r i : ℝ) : EReal) := by
  classical
  induction s using Finset.induction_on with
  | empty => simp
  | insert a s ha ih => rw [Finset.sum_insert ha, Finset.sum_insert ha, EReal.coe_add, ih]

def IsReal (x : EReal) : Prop := ∃ r : ℝ, x = (r : EReal)

namespace IsReal

theorem coe (r : ℝ) : IsReal (r : EReal) := ⟨r, rfl⟩

theorem zero : IsReal 0 := ⟨0, EReal.coe_zero.symm⟩

theorem one : IsReal 1 := ⟨1, EReal.coe_one.symm⟩
variable {x y : EReal}

theorem of₂ {g : EReal → EReal → EReal} {f : ℝ → ℝ → ℝ} (h : ∀ a b : ℝ, ((f a b : ℝ) : EReal) = g a b)
    (hx : IsReal x) (hy : IsReal y) : IsReal (g x y) := by
  obtain ⟨a, rfl⟩ := hx; obtain ⟨b, rfl⟩ := hy; exact ⟨_, (h a b).symm⟩

theorem add (hx : IsReal x) (hy : IsReal y) : IsReal (x + y) := of₂ EReal.coe_add hx hy

theorem sub (hx : IsReal x) (hy : IsReal y) : IsReal (x - y) := of₂ EReal.coe_sub hx hy

theorem mul (hx : IsReal x) (hy : IsReal y) : IsReal (x * y) := of₂ EReal.coe_mul hx hy

theorem max (hx : IsReal x) (hy : IsReal y) : IsReal (max x y) := by
  rcases le_total x y with h | h
  · rwa [max_eq_right h]
  · rwa [max_eq_left h]

theorem mul_inv_coe (hx : IsReal x) (c : ℝ) : IsReal (x * ((c : ℝ) : EReal)⁻¹) :=
  hx.mul ⟨c⁻¹, (EReal.coe_inv c).symm⟩

theorem finset_sum {ι : Type*} (s : Finset ι) (f : ι → EReal) (h : ∀ i ∈ s, IsReal (f i)) :
    IsReal (∑ i ∈ s, f i) :=
  Finset.sum_induction f IsReal (fun _ _ => IsReal.add) IsReal.zero h

theorem sum {ι : Type*} [Fintype ι] (f : ι → EReal) (h : ∀ i, IsReal (f i)) :
    IsReal (∑ i, f i) :=
  finset_sum _ f fun i _ => h i
end IsReal

theorem div_coe_eq_mul_inv {c : ℝ} (hc : c ≠ 0) (x : EReal) :
    Ideal.div x ((c : ℝ) : EReal) = x * ((c : ℝ) : EReal)⁻¹ := by
  rw [Ideal.div, if_neg (by exact_mod_cast hc)]

theorem IsReal.div_coe {x : EReal} (hx : IsReal x) {c : ℝ} (hc : c ≠ 0) :
    IsReal (Ideal.div x ((c : ℝ) : EReal)) := by
  rw [div_coe_eq_mul_inv hc]; exact hx.mul_inv_coe c

theorem rsqrt_coe_pos {v : ℝ} (hv : 0 < v) :
    Ideal.rsqrt ((v : ℝ) : EReal) = (((Real.sqrt v)⁻¹ : ℝ) : EReal) := by
  rw [Ideal.rsqrt_coe, if_neg (not_lt.2 hv.le), if_neg hv.ne']

theorem IsReal.rsqrt_coe_pos {v : ℝ} (hv : 0 < v) : IsReal (Ideal.rsqrt ((v : ℝ) : EReal)) :=
  ⟨_, Cert.LibMoments.rsqrt_coe_pos hv⟩

theorem rsqrt_coe_pos' {v : ℝ} (hv : 0 < v) :
    ∃ w : ℝ, 0 < w ∧ Ideal.rsqrt ((v : ℝ) : EReal) = (w : EReal) :=
  ⟨(Real.sqrt v)⁻¹, inv_pos.2 (Real.sqrt_pos.2 hv), rsqrt_coe_pos hv⟩

section Variance
variable {ι : Type*} [Fintype ι]

theorem real_variance_two_forms (r : ι → ℝ) (N : ℝ) (hN : N ≠ 0)
    (hcard : (Fintype.card ι : ℝ) = N) :
    (∑ i, r i * r i) * N⁻¹ - (∑ i, r i) * N⁻¹ * ((∑ i, r i) * N⁻¹)
      = (∑ i, (r i - (∑ i, r i) * N⁻¹) * (r i - (∑ i, r i) * N⁻¹)) * N⁻¹ := by
  set S := ∑ i, r i with hS
  set μ := S * N⁻¹ with hμ
  have h1 : ∑ i, (r i - μ) * (r i - μ) = (∑ i, r i * r i) - 2 * μ * S + N * (μ * μ) := by
    have h2 : ∀ i, (r i - μ) * (r i - μ) = r i * r i - 2 * μ * r i + μ * μ := fun i => by ring
    simp only [h2]
    rw [Finset.sum_add_distrib, Finset.sum_sub_distrib, ← Finset.mul_sum, Finset.sum_const,
      Finset.card_univ, nsmul_eq_mul, hcard]
  have h3 : S = μ * N := by rw [hμ]; field_simp
  rw [h1, h3]
  field_simp
  ring

theorem variance_two_forms_of_isReal (x : ι → EReal) (hx : ∀ i, IsReal (x i)) (N : ℝ) (hN : N ≠ 0)
    (hcard : (Fintype.card ι : ℝ) = N) (S Q μ : EReal) (hS : S = ∑ i, x i)
    (hQ : Q = ∑ i, x i * x i) (hμ : μ = S * ((N : ℝ) : EReal)⁻¹) :
    Q * ((N : ℝ) : EReal)⁻¹ - μ * μ = (∑ i, (x i - μ) * (x i - μ)) * ((N : ℝ) : EReal)⁻¹ := by
  choose r hr using hx
  obtain rfl : x = fun i => ((r i : ℝ) : EReal) := funext hr
  subst hμ; subst hS; subst hQ
  simp only [← EReal.coe_mul, ← coe_finset_sum, ← EReal.coe_inv, ← EReal.coe_sub]
  rw [real_variance_two_forms r N hN hcard]

theorem variance_nonneg (x : ι → EReal) (hx : ∀ i, IsReal (x i)) (μ : EReal) (hμ : IsReal μ)
    (N : ℝ) (hN : 0 < N) :
    ∃ v : ℝ, 0 ≤ v ∧ (∑ i, (x i - μ) * (x i - μ)) * ((N : ℝ) : EReal)⁻¹ = ((v : ℝ) : EReal) := by
  choose r hr using hx
  obtain rfl : x = fun i => ((r i : ℝ) : EReal) := funext hr
  obtain ⟨m, rfl⟩ := hμ
  refine ⟨(∑ i, (r i - m) * (r i - m)) * N⁻¹,
    mul_nonneg (Finset.sum_nonneg fun i _ => mul_self_nonneg _) (inv_nonneg.2 hN.le), ?_⟩
  simp only [← EReal.coe_sub, ← EReal.coe_mul, ← coe_finset_sum, ← EReal.coe_inv]

theorem add_eps_pos {y : EReal} (hy : ∃ v : ℝ, 0 ≤ v ∧ y = ((v : ℝ) : EReal)) {ε : ℝ}
    (hε : 0 < ε) : ∃ w : ℝ, 0 < w ∧ y + ((ε : ℝ) : EReal) = ((w : ℝ) : EReal) := by
  obtain ⟨v, hv, rfl⟩ := hy
  exact ⟨v + ε, add_pos_of_nonneg_of_pos hv hε, (EReal.coe_add v ε).symm⟩

theorem rsqrt_add_eps_pos {y : EReal} (hy : ∃ v : ℝ, 0 ≤ v ∧ y = ((v : ℝ) : EReal)) {ε : ℝ}
    (hε : 0 < ε) :
    ∃ w : ℝ, 0 < w ∧ Ideal.rsqrt (y + ((ε : ℝ) : EReal)) = ((w : ℝ) : EReal) := by
  obtain ⟨u, hu, e⟩ := add_eps_pos hy hε
  rw [e]; exact rsqrt_coe_pos' hu

theorem IsReal.rsqrt_add_eps {y : EReal} (hy : ∃ v : ℝ, 0 ≤ v ∧ y = ((v : ℝ) : EReal)) {ε : ℝ}
    (hε : 0 < ε) : IsReal (Ideal.rsqrt (y + ((ε : ℝ) : EReal))) := by
  obtain ⟨w, _, e⟩ := rsqrt_add_eps_pos hy hε
  exact ⟨w, e⟩

end Variance

section Tiles
variable {M : Type*} [AddCommMonoid M]

def acc (z : M) (s : ℕ → M) : ℕ → M
  | 0 => z
  | t + 1 => acc z s t + s t

end Tiles

theorem IsReal.div {x y : EReal} (hx : IsReal x) (hy : IsReal y) (hy0 : y ≠ 0) :
    IsReal (Ideal.div x y) := by
  obtain ⟨c, rfl⟩ := hy
  exact hx.div_coe (by rintro rfl; exact hy0 EReal.coe_zero)

theorem IsReal.max_zero {x : EReal} (hx : IsReal x) : IsReal (Max.max x 0) := hx.max IsReal.zero

theorem IsReal.acc {z : EReal} (hz : IsReal z) (s : ℕ → EReal) (A : ℕ)
    (hs : ∀ t, t < A → IsReal (s t)) : IsReal (acc z s A) := by
  induction A with
  | zero => exact hz
  | succ n ih => exact (ih fun t ht => hs t (Nat.lt_succ_of_lt ht)).add (hs n (Nat.lt_succ_self n))

end Cert.LibMoments
-- ==== Proof.LibRealArr.lean ====
import proofs.«402019_j40432822124917_2_alg».proof.Proof.LibMoments
import Idealize.ShloMosaic.PureOps.Ideal
import Idealize.ShloMosaic.PureOps.Ideal.Laws
import Idealize.ShloMosaic.Lib.ValueIdx
import Idealize.ShloMosaic.Lib.StableHlo

noncomputable section

namespace Cert.LibRealArr

open scoped BigOperators
open Idealize.ShloMosaic
open Cert.LibMoments

def RealArr {S : Shape} (f : S.Idx → EReal) : Prop := ∀ i, IsReal (f i)

theorem RealArr.apply {S : Shape} {f : S.Idx → EReal} (h : RealArr f) (i : S.Idx) : IsReal (f i) := h i

section Pointwise
variable {S : Shape} {φ : FTy} {x y : FVec Ideal S φ}

theorem RealArr.maximumf (hx : RealArr x) (hy : RealArr y) : RealArr (maximumf x y) :=
  fun i => (hx i).max (hy i)

end Pointwise

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul] <;> norm_num

theorem eps_pos : (0 : ℝ) < (10995116 : ℝ) * (2 : ℝ) ^ (-40 : ℤ) := by positivity

theorem ofBits_eps_pos : ∃ ε : ℝ, 0 < ε ∧ Ideal.ofBits .f32 0x3727C5AC#32 = ((ε : ℝ) : EReal) :=
  ⟨_, eps_pos, by simp [Ideal.ofBits, Ideal.ieee, -EReal.coe_mul] <;> norm_num⟩

section Layout
variable {s t : Shape}

theorem RealArr.broadcastInDim {x : s.Idx → EReal} (hx : RealArr x) (dims : Fin s.rank → Fin t.rank)
    (h : s.BroadcastsInDim t dims) : RealArr (broadcastInDim t dims h x) :=
  fun _ => hx _

end Layout

section Sums

theorem RealArr.scatterAdd {s si su : Shape} {φ : FTy} {w : Nat} {x : FVec Ideal s φ}
    {upd : FVec Ideal su φ} (hx : RealArr x) (hu : RealArr upd) (d : ScatterDims s si su)
    (idx : IVec si w) : RealArr (Host.scatterAdd d x idx upd) :=
  fun i => (hx i).add (IsReal.finset_sum _ _ fun j _ => hu j)

end Sums

theorem RealArr.gather {s si t : Shape} {w : Nat} {x : s.Idx → EReal} (hx : RealArr x)
    (d : GatherDims s si t) (idx : IVec si w) : RealArr (Host.gather d x idx) :=
  fun _ => hx _

section Entries
variable {s t : Shape} {α : Type} {P : α → Prop}

theorem broadcastInDim_constant_apply {φ : FTy} (w : BitVec φ.bits) (dims : Fin s.rank → Fin t.rank)
    (h : s.BroadcastsInDim t dims) (j : t.Idx) :
    broadcastInDim t dims h (constant (F := Ideal) s φ w) j = Ideal.ofBits φ w := rfl

end Entries

section Bounds
variable {S : Shape} {φ : FTy} {x y : FVec Ideal S φ}

theorem one_le_maximumf_one (hx : RealArr x) (hy : ∀ i, y i = ((1 : ℝ) : EReal)) :
    ∀ i, ∃ c : ℝ, 1 ≤ c ∧ maximumf x y i = ((c : ℝ) : EReal) := fun i => by
  obtain ⟨a, ha⟩ := hx i
  refine ⟨max a 1, le_max_right _ _, ?_⟩
  show max (x i) (y i) = _
  rw [ha, hy i]
  rcases le_total a 1 with h | h
  · rw [max_eq_right h, max_eq_right (EReal.coe_le_coe_iff.2 h)]
  · rw [max_eq_left h, max_eq_left (EReal.coe_le_coe_iff.2 h)]

theorem realArr_of_nonneg (hx : ∀ i, ∃ v : ℝ, 0 ≤ v ∧ x i = ((v : ℝ) : EReal)) : RealArr x := fun i => by
  obtain ⟨v, _, e⟩ := hx i
  exact ⟨v, e⟩

theorem nonneg_scatterAdd {s si su : Shape} {w : Nat} (d : ScatterDims s si su) {a : FVec Ideal s φ}
    (idx : IVec si w) {upd : FVec Ideal su φ}
    (ha : ∀ i, ∃ v : ℝ, 0 ≤ v ∧ a i = ((v : ℝ) : EReal))
    (hu : ∀ j, ∃ v : ℝ, 0 ≤ v ∧ upd j = ((v : ℝ) : EReal)) :
    ∀ i, ∃ v : ℝ, 0 ≤ v ∧ Host.scatterAdd d a idx upd i = ((v : ℝ) : EReal) := fun i => by
  choose r hr0 hr using hu
  obtain ⟨v, hv, e⟩ := ha i
  refine ⟨v + ∑ j ∈ Finset.univ.filter (fun j => d.resultIdx? j idx = some i), r j,
    add_nonneg hv (Finset.sum_nonneg fun j _ => hr0 j), ?_⟩
  show a i + ∑ j ∈ Finset.univ.filter (fun j => d.resultIdx? j idx = some i), upd j = _
  rw [e, EReal.coe_add, coe_finset_sum]
  exact congrArg _ (Finset.sum_congr rfl fun j _ => hr j)

end Bounds

end Cert.LibRealArr

end
-- ==== Proof.Math.lean ====
import proofs.«402019_j40432822124917_2_alg».proof.Proof.Spec
import proofs.«402019_j40432822124917_2_alg».proof.Proof.LibMoments
import proofs.«402019_j40432822124917_2_alg».proof.Proof.LibRealArr

noncomputable section

namespace Cert.Spec

open scoped BigOperators
open Idealize.ShloMosaic
open Cert.LibMoments Cert.LibRealArr

theorem Real2.isReal {n0 n1 : Nat} {y : Fin n0 → Fin n1 → EReal} (h : Real2 y) (p : Fin n0) (q : Fin n1) :
    IsReal (y p q) := h p q

theorem Real1.isReal {n0 : Nat} {y : Fin n0 → EReal} (h : Real1 y) (p : Fin n0) : IsReal (y p) := h p

theorem div_nRows (x : EReal) : Ideal.div x nRows = x * ((100000 : ℝ) : EReal)⁻¹ := by
  rw [show nRows = ((100000 : ℝ) : EReal) by unfold nRows; simp [Ideal.ofBits, Ideal.ieee, -EReal.coe_mul] <;> norm_num]
  exact div_coe_eq_mul_inv (by norm_num) x

theorem real2_cur2 {n0 n1 : Nat} {v : (⟨2, ![n0, n1]⟩ : Shape).Idx → EReal} (hv : RealArr v) :
    Real2 (cur2 v) :=
  fun p q => hv (ValueIdx.ix2 p q)

theorem realArr_of_real2_cur2 {n0 n1 : Nat} {v : (⟨2, ![n0, n1]⟩ : Shape).Idx → EReal}
    (hv : Real2 (cur2 v)) : RealArr v := by
  intro j
  obtain ⟨r, hr⟩ := hv (j 0) (j 1)
  exact ⟨r, (congrArg v (ValueIdx.eq_ix2 j)).trans hr⟩

theorem real1_cur1 {n0 : Nat} {v : (⟨1, ![n0]⟩ : Shape).Idx → EReal} (hv : RealArr v) :
    Real1 (cur1 v) :=
  fun p => hv (ValueIdx.ix1 p)

theorem mul_one_div_eq_div {d : ℝ} (hd : d ≠ 0) (x : EReal) :
    x * Ideal.div 1 ((d : ℝ) : EReal) = Ideal.div x ((d : ℝ) : EReal) := by
  rw [div_coe_eq_mul_inv hd, div_coe_eq_mul_inv hd, one_mul]

theorem comb_eq {s : Fin 100000 → Fin 96 → EReal} {d : Fin 100000 → EReal}
    {h : Fin 100000 → Fin 96 → EReal} {wl : Fin 96 → Fin 96 → EReal} {bl : Fin 96 → EReal}
    {wr : Fin 96 → Fin 96 → EReal} (hd : ∀ p, ∃ r : ℝ, 1 ≤ r ∧ d p = (r : EReal)) :
    combS s (fun p => Ideal.div 1 (d p)) h wl bl wr = combR s d h wl bl wr := by
  funext p q
  obtain ⟨r, hr1, hr⟩ := hd p
  have hr0 : r ≠ 0 := (lt_of_lt_of_le one_pos hr1).ne'
  show ((∑ t : Fin 96, (s p t * Ideal.div 1 (d p)) * wl t q) + bl q) + ∑ t : Fin 96, h p t * wr t q
     = ((∑ t : Fin 96, Ideal.div (s p t) (d p) * wl t q) + bl q) + ∑ t : Fin 96, h p t * wr t q
  rw [hr]
  simp only [mul_one_div_eq_div hr0]

theorem real1_meanS {y : Fin 100000 → Fin 96 → EReal} (hy : Real2 y) : Real1 (meanS y) := by
  intro q
  show IsReal (Ideal.div (colSum y q) nRows)
  rw [div_nRows]
  exact (IsReal.sum _ fun p => hy p q).mul_inv_coe _

theorem varR_nonneg {y : Fin 100000 → Fin 96 → EReal} (hy : Real2 y) (q : Fin 96) :
    ∃ v : ℝ, 0 ≤ v ∧ varR y q = ((v : ℝ) : EReal) := by
  unfold varR
  rw [div_nRows]
  exact variance_nonneg (fun p => y p q) (fun p => hy p q) (meanS y q) (real1_meanS hy q) 100000
    (by norm_num)

theorem var_eq {y : Fin 100000 → Fin 96 → EReal} (hy : Real2 y) : varK y = varR y := by
  funext q
  obtain ⟨v, hv0, hv⟩ := varR_nonneg hy q
  show max (Ideal.div (colSumSq y q) nRows - meanS y q * meanS y q) 0 = varR y q
  rw [show Ideal.div (colSumSq y q) nRows - meanS y q * meanS y q = varR y q by
    unfold varR meanS
    simp only [div_nRows]
    exact variance_two_forms_of_isReal (fun p => y p q) (fun p => hy p q) 100000 (by norm_num)
      (by simp) (colSum y q) (colSumSq y q) _ rfl rfl rfl, hv]
  exact max_eq_left (EReal.coe_nonneg.2 hv0)

theorem real2_embS {x : Fin 100000 → Fin 64 → EReal} {w : Fin 64 → Fin 96 → EReal} {b : Fin 96 → EReal}
    (hx : Real2 x) (hw : Real2 w) (hb : Real1 b) : Real2 (embS x w b) :=
  fun p q => ((IsReal.sum _ fun t => (hx.isReal p t).mul (hw.isReal t q)).add (hb.isReal q)).max_zero

theorem real2_combR {s : Fin 100000 → Fin 96 → EReal} {d : Fin 100000 → EReal}
    {h : Fin 100000 → Fin 96 → EReal} {wl : Fin 96 → Fin 96 → EReal} {bl : Fin 96 → EReal}
    {wr : Fin 96 → Fin 96 → EReal} (hs : Real2 s) (hd : ∀ p, ∃ r : ℝ, 1 ≤ r ∧ d p = (r : EReal))
    (hh : Real2 h) (hwl : Real2 wl) (hbl : Real1 bl) (hwr : Real2 wr) :
    Real2 (combR s d h wl bl wr) := by
  rw [← comb_eq hd]
  intro p q
  obtain ⟨r, hr1, hr⟩ := hd p
  have hp : IsReal (Ideal.div 1 (d p)) := by rw [hr]; exact IsReal.one.div_coe (lt_of_lt_of_le one_pos hr1).ne'
  exact ((IsReal.sum _ fun t => ((hs.isReal p t).mul hp).mul (hwl.isReal t q)).add (hbl.isReal q)).add
    (IsReal.sum _ fun t => (hh.isReal p t).mul (hwr.isReal t q))

theorem real2_bnS {y : Fin 100000 → Fin 96 → EReal} {mean var g b : Fin 96 → EReal} (hy : Real2 y)
    (hm : Real1 mean) (hv : ∀ q, ∃ r : ℝ, 0 ≤ r ∧ var q = ((r : ℝ) : EReal)) (hg : Real1 g)
    (hb : Real1 b) : Real2 (bnS y mean var g b) := by
  intro p q
  obtain ⟨ε, hε, he⟩ := Cert.LibRealArr.ofBits_eps_pos
  obtain ⟨w, _, hw⟩ := rsqrt_add_eps_pos (hv q) hε
  rw [← show eps = ((ε : ℝ) : EReal) from he] at hw
  show IsReal (max ((((y p q - mean q) * Ideal.rsqrt (var q + eps)) * g q) + b q) 0)
  rw [hw]
  exact (((((hy.isReal p q).sub (hm.isReal q)).mul (IsReal.coe w)).mul (hg.isReal q)).add (hb.isReal q)).max_zero

section Host
variable {s si t su : Shape} {w : Nat}

theorem zeros_apply {s0 : Shape} (dims : Fin s0.rank → Fin t.rank) (h : s0.BroadcastsInDim t dims)
    (j : t.Idx) : broadcastInDim t dims h (constant (F := Ideal) s0 .f32 0x00000000#32) j = 0 :=
  (broadcastInDim_constant_apply _ dims h j).trans (ofBits_zero.trans EReal.coe_zero)

theorem ones_apply {s0 : Shape} (dims : Fin s0.rank → Fin t.rank) (h : s0.BroadcastsInDim t dims)
    (j : t.Idx) : broadcastInDim t dims h (constant (F := Ideal) s0 .f32 0x3F800000#32) j = 1 :=
  (broadcastInDim_constant_apply _ dims h j).trans (ofBits_one.trans EReal.coe_one)

theorem real_gather {v : s.Idx → EReal} (hv : ∀ i, ∃ r : ℝ, v i = (r : EReal))
    (d : GatherDims s si t) (idx : IVec si w) : ∀ j, ∃ r : ℝ, Host.gather d v idx j = (r : EReal) :=
  RealArr.gather hv d idx

theorem real_scatterAdd_zeros {s0 : Shape} {v : FVec Ideal su .f32} (hv : ∀ j, ∃ r : ℝ, v j = (r : EReal))
    (d : ScatterDims s si su) (idx : IVec si w) (dims : Fin s0.rank → Fin s.rank)
    (h : s0.BroadcastsInDim s dims) :
    ∀ i, ∃ r : ℝ, Host.scatterAdd d (broadcastInDim s dims h (constant (F := Ideal) s0 .f32 0x00000000#32))
      idx v i = (r : EReal) :=
  RealArr.scatterAdd (fun i => ⟨0, (zeros_apply dims h i).trans EReal.coe_zero.symm⟩) hv d idx

theorem one_le_max_degree_lit {s0 s1 s2 : Shape} (d : ScatterDims s si su) (idx : IVec si w)
    (dz : Fin s0.rank → Fin s.rank) (hz : s0.BroadcastsInDim s dz)
    (d1 : Fin s1.rank → Fin su.rank) (h1 : s1.BroadcastsInDim su d1)
    (d2 : Fin s2.rank → Fin s.rank) (h2 : s2.BroadcastsInDim s d2) :
    ∀ i, ∃ r : ℝ, 1 ≤ r ∧
      maximumf
        (Host.scatterAdd d (broadcastInDim s dz hz (constant (F := Ideal) s0 .f32 0x00000000#32)) idx
          (broadcastInDim su d1 h1 (constant (F := Ideal) s1 .f32 0x3F800000#32)))
        (broadcastInDim s d2 h2 (constant (F := Ideal) s2 .f32 0x3F800000#32)) i = (r : EReal) :=
  one_le_maximumf_one (realArr_of_nonneg (nonneg_scatterAdd d idx
      (fun i => ⟨0, le_rfl, (zeros_apply dz hz i).trans EReal.coe_zero.symm⟩)
      (fun j => ⟨1, zero_le_one, (ones_apply d1 h1 j).trans EReal.coe_one.symm⟩)))
    (fun i => (ones_apply d2 h2 i).trans EReal.coe_one.symm)

end Host

end Cert.Spec

end
-- ==== Proof.Glue.lean ====
import proofs.«402019_j40432822124917_2_alg».proof.Proof.Spec
import proofs.«402019_j40432822124917_2_alg».proof.Proof.Math

noncomputable section

namespace Cert.Spec

open scoped BigOperators
open Idealize.ShloMosaic

theorem layer_eq (h : Fin 100000 → Fin 96 → EReal) (hh : Real2 h) (s : Fin 100000 → Fin 96 → EReal) (hs : Real2 s)
    (r d : Fin 100000 → EReal) (hr : ∀ p, r p = Ideal.div 1 (d p))
    (hd : ∀ p, ∃ x : ℝ, 1 ≤ x ∧ d p = (x : EReal))
    (wl wr : Fin 96 → Fin 96 → EReal) (bl g b : Fin 96 → EReal)
    (hwl : Real2 wl) (hwr : Real2 wr) (hbl : Real1 bl) (hg : Real1 g) (hb : Real1 b) :
    bnS (combS s r h wl bl wr) (meanS (combS s r h wl bl wr)) (varK (combS s r h wl bl wr)) g b
      = bnS (combR s d h wl bl wr) (meanS (combR s d h wl bl wr)) (varR (combR s d h wl bl wr)) g b
    ∧ Real2 (bnS (combS s r h wl bl wr) (meanS (combS s r h wl bl wr)) (varK (combS s r h wl bl wr)) g b) := by
  obtain rfl : r = fun p => Ideal.div 1 (d p) := funext hr
  have hy : Real2 (combR s d h wl bl wr) := real2_combR hs hd hh hwl hbl hwr
  rw [comb_eq hd, var_eq hy]
  exact ⟨rfl, real2_bnS hy (real1_meanS hy) (varR_nonneg hy) hg hb⟩

end Cert.Spec

end
-- ==== Proof.Asm.Final.lean ====
import proofs.«402019_j40432822124917_2_alg».proof.Proof.KI.HostVals
import proofs.«402019_j40432822124917_2_alg».proof.Proof.KI.HostVals2
import proofs.«402019_j40432822124917_2_alg».proof.Proof.Ref.Read
import proofs.«402019_j40432822124917_2_alg».proof.Proof.Asm.Ref
import proofs.«402019_j40432822124917_2_alg».proof.Proof.Asm.Kernel
import proofs.«402019_j40432822124917_2_alg».proof.Proof.Glue
import proofs.«402019_j40432822124917_2_alg».proof.Proof.PreDecode

noncomputable section

namespace Cert.Asm

open Idealize.ShloMosaic Idealize.ShloMosaic.TcCoe Idealize.ShloMosaic.ValueIdx Idealize.SL.Sem
open Cert.Spec Cert.LibMoments Cert.LibRealArr
open Cert.ReferenceIdeal Cert.ReferenceIdeal.Facts₀ Cert.ReferenceIdeal.Facts
open Cert.ReferenceIdeal.Stages (T)
open Cert.KernelIdeal.Val (srcK dstK degK takeK summedK takeC)
open Cert.ReferenceIdeal.Asm (slab rowOf layerR yR smOf dgOf)
open Cert.KernelIdeal.Asm (layerK aggK featK resultK arr2_cur2)

theorem deg_apply (a1 : T Ideal S2x800000 .i32) (p : Fin 100000) : dgOf a1 p = max (cur1 (degK a1) p) 1 := by
  show maximumf (degK a1) (broadcastInDim S100000 ![] bcast_S_S100000 (constant (F := Ideal) S_ .f32 0x3F800000#32)) (ix1 p) = _
  rw [maximumf_apply, ones_apply]
  rfl

theorem select_slt_zero {sh : Shape} (hb : S_.BroadcastsInDim sh (![] : Fin 0 → Fin sh.rank)) (s t : T Ideal sh .i32)
    (h : ∀ e, 0 ≤ (s e).toInt) : select (cmpi .slt s (broadcastInDim sh ![] hb (constantI S_ 32 0#32))) t s = s := by
  funext e
  have hc : ¬ (cmpi .slt s (broadcastInDim sh ![] hb (constantI S_ 32 0#32)) e = 1#1) := fun hc => by
    have h1 : (s e).toInt < (broadcastInDim sh ![] hb (constantI S_ 32 0#32) e).toInt := IntOp.cmpi_slt.1 hc
    rw [broadcastInDim_scalar_apply, constantI_apply, show (0#32 : BitVec 32).toInt = 0 from by decide] at h1
    exact absurd (h e) (by omega)
  rw [select_apply, eq_zero_of_ne_one hc, select_zero]

theorem msg_eq_takeK (h : T Ideal S100000x96 .f32) (a1 : T Ideal S2x800000 .i32)
    (hsrc : ∀ e : Fin 800000, 0 ≤ (a1 (ix2 0 e)).toInt ∧ (a1 (ix2 0 e)).toInt < 100000) :
    Stages.msg (F := Ideal) h (Stages.src1 a1) = takeK h a1 := by
  unfold Stages.msg Stages.wrap
  rw [select_slt_zero _ _ _ fun e => by
    rw [(congrArg (Stages.src1 (F := Ideal) a1) (eq_ix1 e)).trans (Cert.PreDecode.row0_apply a1 _ _ (e 0))]
    exact (hsrc _).1]
  rfl

theorem central_eq_takeC (h : T Ideal S100000x96 .f32) (a3 : T Ideal S512 .i32)
    (hcen : ∀ e : Fin 512, 0 ≤ (a3 (ix1 e)).toInt ∧ (a3 (ix1 e)).toInt < 100000) :
    Stages.central (F := Ideal) h a3 = takeC h a3 := by
  unfold Stages.central Stages.wrap512
  rw [select_slt_zero _ _ _ fun e => by rw [congrArg a3 (eq_ix1 e)]; exact (hcen _).1]
  rfl

theorem ext_cur2 {n0 n1 : Nat} {u v : (⟨2, ![n0, n1]⟩ : Shape).Idx → EReal} (h : cur2 u = cur2 v) : u = v :=
  (arr2_cur2 u).symm.trans ((congrArg _ h).trans (arr2_cur2 v))

section
variable {a0 : T Ideal S100000x64 .f32} {a1 : T Ideal S2x800000 .i32} {a3 : T Ideal S512 .i32} {a4 : T Ideal S64x96 .f32}
  {a5 : T Ideal S96 .f32} {a6 : T Ideal S3x96x96 .f32} {a7 : T Ideal S3x96 .f32} {a8 : T Ideal S3x96x96 .f32}
  {a9 a10 : T Ideal S3x96 .f32} {a11 : T Ideal S96x96 .f32} {a12 : T Ideal S96 .f32} {a13 : T Ideal S96x1 .f32}
  {a14 : T Ideal S1 .f32} (D : Cert.PreDecode.Decoded a0 a1 a3 a4 a5 a6 a7 a8 a9 a10 a11 a12 a13 a14)
include D

theorem layer_join (ℓ : Fin 3) {h h' : T Ideal S100000x96 .f32} (hh : RealArr h)
    (e : cur2 h' = layerR h a1 (slab a6 ℓ) (rowOf a7 ℓ) (slab a8 ℓ) (rowOf a9 ℓ) (rowOf a10 ℓ)) :
    cur2 h' = layerK a1 a6 a8 a7 a9 a10 ℓ (cur2 h) ∧ RealArr h' := by
  obtain ⟨j, r⟩ := layer_eq (cur2 h) (real2_cur2 hh) (cur2 (summedK a1 (takeK h a1)))
    (real2_cur2 (real_scatterAdd_zeros (real_gather hh _ _) _ _ _ _)) (fun p => Ideal.div 1 (max (cur1 (degK a1) p) 1))
    (dgOf a1) (fun p => by rw [deg_apply]) (fun p => one_le_max_degree_lit _ _ _ _ _ _ _ _ (ix1 p))
    (slab a6 ℓ) (slab a8 ℓ) (rowOf a7 ℓ) (rowOf a9 ℓ) (rowOf a10 ℓ) (fun _ _ => D.real6 _) (fun _ _ => D.real8 _)
    (fun _ => D.real7 _) (fun _ => D.real9 _) (fun _ => D.real10 _)
  rw [layerR, yR, smOf, msg_eq_takeK h a1 D.hsrc] at e
  have k := e.trans j.symm
  rw [layerK, aggK, arr2_cur2]
  exact ⟨k, realArr_of_real2_cur2 (by rw [k]; exact r)⟩

theorem resultK_eq (a2 : T Ideal S100000 .i32) : resultK a0 a1 a3 a4 a5 a6 a8 a7 a9 a10 a11 a12 a13 a14
    = cur2 (Stages.out (F := Ideal) a0 a1 a2 a3 a4 a5 a6 a7 a8 a9 a10 a11 a12 a13 a14) := by
  have r0 : RealArr (Stages.h0 a0 a4 a5) := realArr_of_real2_cur2 (by
    rw [Read.cur2_h0]; exact real2_embS (real2_cur2 D.real0) (real2_cur2 D.real4) (real1_cur1 D.real5))
  obtain ⟨e1, r1⟩ := layer_join D 0 r0 (Cert.ReferenceIdeal.Asm.cur2_h1 a0 a1 a4 a5 a6 a7 a8 a9 a10)
  obtain ⟨e2, r2⟩ := layer_join D 1 r1 (Cert.ReferenceIdeal.Asm.cur2_h2 a0 a1 a4 a5 a6 a7 a8 a9 a10)
  obtain ⟨e3, _⟩ := layer_join D 2 r2 (Cert.ReferenceIdeal.Asm.cur2_h3 a0 a1 a4 a5 a6 a7 a8 a9 a10)
  rw [Cert.ReferenceIdeal.Asm.cur2_out, central_eq_takeC _ a3 D.hcen, resultK, featK, ← Read.cur2_h0 a0 a4 a5, ← e1, ← e2, ← e3,
    arr2_cur2]

end

open Cert.KernelIdeal.Asm (a0 a1 a3 a4 a5 a6 a7 a8 a9 a10 a11 a12 a13 a14) in
theorem out_eq {m : (ℓ : Loc Cert.KernelIdeal.nD Cert.KernelIdeal.τ Cert.KernelIdeal.sig) → Buf (Elt Ideal) ℓ}
    {outs : Cert.KernelIdeal.Gen.Outs (F := Ideal)} {c : Dev Cert.KernelIdeal.nD}
    (H : Cert.KernelIdeal.Asm.RegionVals m outs c) (a2 : T Ideal S100000 .i32)
    (D : Cert.PreDecode.Decoded (a0 m c) (a1 m c) (a3 m c) (a4 m c) (a5 m c) (a6 m c) (a7 m c) (a8 m c) (a9 m c) (a10 m c)
      (a11 m c) (a12 m c) (a13 m c) (a14 m c)) :
    Cert.KernelIdeal.Gen.V21 m outs c Cert.KernelIdeal.main_v111
      = Stages.out (F := Ideal) (a0 m c) (a1 m c) a2 (a3 m c) (a4 m c) (a5 m c) (a6 m c) (a7 m c) (a8 m c) (a9 m c) (a10 m c)
          (a11 m c) (a12 m c) (a13 m c) (a14 m c) :=
  ext_cur2 ((Cert.KernelIdeal.Asm.kernel_value H D).trans (resultK_eq D a2))

end Cert.Asm

end
-- ==== Proof.KI.Val0.lean ====
import proofs.«402019_j40432822124917_2_alg».proof.Proof.KI.Reg0
import proofs.«402019_j40432822124917_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Idealize.ShloMosaic.StackMember (dotGeneral_plain_apply)

theorem pay1_apply (v0 : Vec Ideal S5000x64 .f32) (v1 : Vec Ideal S64x96 .f32) (v3 : Vec Ideal S1x96 .f32) (p : Fin 5000) (q : Fin 96) :
    k0_pay1 (F := Ideal) v0 v1 v3 (ix2 p q) = max ((∑ t : Fin 64, v0 (ix2 p t) * v1 (ix2 t q)) + v3 (ix2 0 q)) 0 := by
  unfold k0_pay1
  rw [maximumf_apply, addf_apply, broadcast_apply, matmul_zero_eq_dotGeneral]
  erw [dotGeneral_plain_apply]
  rw [shapeCast_self, broadcastTo_1b_ab_apply]
  show max _ (Ideal.ofBits .f32 0x00000000#32) = _
  rw [Ideal.ofBits_zero_f32]

theorem hz0 : (![0, 0] : Fin 2 → Nat) = fun _ => 0 := funext fun a => by fin_cases a <;> rfl

def embArr (x : S100000x64.Idx → EReal) (w : S64x96.Idx → EReal) (b : S1x96.Idx → EReal) : S100000x96.Idx → EReal :=
  fun i => Spec.embS (Spec.cur2 x) (Spec.cur2 w) (fun q => Spec.cur2 b 0 q) (i 0) (i 1)

theorem idx_facts0 : ∀ t : Fin cfg0.N,
    win0_0.index t (0 : Fin 2) = t.val ∧ win0_0.index t (1 : Fin 2) = 0
    ∧ (∀ a : Fin 2, win0_1.index t a = 0) ∧ (∀ a : Fin 2, win0_2.index t a = 0)
    ∧ win0_3.index t (0 : Fin 2) = t.val ∧ win0_3.index t (1 : Fin 2) = 0 :=
  (by decide +kernel : ∀ t : Fin grid0.N, _)

def rowOf (t : Fin cfg0.N) (p : Fin 5000) : Fin 100000 :=
  ⟨t.val * 5000 + p.val, by have := t.isLt; have := p.isLt; have h : cfg0.N = 20 := N_0; omega⟩

theorem emb0_3 (t : Fin cfg0.N) (p : Fin 5000) (q : Fin 96) :
    ((cfg0.win 3).blk t).view.emb (ix2 p q) = ix2 (rowOf t p) q := by
  have e := idx_facts0 t
  funext a; apply Fin.ext
  match a with
  | ⟨0, _⟩ => show win0_3.index t (0 : Fin 2) * 5000 + 1 * p.val = t.val * 5000 + p.val; omega
  | ⟨1, _⟩ => show win0_3.index t (1 : Fin 2) * 96 + 1 * q.val = q.val; omega

variable (W : Dev nD → Valuation τ sig (Elt Ideal)) (c : Dev nD)

theorem iblk0_0_apply (t : Fin cfg0.N) (p : Fin 5000) (k : Fin 64) :
    iblk0 W c 0 t (ix2 p k) = Spec.cur2 (Vr W c main_arg0) (rowOf t p) k := by
  have e := idx_facts0 t
  refine congrArg (Vr W c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

theorem iblk0_1_apply (t : Fin cfg0.N) (k : Fin 64) (q : Fin 96) :
    iblk0 W c 1 t (ix2 k q) = Spec.cur2 (Vr W c main_arg4) k q :=
  congrArg (Vr W c main_arg4) (funext fun a => Fin.ext
    (win0_1.rect_emb_val_of_index_zero t a ((idx_facts0 t).2.2.1 a) (ix2 k q)))

theorem iblk0_2_apply (t : Fin cfg0.N) (q : Fin 96) :
    iblk0 W c 2 t (ix2 0 q) = Spec.cur2 (Vr W c main_v4) 0 q :=
  congrArg (Vr W c main_v4) (funext fun a => Fin.ext
    (win0_2.rect_emb_val_of_index_zero t a ((idx_facts0 t).2.2.2.1 a) (ix2 0 q)))

theorem flushed0_eq (t : Fin cfg0.N) :
    (dat0 W c).flushed 3 t = ((cfg0.win 3).blk t).view.read (Elt Ideal)
      (embArr (Vr W c main_arg0) (Vr W c main_arg4) (Vr W c main_v4)) := by
  show (cfg0.win 3).cut (grid0.coords t) ((dat0 W c).after 3 t) = _
  rw [after0_3]
  unfold out0_3
  rw [View.canon_unit_zero hz0]
  simp only [View.ld_unit_zero (S := ⟨2, _⟩) hz0]
  funext j
  obtain ⟨p, q, rfl⟩ : ∃ (p : Fin 5000) (q : Fin 96), j = ix2 p q := ⟨j 0, j 1, eq_ix2 j⟩
  show k0_pay1 (F := Ideal) (iblk0 W c 0 t) (iblk0 W c 1 t) (iblk0 W c 2 t) (ix2 p q)
    = embArr (Vr W c main_arg0) (Vr W c main_arg4) (Vr W c main_v4) (((cfg0.win 3).blk t).view.emb (ix2 p q))
  rw [pay1_apply, emb0_3]
  simp only [iblk0_0_apply, iblk0_1_apply, iblk0_2_apply]
  rfl

theorem mem_blk0 (t : Fin cfg0.N) (i : S100000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v5).slice (win0_3.rect t)).set ↔ _
  rw [View.set_slice_whole, Rect.mem_set_unit]
  exact Iff.rfl

theorem cover0 (i : S100000x96.Idx) :
    ∃ t : Fin cfg0.N, (cfg0.win 3).flush t = true ∧ i ∈ ((cfg0.win 3).blk t).view.set := by
  have hi0 : (i 0).val < 100000 := idx2_lt0 i
  have hi1 : (i 1).val < 96 := idx2_lt1 i
  have hN : cfg0.N = 20 := N_0
  refine ⟨⟨(i 0).val / 5000, by omega⟩, flush0_3 _, ?_⟩
  obtain ⟨-, -, -, -, e0, e1⟩ := idx_facts0 ⟨(i 0).val / 5000, by omega⟩
  rw [mem_blk0]
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 96 ≤ (i 1).val ∧ (i 1).val < win0_3.index _ (1 : Fin 2) * 96 + 96
    rw [e1]; omega

theorem arr0_eq : (dat0 W c).arrAt 3 cfg0.N = embArr (Vr W c main_arg0) (Vr W c main_arg4) (Vr W c main_v4) :=
  (dat0 W c).arrAt_eq_of_cover 3 _ (fun t _ => flushed0_eq W c t) cover0

theorem final0 : Spec.cur2 ((dat0 W c).arrAt 3 cfg0.N)
    = Spec.embS (Spec.cur2 (Vr W c main_arg0)) (Spec.cur2 (Vr W c main_arg4)) (fun q => Spec.cur2 (Vr W c main_v4) 0 q) := by
  rw [arr0_eq]
  rfl

end Cert.KernelIdeal.Val

end
-- ==== Proof.LibTileSums.lean ====
import Idealize.ShloMosaic.PureOps.Ideal
import Mathlib.Logic.Equiv.Fin.Basic
import Mathlib.Data.Fintype.BigOperators
import Mathlib.Algebra.BigOperators.Fin

namespace Cert.LibTileSums

open scoped BigOperators

theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

end Cert.LibTileSums
-- ==== Proof.KI.Val1.lean ====
import proofs.«402019_j40432822124917_2_alg».proof.Proof.KI.Reg1
import proofs.«402019_j40432822124917_2_alg».proof.Proof.Spec
import proofs.«402019_j40432822124917_2_alg».proof.Proof.LibTileSums
import Idealize.ShloMosaic.Lib.ValueLayout
import Idealize.ShloMosaic.Lib.StackMember

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (W : Dev nD → Valuation τ sig (Elt Ideal)) (c : Dev nD) (t : Fin cfg1.N) (p : Fin 5000) (q : Fin 96)

abbrev sBuf1 : Ref sig .tc := main_v18
abbrev rBuf1 : Ref sig .tc := main_v14
abbrev hBuf1 : Ref sig .tc := main_v5
abbrev wlBuf1 : Ref sig .tc := main_v20
abbrev blBuf1 : Ref sig .tc := main_v25
abbrev wrBuf1 : Ref sig .tc := main_v24

theorem matmul_zero_apply1 (A : FVec Ideal S5000x96 .f32) (B : FVec Ideal S96x96 .f32) :
    matmul dot_S5000x96_S96x96_S5000x96_1_0_0_1_n_n none A B (constant (F := Ideal) S5000x96 .f32 0x00000000#32) (ix2 p q)
      = ∑ t : Fin 96, A (ix2 p t) * B (ix2 t q) :=
  (congrFun (matmul_zero_eq_dotGeneral _ none A B) _).trans (StackMember.dotGeneral_plain_apply none A B p q)

theorem broadcastTo_col_apply1 {α : Type} (v : S5000x1.Idx → α) :
    broadcastTo S5000x96 v broadcasts_S5000x1_S5000x96 (ix2 p q) = v (ix2 p (0 : Fin 1)) :=
  broadcastTo_apply v _ _ _ fun | ⟨0, _⟩ => (if_neg (show ¬(5000 : ℕ) = 1 by decide)).symm | ⟨1, _⟩ => rfl

theorem mask_one1 (x p : ℕ) (hx : x < 20) (hp : p < 5000) :
    (FloatOps.sitofp (F := Ideal) .f32 ((IntOp.cmpi .slt (IntOp.addi (BitVec.ofNat 32 p)
        (Scalar.muli (BitVec.ofNat 32 x) 5000#32)) 100000#32).setWidth 32) : EReal) = 1 := by
  have h : (BitVec.ofNat 32 p + BitVec.ofNat 32 x * 5000#32).slt 100000#32 = true := by
    rw [← BitVec.ofNat_mul, ← BitVec.ofNat_add]
    simp only [BitVec.slt, BitVec.toInt_eq_toNat_cond, BitVec.toNat_ofNat, decide_eq_true_eq,
      Nat.mod_eq_of_lt (show p + x * 5000 < 2 ^ 32 by omega)]
    split <;> omega
  show (((((BitVec.ofBool ((BitVec.ofNat 32 p + BitVec.ofNat 32 x * 5000#32).slt 100000#32)).setWidth 32).toInt : ℤ) : ℝ) : EReal) = 1
  rw [h]
  simp

section
variable (v3 : Vec Ideal S5000x96 .f32) (v5 : Vec Ideal S5000x1 .f32) (v9 : Vec Ideal S96x96 .f32)
  (v12 : Vec Ideal S1x96 .f32) (v16 : Vec Ideal S5000x96 .f32) (v18 : Vec Ideal S96x96 .f32)

theorem pay5_apply1 : k1_pay5 v3 v5 v9 v12 v16 v18 (ix2 p q)
    = ((∑ t : Fin 96, (v3 (ix2 p t) * v5 (ix2 p (0 : Fin 1))) * v9 (ix2 t q)) + v12 (ix2 (0 : Fin 1) q))
      + ∑ t : Fin 96, v16 (ix2 p t) * v18 (ix2 t q) := by
  unfold k1_pay5
  simp only [shapeCast_self, addf_apply, matmul_zero_apply1, broadcastTo_1b_ab_apply, mulf_apply, broadcastTo_col_apply1]

theorem pay6_apply1 (i : grid1.Coords) :
    k1_pay6 i v3 v5 v9 v12 v16 v18 (ix2 p q) = k1_pay5 v3 v5 v9 v12 v16 v18 (ix2 p q) := by
  unfold k1_pay6
  dsimp only
  rw [mulf_apply, broadcastTo_col_apply1]
  refine (congrArg (k1_pay5 v3 v5 v9 v12 v16 v18 (ix2 p q) * ·) ?_).trans (mul_one _)
  show FloatOps.sitofp (F := Ideal) .f32 ((IntOp.cmpi .slt (IntOp.addi
      (iota .tc S5000x1 32 [0] iota_S5000x1_d0_w32 (ix2 p (0 : Fin 1)))
      (Scalar.muli (BitVec.ofNat 32 (i 0).val) 5000#32)) 100000#32).setWidth 32) = 1
  rw [iota_single_apply]
  exact mask_one1 _ _ (i 0).isLt p.isLt

end

theorem colsum_tile_apply1 (y : FVec Ideal S5000x96 .f32) :
    multiReduction (F := Ideal) .add [0] S96 y 0x00000000#32 reduces_S5000x96_S96 (.inl rfl) rfl (ix1 q)
      = ∑ r : Fin 5000, y (ix2 r q) :=
  (Ideal.multiReduction_add_single y _ reduces_S5000x96_S96 (.inl rfl) rfl (ix1 q)).trans
    (Finset.sum_congr rfl fun r _ => congrArg y (Shape.idx_ext₂ rfl rfl))

theorem pay1_apply1 (y : FVec Ideal S5000x96 .f32) (a : Vec Ideal S1x96 .f32) :
    k1_pay1 y a (ix2 (0 : Fin 1) q) = a (ix2 (0 : Fin 1) q) + ∑ r : Fin 5000, y (ix2 r q) := by
  unfold k1_pay1
  rw [shapeCast_self, addf_apply, shapeCast_a_1a_apply, colsum_tile_apply1]

theorem pay2_apply1 (y : FVec Ideal S5000x96 .f32) (a : Vec Ideal S1x96 .f32) :
    k1_pay2 y a (ix2 (0 : Fin 1) q) = a (ix2 (0 : Fin 1) q) + ∑ r : Fin 5000, y (ix2 r q) * y (ix2 r q) :=
  pay1_apply1 q (mulf y y) a

theorem tiles1 : cfg1.N * 5000 = 100000 := congrArg (· * 5000) N_1

def rowOf1 (t : Fin cfg1.N) (p : Fin 5000) : Fin 100000 :=
  ⟨t.val * 5000 + p.val, Cert.LibTileSums.tile_lt tiles1 t p⟩

theorem idx1_0 : ∀ t : Fin cfg1.N, win1_0.index t (0 : Fin 2) = t.val :=
  (by decide +kernel : ∀ t : Fin grid1.N, _)

theorem emb1 :
    (∀ k, ((cfg1.win 0).blk t).view.emb (ix2 p k) = ix2 (rowOf1 t p) k)
    ∧ (∀ k, ((cfg1.win 1).blk t).view.emb (ix2 p k) = ix2 (rowOf1 t p) k)
    ∧ (∀ k, ((cfg1.win 2).blk t).view.emb (ix2 p k) = ix2 (rowOf1 t p) k)
    ∧ ∀ k, ((cfg1.win 6).blk t).view.emb (ix2 p k) = ix2 (rowOf1 t p) k := by
  have e := idx1_0 t
  refine ⟨fun k => ?_, fun k => ?_, fun k => ?_, fun k => ?_⟩ <;>
    exact Shape.idx_ext₂ (by show win1_0.index t 0 * 5000 + 1 * p.val = t.val * 5000 + p.val; omega)
      (by show 0 * _ + 1 * k.val = k.val; omega)

theorem fix1 :
    (∀ y, ((cfg1.win 3).blk t).view.emb y = y) ∧ (∀ y, ((cfg1.win 4).blk t).view.emb y = y)
    ∧ (∀ y, ((cfg1.win 5).blk t).view.emb y = y) ∧ (∀ y, ((cfg1.win 7).blk t).view.emb y = y)
    ∧ ∀ y, ((cfg1.win 8).blk t).view.emb y = y := by
  refine ⟨fun y => ?_, fun y => ?_, fun y => ?_, fun y => ?_, fun y => ?_⟩ <;>
    exact Shape.idx_ext₂ (by show 0 * _ + 1 * (y 0).val = _; omega) (by show 0 * _ + 1 * (y 1).val = _; omega)

theorem cover1_6 (i : S100000x96.Idx) :
    ∃ t : Fin cfg1.N, (cfg1.win 6).flush t = true ∧ i ∈ ((cfg1.win 6).blk t).view.set := by
  have hi : (i 0).val < 100000 := idx2_lt0 i
  have hN : cfg1.N = 20 := N_1
  obtain ⟨t, ht⟩ : ∃ t : Fin cfg1.N, t.val = (i 0).val / 5000 := ⟨⟨_, by omega⟩, rfl⟩
  exact ⟨t, flush1_6 t, (((emb1 t ⟨(i 0).val % 5000, Nat.mod_lt _ (by decide)⟩).2.2.2 (i 1)).trans
    (show ix2 (rowOf1 t _) (i 1) = i from Shape.idx_ext₂ (by show t.val * 5000 + (i 0).val % 5000 = (i 0).val; omega) rfl)) ▸
      View.emb_mem_set _ _⟩

def last1 : Fin cfg1.N := ⟨19, by have h : cfg1.N = 20 := N_1; omega⟩

theorem cover1_7 (i : S1x96.Idx) :
    ∃ t : Fin cfg1.N, (cfg1.win 7).flush t = true ∧ i ∈ ((cfg1.win 7).blk t).view.set :=
  ⟨last1, (flush1_7 last1).2 rfl, (fix1 last1).2.2.2.1 i ▸ View.emb_mem_set _ i⟩

theorem cover1_8 (i : S1x96.Idx) :
    ∃ t : Fin cfg1.N, (cfg1.win 8).flush t = true ∧ i ∈ ((cfg1.win 8).blk t).view.set :=
  ⟨last1, (flush1_8 last1).2 rfl, (fix1 last1).2.2.2.2 i ▸ View.emb_mem_set _ i⟩

def yArr1 : S100000x96.Idx → EReal := fun i =>
  Spec.combS (Spec.cur2 (Vr W c sBuf1)) (fun p => Spec.cur2 (Vr W c rBuf1) p 0) (Spec.cur2 (Vr W c hBuf1))
    (Spec.cur2 (Vr W c wlBuf1)) (fun q => Spec.cur2 (Vr W c blBuf1) 0 q) (Spec.cur2 (Vr W c wrBuf1)) (i 0) (i 1)

theorem blk1 :
    (∀ k, iblk1 W c 0 t (ix2 p k) = Vr W c sBuf1 (ix2 (rowOf1 t p) k))
    ∧ (∀ k, iblk1 W c 1 t (ix2 p k) = Vr W c rBuf1 (ix2 (rowOf1 t p) k))
    ∧ (∀ k, iblk1 W c 2 t (ix2 p k) = Vr W c hBuf1 (ix2 (rowOf1 t p) k))
    ∧ iblk1 W c 3 t = Vr W c wlBuf1 ∧ iblk1 W c 4 t = Vr W c blBuf1 ∧ iblk1 W c 5 t = Vr W c wrBuf1 :=
  have ⟨es, er, eh, _⟩ := emb1 t p
  have ⟨ewl, ebl, ewr, _⟩ := fix1 t
  ⟨fun k => congrArg (Vr W c sBuf1) (es k), fun k => congrArg (Vr W c rBuf1) (er k), fun k => congrArg (Vr W c hBuf1) (eh k),
    funext fun y => congrArg (Vr W c wlBuf1) (ewl y), funext fun y => congrArg (Vr W c blBuf1) (ebl y),
    funext fun y => congrArg (Vr W c wrBuf1) (ewr y)⟩

theorem yblk_apply1 :
    yblk1 W c t (ix2 p q) = yArr1 W c (ix2 (rowOf1 t p) q) := by
  obtain ⟨es, er, eh, ewl, ebl, ewr⟩ := blk1 W c t p
  rw [yblk1, pay5_apply1, ewl, ebl, ewr]
  simp only [es, er, eh]
  rfl

theorem ymblk_apply1 :
    ymblk1 W c t (ix2 p q) = yArr1 W c (ix2 (rowOf1 t p) q) :=
  (pay6_apply1 ..).trans (yblk_apply1 W c t p q)

theorem arr1_6_eq : (dat1 W c).arrAt 6 cfg1.N = yArr1 W c :=
  (dat1 W c).arrAt_eq_of_cover 6 _ (fun t _ => funext fun j => by
    obtain ⟨p, q, rfl⟩ : ∃ (p : Fin 5000) (q : Fin 96), j = ix2 p q := ⟨j 0, j 1, eq_ix2 j⟩
    exact (yblk_apply1 W c t p q).trans (congrArg _ ((emb1 t p).2.2.2 q).symm)) cover1_6

theorem stat1 (acc : ℕ → FVec Ideal S1x96 .f32) (f : EReal → EReal) (h0 : ∀ q, acc 0 (ix2 0 q) = 0)
    (hs : ∀ (t : Fin cfg1.N) q, acc (t.val + 1) (ix2 0 q)
      = acc t.val (ix2 0 q) + ∑ r : Fin 5000, f (ymblk1 W c t (ix2 r q)))
    (t : Fin cfg1.N) (ht : t.val % 20 = 19) :
    acc (t.val + 1) = fun i => ∑ p : Fin 100000, f (yArr1 W c (ix2 p (i 1))) := by
  funext j
  obtain ⟨z, q, rfl⟩ : ∃ (z : Fin 1) (q : Fin 96), j = ix2 z q := ⟨j 0, j 1, eq_ix2 j⟩
  obtain rfl : z = 0 := Subsingleton.elim _ _
  have key : ∀ n (hn : n ≤ cfg1.N), acc n (ix2 0 q)
      = ∑ k : Fin n, ∑ r : Fin 5000, f (yArr1 W c (ix2 (rowOf1 (k.castLE hn) r) q)) := by
    intro n
    induction n with
    | zero => exact fun _ => (h0 q).trans (Fin.sum_univ_zero _).symm
    | succ n ih =>
      intro hn
      rw [Fin.sum_univ_castSucc]
      exact (hs ⟨n, hn⟩ q).trans (congrArg₂ (fun a b : EReal => a + b) (ih (Nat.le_of_lt hn))
        (Finset.sum_congr rfl fun r _ => congrArg f (ymblk_apply1 W c _ r q)))
  have hN : cfg1.N = 20 := N_1
  rw [show t.val + 1 = cfg1.N by have := t.isLt; omega]
  exact (key _ le_rfl).trans (Cert.LibTileSums.sum_tiles tiles1 fun p => f (yArr1 W c (ix2 p q)))

def sArr1 : S1x96.Idx → EReal := fun i => Spec.colSum (Spec.cur2 (yArr1 W c)) (i 1)

def qArr1 : S1x96.Idx → EReal := fun i => Spec.colSumSq (Spec.cur2 (yArr1 W c)) (i 1)

theorem row1 (X : FVec Ideal S1x96 .f32) :
    (cfg1.win 7).cut (grid1.coords t) X = ((cfg1.win 7).blk t).view.read (Elt Ideal) X
    ∧ (cfg1.win 8).cut (grid1.coords t) X = ((cfg1.win 8).blk t).view.read (Elt Ideal) X :=
  ⟨funext fun j => (congrArg X ((fix1 t).2.2.2.1 j)).symm, funext fun j => (congrArg X ((fix1 t).2.2.2.2 j)).symm⟩

theorem arr1_7_eq : (dat1 W c).arrAt 7 cfg1.N = sArr1 W c := by
  refine (dat1 W c).arrAt_eq_of_cover 7 _ (fun t hf => ?_) cover1_7
  show (cfg1.win 7).cut (grid1.coords t) ((dat1 W c).after 7 t) = _
  rw [after1_7, show acc1_s W c t.succ = sArr1 W c from stat1 W c (accN1_s W c) (fun x => x)
    (fun _ => Ideal.ofBits_zero_f32) (fun t q => by rw [accN1_s_succ]; exact pay1_apply1 q _ _)
    t ((flush1_7 t).1 hf)]
  exact (row1 t _).1

theorem arr1_8_eq : (dat1 W c).arrAt 8 cfg1.N = qArr1 W c := by
  refine (dat1 W c).arrAt_eq_of_cover 8 _ (fun t hf => ?_) cover1_8
  show (cfg1.win 8).cut (grid1.coords t) ((dat1 W c).after 8 t) = _
  rw [after1_8, show acc1_q W c t.succ = qArr1 W c from stat1 W c (accN1_q W c) (fun x => x * x)
    (fun _ => Ideal.ofBits_zero_f32) (fun t q => by rw [accN1_q_succ]; exact pay2_apply1 q _ _)
    t ((flush1_8 t).1 hf)]
  exact (row1 t _).2

theorem final1_y : Spec.cur2 ((dat1 W c).arrAt 6 cfg1.N)
    = Spec.combS (Spec.cur2 (Vr W c sBuf1)) (fun p => Spec.cur2 (Vr W c rBuf1) p 0) (Spec.cur2 (Vr W c hBuf1))
        (Spec.cur2 (Vr W c wlBuf1)) (fun q => Spec.cur2 (Vr W c blBuf1) 0 q) (Spec.cur2 (Vr W c wrBuf1)) := by
  rw [arr1_6_eq]
  rfl

theorem final1_s : (fun q => Spec.cur2 ((dat1 W c).arrAt 7 cfg1.N) 0 q)
    = Spec.colSum (Spec.combS (Spec.cur2 (Vr W c sBuf1)) (fun p => Spec.cur2 (Vr W c rBuf1) p 0)
        (Spec.cur2 (Vr W c hBuf1)) (Spec.cur2 (Vr W c wlBuf1)) (fun q => Spec.cur2 (Vr W c blBuf1) 0 q)
        (Spec.cur2 (Vr W c wrBuf1))) := by
  rw [arr1_7_eq]
  rfl

theorem final1_q : (fun q => Spec.cur2 ((dat1 W c).arrAt 8 cfg1.N) 0 q)
    = Spec.colSumSq (Spec.combS (Spec.cur2 (Vr W c sBuf1)) (fun p => Spec.cur2 (Vr W c rBuf1) p 0)
        (Spec.cur2 (Vr W c hBuf1)) (Spec.cur2 (Vr W c wlBuf1)) (fun q => Spec.cur2 (Vr W c blBuf1) 0 q)
        (Spec.cur2 (Vr W c wrBuf1))) := by
  rw [arr1_8_eq]
  rfl

end Cert.KernelIdeal.Val

end
-- ==== Proof.KI.Val2.lean ====
import proofs.«402019_j40432822124917_2_alg».proof.Proof.KI.Reg2
import proofs.«402019_j40432822124917_2_alg».proof.Proof.Spec
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (W : Dev nD → Valuation τ sig (Elt Ideal))

def bn2 (y : Vec Ideal S100000x96 .f32) (mean var g b : Vec Ideal S1x96 .f32) : Vec Ideal S100000x96 .f32 :=
  fun i => Spec.bnS (Spec.cur2 y) (fun q => Spec.cur2 mean 0 q) (fun q => Spec.cur2 var 0 q)
    (fun q => Spec.cur2 g 0 q) (fun q => Spec.cur2 b 0 q) (i 0) (i 1)

theorem pay2_apply (Y : Vec Ideal S100000x96 .f32) (M V G B : Vec Ideal S1x96 .f32) (y : Vec Ideal S5000x96 .f32)
    (m v g b : Vec Ideal S1x96 .f32) (p : Fin 5000) (q : Fin 96) (r : Fin 100000)
    (hy : y (ix2 p q) = Y (ix2 r q)) (hm : m = M) (hv : v = V) (hg : g = G) (hb : b = B) :
    k2_pay1 (F := Ideal) v y m g b (ix2 p q) = bn2 Y M V G B (ix2 r q) := by
  subst hm hv hg hb
  unfold k2_pay1
  simp only [shapeCast_self, maximumf_apply, addf_apply, mulf_apply, subf_apply, broadcastTo_1b_ab_apply, hy]
  show max _ (Ideal.ofBits .f32 0x00000000#32) = _
  rw [Ideal.ofBits_zero_f32]
  rfl

theorem hz2 : (![0, 0] : Fin 2 → Nat) = fun _ => 0 := funext fun a => by fin_cases a <;> rfl

theorem idx_facts2 : ∀ t : Fin cfg2.N, win2_5.index t (0 : Fin 2) = t.val :=
  (by decide +kernel : ∀ t : Fin grid2.N, _)

def rowOf2 (t : Fin cfg2.N) (p : Fin 5000) : Fin 100000 :=
  ⟨t.val * 5000 + p.val, by have := t.isLt; have := p.isLt; have h : cfg2.N = 20 := N_2; omega⟩

theorem emb2 (t : Fin cfg2.N) (p : Fin 5000) (q : Fin 96) :
    ((cfg2.win 0).blk t).view.emb (ix2 p q) = ix2 (rowOf2 t p) q
    ∧ ((cfg2.win 5).blk t).view.emb (ix2 p q) = ix2 (rowOf2 t p) q := by
  have e := idx_facts2 t
  constructor <;>
    exact Shape.idx_ext₂ (by show win2_5.index t 0 * 5000 + 1 * p.val = t.val * 5000 + p.val; omega)
      (by show 0 * _ + 1 * q.val = q.val; omega)

theorem fix2 (t : Fin cfg2.N) :
    (∀ y, ((cfg2.win 1).blk t).view.emb y = y) ∧ (∀ y, ((cfg2.win 2).blk t).view.emb y = y)
    ∧ (∀ y, ((cfg2.win 3).blk t).view.emb y = y) ∧ ∀ y, ((cfg2.win 4).blk t).view.emb y = y := by
  refine ⟨fun y => ?_, fun y => ?_, fun y => ?_, fun y => ?_⟩ <;>
    exact Shape.idx_ext₂ (by show 0 * _ + 1 * (y 0).val = _; omega) (by show 0 * _ + 1 * (y 1).val = _; omega)

theorem flushed2_eq (c : Dev nD) (t : Fin cfg2.N) :
    (Hand.dat2 W c).flushed 5 t = ((cfg2.win 5).blk t).view.read (Elt Ideal)
      (bn2 (Hand.Vr W c main_v26_0) (Hand.Vr W c main_v41) (Hand.Vr W c main_v42) (Hand.Vr W c main_v43) (Hand.Vr W c main_v44)) := by
  show (cfg2.win 5).cut (grid2.coords t) ((Hand.dat2 W c).after 5 t) = _
  rw [Hand.after2_5, Hand.out2_5, View.canon_unit_zero hz2]
  simp only [View.ld_unit_zero (S := S5000x96) hz2, View.ld_unit_zero (S := S1x96) hz2]
  funext j
  obtain ⟨p, q, rfl⟩ : ∃ (p : Fin 5000) (q : Fin 96), j = ix2 p q := ⟨j 0, j 1, eq_ix2 j⟩
  obtain ⟨ey, eo⟩ := emb2 t p q
  obtain ⟨em, ev, eg, eb⟩ := fix2 t
  show k2_pay1 (F := Ideal) _ _ _ _ _ (ix2 p q) = bn2 _ _ _ _ _ (((cfg2.win 5).blk t).view.emb (ix2 p q))
  rw [eo]
  exact pay2_apply _ _ _ _ _ _ _ _ _ _ p q _ (congrArg _ ey) (funext fun y => congrArg _ (em y))
    (funext fun y => congrArg _ (ev y)) (funext fun y => congrArg _ (eg y)) (funext fun y => congrArg _ (eb y))

theorem cover2 (i : S100000x96.Idx) :
    ∃ t : Fin cfg2.N, (cfg2.win 5).flush t = true ∧ i ∈ ((cfg2.win 5).blk t).view.set := by
  have hi : (i 0).val < 100000 := (i 0).isLt
  have hN : cfg2.N = 20 := N_2
  obtain ⟨t, ht⟩ : ∃ t : Fin cfg2.N, t.val = (i 0).val / 5000 := ⟨⟨_, by omega⟩, rfl⟩
  exact ⟨t, flush2_5 t, ((emb2 t ⟨(i 0).val % 5000, Nat.mod_lt _ (by decide)⟩ (i 1)).2.trans
    (show ix2 (rowOf2 t _) (i 1) = i from Shape.idx_ext₂ (by show t.val * 5000 + (i 0).val % 5000 = (i 0).val; omega) rfl)) ▸
      View.emb_mem_set _ _⟩

theorem final2 (c : Dev nD) :
    Spec.cur2 ((Hand.dat2 W c).arrAt 5 cfg2.N)
      = Spec.bnS (Spec.cur2 (Hand.Vr W c main_v26_0)) (fun q => Spec.cur2 (Hand.Vr W c main_v41) 0 q)
          (fun q => Spec.cur2 (Hand.Vr W c main_v42) 0 q) (fun q => Spec.cur2 (Hand.Vr W c main_v43) 0 q)
          (fun q => Spec.cur2 (Hand.Vr W c main_v44) 0 q) := by
  rw [(Hand.dat2 W c).arrAt_eq_of_cover 5 _ (fun t _ => flushed2_eq W c t) cover2]
  rfl

end Cert.KernelIdeal.Val

end
-- ==== Proof.KI.Val3.lean ====
import proofs.«402019_j40432822124917_2_alg».proof.Proof.KI.Reg3
import proofs.«402019_j40432822124917_2_alg».proof.Proof.Spec
import proofs.«402019_j40432822124917_2_alg».proof.Proof.LibTileSums
import Idealize.ShloMosaic.Lib.ValueLayout
import Idealize.ShloMosaic.Lib.StackMember

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (W : Dev nD → Valuation τ sig (Elt Ideal)) (c : Dev nD) (t : Fin cfg3.N) (p : Fin 5000) (q : Fin 96)

abbrev sBuf3 : Ref sig .tc := main_v49
abbrev rBuf3 : Ref sig .tc := main_v14
abbrev hBuf3 : Ref sig .tc := main_v45
abbrev wlBuf3 : Ref sig .tc := main_v51
abbrev blBuf3 : Ref sig .tc := main_v56
abbrev wrBuf3 : Ref sig .tc := main_v55

theorem matmul_zero_apply3 (A : FVec Ideal S5000x96 .f32) (B : FVec Ideal S96x96 .f32) :
    matmul dot_S5000x96_S96x96_S5000x96_1_0_0_1_n_n none A B (constant (F := Ideal) S5000x96 .f32 0x00000000#32) (ix2 p q)
      = ∑ t : Fin 96, A (ix2 p t) * B (ix2 t q) :=
  (congrFun (matmul_zero_eq_dotGeneral _ none A B) _).trans (StackMember.dotGeneral_plain_apply none A B p q)

theorem broadcastTo_col_apply3 {α : Type} (v : S5000x1.Idx → α) :
    broadcastTo S5000x96 v broadcasts_S5000x1_S5000x96 (ix2 p q) = v (ix2 p (0 : Fin 1)) :=
  broadcastTo_apply v _ _ _ fun | ⟨0, _⟩ => (if_neg (show ¬(5000 : ℕ) = 1 by decide)).symm | ⟨1, _⟩ => rfl

theorem mask_one3 (x p : ℕ) (hx : x < 20) (hp : p < 5000) :
    (FloatOps.sitofp (F := Ideal) .f32 ((IntOp.cmpi .slt (IntOp.addi (BitVec.ofNat 32 p)
        (Scalar.muli (BitVec.ofNat 32 x) 5000#32)) 100000#32).setWidth 32) : EReal) = 1 := by
  have h : (BitVec.ofNat 32 p + BitVec.ofNat 32 x * 5000#32).slt 100000#32 = true := by
    rw [← BitVec.ofNat_mul, ← BitVec.ofNat_add]
    simp only [BitVec.slt, BitVec.toInt_eq_toNat_cond, BitVec.toNat_ofNat, decide_eq_true_eq,
      Nat.mod_eq_of_lt (show p + x * 5000 < 2 ^ 32 by omega)]
    split <;> omega
  show (((((BitVec.ofBool ((BitVec.ofNat 32 p + BitVec.ofNat 32 x * 5000#32).slt 100000#32)).setWidth 32).toInt : ℤ) : ℝ) : EReal) = 1
  rw [h]
  simp

section
variable (v3 : Vec Ideal S5000x96 .f32) (v5 : Vec Ideal S5000x1 .f32) (v9 : Vec Ideal S96x96 .f32)
  (v12 : Vec Ideal S1x96 .f32) (v16 : Vec Ideal S5000x96 .f32) (v18 : Vec Ideal S96x96 .f32)

theorem pay5_apply3 : k3_pay5 v3 v5 v9 v12 v16 v18 (ix2 p q)
    = ((∑ t : Fin 96, (v3 (ix2 p t) * v5 (ix2 p (0 : Fin 1))) * v9 (ix2 t q)) + v12 (ix2 (0 : Fin 1) q))
      + ∑ t : Fin 96, v16 (ix2 p t) * v18 (ix2 t q) := by
  unfold k3_pay5
  simp only [shapeCast_self, addf_apply, matmul_zero_apply3, broadcastTo_1b_ab_apply, mulf_apply, broadcastTo_col_apply3]

theorem pay6_apply3 (i : grid3.Coords) :
    k3_pay6 i v3 v5 v9 v12 v16 v18 (ix2 p q) = k3_pay5 v3 v5 v9 v12 v16 v18 (ix2 p q) := by
  unfold k3_pay6
  dsimp only
  rw [mulf_apply, broadcastTo_col_apply3]
  refine (congrArg (k3_pay5 v3 v5 v9 v12 v16 v18 (ix2 p q) * ·) ?_).trans (mul_one _)
  show FloatOps.sitofp (F := Ideal) .f32 ((IntOp.cmpi .slt (IntOp.addi
      (iota .tc S5000x1 32 [0] iota_S5000x1_d0_w32 (ix2 p (0 : Fin 1)))
      (Scalar.muli (BitVec.ofNat 32 (i 0).val) 5000#32)) 100000#32).setWidth 32) = 1
  rw [iota_single_apply]
  exact mask_one3 _ _ (i 0).isLt p.isLt

end

theorem colsum_tile_apply3 (y : FVec Ideal S5000x96 .f32) :
    multiReduction (F := Ideal) .add [0] S96 y 0x00000000#32 reduces_S5000x96_S96 (.inl rfl) rfl (ix1 q)
      = ∑ r : Fin 5000, y (ix2 r q) :=
  (Ideal.multiReduction_add_single y _ reduces_S5000x96_S96 (.inl rfl) rfl (ix1 q)).trans
    (Finset.sum_congr rfl fun r _ => congrArg y (Shape.idx_ext₂ rfl rfl))

theorem pay1_apply3 (y : FVec Ideal S5000x96 .f32) (a : Vec Ideal S1x96 .f32) :
    k3_pay1 y a (ix2 (0 : Fin 1) q) = a (ix2 (0 : Fin 1) q) + ∑ r : Fin 5000, y (ix2 r q) := by
  unfold k3_pay1
  rw [shapeCast_self, addf_apply, shapeCast_a_1a_apply, colsum_tile_apply3]

theorem pay2_apply3 (y : FVec Ideal S5000x96 .f32) (a : Vec Ideal S1x96 .f32) :
    k3_pay2 y a (ix2 (0 : Fin 1) q) = a (ix2 (0 : Fin 1) q) + ∑ r : Fin 5000, y (ix2 r q) * y (ix2 r q) :=
  pay1_apply3 q (mulf y y) a

theorem tiles3 : cfg3.N * 5000 = 100000 := congrArg (· * 5000) N_3

def rowOf3 (t : Fin cfg3.N) (p : Fin 5000) : Fin 100000 :=
  ⟨t.val * 5000 + p.val, Cert.LibTileSums.tile_lt tiles3 t p⟩

theorem idx3_0 : ∀ t : Fin cfg3.N, win3_0.index t (0 : Fin 2) = t.val :=
  (by decide +kernel : ∀ t : Fin grid3.N, _)

theorem emb3 :
    (∀ k, ((cfg3.win 0).blk t).view.emb (ix2 p k) = ix2 (rowOf3 t p) k)
    ∧ (∀ k, ((cfg3.win 1).blk t).view.emb (ix2 p k) = ix2 (rowOf3 t p) k)
    ∧ (∀ k, ((cfg3.win 2).blk t).view.emb (ix2 p k) = ix2 (rowOf3 t p) k)
    ∧ ∀ k, ((cfg3.win 6).blk t).view.emb (ix2 p k) = ix2 (rowOf3 t p) k := by
  have e := idx3_0 t
  refine ⟨fun k => ?_, fun k => ?_, fun k => ?_, fun k => ?_⟩ <;>
    exact Shape.idx_ext₂ (by show win3_0.index t 0 * 5000 + 1 * p.val = t.val * 5000 + p.val; omega)
      (by show 0 * _ + 1 * k.val = k.val; omega)

theorem fix3 :
    (∀ y, ((cfg3.win 3).blk t).view.emb y = y) ∧ (∀ y, ((cfg3.win 4).blk t).view.emb y = y)
    ∧ (∀ y, ((cfg3.win 5).blk t).view.emb y = y) ∧ (∀ y, ((cfg3.win 7).blk t).view.emb y = y)
    ∧ ∀ y, ((cfg3.win 8).blk t).view.emb y = y := by
  refine ⟨fun y => ?_, fun y => ?_, fun y => ?_, fun y => ?_, fun y => ?_⟩ <;>
    exact Shape.idx_ext₂ (by show 0 * _ + 1 * (y 0).val = _; omega) (by show 0 * _ + 1 * (y 1).val = _; omega)

theorem cover3_6 (i : S100000x96.Idx) :
    ∃ t : Fin cfg3.N, (cfg3.win 6).flush t = true ∧ i ∈ ((cfg3.win 6).blk t).view.set := by
  have hi : (i 0).val < 100000 := idx2_lt0 i
  have hN : cfg3.N = 20 := N_3
  obtain ⟨t, ht⟩ : ∃ t : Fin cfg3.N, t.val = (i 0).val / 5000 := ⟨⟨_, by omega⟩, rfl⟩
  exact ⟨t, flush3_6 t, (((emb3 t ⟨(i 0).val % 5000, Nat.mod_lt _ (by decide)⟩).2.2.2 (i 1)).trans
    (show ix2 (rowOf3 t _) (i 1) = i from Shape.idx_ext₂ (by show t.val * 5000 + (i 0).val % 5000 = (i 0).val; omega) rfl)) ▸
      View.emb_mem_set _ _⟩

def last3 : Fin cfg3.N := ⟨19, by have h : cfg3.N = 20 := N_3; omega⟩

theorem cover3_7 (i : S1x96.Idx) :
    ∃ t : Fin cfg3.N, (cfg3.win 7).flush t = true ∧ i ∈ ((cfg3.win 7).blk t).view.set :=
  ⟨last3, (flush3_7 last3).2 rfl, (fix3 last3).2.2.2.1 i ▸ View.emb_mem_set _ i⟩

theorem cover3_8 (i : S1x96.Idx) :
    ∃ t : Fin cfg3.N, (cfg3.win 8).flush t = true ∧ i ∈ ((cfg3.win 8).blk t).view.set :=
  ⟨last3, (flush3_8 last3).2 rfl, (fix3 last3).2.2.2.2 i ▸ View.emb_mem_set _ i⟩

def yArr3 : S100000x96.Idx → EReal := fun i =>
  Spec.combS (Spec.cur2 (Vr W c sBuf3)) (fun p => Spec.cur2 (Vr W c rBuf3) p 0) (Spec.cur2 (Vr W c hBuf3))
    (Spec.cur2 (Vr W c wlBuf3)) (fun q => Spec.cur2 (Vr W c blBuf3) 0 q) (Spec.cur2 (Vr W c wrBuf3)) (i 0) (i 1)

theorem blk3 :
    (∀ k, iblk3 W c 0 t (ix2 p k) = Vr W c sBuf3 (ix2 (rowOf3 t p) k))
    ∧ (∀ k, iblk3 W c 1 t (ix2 p k) = Vr W c rBuf3 (ix2 (rowOf3 t p) k))
    ∧ (∀ k, iblk3 W c 2 t (ix2 p k) = Vr W c hBuf3 (ix2 (rowOf3 t p) k))
    ∧ iblk3 W c 3 t = Vr W c wlBuf3 ∧ iblk3 W c 4 t = Vr W c blBuf3 ∧ iblk3 W c 5 t = Vr W c wrBuf3 :=
  have ⟨es, er, eh, _⟩ := emb3 t p
  have ⟨ewl, ebl, ewr, _⟩ := fix3 t
  ⟨fun k => congrArg (Vr W c sBuf3) (es k), fun k => congrArg (Vr W c rBuf3) (er k), fun k => congrArg (Vr W c hBuf3) (eh k),
    funext fun y => congrArg (Vr W c wlBuf3) (ewl y), funext fun y => congrArg (Vr W c blBuf3) (ebl y),
    funext fun y => congrArg (Vr W c wrBuf3) (ewr y)⟩

theorem yblk_apply3 :
    yblk3 W c t (ix2 p q) = yArr3 W c (ix2 (rowOf3 t p) q) := by
  obtain ⟨es, er, eh, ewl, ebl, ewr⟩ := blk3 W c t p
  rw [yblk3, pay5_apply3, ewl, ebl, ewr]
  simp only [es, er, eh]
  rfl

theorem ymblk_apply3 :
    ymblk3 W c t (ix2 p q) = yArr3 W c (ix2 (rowOf3 t p) q) :=
  (pay6_apply3 ..).trans (yblk_apply3 W c t p q)

theorem arr3_6_eq : (dat3 W c).arrAt 6 cfg3.N = yArr3 W c :=
  (dat3 W c).arrAt_eq_of_cover 6 _ (fun t _ => funext fun j => by
    obtain ⟨p, q, rfl⟩ : ∃ (p : Fin 5000) (q : Fin 96), j = ix2 p q := ⟨j 0, j 1, eq_ix2 j⟩
    exact (yblk_apply3 W c t p q).trans (congrArg _ ((emb3 t p).2.2.2 q).symm)) cover3_6

theorem stat3 (acc : ℕ → FVec Ideal S1x96 .f32) (f : EReal → EReal) (h0 : ∀ q, acc 0 (ix2 0 q) = 0)
    (hs : ∀ (t : Fin cfg3.N) q, acc (t.val + 1) (ix2 0 q)
      = acc t.val (ix2 0 q) + ∑ r : Fin 5000, f (ymblk3 W c t (ix2 r q)))
    (t : Fin cfg3.N) (ht : t.val % 20 = 19) :
    acc (t.val + 1) = fun i => ∑ p : Fin 100000, f (yArr3 W c (ix2 p (i 1))) := by
  funext j
  obtain ⟨z, q, rfl⟩ : ∃ (z : Fin 1) (q : Fin 96), j = ix2 z q := ⟨j 0, j 1, eq_ix2 j⟩
  obtain rfl : z = 0 := Subsingleton.elim _ _
  have key : ∀ n (hn : n ≤ cfg3.N), acc n (ix2 0 q)
      = ∑ k : Fin n, ∑ r : Fin 5000, f (yArr3 W c (ix2 (rowOf3 (k.castLE hn) r) q)) := by
    intro n
    induction n with
    | zero => exact fun _ => (h0 q).trans (Fin.sum_univ_zero _).symm
    | succ n ih =>
      intro hn
      rw [Fin.sum_univ_castSucc]
      exact (hs ⟨n, hn⟩ q).trans (congrArg₂ (fun a b : EReal => a + b) (ih (Nat.le_of_lt hn))
        (Finset.sum_congr rfl fun r _ => congrArg f (ymblk_apply3 W c _ r q)))
  have hN : cfg3.N = 20 := N_3
  rw [show t.val + 1 = cfg3.N by have := t.isLt; omega]
  exact (key _ le_rfl).trans (Cert.LibTileSums.sum_tiles tiles3 fun p => f (yArr3 W c (ix2 p q)))

def sArr3 : S1x96.Idx → EReal := fun i => Spec.colSum (Spec.cur2 (yArr3 W c)) (i 1)

def qArr3 : S1x96.Idx → EReal := fun i => Spec.colSumSq (Spec.cur2 (yArr3 W c)) (i 1)

theorem row3 (X : FVec Ideal S1x96 .f32) :
    (cfg3.win 7).cut (grid3.coords t) X = ((cfg3.win 7).blk t).view.read (Elt Ideal) X
    ∧ (cfg3.win 8).cut (grid3.coords t) X = ((cfg3.win 8).blk t).view.read (Elt Ideal) X :=
  ⟨funext fun j => (congrArg X ((fix3 t).2.2.2.1 j)).symm, funext fun j => (congrArg X ((fix3 t).2.2.2.2 j)).symm⟩

theorem arr3_7_eq : (dat3 W c).arrAt 7 cfg3.N = sArr3 W c := by
  refine (dat3 W c).arrAt_eq_of_cover 7 _ (fun t hf => ?_) cover3_7
  show (cfg3.win 7).cut (grid3.coords t) ((dat3 W c).after 7 t) = _
  rw [after3_7, show acc3_s W c t.succ = sArr3 W c from stat3 W c (accN3_s W c) (fun x => x)
    (fun _ => Ideal.ofBits_zero_f32) (fun t q => by rw [accN3_s_succ]; exact pay1_apply3 q _ _)
    t ((flush3_7 t).1 hf)]
  exact (row3 t _).1

theorem arr3_8_eq : (dat3 W c).arrAt 8 cfg3.N = qArr3 W c := by
  refine (dat3 W c).arrAt_eq_of_cover 8 _ (fun t hf => ?_) cover3_8
  show (cfg3.win 8).cut (grid3.coords t) ((dat3 W c).after 8 t) = _
  rw [after3_8, show acc3_q W c t.succ = qArr3 W c from stat3 W c (accN3_q W c) (fun x => x * x)
    (fun _ => Ideal.ofBits_zero_f32) (fun t q => by rw [accN3_q_succ]; exact pay2_apply3 q _ _)
    t ((flush3_8 t).1 hf)]
  exact (row3 t _).2

theorem final3_y : Spec.cur2 ((dat3 W c).arrAt 6 cfg3.N)
    = Spec.combS (Spec.cur2 (Vr W c sBuf3)) (fun p => Spec.cur2 (Vr W c rBuf3) p 0) (Spec.cur2 (Vr W c hBuf3))
        (Spec.cur2 (Vr W c wlBuf3)) (fun q => Spec.cur2 (Vr W c blBuf3) 0 q) (Spec.cur2 (Vr W c wrBuf3)) := by
  rw [arr3_6_eq]
  rfl

theorem final3_s : (fun q => Spec.cur2 ((dat3 W c).arrAt 7 cfg3.N) 0 q)
    = Spec.colSum (Spec.combS (Spec.cur2 (Vr W c sBuf3)) (fun p => Spec.cur2 (Vr W c rBuf3) p 0)
        (Spec.cur2 (Vr W c hBuf3)) (Spec.cur2 (Vr W c wlBuf3)) (fun q => Spec.cur2 (Vr W c blBuf3) 0 q)
        (Spec.cur2 (Vr W c wrBuf3))) := by
  rw [arr3_7_eq]
  rfl

theorem final3_q : (fun q => Spec.cur2 ((dat3 W c).arrAt 8 cfg3.N) 0 q)
    = Spec.colSumSq (Spec.combS (Spec.cur2 (Vr W c sBuf3)) (fun p => Spec.cur2 (Vr W c rBuf3) p 0)
        (Spec.cur2 (Vr W c hBuf3)) (Spec.cur2 (Vr W c wlBuf3)) (fun q => Spec.cur2 (Vr W c blBuf3) 0 q)
        (Spec.cur2 (Vr W c wrBuf3))) := by
  rw [arr3_8_eq]
  rfl

end Cert.KernelIdeal.Val

end
-- ==== Proof.KI.Val4.lean ====
import proofs.«402019_j40432822124917_2_alg».proof.Proof.KI.Reg4
import proofs.«402019_j40432822124917_2_alg».proof.Proof.Spec
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (W : Dev nD → Valuation τ sig (Elt Ideal))

def bn4 (y : Vec Ideal S100000x96 .f32) (mean var g b : Vec Ideal S1x96 .f32) : Vec Ideal S100000x96 .f32 :=
  fun i => Spec.bnS (Spec.cur2 y) (fun q => Spec.cur2 mean 0 q) (fun q => Spec.cur2 var 0 q)
    (fun q => Spec.cur2 g 0 q) (fun q => Spec.cur2 b 0 q) (i 0) (i 1)

theorem pay4_apply (Y : Vec Ideal S100000x96 .f32) (M V G B : Vec Ideal S1x96 .f32) (y : Vec Ideal S5000x96 .f32)
    (m v g b : Vec Ideal S1x96 .f32) (p : Fin 5000) (q : Fin 96) (r : Fin 100000)
    (hy : y (ix2 p q) = Y (ix2 r q)) (hm : m = M) (hv : v = V) (hg : g = G) (hb : b = B) :
    k4_pay1 (F := Ideal) v y m g b (ix2 p q) = bn4 Y M V G B (ix2 r q) := by
  subst hm hv hg hb
  unfold k4_pay1
  simp only [shapeCast_self, maximumf_apply, addf_apply, mulf_apply, subf_apply, broadcastTo_1b_ab_apply, hy]
  show max _ (Ideal.ofBits .f32 0x00000000#32) = _
  rw [Ideal.ofBits_zero_f32]
  rfl

theorem hz4 : (![0, 0] : Fin 2 → Nat) = fun _ => 0 := funext fun a => by fin_cases a <;> rfl

theorem idx_facts4 : ∀ t : Fin cfg4.N, win4_5.index t (0 : Fin 2) = t.val :=
  (by decide +kernel : ∀ t : Fin grid4.N, _)

def rowOf4 (t : Fin cfg4.N) (p : Fin 5000) : Fin 100000 :=
  ⟨t.val * 5000 + p.val, by have := t.isLt; have := p.isLt; have h : cfg4.N = 20 := N_4; omega⟩

theorem emb4 (t : Fin cfg4.N) (p : Fin 5000) (q : Fin 96) :
    ((cfg4.win 0).blk t).view.emb (ix2 p q) = ix2 (rowOf4 t p) q
    ∧ ((cfg4.win 5).blk t).view.emb (ix2 p q) = ix2 (rowOf4 t p) q := by
  have e := idx_facts4 t
  constructor <;>
    exact Shape.idx_ext₂ (by show win4_5.index t 0 * 5000 + 1 * p.val = t.val * 5000 + p.val; omega)
      (by show 0 * _ + 1 * q.val = q.val; omega)

theorem fix4 (t : Fin cfg4.N) :
    (∀ y, ((cfg4.win 1).blk t).view.emb y = y) ∧ (∀ y, ((cfg4.win 2).blk t).view.emb y = y)
    ∧ (∀ y, ((cfg4.win 3).blk t).view.emb y = y) ∧ ∀ y, ((cfg4.win 4).blk t).view.emb y = y := by
  refine ⟨fun y => ?_, fun y => ?_, fun y => ?_, fun y => ?_⟩ <;>
    exact Shape.idx_ext₂ (by show 0 * _ + 1 * (y 0).val = _; omega) (by show 0 * _ + 1 * (y 1).val = _; omega)

theorem flushed4_eq (c : Dev nD) (t : Fin cfg4.N) :
    (Hand.dat4 W c).flushed 5 t = ((cfg4.win 5).blk t).view.read (Elt Ideal)
      (bn4 (Hand.Vr W c main_v57_0) (Hand.Vr W c main_v72) (Hand.Vr W c main_v73) (Hand.Vr W c main_v74) (Hand.Vr W c main_v75)) := by
  show (cfg4.win 5).cut (grid4.coords t) ((Hand.dat4 W c).after 5 t) = _
  rw [Hand.after4_5, Hand.out4_5, View.canon_unit_zero hz4]
  simp only [View.ld_unit_zero (S := S5000x96) hz4, View.ld_unit_zero (S := S1x96) hz4]
  funext j
  obtain ⟨p, q, rfl⟩ : ∃ (p : Fin 5000) (q : Fin 96), j = ix2 p q := ⟨j 0, j 1, eq_ix2 j⟩
  obtain ⟨ey, eo⟩ := emb4 t p q
  obtain ⟨em, ev, eg, eb⟩ := fix4 t
  show k4_pay1 (F := Ideal) _ _ _ _ _ (ix2 p q) = bn4 _ _ _ _ _ (((cfg4.win 5).blk t).view.emb (ix2 p q))
  rw [eo]
  exact pay4_apply _ _ _ _ _ _ _ _ _ _ p q _ (congrArg _ ey) (funext fun y => congrArg _ (em y))
    (funext fun y => congrArg _ (ev y)) (funext fun y => congrArg _ (eg y)) (funext fun y => congrArg _ (eb y))

theorem cover4 (i : S100000x96.Idx) :
    ∃ t : Fin cfg4.N, (cfg4.win 5).flush t = true ∧ i ∈ ((cfg4.win 5).blk t).view.set := by
  have hi : (i 0).val < 100000 := (i 0).isLt
  have hN : cfg4.N = 20 := N_4
  obtain ⟨t, ht⟩ : ∃ t : Fin cfg4.N, t.val = (i 0).val / 5000 := ⟨⟨_, by omega⟩, rfl⟩
  exact ⟨t, flush4_5 t, ((emb4 t ⟨(i 0).val % 5000, Nat.mod_lt _ (by decide)⟩ (i 1)).2.trans
    (show ix2 (rowOf4 t _) (i 1) = i from Shape.idx_ext₂ (by show t.val * 5000 + (i 0).val % 5000 = (i 0).val; omega) rfl)) ▸
      View.emb_mem_set _ _⟩

theorem final4 (c : Dev nD) :
    Spec.cur2 ((Hand.dat4 W c).arrAt 5 cfg4.N)
      = Spec.bnS (Spec.cur2 (Hand.Vr W c main_v57_0)) (fun q => Spec.cur2 (Hand.Vr W c main_v72) 0 q)
          (fun q => Spec.cur2 (Hand.Vr W c main_v73) 0 q) (fun q => Spec.cur2 (Hand.Vr W c main_v74) 0 q)
          (fun q => Spec.cur2 (Hand.Vr W c main_v75) 0 q) := by
  rw [(Hand.dat4 W c).arrAt_eq_of_cover 5 _ (fun t _ => flushed4_eq W c t) cover4]
  rfl

end Cert.KernelIdeal.Val

end
-- ==== Proof.KI.Val5.lean ====
import proofs.«402019_j40432822124917_2_alg».proof.Proof.KI.Reg5
import proofs.«402019_j40432822124917_2_alg».proof.Proof.Spec
import proofs.«402019_j40432822124917_2_alg».proof.Proof.LibTileSums
import Idealize.ShloMosaic.Lib.ValueLayout
import Idealize.ShloMosaic.Lib.StackMember

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (W : Dev nD → Valuation τ sig (Elt Ideal)) (c : Dev nD) (t : Fin cfg5.N) (p : Fin 5000) (q : Fin 96)

abbrev sBuf5 : Ref sig .tc := main_v80
abbrev rBuf5 : Ref sig .tc := main_v14
abbrev hBuf5 : Ref sig .tc := main_v76
abbrev wlBuf5 : Ref sig .tc := main_v82
abbrev blBuf5 : Ref sig .tc := main_v87
abbrev wrBuf5 : Ref sig .tc := main_v86

theorem matmul_zero_apply5 (A : FVec Ideal S5000x96 .f32) (B : FVec Ideal S96x96 .f32) :
    matmul dot_S5000x96_S96x96_S5000x96_1_0_0_1_n_n none A B (constant (F := Ideal) S5000x96 .f32 0x00000000#32) (ix2 p q)
      = ∑ t : Fin 96, A (ix2 p t) * B (ix2 t q) :=
  (congrFun (matmul_zero_eq_dotGeneral _ none A B) _).trans (StackMember.dotGeneral_plain_apply none A B p q)

theorem broadcastTo_col_apply5 {α : Type} (v : S5000x1.Idx → α) :
    broadcastTo S5000x96 v broadcasts_S5000x1_S5000x96 (ix2 p q) = v (ix2 p (0 : Fin 1)) :=
  broadcastTo_apply v _ _ _ fun | ⟨0, _⟩ => (if_neg (show ¬(5000 : ℕ) = 1 by decide)).symm | ⟨1, _⟩ => rfl

theorem mask_one5 (x p : ℕ) (hx : x < 20) (hp : p < 5000) :
    (FloatOps.sitofp (F := Ideal) .f32 ((IntOp.cmpi .slt (IntOp.addi (BitVec.ofNat 32 p)
        (Scalar.muli (BitVec.ofNat 32 x) 5000#32)) 100000#32).setWidth 32) : EReal) = 1 := by
  have h : (BitVec.ofNat 32 p + BitVec.ofNat 32 x * 5000#32).slt 100000#32 = true := by
    rw [← BitVec.ofNat_mul, ← BitVec.ofNat_add]
    simp only [BitVec.slt, BitVec.toInt_eq_toNat_cond, BitVec.toNat_ofNat, decide_eq_true_eq,
      Nat.mod_eq_of_lt (show p + x * 5000 < 2 ^ 32 by omega)]
    split <;> omega
  show (((((BitVec.ofBool ((BitVec.ofNat 32 p + BitVec.ofNat 32 x * 5000#32).slt 100000#32)).setWidth 32).toInt : ℤ) : ℝ) : EReal) = 1
  rw [h]
  simp

section
variable (v3 : Vec Ideal S5000x96 .f32) (v5 : Vec Ideal S5000x1 .f32) (v9 : Vec Ideal S96x96 .f32)
  (v12 : Vec Ideal S1x96 .f32) (v16 : Vec Ideal S5000x96 .f32) (v18 : Vec Ideal S96x96 .f32)

theorem pay5_apply5 : k5_pay5 v3 v5 v9 v12 v16 v18 (ix2 p q)
    = ((∑ t : Fin 96, (v3 (ix2 p t) * v5 (ix2 p (0 : Fin 1))) * v9 (ix2 t q)) + v12 (ix2 (0 : Fin 1) q))
      + ∑ t : Fin 96, v16 (ix2 p t) * v18 (ix2 t q) := by
  unfold k5_pay5
  simp only [shapeCast_self, addf_apply, matmul_zero_apply5, broadcastTo_1b_ab_apply, mulf_apply, broadcastTo_col_apply5]

theorem pay6_apply5 (i : grid5.Coords) :
    k5_pay6 i v3 v5 v9 v12 v16 v18 (ix2 p q) = k5_pay5 v3 v5 v9 v12 v16 v18 (ix2 p q) := by
  unfold k5_pay6
  dsimp only
  rw [mulf_apply, broadcastTo_col_apply5]
  refine (congrArg (k5_pay5 v3 v5 v9 v12 v16 v18 (ix2 p q) * ·) ?_).trans (mul_one _)
  show FloatOps.sitofp (F := Ideal) .f32 ((IntOp.cmpi .slt (IntOp.addi
      (iota .tc S5000x1 32 [0] iota_S5000x1_d0_w32 (ix2 p (0 : Fin 1)))
      (Scalar.muli (BitVec.ofNat 32 (i 0).val) 5000#32)) 100000#32).setWidth 32) = 1
  rw [iota_single_apply]
  exact mask_one5 _ _ (i 0).isLt p.isLt

end

theorem colsum_tile_apply5 (y : FVec Ideal S5000x96 .f32) :
    multiReduction (F := Ideal) .add [0] S96 y 0x00000000#32 reduces_S5000x96_S96 (.inl rfl) rfl (ix1 q)
      = ∑ r : Fin 5000, y (ix2 r q) :=
  (Ideal.multiReduction_add_single y _ reduces_S5000x96_S96 (.inl rfl) rfl (ix1 q)).trans
    (Finset.sum_congr rfl fun r _ => congrArg y (Shape.idx_ext₂ rfl rfl))

theorem pay1_apply5 (y : FVec Ideal S5000x96 .f32) (a : Vec Ideal S1x96 .f32) :
    k5_pay1 y a (ix2 (0 : Fin 1) q) = a (ix2 (0 : Fin 1) q) + ∑ r : Fin 5000, y (ix2 r q) := by
  unfold k5_pay1
  rw [shapeCast_self, addf_apply, shapeCast_a_1a_apply, colsum_tile_apply5]

theorem pay2_apply5 (y : FVec Ideal S5000x96 .f32) (a : Vec Ideal S1x96 .f32) :
    k5_pay2 y a (ix2 (0 : Fin 1) q) = a (ix2 (0 : Fin 1) q) + ∑ r : Fin 5000, y (ix2 r q) * y (ix2 r q) :=
  pay1_apply5 q (mulf y y) a

theorem tiles5 : cfg5.N * 5000 = 100000 := congrArg (· * 5000) N_5

def rowOf5 (t : Fin cfg5.N) (p : Fin 5000) : Fin 100000 :=
  ⟨t.val * 5000 + p.val, Cert.LibTileSums.tile_lt tiles5 t p⟩

theorem idx5_0 : ∀ t : Fin cfg5.N, win5_0.index t (0 : Fin 2) = t.val :=
  (by decide +kernel : ∀ t : Fin grid5.N, _)

theorem emb5 :
    (∀ k, ((cfg5.win 0).blk t).view.emb (ix2 p k) = ix2 (rowOf5 t p) k)
    ∧ (∀ k, ((cfg5.win 1).blk t).view.emb (ix2 p k) = ix2 (rowOf5 t p) k)
    ∧ (∀ k, ((cfg5.win 2).blk t).view.emb (ix2 p k) = ix2 (rowOf5 t p) k)
    ∧ ∀ k, ((cfg5.win 6).blk t).view.emb (ix2 p k) = ix2 (rowOf5 t p) k := by
  have e := idx5_0 t
  refine ⟨fun k => ?_, fun k => ?_, fun k => ?_, fun k => ?_⟩ <;>
    exact Shape.idx_ext₂ (by show win5_0.index t 0 * 5000 + 1 * p.val = t.val * 5000 + p.val; omega)
      (by show 0 * _ + 1 * k.val = k.val; omega)

theorem fix5 :
    (∀ y, ((cfg5.win 3).blk t).view.emb y = y) ∧ (∀ y, ((cfg5.win 4).blk t).view.emb y = y)
    ∧ (∀ y, ((cfg5.win 5).blk t).view.emb y = y) ∧ (∀ y, ((cfg5.win 7).blk t).view.emb y = y)
    ∧ ∀ y, ((cfg5.win 8).blk t).view.emb y = y := by
  refine ⟨fun y => ?_, fun y => ?_, fun y => ?_, fun y => ?_, fun y => ?_⟩ <;>
    exact Shape.idx_ext₂ (by show 0 * _ + 1 * (y 0).val = _; omega) (by show 0 * _ + 1 * (y 1).val = _; omega)

theorem cover5_6 (i : S100000x96.Idx) :
    ∃ t : Fin cfg5.N, (cfg5.win 6).flush t = true ∧ i ∈ ((cfg5.win 6).blk t).view.set := by
  have hi : (i 0).val < 100000 := idx2_lt0 i
  have hN : cfg5.N = 20 := N_5
  obtain ⟨t, ht⟩ : ∃ t : Fin cfg5.N, t.val = (i 0).val / 5000 := ⟨⟨_, by omega⟩, rfl⟩
  exact ⟨t, flush5_6 t, (((emb5 t ⟨(i 0).val % 5000, Nat.mod_lt _ (by decide)⟩).2.2.2 (i 1)).trans
    (show ix2 (rowOf5 t _) (i 1) = i from Shape.idx_ext₂ (by show t.val * 5000 + (i 0).val % 5000 = (i 0).val; omega) rfl)) ▸
      View.emb_mem_set _ _⟩

def last5 : Fin cfg5.N := ⟨19, by have h : cfg5.N = 20 := N_5; omega⟩

theorem cover5_7 (i : S1x96.Idx) :
    ∃ t : Fin cfg5.N, (cfg5.win 7).flush t = true ∧ i ∈ ((cfg5.win 7).blk t).view.set :=
  ⟨last5, (flush5_7 last5).2 rfl, (fix5 last5).2.2.2.1 i ▸ View.emb_mem_set _ i⟩

theorem cover5_8 (i : S1x96.Idx) :
    ∃ t : Fin cfg5.N, (cfg5.win 8).flush t = true ∧ i ∈ ((cfg5.win 8).blk t).view.set :=
  ⟨last5, (flush5_8 last5).2 rfl, (fix5 last5).2.2.2.2 i ▸ View.emb_mem_set _ i⟩

def yArr5 : S100000x96.Idx → EReal := fun i =>
  Spec.combS (Spec.cur2 (Vr W c sBuf5)) (fun p => Spec.cur2 (Vr W c rBuf5) p 0) (Spec.cur2 (Vr W c hBuf5))
    (Spec.cur2 (Vr W c wlBuf5)) (fun q => Spec.cur2 (Vr W c blBuf5) 0 q) (Spec.cur2 (Vr W c wrBuf5)) (i 0) (i 1)

theorem blk5 :
    (∀ k, iblk5 W c 0 t (ix2 p k) = Vr W c sBuf5 (ix2 (rowOf5 t p) k))
    ∧ (∀ k, iblk5 W c 1 t (ix2 p k) = Vr W c rBuf5 (ix2 (rowOf5 t p) k))
    ∧ (∀ k, iblk5 W c 2 t (ix2 p k) = Vr W c hBuf5 (ix2 (rowOf5 t p) k))
    ∧ iblk5 W c 3 t = Vr W c wlBuf5 ∧ iblk5 W c 4 t = Vr W c blBuf5 ∧ iblk5 W c 5 t = Vr W c wrBuf5 :=
  have ⟨es, er, eh, _⟩ := emb5 t p
  have ⟨ewl, ebl, ewr, _⟩ := fix5 t
  ⟨fun k => congrArg (Vr W c sBuf5) (es k), fun k => congrArg (Vr W c rBuf5) (er k), fun k => congrArg (Vr W c hBuf5) (eh k),
    funext fun y => congrArg (Vr W c wlBuf5) (ewl y), funext fun y => congrArg (Vr W c blBuf5) (ebl y),
    funext fun y => congrArg (Vr W c wrBuf5) (ewr y)⟩

theorem yblk_apply5 :
    yblk5 W c t (ix2 p q) = yArr5 W c (ix2 (rowOf5 t p) q) := by
  obtain ⟨es, er, eh, ewl, ebl, ewr⟩ := blk5 W c t p
  rw [yblk5, pay5_apply5, ewl, ebl, ewr]
  simp only [es, er, eh]
  rfl

theorem ymblk_apply5 :
    ymblk5 W c t (ix2 p q) = yArr5 W c (ix2 (rowOf5 t p) q) :=
  (pay6_apply5 ..).trans (yblk_apply5 W c t p q)

theorem arr5_6_eq : (dat5 W c).arrAt 6 cfg5.N = yArr5 W c :=
  (dat5 W c).arrAt_eq_of_cover 6 _ (fun t _ => funext fun j => by
    obtain ⟨p, q, rfl⟩ : ∃ (p : Fin 5000) (q : Fin 96), j = ix2 p q := ⟨j 0, j 1, eq_ix2 j⟩
    exact (yblk_apply5 W c t p q).trans (congrArg _ ((emb5 t p).2.2.2 q).symm)) cover5_6

theorem stat5 (acc : ℕ → FVec Ideal S1x96 .f32) (f : EReal → EReal) (h0 : ∀ q, acc 0 (ix2 0 q) = 0)
    (hs : ∀ (t : Fin cfg5.N) q, acc (t.val + 1) (ix2 0 q)
      = acc t.val (ix2 0 q) + ∑ r : Fin 5000, f (ymblk5 W c t (ix2 r q)))
    (t : Fin cfg5.N) (ht : t.val % 20 = 19) :
    acc (t.val + 1) = fun i => ∑ p : Fin 100000, f (yArr5 W c (ix2 p (i 1))) := by
  funext j
  obtain ⟨z, q, rfl⟩ : ∃ (z : Fin 1) (q : Fin 96), j = ix2 z q := ⟨j 0, j 1, eq_ix2 j⟩
  obtain rfl : z = 0 := Subsingleton.elim _ _
  have key : ∀ n (hn : n ≤ cfg5.N), acc n (ix2 0 q)
      = ∑ k : Fin n, ∑ r : Fin 5000, f (yArr5 W c (ix2 (rowOf5 (k.castLE hn) r) q)) := by
    intro n
    induction n with
    | zero => exact fun _ => (h0 q).trans (Fin.sum_univ_zero _).symm
    | succ n ih =>
      intro hn
      rw [Fin.sum_univ_castSucc]
      exact (hs ⟨n, hn⟩ q).trans (congrArg₂ (fun a b : EReal => a + b) (ih (Nat.le_of_lt hn))
        (Finset.sum_congr rfl fun r _ => congrArg f (ymblk_apply5 W c _ r q)))
  have hN : cfg5.N = 20 := N_5
  rw [show t.val + 1 = cfg5.N by have := t.isLt; omega]
  exact (key _ le_rfl).trans (Cert.LibTileSums.sum_tiles tiles5 fun p => f (yArr5 W c (ix2 p q)))

def sArr5 : S1x96.Idx → EReal := fun i => Spec.colSum (Spec.cur2 (yArr5 W c)) (i 1)

def qArr5 : S1x96.Idx → EReal := fun i => Spec.colSumSq (Spec.cur2 (yArr5 W c)) (i 1)

theorem row5 (X : FVec Ideal S1x96 .f32) :
    (cfg5.win 7).cut (grid5.coords t) X = ((cfg5.win 7).blk t).view.read (Elt Ideal) X
    ∧ (cfg5.win 8).cut (grid5.coords t) X = ((cfg5.win 8).blk t).view.read (Elt Ideal) X :=
  ⟨funext fun j => (congrArg X ((fix5 t).2.2.2.1 j)).symm, funext fun j => (congrArg X ((fix5 t).2.2.2.2 j)).symm⟩

theorem arr5_7_eq : (dat5 W c).arrAt 7 cfg5.N = sArr5 W c := by
  refine (dat5 W c).arrAt_eq_of_cover 7 _ (fun t hf => ?_) cover5_7
  show (cfg5.win 7).cut (grid5.coords t) ((dat5 W c).after 7 t) = _
  rw [after5_7, show acc5_s W c t.succ = sArr5 W c from stat5 W c (accN5_s W c) (fun x => x)
    (fun _ => Ideal.ofBits_zero_f32) (fun t q => by rw [accN5_s_succ]; exact pay1_apply5 q _ _)
    t ((flush5_7 t).1 hf)]
  exact (row5 t _).1

theorem arr5_8_eq : (dat5 W c).arrAt 8 cfg5.N = qArr5 W c := by
  refine (dat5 W c).arrAt_eq_of_cover 8 _ (fun t hf => ?_) cover5_8
  show (cfg5.win 8).cut (grid5.coords t) ((dat5 W c).after 8 t) = _
  rw [after5_8, show acc5_q W c t.succ = qArr5 W c from stat5 W c (accN5_q W c) (fun x => x * x)
    (fun _ => Ideal.ofBits_zero_f32) (fun t q => by rw [accN5_q_succ]; exact pay2_apply5 q _ _)
    t ((flush5_8 t).1 hf)]
  exact (row5 t _).2

theorem final5_y : Spec.cur2 ((dat5 W c).arrAt 6 cfg5.N)
    = Spec.combS (Spec.cur2 (Vr W c sBuf5)) (fun p => Spec.cur2 (Vr W c rBuf5) p 0) (Spec.cur2 (Vr W c hBuf5))
        (Spec.cur2 (Vr W c wlBuf5)) (fun q => Spec.cur2 (Vr W c blBuf5) 0 q) (Spec.cur2 (Vr W c wrBuf5)) := by
  rw [arr5_6_eq]
  rfl

theorem final5_s : (fun q => Spec.cur2 ((dat5 W c).arrAt 7 cfg5.N) 0 q)
    = Spec.colSum (Spec.combS (Spec.cur2 (Vr W c sBuf5)) (fun p => Spec.cur2 (Vr W c rBuf5) p 0)
        (Spec.cur2 (Vr W c hBuf5)) (Spec.cur2 (Vr W c wlBuf5)) (fun q => Spec.cur2 (Vr W c blBuf5) 0 q)
        (Spec.cur2 (Vr W c wrBuf5))) := by
  rw [arr5_7_eq]
  rfl

theorem final5_q : (fun q => Spec.cur2 ((dat5 W c).arrAt 8 cfg5.N) 0 q)
    = Spec.colSumSq (Spec.combS (Spec.cur2 (Vr W c sBuf5)) (fun p => Spec.cur2 (Vr W c rBuf5) p 0)
        (Spec.cur2 (Vr W c hBuf5)) (Spec.cur2 (Vr W c wlBuf5)) (fun q => Spec.cur2 (Vr W c blBuf5) 0 q)
        (Spec.cur2 (Vr W c wrBuf5))) := by
  rw [arr5_8_eq]
  rfl

end Cert.KernelIdeal.Val

end
-- ==== Proof.KI.Val6.lean ====
import proofs.«402019_j40432822124917_2_alg».proof.Proof.KI.Reg6
import proofs.«402019_j40432822124917_2_alg».proof.Proof.Spec
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (W : Dev nD → Valuation τ sig (Elt Ideal))

def bn6 (y : Vec Ideal S100000x96 .f32) (mean var g b : Vec Ideal S1x96 .f32) : Vec Ideal S100000x96 .f32 :=
  fun i => Spec.bnS (Spec.cur2 y) (fun q => Spec.cur2 mean 0 q) (fun q => Spec.cur2 var 0 q)
    (fun q => Spec.cur2 g 0 q) (fun q => Spec.cur2 b 0 q) (i 0) (i 1)

theorem pay6_apply (Y : Vec Ideal S100000x96 .f32) (M V G B : Vec Ideal S1x96 .f32) (y : Vec Ideal S5000x96 .f32)
    (m v g b : Vec Ideal S1x96 .f32) (p : Fin 5000) (q : Fin 96) (r : Fin 100000)
    (hy : y (ix2 p q) = Y (ix2 r q)) (hm : m = M) (hv : v = V) (hg : g = G) (hb : b = B) :
    k6_pay1 (F := Ideal) v y m g b (ix2 p q) = bn6 Y M V G B (ix2 r q) := by
  subst hm hv hg hb
  unfold k6_pay1
  simp only [shapeCast_self, maximumf_apply, addf_apply, mulf_apply, subf_apply, broadcastTo_1b_ab_apply, hy]
  show max _ (Ideal.ofBits .f32 0x00000000#32) = _
  rw [Ideal.ofBits_zero_f32]
  rfl

theorem hz6 : (![0, 0] : Fin 2 → Nat) = fun _ => 0 := funext fun a => by fin_cases a <;> rfl

theorem idx_facts6 : ∀ t : Fin cfg6.N, win6_5.index t (0 : Fin 2) = t.val :=
  (by decide +kernel : ∀ t : Fin grid6.N, _)

def rowOf6 (t : Fin cfg6.N) (p : Fin 5000) : Fin 100000 :=
  ⟨t.val * 5000 + p.val, by have := t.isLt; have := p.isLt; have h : cfg6.N = 20 := N_6; omega⟩

theorem emb6 (t : Fin cfg6.N) (p : Fin 5000) (q : Fin 96) :
    ((cfg6.win 0).blk t).view.emb (ix2 p q) = ix2 (rowOf6 t p) q
    ∧ ((cfg6.win 5).blk t).view.emb (ix2 p q) = ix2 (rowOf6 t p) q := by
  have e := idx_facts6 t
  constructor <;>
    exact Shape.idx_ext₂ (by show win6_5.index t 0 * 5000 + 1 * p.val = t.val * 5000 + p.val; omega)
      (by show 0 * _ + 1 * q.val = q.val; omega)

theorem fix6 (t : Fin cfg6.N) :
    (∀ y, ((cfg6.win 1).blk t).view.emb y = y) ∧ (∀ y, ((cfg6.win 2).blk t).view.emb y = y)
    ∧ (∀ y, ((cfg6.win 3).blk t).view.emb y = y) ∧ ∀ y, ((cfg6.win 4).blk t).view.emb y = y := by
  refine ⟨fun y => ?_, fun y => ?_, fun y => ?_, fun y => ?_⟩ <;>
    exact Shape.idx_ext₂ (by show 0 * _ + 1 * (y 0).val = _; omega) (by show 0 * _ + 1 * (y 1).val = _; omega)

theorem flushed6_eq (c : Dev nD) (t : Fin cfg6.N) :
    (Hand.dat6 W c).flushed 5 t = ((cfg6.win 5).blk t).view.read (Elt Ideal)
      (bn6 (Hand.Vr W c main_v88_0) (Hand.Vr W c main_v103) (Hand.Vr W c main_v104) (Hand.Vr W c main_v105) (Hand.Vr W c main_v106)) := by
  show (cfg6.win 5).cut (grid6.coords t) ((Hand.dat6 W c).after 5 t) = _
  rw [Hand.after6_5, Hand.out6_5, View.canon_unit_zero hz6]
  simp only [View.ld_unit_zero (S := S5000x96) hz6, View.ld_unit_zero (S := S1x96) hz6]
  funext j
  obtain ⟨p, q, rfl⟩ : ∃ (p : Fin 5000) (q : Fin 96), j = ix2 p q := ⟨j 0, j 1, eq_ix2 j⟩
  obtain ⟨ey, eo⟩ := emb6 t p q
  obtain ⟨em, ev, eg, eb⟩ := fix6 t
  show k6_pay1 (F := Ideal) _ _ _ _ _ (ix2 p q) = bn6 _ _ _ _ _ (((cfg6.win 5).blk t).view.emb (ix2 p q))
  rw [eo]
  exact pay6_apply _ _ _ _ _ _ _ _ _ _ p q _ (congrArg _ ey) (funext fun y => congrArg _ (em y))
    (funext fun y => congrArg _ (ev y)) (funext fun y => congrArg _ (eg y)) (funext fun y => congrArg _ (eb y))

theorem cover6 (i : S100000x96.Idx) :
    ∃ t : Fin cfg6.N, (cfg6.win 5).flush t = true ∧ i ∈ ((cfg6.win 5).blk t).view.set := by
  have hi : (i 0).val < 100000 := (i 0).isLt
  have hN : cfg6.N = 20 := N_6
  obtain ⟨t, ht⟩ : ∃ t : Fin cfg6.N, t.val = (i 0).val / 5000 := ⟨⟨_, by omega⟩, rfl⟩
  exact ⟨t, flush6_5 t, ((emb6 t ⟨(i 0).val % 5000, Nat.mod_lt _ (by decide)⟩ (i 1)).2.trans
    (show ix2 (rowOf6 t _) (i 1) = i from Shape.idx_ext₂ (by show t.val * 5000 + (i 0).val % 5000 = (i 0).val; omega) rfl)) ▸
      View.emb_mem_set _ _⟩

theorem final6 (c : Dev nD) :
    Spec.cur2 ((Hand.dat6 W c).arrAt 5 cfg6.N)
      = Spec.bnS (Spec.cur2 (Hand.Vr W c main_v88_0)) (fun q => Spec.cur2 (Hand.Vr W c main_v103) 0 q)
          (fun q => Spec.cur2 (Hand.Vr W c main_v104) 0 q) (fun q => Spec.cur2 (Hand.Vr W c main_v105) 0 q)
          (fun q => Spec.cur2 (Hand.Vr W c main_v106) 0 q) := by
  rw [(Hand.dat6 W c).arrAt_eq_of_cover 5 _ (fun t _ => flushed6_eq W c t) cover6]
  rfl

end Cert.KernelIdeal.Val

end
-- ==== Proof.KI.Val7.lean ====
import proofs.«402019_j40432822124917_2_alg».proof.Proof.Gen.KernelIdeal.Skeleton
import proofs.«402019_j40432822124917_2_alg».proof.Proof.Spec
import proofs.«402019_j40432822124917_2_alg».proof.Proof.KI.Reg7
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

namespace Cert.KernelIdeal.Val

open Idealize.ShloMosaic Idealize.ShloMosaic.ValueIdx
open Cert.KernelIdeal Cert.KernelIdeal.Gen
open Idealize.ShloMosaic.StackMember (dotGeneral_plain_apply)

theorem head_payload_apply (v0 : Vec Ideal S512x96 .f32) (v2 : Vec Ideal S96x96 .f32) (v4 : Vec Ideal S1x96 .f32)
    (v10 : Vec Ideal S96x1 .f32) (v12 : Vec Ideal S1x1 .f32) (p : Fin 512) (q : Fin 1) :
    k7_pay1 (F := Ideal) v0 v2 v4 v10 v12 (ix2 p q)
      = Spec.headS (Spec.cur2 v0) (Spec.cur2 v2) (fun t => Spec.cur2 v4 0 t) (Spec.cur2 v10) (fun r => Spec.cur2 v12 0 r) p q := by
  unfold k7_pay1 Spec.headS Spec.cur2
  dsimp only
  rw [shapeCast_self, shapeCast_self, shapeCast_self]
  rw [addf_apply, matmul_zero_eq_dotGeneral]
  erw [dotGeneral_plain_apply]
  rw [broadcastTo_1b_ab_apply]
  refine congrArg (· + v12 (ix2 0 q)) (Finset.sum_congr rfl fun t _ => ?_)
  rw [maximumf_apply, addf_apply, matmul_zero_eq_dotGeneral]
  erw [dotGeneral_plain_apply]
  rw [broadcastTo_1b_ab_apply, broadcast_apply]
  rw [show (FloatOps.ofBits (F := Ideal) FTy.f32 0#32) = (0 : EReal) from Ideal.ofBits_zero_f32]

theorem head_zero_offsets : (![0, 0] : Fin 2 → Nat) = fun _ => 0 := funext fun a => by fin_cases a <;> rfl

theorem head_index_zero : ∀ t : Fin cfg7.N, (∀ a : Fin 2, win7_0.index t a = 0) ∧ (∀ a : Fin 2, win7_1.index t a = 0)
    ∧ (∀ a : Fin 2, win7_2.index t a = 0) ∧ (∀ a : Fin 2, win7_3.index t a = 0) ∧ (∀ a : Fin 2, win7_4.index t a = 0)
    ∧ ∀ a : Fin 2, win7_5.index t a = 0 :=
  (by decide +kernel : ∀ t : Fin grid7.N, _)

variable (W : Dev nD → Valuation τ sig (Elt Ideal))

theorem head_block0_eq (c : Dev nD) (t : Fin cfg7.N) :
    (Hand.iblk7 W c 0 t : S512x96.Idx → EReal) = Hand.Vr W c main_v108 :=
  funext fun y => congrArg (Hand.Vr W c main_v108) (funext fun a => Fin.ext
    (win7_0.rect_emb_val_of_index_zero t a ((head_index_zero t).1 a) y))

theorem head_block1_eq (c : Dev nD) (t : Fin cfg7.N) :
    (Hand.iblk7 W c 1 t : S96x96.Idx → EReal) = Hand.Vr W c main_arg11 :=
  funext fun y => congrArg (Hand.Vr W c main_arg11) (funext fun a => Fin.ext
    (win7_1.rect_emb_val_of_index_zero t a ((head_index_zero t).2.1 a) y))

theorem head_block2_eq (c : Dev nD) (t : Fin cfg7.N) :
    (Hand.iblk7 W c 2 t : S1x96.Idx → EReal) = Hand.Vr W c main_v109 :=
  funext fun y => congrArg (Hand.Vr W c main_v109) (funext fun a => Fin.ext
    (win7_2.rect_emb_val_of_index_zero t a ((head_index_zero t).2.2.1 a) y))

theorem head_block3_eq (c : Dev nD) (t : Fin cfg7.N) :
    (Hand.iblk7 W c 3 t : S96x1.Idx → EReal) = Hand.Vr W c main_arg13 :=
  funext fun y => congrArg (Hand.Vr W c main_arg13) (funext fun a => Fin.ext
    (win7_3.rect_emb_val_of_index_zero t a ((head_index_zero t).2.2.2.1 a) y))

theorem head_block4_eq (c : Dev nD) (t : Fin cfg7.N) :
    (Hand.iblk7 W c 4 t : S1x1.Idx → EReal) = Hand.Vr W c main_v110 :=
  funext fun y => congrArg (Hand.Vr W c main_v110) (funext fun a => Fin.ext
    (win7_4.rect_emb_val_of_index_zero t a ((head_index_zero t).2.2.2.2.1 a) y))

def headArr (c : Dev nD) : S512x1.Idx → EReal := fun i =>
  Spec.headS (Spec.cur2 (Hand.Vr W c main_v108)) (Spec.cur2 (Hand.Vr W c main_arg11))
    (fun t => Spec.cur2 (Hand.Vr W c main_v109) 0 t) (Spec.cur2 (Hand.Vr W c main_arg13))
    (fun r => Spec.cur2 (Hand.Vr W c main_v110) 0 r) (i 0) (i 1)

theorem head_flushed_eq (c : Dev nD) (t : Fin cfg7.N) :
    (Hand.dat7 W c).flushed 5 t = ((cfg7.win 5).blk t).view.read (Elt Ideal) (headArr W c) := by
  show (cfg7.win 5).cut (grid7.coords t) ((Hand.dat7 W c).after 5 t) = _
  rw [Hand.after7_5]
  unfold Hand.out7_5
  rw [View.canon_unit_zero head_zero_offsets]
  simp only [View.ld_unit_zero (S := ⟨2, _⟩) head_zero_offsets]
  funext j
  have he : ((cfg7.win 5).blk t).view.emb j = (j : S512x1.Idx) := funext fun a => Fin.ext
    (win7_5.rect_emb_val_of_index_zero t a ((head_index_zero t).2.2.2.2.2 a) j)
  show k7_pay1 (F := Ideal) (Hand.iblk7 W c 0 t) (Hand.iblk7 W c 1 t) (Hand.iblk7 W c 2 t) (Hand.iblk7 W c 3 t)
      (Hand.iblk7 W c 4 t) j = headArr W c (((cfg7.win 5).blk t).view.emb j)
  rw [he, head_block0_eq, head_block1_eq, head_block2_eq, head_block3_eq, head_block4_eq]
  obtain ⟨p, q, rfl⟩ : ∃ (p : Fin 512) (q : Fin 1), j = ix2 p q := ⟨j 0, j 1, eq_ix2 j⟩
  exact head_payload_apply _ _ _ _ _ p q

theorem head_mem_blk (t : Fin cfg7.N) (i : S512x1.Idx) :
    i ∈ ((cfg7.win 5).blk t).view.set ↔ ∀ a : Fin 2, win7_5.index t a * S512x1.size a ≤ (i a).val ∧ (i a).val < win7_5.index t a * S512x1.size a + S512x1.size a := by
  show i ∈ ((View.whole main_v111).slice (win7_5.rect t)).set ↔ _
  rw [View.set_slice_whole, Rect.mem_set_unit]
  exact Iff.rfl

theorem head_cover (i : S512x1.Idx) :
    ∃ t : Fin cfg7.N, (cfg7.win 5).flush t = true ∧ i ∈ ((cfg7.win 5).blk t).view.set := by
  refine ⟨t7_0, flush7_5 t7_0, (head_mem_blk t7_0 i).mpr fun a => ?_⟩
  rw [(head_index_zero t7_0).2.2.2.2.2 a, Nat.zero_mul, Nat.zero_add]
  exact ⟨Nat.zero_le _, (i a).isLt⟩

theorem final7_arr (c : Dev nD) : (Hand.dat7 W c).arrAt 5 cfg7.N = headArr W c :=
  (Hand.dat7 W c).arrAt_eq_of_cover 5 (headArr W c) (fun t _ => head_flushed_eq W c t) head_cover

theorem final7 (c : Dev nD) :
    Spec.cur2 (n0 := 512) (n1 := 1) ((Hand.dat7 W c).arrAt 5 cfg7.N)
      = Spec.headS (Spec.cur2 (Hand.Vr W c main_v108)) (Spec.cur2 (Hand.Vr W c main_arg11))
          (fun t => Spec.cur2 (Hand.Vr W c main_v109) 0 t) (Spec.cur2 (Hand.Vr W c main_arg13))
          (fun r => Spec.cur2 (Hand.Vr W c main_v110) 0 r) := by
  funext p q
  show (Hand.dat7 W c).arrAt 5 cfg7.N (ix2 p q) = _
  rw [final7_arr]
  rfl

end Cert.KernelIdeal.Val

end
-- ==== Proof.Asm.KernelInst.lean ====
import proofs.«402019_j40432822124917_2_alg».proof.Proof.Asm.Kernel
import proofs.«402019_j40432822124917_2_alg».proof.Proof.KI.Chain
import proofs.«402019_j40432822124917_2_alg».proof.Proof.KI.Val0
import proofs.«402019_j40432822124917_2_alg».proof.Proof.KI.Val1
import proofs.«402019_j40432822124917_2_alg».proof.Proof.KI.Val2
import proofs.«402019_j40432822124917_2_alg».proof.Proof.KI.Val3
import proofs.«402019_j40432822124917_2_alg».proof.Proof.KI.Val4
import proofs.«402019_j40432822124917_2_alg».proof.Proof.KI.Val5
import proofs.«402019_j40432822124917_2_alg».proof.Proof.KI.Val6
import proofs.«402019_j40432822124917_2_alg».proof.Proof.KI.Val7

set_option maxRecDepth 16384

noncomputable section

namespace Cert.KernelIdeal.Asm

open Idealize.ShloMosaic Idealize.ShloMosaic.TcCoe Idealize.ShloMosaic.ValueIdx Idealize.SL.Sem
open Cert.KernelIdeal Cert.KernelIdeal.Gen Cert.KernelIdeal.Val Cert.Spec

theorem stat_of {Y : S100000x96.Idx → EReal} {S : S1x96.Idx → EReal} {y : Fin 100000 → Fin 96 → EReal}
    {f : (Fin 100000 → Fin 96 → EReal) → Fin 96 → EReal} (hy : cur2 Y = y) (hs : (fun q => cur2 S 0 q) = f y) (q : Fin 96) :
    cur2 S 0 q = f (cur2 Y) q := by
  rw [hy]; exact congrFun hs q

variable (m : (ℓ : Loc nD τ sig) → Buf (Elt Ideal) ℓ) (c : Dev nD)

theorem regionVals : RegionVals m (Hand.outs m) c where
  r0 := by rw [Hand.outs_main_v5]; exact Val.final0 _ c
  r1_y := by rw [Hand.outs_main_v26_0, Hand.V5_eq]; exact Val.final1_y _ c
  r1_s := by rw [Hand.outs_main_v26_0, Hand.outs_main_v26_1]; exact stat_of (Val.final1_y _ c) (Val.final1_s _ c)
  r1_q := by rw [Hand.outs_main_v26_0, Hand.outs_main_v26_2]; exact stat_of (Val.final1_y _ c) (Val.final1_q _ c)
  r2 := by rw [Hand.outs_main_v45, Hand.V7_eq]; exact Val.final2 _ c
  r3_y := by rw [Hand.outs_main_v57_0, Hand.V10_eq]; exact Val.final3_y _ c
  r3_s := by rw [Hand.outs_main_v57_0, Hand.outs_main_v57_1]; exact stat_of (Val.final3_y _ c) (Val.final3_s _ c)
  r3_q := by rw [Hand.outs_main_v57_0, Hand.outs_main_v57_2]; exact stat_of (Val.final3_y _ c) (Val.final3_q _ c)
  r4 := by rw [Hand.outs_main_v76, Hand.V12_eq]; exact Val.final4 _ c
  r5_y := by rw [Hand.outs_main_v88_0, Hand.V15_eq]; exact Val.final5_y _ c
  r5_s := by rw [Hand.outs_main_v88_0, Hand.outs_main_v88_1]; exact stat_of (Val.final5_y _ c) (Val.final5_s _ c)
  r5_q := by rw [Hand.outs_main_v88_0, Hand.outs_main_v88_2]; exact stat_of (Val.final5_y _ c) (Val.final5_q _ c)
  r6 := by rw [Hand.outs_main_v107, Hand.V17_eq]; exact Val.final6 _ c
  r7 := by rw [Hand.outs_main_v111, Hand.V20_eq]; exact Val.final7 _ c

end Cert.KernelIdeal.Asm

end
-- ==== Proof.lean ====
import proofs.«402019_j40432822124917_2_alg».proof.Defs
import proofs.«402019_j40432822124917_2_alg».proof.Proof.Gen.Kernel
import proofs.«402019_j40432822124917_2_alg».proof.Proof.Gen.Kernel.Skeleton
import proofs.«402019_j40432822124917_2_alg».proof.Proof.Gen.Kernel.Launch
import proofs.«402019_j40432822124917_2_alg».proof.Proof.Gen.Kernel.Regions
import proofs.«402019_j40432822124917_2_alg».proof.Proof.Gen.Kernel.Points
import proofs.«402019_j40432822124917_2_alg».proof.Proof.Gen.KernelIdeal
import proofs.«402019_j40432822124917_2_alg».proof.Proof.Gen.KernelIdeal.Skeleton
import proofs.«402019_j40432822124917_2_alg».proof.Proof.Gen.KernelIdeal.Launch
import proofs.«402019_j40432822124917_2_alg».proof.Proof.Gen.KernelIdeal.Regions
import proofs.«402019_j40432822124917_2_alg».proof.Proof.Gen.KernelIdeal.Points
import proofs.«402019_j40432822124917_2_alg».proof.Proof.Gen.ReferenceIdeal
import proofs.«402019_j40432822124917_2_alg».proof.Proof.Gen.Pre_finite_inputs
import proofs.«402019_j40432822124917_2_alg».proof.Proof.PreDecode
import proofs.«402019_j40432822124917_2_alg».proof.Proof.K.Segs
import proofs.«402019_j40432822124917_2_alg».proof.Proof.KI.Segs
import proofs.«402019_j40432822124917_2_alg».proof.Proof.KI.SegsRun
import proofs.«402019_j40432822124917_2_alg».proof.Proof.Ref.Run
import proofs.«402019_j40432822124917_2_alg».proof.Proof.Asm.Final
import proofs.«402019_j40432822124917_2_alg».proof.Proof.Asm.KernelInst
import Idealize.ShloMosaic.Adequacy
import Idealize.ShloMosaic.Init

noncomputable section

namespace Cert.Proof.Claims

open Idealize.ShloMosaic Idealize.ShloMosaic.TcCoe Idealize.SL.Sem

theorem frame_k : Cert.frame_Kernel := fun m ρ _ => Cert.Kernel.Hand.frame_all m ρ

theorem frame_ki : Cert.frame_KernelIdeal := fun m ρ _ => Cert.KernelIdeal.Hand.frame_all m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Hand.B21 m c Cert.KernelIdeal.main_v111, Cert.KernelIdeal.Hand.run_all m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8, e9, e10, e11, e12, e13, e14⟩ := hagree c
  rw [e0, e1, e2, e3, e4, e5, e6, e7, e8, e9, e10, e11, e12, e13, e14]
  have hv := Cert.Asm.out_eq (Cert.KernelIdeal.Asm.regionVals m c) (m ((c.tc : Thread Cert.KernelIdeal.nD Cert.KernelIdeal.τ).loc Cert.KernelIdeal.main_arg2))
    (Cert.PreDecode.decode_mem m hpre c)
  rw [Cert.KernelIdeal.Hand.V21_eq] at hv
  exact hv.symm

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
